-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S5x128x128 : Shape := ⟨3, ![5, 128, 128]⟩
abbrev S5x128 : Shape := ⟨2, ![5, 128]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_v49 : IVec S_ 1) (main_v51 : IVec S5x128 1) : IVec S_ 1 :=
  let main_c_18 : IVec S_ 1 := constantI S_ 1 1#1
  let main_v52 : IVec S_ 1 := (fun x v => Host.reduce IntOp.andi x v reducesTo_S5x128_S_d0_1 h_S_) main_v51 main_c_18
  let main_v53 : IVec S_ 1 := andi main_v49 main_v52
  main_v53

def fn_part2 {F : FTy → Type} [FloatOps F] (main_arg1 : IVec S2x600000 32) (main_arg9 : FVec F S5x128 .f32) (main_v33 : IVec S_ 1) : IVec S_ 1 :=
  let main_v34 : FVec F S5x128 .f32 := Host.absf main_arg9
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : IVec S1x600000 32 := (extractStridedSlice S1x600000 ![0, 0] · slices_S2x600000_S1x600000_0_0) main_arg1
  let main_v40 : IVec S600000 32 := shapeCast S600000 main_v39 shapeCasts_S1x600000_S600000
  let main_c_14 : IVec S_ 32 := constantI S_ 32 0#32
  let main_v41 : IVec S600000 32 := broadcastInDim S600000 ![] bcast_S_S600000 main_c_14
  let main_v42 : IVec S600000 1 := cmpi .sge main_v40 main_v41
  let main_v43 : IVec S1x600000 32 := (extractStridedSlice S1x600000 ![0, 0] · slices_S2x600000_S1x600000_0_0) main_arg1
  let main_v44 : IVec S600000 32 := shapeCast S600000 main_v43 shapeCasts_S1x600000_S600000
  let main_c_15 : IVec S_ 32 := constantI S_ 32 100000#32
  let main_v45 : IVec S600000 32 := broadcastInDim S600000 ![] bcast_S_S600000 main_c_15
  let main_v46 : IVec S600000 1 := cmpi .slt main_v44 main_v45
  let main_v47 : IVec S600000 1 := andi main_v42 main_v46
  let main_c_16 : IVec S_ 1 := constantI S_ 1 1#1
  let main_v48 : IVec S_ 1 := (fun x v => Host.reduce IntOp.andi x v reducesTo_S600000_S_d0 h_S_) main_v47 main_c_16
  let main_v49 : IVec S_ 1 := andi main_v38 main_v48
  let main_cst_17 : FVec F S_ .f32 := constant S_ .f32 0x00000000#32
  let main_v50 : FVec F S5x128 .f32 := broadcastInDim S5x128 ![] bcast_S_S5x128 main_cst_17
  let main_v51 : IVec S5x128 1 := cmpf .oge main_arg9 main_v50
  fn_part3 (F := F) main_v49 main_v51

def fn_part1 {F : FTy → Type} [FloatOps F] (main_arg1 : IVec S2x600000 32) (main_arg6 : FVec F S5x128 .f32) (main_arg7 : FVec F S5x128 .f32) (main_arg8 : FVec F S5x128 .f32) (main_arg9 : FVec F S5x128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg1 main_arg9 main_v33

def fn {F : FTy → Type} [FloatOps F] (main_arg0 : FVec F S100000x128 .f32) (main_arg1 : IVec S2x600000 32) (main_arg2 : IVec S600000x128 32) (main_arg3 : FVec F S5x128x128 .f32) (main_arg4 : FVec F S5x128 .f32) (main_arg5 : FVec F S5x128 .f32) (main_arg6 : FVec F S5x128 .f32) (main_arg7 : FVec F S5x128 .f32) (main_arg8 : FVec F S5x128 .f32) (main_arg9 : FVec F S5x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg1 main_arg6 main_arg7 main_arg8 main_arg9 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩
abbrev S1000x1 : Shape := ⟨2, ![1000, 1]⟩
abbrev S1 : Shape := ⟨1, ![1]⟩
abbrev S1x1 : Shape := ⟨2, ![1, 1]⟩
abbrev S2000x128 : Shape := ⟨2, ![2000, 128]⟩
abbrev S2000x1 : Shape := ⟨2, ![2000, 1]⟩

abbrev nBuf : Space → Nat
  | .hbm => 306
  | .vmem => 145
  | .smem => 0
  | _ => 0

abbrev hbmTy0_0 (i : Nat) : BufTy := match i % 128 with
  | 0 => ⟨S100000x128, .f32⟩
  | 1 => ⟨S2x600000, .i32⟩
  | 2 => ⟨S600000x128, .i32⟩
  | 3 => ⟨S5x128x128, .f32⟩
  | 4 => ⟨S5x128, .f32⟩
  | 5 => ⟨S5x128, .f32⟩
  | 6 => ⟨S5x128, .f32⟩
  | 7 => ⟨S5x128, .f32⟩
  | 8 => ⟨S5x128, .f32⟩
  | 9 => ⟨S5x128, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S600000, .f32⟩
  | 49 => ⟨S600000x1, .f32⟩
  | 50 => ⟨S5x128x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S1, .i32⟩
  | 70 => ⟨S_, .i32⟩
  | 71 => ⟨S600000x1, .i32⟩
  | 72 => ⟨S600000x1, .i1⟩
  | 73 => ⟨S1x1, .i32⟩
  | 74 => ⟨S600000x1, .i32⟩
  | 75 => ⟨S600000x1, .i1⟩
  | 76 => ⟨S600000x1, .i1⟩
  | 77 => ⟨S_, .i1⟩
  | 78 => ⟨S600000, .i1⟩
  | 79 => ⟨S600000x128, .f32⟩
  | 80 => ⟨S600000x128, .i1⟩
  | 81 => ⟨S_, .f32⟩
  | 82 => ⟨S600000x128, .f32⟩
  | 83 => ⟨S600000x128, .f32⟩
  | 84 => ⟨S600000x128, .f32⟩
  | 85 => ⟨S_, .f32⟩
  | 86 => ⟨S100000x128, .f32⟩
  | 87 => ⟨S600000x1, .i32⟩
  | 88 => ⟨S100000x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S100000x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S1, .i32⟩
  | 121 => ⟨S_, .i32⟩
  | 122 => ⟨S600000x1, .i32⟩
  | 123 => ⟨S600000x1, .i1⟩
  | 124 => ⟨S1x1, .i32⟩
  | 125 => ⟨S600000x1, .i32⟩
  | 126 => ⟨S600000x1, .i1⟩
  | 127 => ⟨S600000x1, .i1⟩
  | _ => ⟨S100000x128, .f32⟩

abbrev hbmTy0_1 (i : Nat) : BufTy := match i % 128 with
  | 0 => ⟨S_, .i1⟩
  | 1 => ⟨S600000, .i1⟩
  | 2 => ⟨S600000x128, .f32⟩
  | 3 => ⟨S600000x128, .i1⟩
  | 4 => ⟨S_, .f32⟩
  | 5 => ⟨S600000x128, .f32⟩
  | 6 => ⟨S600000x128, .f32⟩
  | 7 => ⟨S600000x128, .f32⟩
  | 8 => ⟨S_, .f32⟩
  | 9 => ⟨S100000x128, .f32⟩
  | 10 => ⟨S600000x1, .i32⟩
  | 11 => ⟨S100000x128, .f32⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S1, .i32⟩
  | 44 => ⟨S_, .i32⟩
  | 45 => ⟨S600000x1, .i32⟩
  | 46 => ⟨S600000x1, .i1⟩
  | 47 => ⟨S1x1, .i32⟩
  | 48 => ⟨S600000x1, .i32⟩
  | 49 => ⟨S600000x1, .i1⟩
  | 50 => ⟨S600000x1, .i1⟩
  | 51 => ⟨S_, .i1⟩
  | 52 => ⟨S600000, .i1⟩
  | 53 => ⟨S600000x128, .f32⟩
  | 54 => ⟨S600000x128, .i1⟩
  | 55 => ⟨S_, .f32⟩
  | 56 => ⟨S600000x128, .f32⟩
  | 57 => ⟨S600000x128, .f32⟩
  | 58 => ⟨S600000x128, .f32⟩
  | 59 => ⟨S_, .f32⟩
  | 60 => ⟨S100000x128, .f32⟩
  | 61 => ⟨S600000x1, .i32⟩
  | 62 => ⟨S100000x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S100000x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S1, .i32⟩
  | 95 => ⟨S_, .i32⟩
  | 96 => ⟨S600000x1, .i32⟩
  | 97 => ⟨S600000x1, .i1⟩
  | 98 => ⟨S1x1, .i32⟩
  | 99 => ⟨S600000x1, .i32⟩
  | 100 => ⟨S600000x1, .i1⟩
  | 101 => ⟨S600000x1, .i1⟩
  | 102 => ⟨S_, .i1⟩
  | 103 => ⟨S600000, .i1⟩
  | 104 => ⟨S600000x128, .f32⟩
  | 105 => ⟨S600000x128, .i1⟩
  | 106 => ⟨S_, .f32⟩
  | 107 => ⟨S600000x128, .f32⟩
  | 108 => ⟨S600000x128, .f32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S1x128, .f32⟩
  | 115 => ⟨S128, .f32⟩
  | 116 => ⟨S1x128, .f32⟩
  | 117 => ⟨S1x128, .f32⟩
  | 118 => ⟨S128, .f32⟩
  | 119 => ⟨S1x128, .f32⟩
  | 120 => ⟨S1x128, .f32⟩
  | 121 => ⟨S128, .f32⟩
  | 122 => ⟨S1x128, .f32⟩
  | 123 => ⟨S1x128, .f32⟩
  | 124 => ⟨S128, .f32⟩
  | 125 => ⟨S1x128, .f32⟩
  | 126 => ⟨S100000x128, .f32⟩
  | 127 => ⟨S1x128x128, .f32⟩
  | _ => ⟨S100000x128, .f32⟩

abbrev hbmTy0_2 (i : Nat) : BufTy := match i % 128 with
  | 0 => ⟨S128x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S1, .i32⟩
  | 18 => ⟨S_, .i32⟩
  | 19 => ⟨S600000x1, .i32⟩
  | 20 => ⟨S600000x1, .i1⟩
  | 21 => ⟨S1x1, .i32⟩
  | 22 => ⟨S600000x1, .i32⟩
  | 23 => ⟨S600000x1, .i1⟩
  | 24 => ⟨S600000x1, .i1⟩
  | 25 => ⟨S_, .i1⟩
  | 26 => ⟨S600000, .i1⟩
  | 27 => ⟨S600000x128, .f32⟩
  | 28 => ⟨S600000x128, .i1⟩
  | 29 => ⟨S_, .f32⟩
  | 30 => ⟨S600000x128, .f32⟩
  | 31 => ⟨S600000x128, .f32⟩
  | 32 => ⟨S600000x128, .f32⟩
  | 33 => ⟨S_, .f32⟩
  | 34 => ⟨S100000x128, .f32⟩
  | 35 => ⟨S600000x1, .i32⟩
  | 36 => ⟨S100000x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S1000x128, .f32⟩
  | 1 => ⟨S1000x128, .f32⟩
  | 2 => ⟨S128x128, .f32⟩
  | 3 => ⟨S1x128, .f32⟩
  | 4 => ⟨S1x128, .f32⟩
  | 5 => ⟨S1000x1, .f32⟩
  | 6 => ⟨S1000x1, .f32⟩
  | 7 => ⟨S1000x128, .f32⟩
  | 8 => ⟨S1000x128, .f32⟩
  | 9 => ⟨S1000x128, .f32⟩
  | 10 => ⟨S1000x128, .f32⟩
  | 11 => ⟨S2000x128, .f32⟩
  | 12 => ⟨S2000x128, .f32⟩
  | 13 => ⟨S2000x128, .i32⟩
  | 14 => ⟨S2000x128, .i32⟩
  | 15 => ⟨S2000x1, .f32⟩
  | 16 => ⟨S2000x1, .f32⟩
  | 17 => ⟨S2000x128, .f32⟩
  | 18 => ⟨S2000x128, .f32⟩
  | 19 => ⟨S1000x128, .f32⟩
  | 20 => ⟨S1000x128, .f32⟩
  | 21 => ⟨S1000x128, .f32⟩
  | 22 => ⟨S1000x128, .f32⟩
  | 23 => ⟨S1x128, .f32⟩
  | 24 => ⟨S1x128, .f32⟩
  | 25 => ⟨S1x128, .f32⟩
  | 26 => ⟨S1x128, .f32⟩
  | 27 => ⟨S1000x128, .f32⟩
  | 28 => ⟨S1000x128, .f32⟩
  | 29 => ⟨S1000x128, .f32⟩
  | 30 => ⟨S1000x128, .f32⟩
  | 31 => ⟨S128x128, .f32⟩
  | 32 => ⟨S1x128, .f32⟩
  | 33 => ⟨S1x128, .f32⟩
  | 34 => ⟨S1000x1, .f32⟩
  | 35 => ⟨S1000x1, .f32⟩
  | 36 => ⟨S1000x128, .f32⟩
  | 37 => ⟨S1000x128, .f32⟩
  | 38 => ⟨S1000x128, .f32⟩
  | 39 => ⟨S1000x128, .f32⟩
  | 40 => ⟨S2000x128, .f32⟩
  | 41 => ⟨S2000x128, .f32⟩
  | 42 => ⟨S2000x128, .i32⟩
  | 43 => ⟨S2000x128, .i32⟩
  | 44 => ⟨S2000x1, .f32⟩
  | 45 => ⟨S2000x1, .f32⟩
  | 46 => ⟨S2000x128, .f32⟩
  | 47 => ⟨S2000x128, .f32⟩
  | 48 => ⟨S1000x128, .f32⟩
  | 49 => ⟨S1000x128, .f32⟩
  | 50 => ⟨S1000x128, .f32⟩
  | 51 => ⟨S1000x128, .f32⟩
  | 52 => ⟨S1x128, .f32⟩
  | 53 => ⟨S1x128, .f32⟩
  | 54 => ⟨S1x128, .f32⟩
  | 55 => ⟨S1x128, .f32⟩
  | 56 => ⟨S1000x128, .f32⟩
  | 57 => ⟨S1000x128, .f32⟩
  | 58 => ⟨S1000x128, .f32⟩
  | 59 => ⟨S1000x128, .f32⟩
  | 60 => ⟨S128x128, .f32⟩
  | 61 => ⟨S1x128, .f32⟩
  | 62 => ⟨S1x128, .f32⟩
  | 63 => ⟨S1000x1, .f32⟩
  | 64 => ⟨S1000x1, .f32⟩
  | 65 => ⟨S1000x128, .f32⟩
  | 66 => ⟨S1000x128, .f32⟩
  | 67 => ⟨S1000x128, .f32⟩
  | 68 => ⟨S1000x128, .f32⟩
  | 69 => ⟨S2000x128, .f32⟩
  | 70 => ⟨S2000x128, .f32⟩
  | 71 => ⟨S2000x128, .i32⟩
  | 72 => ⟨S2000x128, .i32⟩
  | 73 => ⟨S2000x1, .f32⟩
  | 74 => ⟨S2000x1, .f32⟩
  | 75 => ⟨S2000x128, .f32⟩
  | 76 => ⟨S2000x128, .f32⟩
  | 77 => ⟨S1000x128, .f32⟩
  | 78 => ⟨S1000x128, .f32⟩
  | 79 => ⟨S1000x128, .f32⟩
  | 80 => ⟨S1000x128, .f32⟩
  | 81 => ⟨S1x128, .f32⟩
  | 82 => ⟨S1x128, .f32⟩
  | 83 => ⟨S1x128, .f32⟩
  | 84 => ⟨S1x128, .f32⟩
  | 85 => ⟨S1000x128, .f32⟩
  | 86 => ⟨S1000x128, .f32⟩
  | 87 => ⟨S1000x128, .f32⟩
  | 88 => ⟨S1000x128, .f32⟩
  | 89 => ⟨S128x128, .f32⟩
  | 90 => ⟨S1x128, .f32⟩
  | 91 => ⟨S1x128, .f32⟩
  | 92 => ⟨S1000x1, .f32⟩
  | 93 => ⟨S1000x1, .f32⟩
  | 94 => ⟨S1000x128, .f32⟩
  | 95 => ⟨S1000x128, .f32⟩
  | 96 => ⟨S1000x128, .f32⟩
  | 97 => ⟨S1000x128, .f32⟩
  | 98 => ⟨S2000x128, .f32⟩
  | 99 => ⟨S2000x128, .f32⟩
  | 100 => ⟨S2000x128, .i32⟩
  | 101 => ⟨S2000x128, .i32⟩
  | 102 => ⟨S2000x1, .f32⟩
  | 103 => ⟨S2000x1, .f32⟩
  | 104 => ⟨S2000x128, .f32⟩
  | 105 => ⟨S2000x128, .f32⟩
  | 106 => ⟨S1000x128, .f32⟩
  | 107 => ⟨S1000x128, .f32⟩
  | 108 => ⟨S1000x128, .f32⟩
  | 109 => ⟨S1000x128, .f32⟩
  | 110 => ⟨S1x128, .f32⟩
  | 111 => ⟨S1x128, .f32⟩
  | 112 => ⟨S1x128, .f32⟩
  | 113 => ⟨S1x128, .f32⟩
  | 114 => ⟨S1000x128, .f32⟩
  | 115 => ⟨S1000x128, .f32⟩
  | 116 => ⟨S1000x128, .f32⟩
  | 117 => ⟨S1000x128, .f32⟩
  | 118 => ⟨S128x128, .f32⟩
  | 119 => ⟨S1x128, .f32⟩
  | 120 => ⟨S1x128, .f32⟩
  | 121 => ⟨S1000x1, .f32⟩
  | 122 => ⟨S1000x1, .f32⟩
  | 123 => ⟨S1000x128, .f32⟩
  | 124 => ⟨S1000x128, .f32⟩
  | 125 => ⟨S1000x128, .f32⟩
  | 126 => ⟨S1000x128, .f32⟩
  | 127 => ⟨S2000x128, .f32⟩
  | _ => ⟨S100000x128, .f32⟩

abbrev vmemTy0_1 (i : Nat) : BufTy := match i % 128 with
  | 0 => ⟨S2000x128, .f32⟩
  | 1 => ⟨S2000x128, .i32⟩
  | 2 => ⟨S2000x128, .i32⟩
  | 3 => ⟨S2000x1, .f32⟩
  | 4 => ⟨S2000x1, .f32⟩
  | 5 => ⟨S2000x128, .f32⟩
  | 6 => ⟨S2000x128, .f32⟩
  | 7 => ⟨S1000x128, .f32⟩
  | 8 => ⟨S1000x128, .f32⟩
  | 9 => ⟨S1000x128, .f32⟩
  | 10 => ⟨S1000x128, .f32⟩
  | 11 => ⟨S1x128, .f32⟩
  | 12 => ⟨S1x128, .f32⟩
  | 13 => ⟨S1x128, .f32⟩
  | 14 => ⟨S1x128, .f32⟩
  | 15 => ⟨S1000x128, .f32⟩
  | 16 => ⟨S1000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 145 → Bool
  | ⟨i, _⟩ => dmaSemScopedAt i

abbrev sig : RefSig :=
  ofTc nBuf bufTy 0 145 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_call0_c : Ref sig .tc := ⟨.hbm, 61, rfl⟩
abbrev main_call0_v0 : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_c_1 : Ref sig .tc := ⟨.hbm, 69, rfl⟩
abbrev main_call0_c_2 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_c_3 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_call0_cst : Ref sig .tc := ⟨.hbm, 81, rfl⟩
abbrev main_call0_v15 : Ref sig .tc := ⟨.hbm, 82, rfl⟩
abbrev main_v41 : Ref sig .tc := ⟨.hbm, 83, rfl⟩
abbrev main_v42 : Ref sig .tc := ⟨.hbm, 84, rfl⟩
abbrev main_cst_7 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67_0 : Ref sig .tc := ⟨.hbm, 110, rfl⟩
abbrev main_v67_1 : Ref sig .tc := ⟨.hbm, 111, rfl⟩
abbrev main_call1_c : Ref sig .tc := ⟨.hbm, 112, rfl⟩
abbrev main_call1_v0 : Ref sig .tc := ⟨.hbm, 113, rfl⟩
abbrev main_call1_v1 : Ref sig .tc := ⟨.hbm, 114, rfl⟩
abbrev main_call1_c_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_c_1 : Ref sig .tc := ⟨.hbm, 120, rfl⟩
abbrev main_call1_c_2 : Ref sig .tc := ⟨.hbm, 121, rfl⟩
abbrev main_call1_v6 : Ref sig .tc := ⟨.hbm, 122, rfl⟩
abbrev main_call1_v7 : Ref sig .tc := ⟨.hbm, 123, rfl⟩
abbrev main_call1_v8 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_c_3 : Ref sig .tc := ⟨.hbm, 128, rfl⟩
abbrev main_call1_v12 : Ref sig .tc := ⟨.hbm, 129, rfl⟩
abbrev main_call1_v13 : Ref sig .tc := ⟨.hbm, 130, rfl⟩
abbrev main_call1_v14 : Ref sig .tc := ⟨.hbm, 131, rfl⟩
abbrev main_call1_cst : Ref sig .tc := ⟨.hbm, 132, rfl⟩
abbrev main_call1_v15 : Ref sig .tc := ⟨.hbm, 133, rfl⟩
abbrev main_v68 : Ref sig .tc := ⟨.hbm, 134, rfl⟩
abbrev main_v69 : Ref sig .tc := ⟨.hbm, 135, rfl⟩
abbrev main_cst_8 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94_0 : Ref sig .tc := ⟨.hbm, 161, rfl⟩
abbrev main_v94_1 : Ref sig .tc := ⟨.hbm, 162, rfl⟩
abbrev main_call2_c : Ref sig .tc := ⟨.hbm, 163, rfl⟩
abbrev main_call2_v0 : Ref sig .tc := ⟨.hbm, 164, rfl⟩
abbrev main_call2_v1 : Ref sig .tc := ⟨.hbm, 165, rfl⟩
abbrev main_call2_c_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_c_1 : Ref sig .tc := ⟨.hbm, 171, rfl⟩
abbrev main_call2_c_2 : Ref sig .tc := ⟨.hbm, 172, rfl⟩
abbrev main_call2_v6 : Ref sig .tc := ⟨.hbm, 173, rfl⟩
abbrev main_call2_v7 : Ref sig .tc := ⟨.hbm, 174, rfl⟩
abbrev main_call2_v8 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_c_3 : Ref sig .tc := ⟨.hbm, 179, rfl⟩
abbrev main_call2_v12 : Ref sig .tc := ⟨.hbm, 180, rfl⟩
abbrev main_call2_v13 : Ref sig .tc := ⟨.hbm, 181, rfl⟩
abbrev main_call2_v14 : Ref sig .tc := ⟨.hbm, 182, rfl⟩
abbrev main_call2_cst : Ref sig .tc := ⟨.hbm, 183, rfl⟩
abbrev main_call2_v15 : Ref sig .tc := ⟨.hbm, 184, rfl⟩
abbrev main_v95 : Ref sig .tc := ⟨.hbm, 185, rfl⟩
abbrev main_v96 : Ref sig .tc := ⟨.hbm, 186, rfl⟩
abbrev main_cst_9 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121_0 : Ref sig .tc := ⟨.hbm, 212, rfl⟩
abbrev main_v121_1 : Ref sig .tc := ⟨.hbm, 213, rfl⟩
abbrev main_call3_c : Ref sig .tc := ⟨.hbm, 214, rfl⟩
abbrev main_call3_v0 : Ref sig .tc := ⟨.hbm, 215, rfl⟩
abbrev main_call3_v1 : Ref sig .tc := ⟨.hbm, 216, rfl⟩
abbrev main_call3_c_0 : Ref sig .tc := ⟨.hbm, 217, rfl⟩
abbrev main_call3_v2 : Ref sig .tc := ⟨.hbm, 218, rfl⟩
abbrev main_call3_v3 : Ref sig .tc := ⟨.hbm, 219, rfl⟩
abbrev main_call3_v4 : Ref sig .tc := ⟨.hbm, 220, rfl⟩
abbrev main_call3_v5 : Ref sig .tc := ⟨.hbm, 221, rfl⟩
abbrev main_call3_c_1 : Ref sig .tc := ⟨.hbm, 222, rfl⟩
abbrev main_call3_c_2 : Ref sig .tc := ⟨.hbm, 223, rfl⟩
abbrev main_call3_v6 : Ref sig .tc := ⟨.hbm, 224, rfl⟩
abbrev main_call3_v7 : Ref sig .tc := ⟨.hbm, 225, rfl⟩
abbrev main_call3_v8 : Ref sig .tc := ⟨.hbm, 226, rfl⟩
abbrev main_call3_v9 : Ref sig .tc := ⟨.hbm, 227, rfl⟩
abbrev main_call3_v10 : Ref sig .tc := ⟨.hbm, 228, rfl⟩
abbrev main_call3_v11 : Ref sig .tc := ⟨.hbm, 229, rfl⟩
abbrev main_call3_c_3 : Ref sig .tc := ⟨.hbm, 230, rfl⟩
abbrev main_call3_v12 : Ref sig .tc := ⟨.hbm, 231, rfl⟩
abbrev main_call3_v13 : Ref sig .tc := ⟨.hbm, 232, rfl⟩
abbrev main_call3_v14 : Ref sig .tc := ⟨.hbm, 233, rfl⟩
abbrev main_call3_cst : Ref sig .tc := ⟨.hbm, 234, rfl⟩
abbrev main_call3_v15 : Ref sig .tc := ⟨.hbm, 235, rfl⟩
abbrev main_v122 : Ref sig .tc := ⟨.hbm, 236, rfl⟩
abbrev main_v123 : Ref sig .tc := ⟨.hbm, 237, rfl⟩
abbrev main_cst_10 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148_0 : Ref sig .tc := ⟨.hbm, 263, rfl⟩
abbrev main_v148_1 : Ref sig .tc := ⟨.hbm, 264, rfl⟩
abbrev main_call4_c : Ref sig .tc := ⟨.hbm, 265, rfl⟩
abbrev main_call4_v0 : Ref sig .tc := ⟨.hbm, 266, rfl⟩
abbrev main_call4_v1 : Ref sig .tc := ⟨.hbm, 267, rfl⟩
abbrev main_call4_c_0 : Ref sig .tc := ⟨.hbm, 268, rfl⟩
abbrev main_call4_v2 : Ref sig .tc := ⟨.hbm, 269, rfl⟩
abbrev main_call4_v3 : Ref sig .tc := ⟨.hbm, 270, rfl⟩
abbrev main_call4_v4 : Ref sig .tc := ⟨.hbm, 271, rfl⟩
abbrev main_call4_v5 : Ref sig .tc := ⟨.hbm, 272, rfl⟩
abbrev main_call4_c_1 : Ref sig .tc := ⟨.hbm, 273, rfl⟩
abbrev main_call4_c_2 : Ref sig .tc := ⟨.hbm, 274, rfl⟩
abbrev main_call4_v6 : Ref sig .tc := ⟨.hbm, 275, rfl⟩
abbrev main_call4_v7 : Ref sig .tc := ⟨.hbm, 276, rfl⟩
abbrev main_call4_v8 : Ref sig .tc := ⟨.hbm, 277, rfl⟩
abbrev main_call4_v9 : Ref sig .tc := ⟨.hbm, 278, rfl⟩
abbrev main_call4_v10 : Ref sig .tc := ⟨.hbm, 279, rfl⟩
abbrev main_call4_v11 : Ref sig .tc := ⟨.hbm, 280, rfl⟩
abbrev main_call4_c_3 : Ref sig .tc := ⟨.hbm, 281, rfl⟩
abbrev main_call4_v12 : Ref sig .tc := ⟨.hbm, 282, rfl⟩
abbrev main_call4_v13 : Ref sig .tc := ⟨.hbm, 283, rfl⟩
abbrev main_call4_v14 : Ref sig .tc := ⟨.hbm, 284, rfl⟩
abbrev main_call4_cst : Ref sig .tc := ⟨.hbm, 285, rfl⟩
abbrev main_call4_v15 : Ref sig .tc := ⟨.hbm, 286, rfl⟩
abbrev main_v149 : Ref sig .tc := ⟨.hbm, 287, rfl⟩
abbrev main_v150 : Ref sig .tc := ⟨.hbm, 288, rfl⟩
abbrev main_cst_11 : Ref sig .tc := ⟨.hbm, 289, rfl⟩
abbrev main_v151 : Ref sig .tc := ⟨.hbm, 290, rfl⟩
abbrev main_v152 : Ref sig .tc := ⟨.hbm, 291, rfl⟩
abbrev main_v153 : Ref sig .tc := ⟨.hbm, 292, rfl⟩
abbrev main_v154 : Ref sig .tc := ⟨.hbm, 293, rfl⟩
abbrev main_v155 : Ref sig .tc := ⟨.hbm, 294, rfl⟩
abbrev main_v156 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_v166 : Ref sig .tc := ⟨.hbm, 305, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg6_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg4_1 : Ref sig .tc := ⟨.vmem, 64, rfl⟩
abbrev cc6_stg5_0 : Ref sig .tc := ⟨.vmem, 65, rfl⟩
abbrev cc6_stg5_1 : Ref sig .tc := ⟨.vmem, 66, rfl⟩
abbrev cc6_stg6_0 : Ref sig .tc := ⟨.vmem, 67, rfl⟩
abbrev cc6_stg6_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg2_1 : Ref sig .tc := ⟨.vmem, 74, rfl⟩
abbrev cc7_stg3_0 : Ref sig .tc := ⟨.vmem, 75, rfl⟩
abbrev cc7_stg3_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg1_1 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg6_0 : Ref sig .tc := ⟨.vmem, 85, rfl⟩
abbrev cc8_stg6_1 : Ref sig .tc := ⟨.vmem, 86, rfl⟩
abbrev cc9_stg0_0 : Ref sig .tc := ⟨.vmem, 87, rfl⟩
abbrev cc9_stg0_1 : Ref sig .tc := ⟨.vmem, 88, rfl⟩
abbrev cc9_stg1_0 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg4_1 : Ref sig .tc := ⟨.vmem, 93, rfl⟩
abbrev cc9_stg5_0 : Ref sig .tc := ⟨.vmem, 94, rfl⟩
abbrev cc9_stg5_1 : Ref sig .tc := ⟨.vmem, 95, rfl⟩
abbrev cc9_stg6_0 : Ref sig .tc := ⟨.vmem, 96, rfl⟩
abbrev cc9_stg6_1 : Ref sig .tc := ⟨.vmem, 97, rfl⟩
abbrev cc10_stg0_0 : Ref sig .tc := ⟨.vmem, 98, rfl⟩
abbrev cc10_stg0_1 : Ref sig .tc := ⟨.vmem, 99, rfl⟩
abbrev cc10_stg1_0 : Ref sig .tc := ⟨.vmem, 100, rfl⟩
abbrev cc10_stg1_1 : Ref sig .tc := ⟨.vmem, 101, rfl⟩
abbrev cc10_stg2_0 : Ref sig .tc := ⟨.vmem, 102, rfl⟩
abbrev cc10_stg2_1 : Ref sig .tc := ⟨.vmem, 103, rfl⟩
abbrev cc10_stg3_0 : Ref sig .tc := ⟨.vmem, 104, rfl⟩
abbrev cc10_stg3_1 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg1_1 : Ref sig .tc := ⟨.vmem, 109, rfl⟩
abbrev cc11_stg2_0 : Ref sig .tc := ⟨.vmem, 110, rfl⟩
abbrev cc11_stg3_0 : Ref sig .tc := ⟨.vmem, 111, rfl⟩
abbrev cc11_stg4_0 : Ref sig .tc := ⟨.vmem, 112, rfl⟩
abbrev cc11_stg5_0 : Ref sig .tc := ⟨.vmem, 113, rfl⟩
abbrev cc11_stg6_0 : Ref sig .tc := ⟨.vmem, 114, rfl⟩
abbrev cc11_stg6_1 : Ref sig .tc := ⟨.vmem, 115, rfl⟩
abbrev cc12_stg0_0 : Ref sig .tc := ⟨.vmem, 116, rfl⟩
abbrev cc12_stg0_1 : Ref sig .tc := ⟨.vmem, 117, rfl⟩
abbrev cc12_stg1_0 : Ref sig .tc := ⟨.vmem, 118, rfl⟩
abbrev cc12_stg2_0 : Ref sig .tc := ⟨.vmem, 119, rfl⟩
abbrev cc12_stg3_0 : Ref sig .tc := ⟨.vmem, 120, rfl⟩
abbrev cc12_stg4_0 : Ref sig .tc := ⟨.vmem, 121, rfl⟩
abbrev cc12_stg4_1 : Ref sig .tc := ⟨.vmem, 122, rfl⟩
abbrev cc12_stg5_0 : Ref sig .tc := ⟨.vmem, 123, rfl⟩
abbrev cc12_stg5_1 : Ref sig .tc := ⟨.vmem, 124, rfl⟩
abbrev cc12_stg6_0 : Ref sig .tc := ⟨.vmem, 125, rfl⟩
abbrev cc12_stg6_1 : Ref sig .tc := ⟨.vmem, 126, rfl⟩
abbrev cc13_stg0_0 : Ref sig .tc := ⟨.vmem, 127, rfl⟩
abbrev cc13_stg0_1 : Ref sig .tc := ⟨.vmem, 128, rfl⟩
abbrev cc13_stg1_0 : Ref sig .tc := ⟨.vmem, 129, rfl⟩
abbrev cc13_stg1_1 : Ref sig .tc := ⟨.vmem, 130, rfl⟩
abbrev cc13_stg2_0 : Ref sig .tc := ⟨.vmem, 131, rfl⟩
abbrev cc13_stg2_1 : Ref sig .tc := ⟨.vmem, 132, rfl⟩
abbrev cc13_stg3_0 : Ref sig .tc := ⟨.vmem, 133, rfl⟩
abbrev cc13_stg3_1 : Ref sig .tc := ⟨.vmem, 134, rfl⟩
abbrev cc14_stg0_0 : Ref sig .tc := ⟨.vmem, 135, rfl⟩
abbrev cc14_stg0_1 : Ref sig .tc := ⟨.vmem, 136, rfl⟩
abbrev cc14_stg1_0 : Ref sig .tc := ⟨.vmem, 137, rfl⟩
abbrev cc14_stg1_1 : Ref sig .tc := ⟨.vmem, 138, rfl⟩
abbrev cc14_stg2_0 : Ref sig .tc := ⟨.vmem, 139, rfl⟩
abbrev cc14_stg3_0 : Ref sig .tc := ⟨.vmem, 140, rfl⟩
abbrev cc14_stg4_0 : Ref sig .tc := ⟨.vmem, 141, rfl⟩
abbrev cc14_stg5_0 : Ref sig .tc := ⟨.vmem, 142, rfl⟩
abbrev cc14_stg6_0 : Ref sig .tc := ⟨.vmem, 143, rfl⟩
abbrev cc14_stg6_1 : Ref sig .tc := ⟨.vmem, 144, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem6_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem4_1 : DmaSem sig := 64
abbrev cc6_sem5_0 : DmaSem sig := 65
abbrev cc6_sem5_1 : DmaSem sig := 66
abbrev cc6_sem6_0 : DmaSem sig := 67
abbrev cc6_sem6_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem2_1 : DmaSem sig := 74
abbrev cc7_sem3_0 : DmaSem sig := 75
abbrev cc7_sem3_1 : DmaSem sig := 76
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem6_0 : DmaSem sig := 85
abbrev cc8_sem6_1 : DmaSem sig := 86
abbrev cc9_sem0_0 : DmaSem sig := 87
abbrev cc9_sem0_1 : DmaSem sig := 88
abbrev cc9_sem1_0 : DmaSem sig := 89
abbrev cc9_sem2_0 : DmaSem sig := 90
abbrev cc9_sem3_0 : DmaSem sig := 91
abbrev cc9_sem4_0 : DmaSem sig := 92
abbrev cc9_sem4_1 : DmaSem sig := 93
abbrev cc9_sem5_0 : DmaSem sig := 94
abbrev cc9_sem5_1 : DmaSem sig := 95
abbrev cc9_sem6_0 : DmaSem sig := 96
abbrev cc9_sem6_1 : DmaSem sig := 97
abbrev cc10_sem0_0 : DmaSem sig := 98
abbrev cc10_sem0_1 : DmaSem sig := 99
abbrev cc10_sem1_0 : DmaSem sig := 100
abbrev cc10_sem1_1 : DmaSem sig := 101
abbrev cc10_sem2_0 : DmaSem sig := 102
abbrev cc10_sem2_1 : DmaSem sig := 103
abbrev cc10_sem3_0 : DmaSem sig := 104
abbrev cc10_sem3_1 : DmaSem sig := 105
abbrev cc11_sem0_0 : DmaSem sig := 106
abbrev cc11_sem0_1 : DmaSem sig := 107
abbrev cc11_sem1_0 : DmaSem sig := 108
abbrev cc11_sem1_1 : DmaSem sig := 109
abbrev cc11_sem2_0 : DmaSem sig := 110
abbrev cc11_sem3_0 : DmaSem sig := 111
abbrev cc11_sem4_0 : DmaSem sig := 112
abbrev cc11_sem5_0 : DmaSem sig := 113
abbrev cc11_sem6_0 : DmaSem sig := 114
abbrev cc11_sem6_1 : DmaSem sig := 115
abbrev cc12_sem0_0 : DmaSem sig := 116
abbrev cc12_sem0_1 : DmaSem sig := 117
abbrev cc12_sem1_0 : DmaSem sig := 118
abbrev cc12_sem2_0 : DmaSem sig := 119
abbrev cc12_sem3_0 : DmaSem sig := 120
abbrev cc12_sem4_0 : DmaSem sig := 121
abbrev cc12_sem4_1 : DmaSem sig := 122
abbrev cc12_sem5_0 : DmaSem sig := 123
abbrev cc12_sem5_1 : DmaSem sig := 124
abbrev cc12_sem6_0 : DmaSem sig := 125
abbrev cc12_sem6_1 : DmaSem sig := 126
abbrev cc13_sem0_0 : DmaSem sig := 127
abbrev cc13_sem0_1 : DmaSem sig := 128
abbrev cc13_sem1_0 : DmaSem sig := 129
abbrev cc13_sem1_1 : DmaSem sig := 130
abbrev cc13_sem2_0 : DmaSem sig := 131
abbrev cc13_sem2_1 : DmaSem sig := 132
abbrev cc13_sem3_0 : DmaSem sig := 133
abbrev cc13_sem3_1 : DmaSem sig := 134
abbrev cc14_sem0_0 : DmaSem sig := 135
abbrev cc14_sem0_1 : DmaSem sig := 136
abbrev cc14_sem1_0 : DmaSem sig := 137
abbrev cc14_sem1_1 : DmaSem sig := 138
abbrev cc14_sem2_0 : DmaSem sig := 139
abbrev cc14_sem3_0 : DmaSem sig := 140
abbrev cc14_sem4_0 : DmaSem sig := 141
abbrev cc14_sem5_0 : DmaSem sig := 142
abbrev cc14_sem6_0 : DmaSem sig := 143
abbrev cc14_sem6_1 : DmaSem sig := 144

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![300], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![300], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![300], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S1000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1000x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![300], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S1000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1000x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S1000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S1000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![300], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x128 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![100], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S1000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  shapeCasts_S600000_S600000x1 : S600000.ShapeCasts S600000x1
  transposes_S5x128x128_S5x128x128_0_2_1 : S5x128x128.Transposes [0, 2, 1] S5x128x128
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S1000x128_S1000x128 : S1000x128.ShapeCasts S1000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S1000x128_S128x128_S1000x128_1_0_0_1_n_n_wf : DotDims.WF S1000x128 S128x128 S1000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S100000x1.size a
  hwx0_4 : ∀ i : grid0.Coords, EltTy.bits .f32 = 32 ∨ (Rect.block (s := S100000x1) S1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S100000x128.size a
  hwx0_5 : ∀ i : grid0.Coords, EltTy.bits .f32 = 32 ∨ (Rect.block (s := S100000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S100000x128.size a
  hwx0_6 : ∀ i : grid0.Coords, EltTy.bits .f32 = 32 ∨ (Rect.block (s := S100000x128) S1000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S600000x128.size a
  hwx1_0 : ∀ i : grid1.Coords, EltTy.bits .f32 = 32 ∨ (Rect.block (s := S600000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S600000x128.size a
  hwx1_1 : ∀ i : grid1.Coords, EltTy.bits .i32 = 32 ∨ (Rect.block (s := S600000x128) S2000x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S600000x1.size a
  hwx1_2 : ∀ i : grid1.Coords, EltTy.bits .f32 = 32 ∨ (Rect.block (s := S600000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S600000x128.size a
  hwx1_3 : ∀ i : grid1.Coords, EltTy.bits .f32 = 32 ∨ (Rect.block (s := S600000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S100000x128.size a
  hwx2_1 : ∀ i : grid2.Coords, EltTy.bits .f32 = 32 ∨ (Rect.block (s := S100000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S100000x128.size a
  hwx2_6 : ∀ i : grid2.Coords, EltTy.bits .f32 = 32 ∨ (Rect.block (s := S100000x128) S1000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x1.size a ≤ S100000x1.size a
  hwx3_4 : ∀ i : grid3.Coords, EltTy.bits .f32 = 32 ∨ (Rect.block (s := S100000x1) S1000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S100000x128.size a
  hwx3_5 : ∀ i : grid3.Coords, EltTy.bits .f32 = 32 ∨ (Rect.block (s := S100000x128) S1000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S100000x128.size a
  hwx3_6 : ∀ i : grid3.Coords, EltTy.bits .f32 = 32 ∨ (Rect.block (s := S100000x128) S1000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S600000x128.size a
  hwx4_0 : ∀ i : grid4.Coords, EltTy.bits .f32 = 32 ∨ (Rect.block (s := S600000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S600000x128.size a
  hwx4_1 : ∀ i : grid4.Coords, EltTy.bits .i32 = 32 ∨ (Rect.block (s := S600000x128) S2000x128.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S600000x1.size a
  hwx4_2 : ∀ i : grid4.Coords, EltTy.bits .f32 = 32 ∨ (Rect.block (s := S600000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S600000x128.size a
  hwx4_3 : ∀ i : grid4.Coords, EltTy.bits .f32 = 32 ∨ (Rect.block (s := S600000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S100000x128.size a
  hwx5_1 : ∀ i : grid5.Coords, EltTy.bits .f32 = 32 ∨ (Rect.block (s := S100000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x128.size a ≤ S100000x128.size a
  hwx5_6 : ∀ i : grid5.Coords, EltTy.bits .f32 = 32 ∨ (Rect.block (s := S100000x128) S1000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S100000x128.size a
  hwx6_0 : ∀ i : grid6.Coords, EltTy.bits .f32 = 32 ∨ (Rect.block (s := S100000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1000x1.size a ≤ S100000x1.size a
  hwx6_4 : ∀ i : grid6.Coords, EltTy.bits .f32 = 32 ∨ (Rect.block (s := S100000x1) S1000x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x128.size a ≤ S100000x128.size a
  hwx6_5 : ∀ i : grid6.Coords, EltTy.bits .f32 = 32 ∨ (Rect.block (s := S100000x128) S1000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x128.size a ≤ S100000x128.size a
  hwx6_6 : ∀ i : grid6.Coords, EltTy.bits .f32 = 32 ∨ (Rect.block (s := S100000x128) S1000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S600000x128.size a
  hwx7_0 : ∀ i : grid7.Coords, EltTy.bits .f32 = 32 ∨ (Rect.block (s := S600000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S600000x128.size a
  hwx7_1 : ∀ i : grid7.Coords, EltTy.bits .i32 = 32 ∨ (Rect.block (s := S600000x128) S2000x128.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S600000x1.size a
  hwx7_2 : ∀ i : grid7.Coords, EltTy.bits .f32 = 32 ∨ (Rect.block (s := S600000x1) S2000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S600000x128.size a
  hwx7_3 : ∀ i : grid7.Coords, EltTy.bits .f32 = 32 ∨ (Rect.block (s := S600000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S100000x128.size a
  hwx8_0 : ∀ i : grid8.Coords, EltTy.bits .f32 = 32 ∨ (Rect.block (s := S100000x128) S1000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x128.size a ≤ S100000x128.size a
  hwx8_1 : ∀ i : grid8.Coords, EltTy.bits .f32 = 32 ∨ (Rect.block (s := S100000x128) S1000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1000x128.size a ≤ S100000x128.size a
  hwx8_6 : ∀ i : grid8.Coords, EltTy.bits .f32 = 32 ∨ (Rect.block (s := S100000x128) S1000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S100000x128.size a
  hwx9_0 : ∀ i : grid9.Coords, EltTy.bits .f32 = 32 ∨ (Rect.block (s := S100000x128) S1000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1000x1.size a ≤ S100000x1.size a
  hwx9_4 : ∀ i : grid9.Coords, EltTy.bits .f32 = 32 ∨ (Rect.block (s := S100000x1) S1000x1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1000x128.size a ≤ S100000x128.size a
  hwx9_5 : ∀ i : grid9.Coords, EltTy.bits .f32 = 32 ∨ (Rect.block (s := S100000x128) S1000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1000x128.size a ≤ S100000x128.size a
  hwx9_6 : ∀ i : grid9.Coords, EltTy.bits .f32 = 32 ∨ (Rect.block (s := S100000x128) S1000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S600000x128.size a
  hwx10_0 : ∀ i : grid10.Coords, EltTy.bits .f32 = 32 ∨ (Rect.block (s := S600000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S600000x128.size a
  hwx10_1 : ∀ i : grid10.Coords, EltTy.bits .i32 = 32 ∨ (Rect.block (s := S600000x128) S2000x128.size (cc10_transform_1 i) (hinb10_1 i)).WholeWords (EltTy.packing .i32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x1.size a ≤ S600000x1.size a
  hwx10_2 : ∀ i : grid10.Coords, EltTy.bits .f32 = 32 ∨ (Rect.block (s := S600000x1) S2000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S600000x128.size a
  hwx10_3 : ∀ i : grid10.Coords, EltTy.bits .f32 = 32 ∨ (Rect.block (s := S600000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x128.size a ≤ S100000x128.size a
  hwx11_0 : ∀ i : grid11.Coords, EltTy.bits .f32 = 32 ∨ (Rect.block (s := S100000x128) S1000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1000x128.size a ≤ S100000x128.size a
  hwx11_1 : ∀ i : grid11.Coords, EltTy.bits .f32 = 32 ∨ (Rect.block (s := S100000x128) S1000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1000x128.size a ≤ S100000x128.size a
  hwx11_6 : ∀ i : grid11.Coords, EltTy.bits .f32 = 32 ∨ (Rect.block (s := S100000x128) S1000x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x128.size a ≤ S100000x128.size a
  hwx12_0 : ∀ i : grid12.Coords, EltTy.bits .f32 = 32 ∨ (Rect.block (s := S100000x128) S1000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1000x1.size a ≤ S100000x1.size a
  hwx12_4 : ∀ i : grid12.Coords, EltTy.bits .f32 = 32 ∨ (Rect.block (s := S100000x1) S1000x1.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1000x128.size a ≤ S100000x128.size a
  hwx12_5 : ∀ i : grid12.Coords, EltTy.bits .f32 = 32 ∨ (Rect.block (s := S100000x128) S1000x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S1000x128.size a ≤ S100000x128.size a
  hwx12_6 : ∀ i : grid12.Coords, EltTy.bits .f32 = 32 ∨ (Rect.block (s := S100000x128) S1000x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S600000x128.size a
  hwx13_0 : ∀ i : grid13.Coords, EltTy.bits .f32 = 32 ∨ (Rect.block (s := S600000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x128.size a ≤ S600000x128.size a
  hwx13_1 : ∀ i : grid13.Coords, EltTy.bits .i32 = 32 ∨ (Rect.block (s := S600000x128) S2000x128.size (cc13_transform_1 i) (hinb13_1 i)).WholeWords (EltTy.packing .i32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x1.size a ≤ S600000x1.size a
  hwx13_2 : ∀ i : grid13.Coords, EltTy.bits .f32 = 32 ∨ (Rect.block (s := S600000x1) S2000x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S600000x128.size a
  hwx13_3 : ∀ i : grid13.Coords, EltTy.bits .f32 = 32 ∨ (Rect.block (s := S600000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1000x128.size a ≤ S100000x128.size a
  hwx14_0 : ∀ i : grid14.Coords, EltTy.bits .f32 = 32 ∨ (Rect.block (s := S100000x128) S1000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1000x128.size a ≤ S100000x128.size a
  hwx14_1 : ∀ i : grid14.Coords, EltTy.bits .f32 = 32 ∨ (Rect.block (s := S100000x128) S1000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S1000x128.size a ≤ S100000x128.size a
  hwx14_6 : ∀ i : grid14.Coords, EltTy.bits .f32 = 32 ∨ (Rect.block (s := S100000x128) S1000x128.size (cc14_transform_6 i) (hinb14_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_0) S1000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40_1) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_1) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S1000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v67_0) S1000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v67_1) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67_1) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S1000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v85) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v14) S1000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v94_0) S1000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v94_1) S1000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v95) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg2) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v30) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v96) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v99) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v94_1) S1000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v102) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v108) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v112) S1000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v112) S1000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v114) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v117) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v120) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v14) S1000x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v121_0) S1000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v121_1) S1000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v122) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg2) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v30) S2000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v123) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v126) S1000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v121_1) S1000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v129) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v132) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v135) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v138) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v139) S1000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v139) S1000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v141) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v144) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v147) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v14) S1000x1.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v148_0) S1000x128.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v148_1) S1000x128.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v149) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg2) S2000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v30) S2000x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v150) S2000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v153) S1000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v148_1) S1000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v156) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v159) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v162) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v165) S1x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v166) S1000x128.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x1 : Shape := ⟨2, ![100000, 1]⟩

abbrev nBuf : Space → Nat
  | .hbm => 379
  | .vmem => 0
  | .smem => 0
  | _ => 0

abbrev hbmTy0_0 (i : Nat) : BufTy := match i % 128 with
  | 0 => ⟨S100000x128, .f32⟩
  | 1 => ⟨S2x600000, .i32⟩
  | 2 => ⟨S600000x128, .i32⟩
  | 3 => ⟨S5x128x128, .f32⟩
  | 4 => ⟨S5x128, .f32⟩
  | 5 => ⟨S5x128, .f32⟩
  | 6 => ⟨S5x128, .f32⟩
  | 7 => ⟨S5x128, .f32⟩
  | 8 => ⟨S5x128, .f32⟩
  | 9 => ⟨S5x128, .f32⟩
  | 10 => ⟨S600000x128, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S100000, .f32⟩
  | 19 => ⟨S600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S600000, .f32⟩
  | 46 => ⟨S600000x1, .f32⟩
  | 47 => ⟨S1x128x128, .f32⟩
  | 48 => ⟨S128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S600000x128, .f32⟩
  | 70 => ⟨S600000x128, .f32⟩
  | 71 => ⟨S_, .f32⟩
  | 72 => ⟨S100000x128, .f32⟩
  | 73 => ⟨S600000x1, .i32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x1, .f32⟩
  | 84 => ⟨S100000x128, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S128x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S_, .i32⟩
  | 124 => ⟨S600000, .i32⟩
  | 125 => ⟨S600000, .i1⟩
  | 126 => ⟨S_, .i32⟩
  | 127 => ⟨S600000, .i32⟩
  | _ => ⟨S100000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S600000x128, .f32⟩
  | 5 => ⟨S_, .f32⟩
  | 6 => ⟨S600000x128, .f32⟩
  | 7 => ⟨S600000x128, .f32⟩
  | 8 => ⟨S600000x128, .f32⟩
  | 9 => ⟨S600000x128, .f32⟩
  | 10 => ⟨S_, .f32⟩
  | 11 => ⟨S100000x128, .f32⟩
  | 12 => ⟨S600000x1, .i32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128x128, .f32⟩
  | 54 => ⟨S128x128, .f32⟩
  | 55 => ⟨S128x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x128, .f32⟩
  | 72 => ⟨S_, .f32⟩
  | 73 => ⟨S600000x128, .f32⟩
  | 74 => ⟨S600000x128, .f32⟩
  | 75 => ⟨S600000x128, .f32⟩
  | 76 => ⟨S600000x128, .f32⟩
  | 77 => ⟨S_, .f32⟩
  | 78 => ⟨S100000x128, .f32⟩
  | 79 => ⟨S600000x1, .i32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S_, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128x128, .f32⟩
  | 121 => ⟨S128x128, .f32⟩
  | 122 => ⟨S128x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .f32⟩
  | 10 => ⟨S600000x128, .f32⟩
  | 11 => ⟨S_, .f32⟩
  | 12 => ⟨S600000x128, .f32⟩
  | 13 => ⟨S600000x128, .f32⟩
  | 14 => ⟨S600000x128, .f32⟩
  | 15 => ⟨S600000x128, .f32⟩
  | 16 => ⟨S_, .f32⟩
  | 17 => ⟨S100000x128, .f32⟩
  | 18 => ⟨S600000x1, .i32⟩
  | 19 => ⟨S100000x128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x1, .f32⟩
  | 29 => ⟨S100000x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S_, .f32⟩
  | 45 => ⟨S128, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S1x128x128, .f32⟩
  | 60 => ⟨S128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S600000x128, .f32⟩
  | 78 => ⟨S_, .f32⟩
  | 79 => ⟨S600000x128, .f32⟩
  | 80 => ⟨S600000x128, .f32⟩
  | 81 => ⟨S600000x128, .f32⟩
  | 82 => ⟨S600000x128, .f32⟩
  | 83 => ⟨S_, .f32⟩
  | 84 => ⟨S100000x128, .f32⟩
  | 85 => ⟨S600000x1, .i32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x1, .f32⟩
  | 96 => ⟨S100000x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S128, .f32⟩
  | 111 => ⟨S_, .f32⟩
  | 112 => ⟨S128, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call2_cst : Ref sig .tc := ⟨.hbm, 111, rfl⟩
abbrev main_call2_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_10 : Ref sig .tc := ⟨.hbm, 123, rfl⟩
abbrev main_v95 : Ref sig .tc := ⟨.hbm, 124, rfl⟩
abbrev main_v96 : Ref sig .tc := ⟨.hbm, 125, rfl⟩
abbrev main_c_11 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_call3_cst : Ref sig .tc := ⟨.hbm, 133, rfl⟩
abbrev main_call3_v0 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_12 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_call4_cst : Ref sig .tc := ⟨.hbm, 147, rfl⟩
abbrev main_call4_v0 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_13 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_call5_cst : Ref sig .tc := ⟨.hbm, 178, rfl⟩
abbrev main_call5_v0 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_c_14 : Ref sig .tc := ⟨.hbm, 190, rfl⟩
abbrev main_v152 : Ref sig .tc := ⟨.hbm, 191, rfl⟩
abbrev main_v153 : Ref sig .tc := ⟨.hbm, 192, rfl⟩
abbrev main_c_15 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_call6_cst : Ref sig .tc := ⟨.hbm, 200, rfl⟩
abbrev main_call6_v0 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_16 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_call7_cst : Ref sig .tc := ⟨.hbm, 214, rfl⟩
abbrev main_call7_v0 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_cst_17 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_call8_cst : Ref sig .tc := ⟨.hbm, 245, rfl⟩
abbrev main_call8_v0 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_c_18 : Ref sig .tc := ⟨.hbm, 257, rfl⟩
abbrev main_v209 : Ref sig .tc := ⟨.hbm, 258, rfl⟩
abbrev main_v210 : Ref sig .tc := ⟨.hbm, 259, rfl⟩
abbrev main_c_19 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_call9_cst : Ref sig .tc := ⟨.hbm, 267, rfl⟩
abbrev main_call9_v0 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_cst_20 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_call10_cst : Ref sig .tc := ⟨.hbm, 281, rfl⟩
abbrev main_call10_v0 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_cst_21 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_call11_cst : Ref sig .tc := ⟨.hbm, 312, rfl⟩
abbrev main_call11_v0 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_c_22 : Ref sig .tc := ⟨.hbm, 324, rfl⟩
abbrev main_v266 : Ref sig .tc := ⟨.hbm, 325, rfl⟩
abbrev main_v267 : Ref sig .tc := ⟨.hbm, 326, rfl⟩
abbrev main_c_23 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_call12_cst : Ref sig .tc := ⟨.hbm, 334, rfl⟩
abbrev main_call12_v0 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_cst_24 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_call13_cst : Ref sig .tc := ⟨.hbm, 348, rfl⟩
abbrev main_call13_v0 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_cst_25 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S5x128x128_S1x128x128_0_0_0 : S5x128x128.Slices ![0, 0, 0] S1x128x128
  shapeCasts_S1x128x128_S128x128 : S1x128x128.ShapeCasts S128x128
  transposes_S128x128_S128x128_1_0 : S128x128.Transposes [1, 0] S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.RRead.lean ====
import proofs.«408040_j36369783063008_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x2 : (⟨S600000x128, .i32⟩ : BufTy).Contents (Elt F)) : (⟨S600000x128, .f32⟩ : BufTy).Contents (Elt F) :=
  sitofp .f32 (x2)
theorem val_main_v0_apply (x2 : (⟨S600000x128, .i32⟩ : BufTy).Contents (Elt F)) (i : S600000x128.Idx) :
    val_main_v0 (F := F) x2 i = FloatOps.sitofp .f32 (x2 i) := rfl
def val_main_v1 (x1 : (⟨S2x600000, .i32⟩ : BufTy).Contents (Elt F)) : (⟨S1x600000, .i32⟩ : BufTy).Contents (Elt F) :=
  extractStridedSlice S1x600000 ![0, 0] (x1) slices_S2x600000_S1x600000_0_0
def val_main_v2 (x1 : (⟨S2x600000, .i32⟩ : BufTy).Contents (Elt F)) : (⟨S600000, .i32⟩ : BufTy).Contents (Elt F) :=
  shapeCast _ (val_main_v1 (F := F) x1) shapeCasts_S1x600000_S600000
def val_main_v3 (x1 : (⟨S2x600000, .i32⟩ : BufTy).Contents (Elt F)) : (⟨S1x600000, .i32⟩ : BufTy).Contents (Elt F) :=
  extractStridedSlice S1x600000 ![1, 0] (x1) slices_S2x600000_S1x600000_1_0
def val_main_v4 (x1 : (⟨S2x600000, .i32⟩ : BufTy).Contents (Elt F)) : (⟨S600000, .i32⟩ : BufTy).Contents (Elt F) :=
  shapeCast _ (val_main_v3 (F := F) x1) shapeCasts_S1x600000_S600000
def val_main_cst : (⟨S_, .f32⟩ : BufTy).Contents (Elt F) :=
  constant S_ .f32 0x3F800000#32
def val_main_v5 : (⟨S600000, .f32⟩ : BufTy).Contents (Elt F) :=
  broadcastInDim S600000 ![] bcast_S_S600000 (val_main_cst (F := F))
def val_main_cst_0 : (⟨S_, .f32⟩ : BufTy).Contents (Elt F) :=
  constant S_ .f32 0x00000000#32
def val_main_v6 : (⟨S100000, .f32⟩ : BufTy).Contents (Elt F) :=
  broadcastInDim S100000 ![] bcast_S_S100000 (val_main_cst_0 (F := F))
def val_main_v7 (x1 : (⟨S2x600000, .i32⟩ : BufTy).Contents (Elt F)) : (⟨S600000x1, .i32⟩ : BufTy).Contents (Elt F) :=
  broadcastInDim S600000x1 ![0] bcast_S600000_S600000x1_0 (val_main_v2 (F := F) x1)
def val_main_v8 (x1 : (⟨S2x600000, .i32⟩ : BufTy).Contents (Elt F)) : (⟨S100000, .f32⟩ : BufTy).Contents (Elt F) :=
  Host.scatterAdd scatter_S100000_S600000x1_S600000_n_0_0_1 (val_main_v6 (F := F)) (val_main_v7 (F := F) x1) (val_main_v5 (F := F))
def val_main_cst_1 : (⟨S_, .f32⟩ : BufTy).Contents (Elt F) :=
  constant S_ .f32 0x3F800000#32
def val_main_v9 : (⟨S100000, .f32⟩ : BufTy).Contents (Elt F) :=
  broadcastInDim S100000 ![] bcast_S_S100000 (val_main_cst_1 (F := F))
def val_main_v10 (x1 : (⟨S2x600000, .i32⟩ : BufTy).Contents (Elt F)) : (⟨S100000, .f32⟩ : BufTy).Contents (Elt F) :=
  addf (val_main_v8 (F := F) x1) (val_main_v9 (F := F))
def val_main_cst_2 : (⟨S_, .f32⟩ : BufTy).Contents (Elt F) :=
  constant S_ .f32 0xBF000000#32
def val_main_v11 : (⟨S100000, .f32⟩ : BufTy).Contents (Elt F) :=
  broadcastInDim S100000 ![] bcast_S_S100000 (val_main_cst_2 (F := F))
def val_main_v12 (x1 : (⟨S2x600000, .i32⟩ : BufTy).Contents (Elt F)) : (⟨S100000, .f32⟩ : BufTy).Contents (Elt F) :=
  Host.powf (val_main_v10 (F := F) x1) (val_main_v11 (F := F))
def val_main_c : (⟨S_, .i32⟩ : BufTy).Contents (Elt F) :=
  constantI S_ 32 0#32
def val_main_v13 : (⟨S600000, .i32⟩ : BufTy).Contents (Elt F) :=
  broadcastInDim S600000 ![] bcast_S_S600000 (val_main_c (F := F))
def val_main_v14 (x1 : (⟨S2x600000, .i32⟩ : BufTy).Contents (Elt F)) : (⟨S600000, .i1⟩ : BufTy).Contents (Elt F) :=
  cmpi .slt (val_main_v2 (F := F) x1) (val_main_v13 (F := F))
def val_main_c_3 : (⟨S_, .i32⟩ : BufTy).Contents (Elt F) :=
  constantI S_ 32 100000#32
def val_main_v15 : (⟨S600000, .i32⟩ : BufTy).Contents (Elt F) :=
  broadcastInDim S600000 ![] bcast_S_S600000 (val_main_c_3 (F := F))
def val_main_v16 (x1 : (⟨S2x600000, .i32⟩ : BufTy).Contents (Elt F)) : (⟨S600000, .i32⟩ : BufTy).Contents (Elt F) :=
  addi (val_main_v2 (F := F) x1) (val_main_v15 (F := F))
def val_main_v17 (x1 : (⟨S2x600000, .i32⟩ : BufTy).Contents (Elt F)) : (⟨S600000, .i32⟩ : BufTy).Contents (Elt F) :=
  select (val_main_v14 (F := F) x1) (val_main_v16 (F := F) x1) (val_main_v2 (F := F) x1)
def val_main_v18 (x1 : (⟨S2x600000, .i32⟩ : BufTy).Contents (Elt F)) : (⟨S600000x1, .i32⟩ : BufTy).Contents (Elt F) :=
  broadcastInDim S600000x1 ![0] bcast_S600000_S600000x1_0 (val_main_v17 (F := F) x1)
def val_main_v19 (x1 : (⟨S2x600000, .i32⟩ : BufTy).Contents (Elt F)) : (⟨S600000, .f32⟩ : BufTy).Contents (Elt F) :=
  Host.gather gather_S100000_S600000x1_S600000_n_0_n_n_0_1_1 (val_main_v12 (F := F) x1) (val_main_v18 (F := F) x1)
def val_main_c_4 : (⟨S_, .i32⟩ : BufTy).Contents (Elt F) :=
  constantI S_ 32 0#32
def val_main_v20 : (⟨S600000, .i32⟩ : BufTy).Contents (Elt F) :=
  broadcastInDim S600000 ![] bcast_S_S600000 (val_main_c_4 (F := F))
def val_main_v21 (x1 : (⟨S2x600000, .i32⟩ : BufTy).Contents (Elt F)) : (⟨S600000, .i1⟩ : BufTy).Contents (Elt F) :=
  cmpi .slt (val_main_v4 (F := F) x1) (val_main_v20 (F := F))
def val_main_c_5 : (⟨S_, .i32⟩ : BufTy).Contents (Elt F) :=
  constantI S_ 32 100000#32
def val_main_v22 : (⟨S600000, .i32⟩ : BufTy).Contents (Elt F) :=
  broadcastInDim S600000 ![] bcast_S_S600000 (val_main_c_5 (F := F))
def val_main_v23 (x1 : (⟨S2x600000, .i32⟩ : BufTy).Contents (Elt F)) : (⟨S600000, .i32⟩ : BufTy).Contents (Elt F) :=
  addi (val_main_v4 (F := F) x1) (val_main_v22 (F := F))
def val_main_v24 (x1 : (⟨S2x600000, .i32⟩ : BufTy).Contents (Elt F)) : (⟨S600000, .i32⟩ : BufTy).Contents (Elt F) :=
  select (val_main_v21 (F := F) x1) (val_main_v23 (F := F) x1) (val_main_v4 (F := F) x1)
def val_main_v25 (x1 : (⟨S2x600000, .i32⟩ : BufTy).Contents (Elt F)) : (⟨S600000x1, .i32⟩ : BufTy).Contents (Elt F) :=
  broadcastInDim S600000x1 ![0] bcast_S600000_S600000x1_0 (val_main_v24 (F := F) x1)
def val_main_v26 (x1 : (⟨S2x600000, .i32⟩ : BufTy).Contents (Elt F)) : (⟨S600000, .f32⟩ : BufTy).Contents (Elt F) :=
  Host.gather gather_S100000_S600000x1_S600000_n_0_n_n_0_1_1 (val_main_v12 (F := F) x1) (val_main_v25 (F := F) x1)
def val_main_v27 (x1 : (⟨S2x600000, .i32⟩ : BufTy).Contents (Elt F)) : (⟨S600000, .f32⟩ : BufTy).Contents (Elt F) :=
  mulf (val_main_v19 (F := F) x1) (val_main_v26 (F := F) x1)
def val_main_v28 (x1 : (⟨S2x600000, .i32⟩ : BufTy).Contents (Elt F)) : (⟨S600000x1, .f32⟩ : BufTy).Contents (Elt F) :=
  broadcastInDim S600000x1 ![0] bcast_S600000_S600000x1_0 (val_main_v27 (F := F) x1)
abbrev idx_main_v28 (i : S600000x1.Idx) : S600000.Idx := fun a => match a with
  | ⟨0, _⟩ => ⟨(i 0).val, (i 0).isLt⟩
theorem val_main_v28_apply (x1 : (⟨S2x600000, .i32⟩ : BufTy).Contents (Elt F)) (i : S600000x1.Idx) :
    val_main_v28 (F := F) x1 i = val_main_v27 (F := F) x1 (idx_main_v28 i) := by
  unfold val_main_v28
  generalize val_main_v27 (F := F) x1 = y
  exact broadcastInDim_apply _ bcast_S600000_S600000x1_0 y i (idx_main_v28 i) (fun a => match a with
    | ⟨0, _⟩ => by show (i 0).val = if (600000 : Nat) = 1 then 0 else (i 0).val; rw [if_neg (by decide)])
def val_main_v29 (x3 : (⟨S5x128x128, .f32⟩ : BufTy).Contents (Elt F)) : (⟨S1x128x128, .f32⟩ : BufTy).Contents (Elt F) :=
  extractStridedSlice S1x128x128 ![0, 0, 0] (x3) slices_S5x128x128_S1x128x128_0_0_0
abbrev idx_main_v29 (i : S1x128x128.Idx) : S5x128x128.Idx := fun a => match a with
  | ⟨0, _⟩ => ⟨(i 0).val, by have h0 : (i 0).val < 1 := (i 0).isLt; show (i 0).val < 5; omega⟩
  | ⟨1, _⟩ => ⟨(i 1).val, (i 1).isLt⟩
  | ⟨2, _⟩ => ⟨(i 2).val, (i 2).isLt⟩
theorem val_main_v29_apply (x3 : (⟨S5x128x128, .f32⟩ : BufTy).Contents (Elt F)) (i : S1x128x128.Idx) :
    val_main_v29 (F := F) x3 i = x3 (idx_main_v29 i) := by
  unfold val_main_v29
  exact extractStridedSlice_apply ![0, 0, 0] x3 slices_S5x128x128_S1x128x128_0_0_0 i (idx_main_v29 i) (fun a => match a with
    | ⟨0, _⟩ => by show (i 0).val = 0 + (i 0).val; omega
    | ⟨1, _⟩ => by show (i 1).val = 0 + (i 1).val; omega
    | ⟨2, _⟩ => by show (i 2).val = 0 + (i 2).val; omega)
def val_main_v30 (x3 : (⟨S5x128x128, .f32⟩ : BufTy).Contents (Elt F)) : (⟨S128x128, .f32⟩ : BufTy).Contents (Elt F) :=
  shapeCast _ (val_main_v29 (F := F) x3) shapeCasts_S1x128x128_S128x128
abbrev idx_main_v30 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v30_apply (x3 : (⟨S5x128x128, .f32⟩ : BufTy).Contents (Elt F)) (i : S128x128.Idx) :
    val_main_v30 (F := F) x3 i = val_main_v29 (F := F) x3 (idx_main_v30 i) := by
  unfold val_main_v30
  generalize val_main_v29 (F := F) x3 = y
  exact shapeCast_apply y shapeCasts_S1x128x128_S128x128 i (idx_main_v30 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)
def val_main_v31 (x3 : (⟨S5x128x128, .f32⟩ : BufTy).Contents (Elt F)) : (⟨S128x128, .f32⟩ : BufTy).Contents (Elt F) :=
  transpose S128x128 [1, 0] (val_main_v30 (F := F) x3) transposes_S128x128_S128x128_1_0
abbrev idx_main_v31 (i : S128x128.Idx) : S128x128.Idx := fun a => match a with
  | ⟨0, _⟩ => ⟨(i 1).val, (i 1).isLt⟩
  | ⟨1, _⟩ => ⟨(i 0).val, (i 0).isLt⟩
theorem val_main_v31_apply (x3 : (⟨S5x128x128, .f32⟩ : BufTy).Contents (Elt F)) (i : S128x128.Idx) :
    val_main_v31 (F := F) x3 i = val_main_v30 (F := F) x3 (idx_main_v31 i) := by
  unfold val_main_v31
  generalize val_main_v30 (F := F) x3 = y
  exact transpose_apply [1, 0] y transposes_S128x128_S128x128_1_0 i (idx_main_v31 i) (fun b => match b with
    | ⟨0, _⟩ => rfl
    | ⟨1, _⟩ => rfl)
def val_main_v32 (x0 : (⟨S100000x128, .f32⟩ : BufTy).Contents (Elt F)) (x3 : (⟨S5x128x128, .f32⟩ : BufTy).Contents (Elt F)) : (⟨S100000x128, .f32⟩ : BufTy).Contents (Elt F) :=
  Host.dotGeneral dot_S100000x128_S128x128_S100000x128_1_0_0_1_n_n none (x0) (val_main_v31 (F := F) x3)
theorem lhs_main_v32_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v32_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v32_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v32_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v32 (i : S100000x128.Idx) (k : Fin 128) : S100000x128.Idx := fun a => match a with
  | ⟨0, _⟩ => ⟨(i 0).val, (i 0).isLt⟩
  | ⟨1, _⟩ => ⟨k.val, k.isLt⟩
abbrev ridx_main_v32 (i : S100000x128.Idx) (k : Fin 128) : S128x128.Idx := fun a => match a with
  | ⟨0, _⟩ => ⟨k.val, k.isLt⟩
  | ⟨1, _⟩ => ⟨(i 1).val, (i 1).isLt⟩
theorem val_main_v32_apply (x0 : (⟨S100000x128, .f32⟩ : BufTy).Contents (Elt Ideal)) (x3 : (⟨S5x128x128, .f32⟩ : BufTy).Contents (Elt Ideal)) (i : S100000x128.Idx) :
    val_main_v32 (F := Ideal) x0 x3 i = ∑ k : Fin 128, x0 (lidx_main_v32 i k) * (val_main_v31 (F := Ideal) x3) (ridx_main_v32 i k) := by
  unfold val_main_v32
  generalize val_main_v31 (F := Ideal) x3 = y0
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v32 i k := funext fun a => Fin.ext (by
    match a with
    | ⟨0, _⟩ => exact lhs_main_v32_0 _ _
    | ⟨1, _⟩ => exact (lhs_main_v32_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v32 i k := funext fun a => Fin.ext (by
    match a with
    | ⟨0, _⟩ => exact (rhs_main_v32_0 _ _).trans hk
    | ⟨1, _⟩ => exact rhs_main_v32_1 _ _)
  rw [el, er]
def val_main_v33 (x4 : (⟨S5x128, .f32⟩ : BufTy).Contents (Elt F)) : (⟨S1x128, .f32⟩ : BufTy).Contents (Elt F) :=
  extractStridedSlice S1x128 ![0, 0] (x4) slices_S5x128_S1x128_0_0
abbrev idx_main_v33 (i : S1x128.Idx) : S5x128.Idx := fun a => match a with
  | ⟨0, _⟩ => ⟨(i 0).val, by have h0 : (i 0).val < 1 := (i 0).isLt; show (i 0).val < 5; omega⟩
  | ⟨1, _⟩ => ⟨(i 1).val, (i 1).isLt⟩
theorem val_main_v33_apply (x4 : (⟨S5x128, .f32⟩ : BufTy).Contents (Elt F)) (i : S1x128.Idx) :
    val_main_v33 (F := F) x4 i = x4 (idx_main_v33 i) := by
  unfold val_main_v33
  exact extractStridedSlice_apply ![0, 0] x4 slices_S5x128_S1x128_0_0 i (idx_main_v33 i) (fun a => match a with
    | ⟨0, _⟩ => by show (i 0).val = 0 + (i 0).val; omega
    | ⟨1, _⟩ => by show (i 1).val = 0 + (i 1).val; omega)
def val_main_v34 (x4 : (⟨S5x128, .f32⟩ : BufTy).Contents (Elt F)) : (⟨S128, .f32⟩ : BufTy).Contents (Elt F) :=
  shapeCast _ (val_main_v33 (F := F) x4) shapeCasts_S1x128_S128
abbrev idx_main_v34 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v34_apply (x4 : (⟨S5x128, .f32⟩ : BufTy).Contents (Elt F)) (i : S128.Idx) :
    val_main_v34 (F := F) x4 i = val_main_v33 (F := F) x4 (idx_main_v34 i) := by
  unfold val_main_v34
  generalize val_main_v33 (F := F) x4 = y
  exact shapeCast_apply y shapeCasts_S1x128_S128 i (idx_main_v34 i)
    (by rewrite [Shape.rowMajor_val_two, Shape.rowMajor_val_one]; have h0 : (i 0).val < 128 := (i 0).isLt; show 0 * 128 + ((i 0).val) % 128 = (i 0).val; omega)
def val_main_v35 (x4 : (⟨S5x128, .f32⟩ : BufTy).Contents (Elt F)) : (⟨S1x128, .f32⟩ : BufTy).Contents (Elt F) :=
  broadcastInDim S1x128 ![1] bcast_S128_S1x128_1 (val_main_v34 (F := F) x4)
abbrev idx_main_v35 (i : S1x128.Idx) : S128.Idx := fun a => match a with
  | ⟨0, _⟩ => ⟨(i 1).val, (i 1).isLt⟩
theorem val_main_v35_apply (x4 : (⟨S5x128, .f32⟩ : BufTy).Contents (Elt F)) (i : S1x128.Idx) :
    val_main_v35 (F := F) x4 i = val_main_v34 (F := F) x4 (idx_main_v35 i) := by
  unfold val_main_v35
  generalize val_main_v34 (F := F) x4 = y
  exact broadcastInDim_apply _ bcast_S128_S1x128_1 y i (idx_main_v35 i) (fun a => match a with
    | ⟨0, _⟩ => by show (i 1).val = if (128 : Nat) = 1 then 0 else (i 1).val; rw [if_neg (by decide)])
def val_main_v36 (x4 : (⟨S5x128, .f32⟩ : BufTy).Contents (Elt F)) : (⟨S100000x128, .f32⟩ : BufTy).Contents (Elt F) :=
  broadcastInDim S100000x128 ![0, 1] bcast_S1x128_S100000x128_0_1 (val_main_v35 (F := F) x4)
abbrev idx_main_v36 (i : S100000x128.Idx) : S1x128.Idx := fun a => match a with
  | ⟨0, _⟩ => ⟨0, Nat.one_pos⟩
  | ⟨1, _⟩ => ⟨(i 1).val, (i 1).isLt⟩
theorem val_main_v36_apply (x4 : (⟨S5x128, .f32⟩ : BufTy).Contents (Elt F)) (i : S100000x128.Idx) :
    val_main_v36 (F := F) x4 i = val_main_v35 (F := F) x4 (idx_main_v36 i) := by
  unfold val_main_v36
  generalize val_main_v35 (F := F) x4 = y
  exact broadcastInDim_apply _ bcast_S1x128_S100000x128_0_1 y i (idx_main_v36 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v37 (x0 : (⟨S100000x128, .f32⟩ : BufTy).Contents (Elt F)) (x3 : (⟨S5x128x128, .f32⟩ : BufTy).Contents (Elt F)) (x4 : (⟨S5x128, .f32⟩ : BufTy).Contents (Elt F)) : (⟨S100000x128, .f32⟩ : BufTy).Contents (Elt F) :=
  addf (val_main_v32 (F := F) x0 x3) (val_main_v36 (F := F) x4)
theorem val_main_v37_apply (x0 : (⟨S100000x128, .f32⟩ : BufTy).Contents (Elt F)) (x3 : (⟨S5x128x128, .f32⟩ : BufTy).Contents (Elt F)) (x4 : (⟨S5x128, .f32⟩ : BufTy).Contents (Elt F)) (i : S100000x128.Idx) :
    val_main_v37 (F := F) x0 x3 x4 i = FloatOps.addf (val_main_v32 (F := F) x0 x3 i) (val_main_v36 (F := F) x4 i) := rfl
def val_main_c_6 : (⟨S_, .i32⟩ : BufTy).Contents (Elt F) :=
  constantI S_ 32 0#32
def val_main_v38 : (⟨S600000, .i32⟩ : BufTy).Contents (Elt F) :=
  broadcastInDim S600000 ![] bcast_S_S600000 (val_main_c_6 (F := F))
def val_main_v39 (x1 : (⟨S2x600000, .i32⟩ : BufTy).Contents (Elt F)) : (⟨S600000, .i1⟩ : BufTy).Contents (Elt F) :=
  cmpi .slt (val_main_v2 (F := F) x1) (val_main_v38 (F := F))
def val_main_c_7 : (⟨S_, .i32⟩ : BufTy).Contents (Elt F) :=
  constantI S_ 32 100000#32
def val_main_v40 : (⟨S600000, .i32⟩ : BufTy).Contents (Elt F) :=
  broadcastInDim S600000 ![] bcast_S_S600000 (val_main_c_7 (F := F))
def val_main_v41 (x1 : (⟨S2x600000, .i32⟩ : BufTy).Contents (Elt F)) : (⟨S600000, .i32⟩ : BufTy).Contents (Elt F) :=
  addi (val_main_v2 (F := F) x1) (val_main_v40 (F := F))
def val_main_v42 (x1 : (⟨S2x600000, .i32⟩ : BufTy).Contents (Elt F)) : (⟨S600000, .i32⟩ : BufTy).Contents (Elt F) :=
  select (val_main_v39 (F := F) x1) (val_main_v41 (F := F) x1) (val_main_v2 (F := F) x1)
def val_main_v43 (x1 : (⟨S2x600000, .i32⟩ : BufTy).Contents (Elt F)) : (⟨S600000x1, .i32⟩ : BufTy).Contents (Elt F) :=
  broadcastInDim S600000x1 ![0] bcast_S600000_S600000x1_0 (val_main_v42 (F := F) x1)
def val_main_v44 (x0 : (⟨S100000x128, .f32⟩ : BufTy).Contents (Elt F)) (x1 : (⟨S2x600000, .i32⟩ : BufTy).Contents (Elt F)) (x3 : (⟨S5x128x128, .f32⟩ : BufTy).Contents (Elt F)) (x4 : (⟨S5x128, .f32⟩ : BufTy).Contents (Elt F)) : (⟨S600000x128, .f32⟩ : BufTy).Contents (Elt F) :=
  Host.gather gather_S100000x128_S600000x1_S600000x128_1_0_n_n_0_1_1128 (val_main_v37 (F := F) x0 x3 x4) (val_main_v43 (F := F) x1)
def val_main_v45 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) : (⟨S600000x128, .f32⟩ : BufTy).Contents (Elt F) :=
  addf (val_main_v44 (F := F) x0 x1 x3 x4) (val_main_v0 (F := F) x2)
theorem val_main_v45_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) (i : S600000x128.Idx) :
    val_main_v45 (F := F) x0 x1 x2 x3 x4 i = FloatOps.addf (val_main_v44 (F := F) x0 x1 x3 x4 i) (val_main_v0 (F := F) x2 i) := rfl
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl
def val_main_call0_v0 : (⟨S600000x128, .f32⟩ : BufTy).Contents (Elt F) :=
  broadcastInDim S600000x128 ![] bcast_S_S600000x128 (val_main_call0_cst (F := F))
abbrev idx_main_call0_v0 (i : S600000x128.Idx) : S_.Idx := fun a => a.elim0
theorem val_main_call0_v0_apply (i : S600000x128.Idx) :
    val_main_call0_v0 (F := F) i = val_main_call0_cst (F := F) (idx_main_call0_v0 i) := by
  unfold val_main_call0_v0
  generalize val_main_call0_cst (F := F) = y
  exact broadcastInDim_apply _ bcast_S_S600000x128 y i (idx_main_call0_v0 i) (fun a => a.elim0)
def val_main_v46 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) : (⟨S600000x128, .f32⟩ : BufTy).Contents (Elt F) :=
  maximumf (val_main_v45 (F := F) x0 x1 x2 x3 x4) (val_main_call0_v0 (F := F))
theorem val_main_v46_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) (i : S600000x128.Idx) :
    val_main_v46 (F := F) x0 x1 x2 x3 x4 i = FloatOps.maximumf (val_main_v45 (F := F) x0 x1 x2 x3 x4 i) (val_main_call0_v0 (F := F) i) := rfl
def val_main_v47 (x1 : (⟨S2x600000, .i32⟩ : BufTy).Contents (Elt F)) : (⟨S600000x128, .f32⟩ : BufTy).Contents (Elt F) :=
  broadcastInDim S600000x128 ![0, 1] bcast_S600000x1_S600000x128_0_1 (val_main_v28 (F := F) x1)
abbrev idx_main_v47 (i : S600000x128.Idx) : S600000x1.Idx := fun a => match a with
  | ⟨0, _⟩ => ⟨(i 0).val, (i 0).isLt⟩
  | ⟨1, _⟩ => ⟨0, Nat.one_pos⟩
theorem val_main_v47_apply (x1 : (⟨S2x600000, .i32⟩ : BufTy).Contents (Elt F)) (i : S600000x128.Idx) :
    val_main_v47 (F := F) x1 i = val_main_v28 (F := F) x1 (idx_main_v47 i) := by
  unfold val_main_v47
  generalize val_main_v28 (F := F) x1 = y
  exact broadcastInDim_apply _ bcast_S600000x1_S600000x128_0_1 y i (idx_main_v47 i) (fun a => match a with
    | ⟨0, _⟩ => by show (i 0).val = if (600000 : Nat) = 1 then 0 else (i 0).val; rw [if_neg (by decide)]
    | ⟨1, _⟩ => by show 0 = if (1 : Nat) = 1 then 0 else (i 1).val; rw [if_pos rfl])
def val_main_v48 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) : (⟨S600000x128, .f32⟩ : BufTy).Contents (Elt F) :=
  mulf (val_main_v47 (F := F) x1) (val_main_v46 (F := F) x0 x1 x2 x3 x4)
theorem val_main_v48_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) (i : S600000x128.Idx) :
    val_main_v48 (F := F) x0 x1 x2 x3 x4 i = FloatOps.mulf (val_main_v47 (F := F) x1 i) (val_main_v46 (F := F) x0 x1 x2 x3 x4 i) := rfl
def val_main_cst_8 : (⟨S_, .f32⟩ : BufTy).Contents (Elt F) :=
  constant S_ .f32 0x00000000#32
def val_main_v49 : (⟨S100000x128, .f32⟩ : BufTy).Contents (Elt F) :=
  broadcastInDim S100000x128 ![] bcast_S_S100000x128 (val_main_cst_8 (F := F))
def val_main_v50 (x1 : (⟨S2x600000, .i32⟩ : BufTy).Contents (Elt F)) : (⟨S600000x1, .i32⟩ : BufTy).Contents (Elt F) :=
  broadcastInDim S600000x1 ![0] bcast_S600000_S600000x1_0 (val_main_v4 (F := F) x1)
def val_main_v51 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 : (⟨S5x128, .f32⟩ : BufTy).Contents (Elt F)) : (⟨S100000x128, .f32⟩ : BufTy).Contents (Elt F) :=
  Host.scatterAdd scatter_S100000x128_S600000x1_S600000x128_1_0_0_1 (val_main_v49 (F := F)) (val_main_v50 (F := F) x1) (val_main_v48 (F := F) x0 x1 x2 x3 x4)
def val_main_v52 (x5 : (⟨S5x128, .f32⟩ : BufTy).Contents (Elt F)) : (⟨S1x128, .f32⟩ : BufTy).Contents (Elt F) :=
  extractStridedSlice S1x128 ![0, 0] (x5) slices_S5x128_S1x128_0_0
abbrev idx_main_v52 (i : S1x128.Idx) : S5x128.Idx := fun a => match a with
  | ⟨0, _⟩ => ⟨(i 0).val, by have h0 : (i 0).val < 1 := (i 0).isLt; show (i 0).val < 5; omega⟩
  | ⟨1, _⟩ => ⟨(i 1).val, (i 1).isLt⟩
theorem val_main_v52_apply (x5 : (⟨S5x128, .f32⟩ : BufTy).Contents (Elt F)) (i : S1x128.Idx) :
    val_main_v52 (F := F) x5 i = x5 (idx_main_v52 i) := by
  unfold val_main_v52
  exact extractStridedSlice_apply ![0, 0] x5 slices_S5x128_S1x128_0_0 i (idx_main_v52 i) (fun a => match a with
    | ⟨0, _⟩ => by show (i 0).val = 0 + (i 0).val; omega
    | ⟨1, _⟩ => by show (i 1).val = 0 + (i 1).val; omega)
def val_main_v53 (x5 : (⟨S5x128, .f32⟩ : BufTy).Contents (Elt F)) : (⟨S128, .f32⟩ : BufTy).Contents (Elt F) :=
  shapeCast _ (val_main_v52 (F := F) x5) shapeCasts_S1x128_S128
abbrev idx_main_v53 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v53_apply (x5 : (⟨S5x128, .f32⟩ : BufTy).Contents (Elt F)) (i : S128.Idx) :
    val_main_v53 (F := F) x5 i = val_main_v52 (F := F) x5 (idx_main_v53 i) := by
  unfold val_main_v53
  generalize val_main_v52 (F := F) x5 = y
  exact shapeCast_apply y shapeCasts_S1x128_S128 i (idx_main_v53 i)
    (by rewrite [Shape.rowMajor_val_two, Shape.rowMajor_val_one]; have h0 : (i 0).val < 128 := (i 0).isLt; show 0 * 128 + ((i 0).val) % 128 = (i 0).val; omega)
def val_main_v54 (x5 : (⟨S5x128, .f32⟩ : BufTy).Contents (Elt F)) : (⟨S1x128, .f32⟩ : BufTy).Contents (Elt F) :=
  broadcastInDim S1x128 ![1] bcast_S128_S1x128_1 (val_main_v53 (F := F) x5)
abbrev idx_main_v54 (i : S1x128.Idx) : S128.Idx := fun a => match a with
  | ⟨0, _⟩ => ⟨(i 1).val, (i 1).isLt⟩
theorem val_main_v54_apply (x5 : (⟨S5x128, .f32⟩ : BufTy).Contents (Elt F)) (i : S1x128.Idx) :
    val_main_v54 (F := F) x5 i = val_main_v53 (F := F) x5 (idx_main_v54 i) := by
  unfold val_main_v54
  generalize val_main_v53 (F := F) x5 = y
  exact broadcastInDim_apply _ bcast_S128_S1x128_1 y i (idx_main_v54 i) (fun a => match a with
    | ⟨0, _⟩ => by show (i 1).val = if (128 : Nat) = 1 then 0 else (i 1).val; rw [if_neg (by decide)])
def val_main_v55 (x5 : (⟨S5x128, .f32⟩ : BufTy).Contents (Elt F)) : (⟨S100000x128, .f32⟩ : BufTy).Contents (Elt F) :=
  broadcastInDim S100000x128 ![0, 1] bcast_S1x128_S100000x128_0_1 (val_main_v54 (F := F) x5)
abbrev idx_main_v55 (i : S100000x128.Idx) : S1x128.Idx := fun a => match a with
  | ⟨0, _⟩ => ⟨0, Nat.one_pos⟩
  | ⟨1, _⟩ => ⟨(i 1).val, (i 1).isLt⟩
theorem val_main_v55_apply (x5 : (⟨S5x128, .f32⟩ : BufTy).Contents (Elt F)) (i : S100000x128.Idx) :
    val_main_v55 (F := F) x5 i = val_main_v54 (F := F) x5 (idx_main_v55 i) := by
  unfold val_main_v55
  generalize val_main_v54 (F := F) x5 = y
  exact broadcastInDim_apply _ bcast_S1x128_S100000x128_0_1 y i (idx_main_v55 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v56 (x0 : (⟨S100000x128, .f32⟩ : BufTy).Contents (Elt F)) (x3 : (⟨S5x128x128, .f32⟩ : BufTy).Contents (Elt F)) (x4 x5 : (⟨S5x128, .f32⟩ : BufTy).Contents (Elt F)) : (⟨S100000x128, .f32⟩ : BufTy).Contents (Elt F) :=
  addf (val_main_v37 (F := F) x0 x3 x4) (val_main_v55 (F := F) x5)
theorem val_main_v56_apply (x0 : (⟨S100000x128, .f32⟩ : BufTy).Contents (Elt F)) (x3 : (⟨S5x128x128, .f32⟩ : BufTy).Contents (Elt F)) (x4 x5 : (⟨S5x128, .f32⟩ : BufTy).Contents (Elt F)) (i : S100000x128.Idx) :
    val_main_v56 (F := F) x0 x3 x4 x5 i = FloatOps.addf (val_main_v37 (F := F) x0 x3 x4 i) (val_main_v55 (F := F) x5 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S100000x128, .f32⟩ : BufTy).Contents (Elt F) :=
  broadcastInDim S100000x128 ![] bcast_S_S100000x128 (val_main_call1_cst (F := F))
abbrev idx_main_call1_v0 (i : S100000x128.Idx) : S_.Idx := fun a => a.elim0
theorem val_main_call1_v0_apply (i : S100000x128.Idx) :
    val_main_call1_v0 (F := F) i = val_main_call1_cst (F := F) (idx_main_call1_v0 i) := by
  unfold val_main_call1_v0
  generalize val_main_call1_cst (F := F) = y
  exact broadcastInDim_apply _ bcast_S_S100000x128 y i (idx_main_call1_v0 i) (fun a => a.elim0)
def val_main_v57 (x0 : (⟨S100000x128, .f32⟩ : BufTy).Contents (Elt F)) (x3 : (⟨S5x128x128, .f32⟩ : BufTy).Contents (Elt F)) (x4 x5 : (⟨S5x128, .f32⟩ : BufTy).Contents (Elt F)) : (⟨S100000x128, .f32⟩ : BufTy).Contents (Elt F) :=
  maximumf (val_main_v56 (F := F) x0 x3 x4 x5) (val_main_call1_v0 (F := F))
theorem val_main_v57_apply (x0 : (⟨S100000x128, .f32⟩ : BufTy).Contents (Elt F)) (x3 : (⟨S5x128x128, .f32⟩ : BufTy).Contents (Elt F)) (x4 x5 : (⟨S5x128, .f32⟩ : BufTy).Contents (Elt F)) (i : S100000x128.Idx) :
    val_main_v57 (F := F) x0 x3 x4 x5 i = FloatOps.maximumf (val_main_v56 (F := F) x0 x3 x4 x5 i) (val_main_call1_v0 (F := F) i) := rfl
def val_main_v58 (x1 : (⟨S2x600000, .i32⟩ : BufTy).Contents (Elt F)) : (⟨S100000x1, .f32⟩ : BufTy).Contents (Elt F) :=
  broadcastInDim S100000x1 ![0] bcast_S100000_S100000x1_0 (val_main_v10 (F := F) x1)
abbrev idx_main_v58 (i : S100000x1.Idx) : S100000.Idx := fun a => match a with
  | ⟨0, _⟩ => ⟨(i 0).val, (i 0).isLt⟩
theorem val_main_v58_apply (x1 : (⟨S2x600000, .i32⟩ : BufTy).Contents (Elt F)) (i : S100000x1.Idx) :
    val_main_v58 (F := F) x1 i = val_main_v10 (F := F) x1 (idx_main_v58 i) := by
  unfold val_main_v58
  generalize val_main_v10 (F := F) x1 = y
  exact broadcastInDim_apply _ bcast_S100000_S100000x1_0 y i (idx_main_v58 i) (fun a => match a with
    | ⟨0, _⟩ => by show (i 0).val = if (100000 : Nat) = 1 then 0 else (i 0).val; rw [if_neg (by decide)])
def val_main_v59 (x1 : (⟨S2x600000, .i32⟩ : BufTy).Contents (Elt F)) : (⟨S100000x128, .f32⟩ : BufTy).Contents (Elt F) :=
  broadcastInDim S100000x128 ![0, 1] bcast_S100000x1_S100000x128_0_1 (val_main_v58 (F := F) x1)
abbrev idx_main_v59 (i : S100000x128.Idx) : S100000x1.Idx := fun a => match a with
  | ⟨0, _⟩ => ⟨(i 0).val, (i 0).isLt⟩
  | ⟨1, _⟩ => ⟨0, Nat.one_pos⟩
theorem val_main_v59_apply (x1 : (⟨S2x600000, .i32⟩ : BufTy).Contents (Elt F)) (i : S100000x128.Idx) :
    val_main_v59 (F := F) x1 i = val_main_v58 (F := F) x1 (idx_main_v59 i) := by
  unfold val_main_v59
  generalize val_main_v58 (F := F) x1 = y
  exact broadcastInDim_apply _ bcast_S100000x1_S100000x128_0_1 y i (idx_main_v59 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
def val_main_v60 (x0 : (⟨S100000x128, .f32⟩ : BufTy).Contents (Elt F)) (x1 : (⟨S2x600000, .i32⟩ : BufTy).Contents (Elt F)) (x3 : (⟨S5x128x128, .f32⟩ : BufTy).Contents (Elt F)) (x4 x5 : (⟨S5x128, .f32⟩ : BufTy).Contents (Elt F)) : (⟨S100000x128, .f32⟩ : BufTy).Contents (Elt F) :=
  Host.divf (val_main_v57 (F := F) x0 x3 x4 x5) (val_main_v59 (F := F) x1)
theorem val_main_v60_apply (x0 : (⟨S100000x128, .f32⟩ : BufTy).Contents (Elt F)) (x1 : (⟨S2x600000, .i32⟩ : BufTy).Contents (Elt F)) (x3 : (⟨S5x128x128, .f32⟩ : BufTy).Contents (Elt F)) (x4 x5 : (⟨S5x128, .f32⟩ : BufTy).Contents (Elt F)) (i : S100000x128.Idx) :
    val_main_v60 (F := F) x0 x1 x3 x4 x5 i = FloatOps.hostDivf (val_main_v57 (F := F) x0 x3 x4 x5 i) (val_main_v59 (F := F) x1 i) := rfl
def val_main_v61 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 : (⟨S5x128, .f32⟩ : BufTy).Contents (Elt F)) : (⟨S100000x128, .f32⟩ : BufTy).Contents (Elt F) :=
  addf (val_main_v51 (F := F) x0 x1 x2 x3 x4) (val_main_v60 (F := F) x0 x1 x3 x4 x5)
theorem val_main_v61_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 : (⟨S5x128, .f32⟩ : BufTy).Contents (Elt F)) (i : S100000x128.Idx) :
    val_main_v61 (F := F) x0 x1 x2 x3 x4 x5 i = FloatOps.addf (val_main_v51 (F := F) x0 x1 x2 x3 x4 i) (val_main_v60 (F := F) x0 x1 x3 x4 x5 i) := rfl
def val_main_v62 (x6 : (⟨S5x128, .f32⟩ : BufTy).Contents (Elt F)) : (⟨S1x128, .f32⟩ : BufTy).Contents (Elt F) :=
  extractStridedSlice S1x128 ![0, 0] (x6) slices_S5x128_S1x128_0_0
abbrev idx_main_v62 (i : S1x128.Idx) : S5x128.Idx := fun a => match a with
  | ⟨0, _⟩ => ⟨(i 0).val, by have h0 : (i 0).val < 1 := (i 0).isLt; show (i 0).val < 5; omega⟩
  | ⟨1, _⟩ => ⟨(i 1).val, (i 1).isLt⟩
theorem val_main_v62_apply (x6 : (⟨S5x128, .f32⟩ : BufTy).Contents (Elt F)) (i : S1x128.Idx) :
    val_main_v62 (F := F) x6 i = x6 (idx_main_v62 i) := by
  unfold val_main_v62
  exact extractStridedSlice_apply ![0, 0] x6 slices_S5x128_S1x128_0_0 i (idx_main_v62 i) (fun a => match a with
    | ⟨0, _⟩ => by show (i 0).val = 0 + (i 0).val; omega
    | ⟨1, _⟩ => by show (i 1).val = 0 + (i 1).val; omega)
def val_main_v63 (x6 : (⟨S5x128, .f32⟩ : BufTy).Contents (Elt F)) : (⟨S128, .f32⟩ : BufTy).Contents (Elt F) :=
  shapeCast _ (val_main_v62 (F := F) x6) shapeCasts_S1x128_S128
abbrev idx_main_v63 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v63_apply (x6 : (⟨S5x128, .f32⟩ : BufTy).Contents (Elt F)) (i : S128.Idx) :
    val_main_v63 (F := F) x6 i = val_main_v62 (F := F) x6 (idx_main_v63 i) := by
  unfold val_main_v63
  generalize val_main_v62 (F := F) x6 = y
  exact shapeCast_apply y shapeCasts_S1x128_S128 i (idx_main_v63 i)
    (by rewrite [Shape.rowMajor_val_two, Shape.rowMajor_val_one]; have h0 : (i 0).val < 128 := (i 0).isLt; show 0 * 128 + ((i 0).val) % 128 = (i 0).val; omega)
def val_main_v64 (x8 : (⟨S5x128, .f32⟩ : BufTy).Contents (Elt F)) : (⟨S1x128, .f32⟩ : BufTy).Contents (Elt F) :=
  extractStridedSlice S1x128 ![0, 0] (x8) slices_S5x128_S1x128_0_0
abbrev idx_main_v64 (i : S1x128.Idx) : S5x128.Idx := fun a => match a with
  | ⟨0, _⟩ => ⟨(i 0).val, by have h0 : (i 0).val < 1 := (i 0).isLt; show (i 0).val < 5; omega⟩
  | ⟨1, _⟩ => ⟨(i 1).val, (i 1).isLt⟩
theorem val_main_v64_apply (x8 : (⟨S5x128, .f32⟩ : BufTy).Contents (Elt F)) (i : S1x128.Idx) :
    val_main_v64 (F := F) x8 i = x8 (idx_main_v64 i) := by
  unfold val_main_v64
  exact extractStridedSlice_apply ![0, 0] x8 slices_S5x128_S1x128_0_0 i (idx_main_v64 i) (fun a => match a with
    | ⟨0, _⟩ => by show (i 0).val = 0 + (i 0).val; omega
    | ⟨1, _⟩ => by show (i 1).val = 0 + (i 1).val; omega)
def val_main_v65 (x8 : (⟨S5x128, .f32⟩ : BufTy).Contents (Elt F)) : (⟨S128, .f32⟩ : BufTy).Contents (Elt F) :=
  shapeCast _ (val_main_v64 (F := F) x8) shapeCasts_S1x128_S128
abbrev idx_main_v65 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v65_apply (x8 : (⟨S5x128, .f32⟩ : BufTy).Contents (Elt F)) (i : S128.Idx) :
    val_main_v65 (F := F) x8 i = val_main_v64 (F := F) x8 (idx_main_v65 i) := by
  unfold val_main_v65
  generalize val_main_v64 (F := F) x8 = y
  exact shapeCast_apply y shapeCasts_S1x128_S128 i (idx_main_v65 i)
    (by rewrite [Shape.rowMajor_val_two, Shape.rowMajor_val_one]; have h0 : (i 0).val < 128 := (i 0).isLt; show 0 * 128 + ((i 0).val) % 128 = (i 0).val; omega)
def val_main_v66 (x8 : (⟨S5x128, .f32⟩ : BufTy).Contents (Elt F)) : (⟨S1x128, .f32⟩ : BufTy).Contents (Elt F) :=
  broadcastInDim S1x128 ![1] bcast_S128_S1x128_1 (val_main_v65 (F := F) x8)
abbrev idx_main_v66 (i : S1x128.Idx) : S128.Idx := fun a => match a with
  | ⟨0, _⟩ => ⟨(i 1).val, (i 1).isLt⟩
theorem val_main_v66_apply (x8 : (⟨S5x128, .f32⟩ : BufTy).Contents (Elt F)) (i : S1x128.Idx) :
    val_main_v66 (F := F) x8 i = val_main_v65 (F := F) x8 (idx_main_v66 i) := by
  unfold val_main_v66
  generalize val_main_v65 (F := F) x8 = y
  exact broadcastInDim_apply _ bcast_S128_S1x128_1 y i (idx_main_v66 i) (fun a => match a with
    | ⟨0, _⟩ => by show (i 1).val = if (128 : Nat) = 1 then 0 else (i 1).val; rw [if_neg (by decide)])
def val_main_v67 (x8 : (⟨S5x128, .f32⟩ : BufTy).Contents (Elt F)) : (⟨S100000x128, .f32⟩ : BufTy).Contents (Elt F) :=
  broadcastInDim S100000x128 ![0, 1] bcast_S1x128_S100000x128_0_1 (val_main_v66 (F := F) x8)
abbrev idx_main_v67 (i : S100000x128.Idx) : S1x128.Idx := fun a => match a with
  | ⟨0, _⟩ => ⟨0, Nat.one_pos⟩
  | ⟨1, _⟩ => ⟨(i 1).val, (i 1).isLt⟩
theorem val_main_v67_apply (x8 : (⟨S5x128, .f32⟩ : BufTy).Contents (Elt F)) (i : S100000x128.Idx) :
    val_main_v67 (F := F) x8 i = val_main_v66 (F := F) x8 (idx_main_v67 i) := by
  unfold val_main_v67
  generalize val_main_v66 (F := F) x8 = y
  exact broadcastInDim_apply _ bcast_S1x128_S100000x128_0_1 y i (idx_main_v67 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v68 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x8 : (⟨S5x128, .f32⟩ : BufTy).Contents (Elt F)) : (⟨S100000x128, .f32⟩ : BufTy).Contents (Elt F) :=
  subf (val_main_v61 (F := F) x0 x1 x2 x3 x4 x5) (val_main_v67 (F := F) x8)
theorem val_main_v68_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x8 : (⟨S5x128, .f32⟩ : BufTy).Contents (Elt F)) (i : S100000x128.Idx) :
    val_main_v68 (F := F) x0 x1 x2 x3 x4 x5 x8 i = FloatOps.subf (val_main_v61 (F := F) x0 x1 x2 x3 x4 x5 i) (val_main_v67 (F := F) x8 i) := rfl
def val_main_v69 (x6 : (⟨S5x128, .f32⟩ : BufTy).Contents (Elt F)) : (⟨S1x128, .f32⟩ : BufTy).Contents (Elt F) :=
  broadcastInDim S1x128 ![1] bcast_S128_S1x128_1 (val_main_v63 (F := F) x6)
abbrev idx_main_v69 (i : S1x128.Idx) : S128.Idx := fun a => match a with
  | ⟨0, _⟩ => ⟨(i 1).val, (i 1).isLt⟩
theorem val_main_v69_apply (x6 : (⟨S5x128, .f32⟩ : BufTy).Contents (Elt F)) (i : S1x128.Idx) :
    val_main_v69 (F := F) x6 i = val_main_v63 (F := F) x6 (idx_main_v69 i) := by
  unfold val_main_v69
  generalize val_main_v63 (F := F) x6 = y
  exact broadcastInDim_apply _ bcast_S128_S1x128_1 y i (idx_main_v69 i) (fun a => match a with
    | ⟨0, _⟩ => by show (i 1).val = if (128 : Nat) = 1 then 0 else (i 1).val; rw [if_neg (by decide)])
def val_main_v70 (x6 : (⟨S5x128, .f32⟩ : BufTy).Contents (Elt F)) : (⟨S100000x128, .f32⟩ : BufTy).Contents (Elt F) :=
  broadcastInDim S100000x128 ![0, 1] bcast_S1x128_S100000x128_0_1 (val_main_v69 (F := F) x6)
abbrev idx_main_v70 (i : S100000x128.Idx) : S1x128.Idx := fun a => match a with
  | ⟨0, _⟩ => ⟨0, Nat.one_pos⟩
  | ⟨1, _⟩ => ⟨(i 1).val, (i 1).isLt⟩
theorem val_main_v70_apply (x6 : (⟨S5x128, .f32⟩ : BufTy).Contents (Elt F)) (i : S100000x128.Idx) :
    val_main_v70 (F := F) x6 i = val_main_v69 (F := F) x6 (idx_main_v70 i) := by
  unfold val_main_v70
  generalize val_main_v69 (F := F) x6 = y
  exact broadcastInDim_apply _ bcast_S1x128_S100000x128_0_1 y i (idx_main_v70 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v71 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x8 : (⟨S5x128, .f32⟩ : BufTy).Contents (Elt F)) : (⟨S100000x128, .f32⟩ : BufTy).Contents (Elt F) :=
  mulf (val_main_v70 (F := F) x6) (val_main_v68 (F := F) x0 x1 x2 x3 x4 x5 x8)
theorem val_main_v71_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x8 : (⟨S5x128, .f32⟩ : BufTy).Contents (Elt F)) (i : S100000x128.Idx) :
    val_main_v71 (F := F) x0 x1 x2 x3 x4 x5 x6 x8 i = FloatOps.mulf (val_main_v70 (F := F) x6 i) (val_main_v68 (F := F) x0 x1 x2 x3 x4 x5 x8 i) := rfl
def val_main_v72 (x9 : (⟨S5x128, .f32⟩ : BufTy).Contents (Elt F)) : (⟨S1x128, .f32⟩ : BufTy).Contents (Elt F) :=
  extractStridedSlice S1x128 ![0, 0] (x9) slices_S5x128_S1x128_0_0
abbrev idx_main_v72 (i : S1x128.Idx) : S5x128.Idx := fun a => match a with
  | ⟨0, _⟩ => ⟨(i 0).val, by have h0 : (i 0).val < 1 := (i 0).isLt; show (i 0).val < 5; omega⟩
  | ⟨1, _⟩ => ⟨(i 1).val, (i 1).isLt⟩
theorem val_main_v72_apply (x9 : (⟨S5x128, .f32⟩ : BufTy).Contents (Elt F)) (i : S1x128.Idx) :
    val_main_v72 (F := F) x9 i = x9 (idx_main_v72 i) := by
  unfold val_main_v72
  exact extractStridedSlice_apply ![0, 0] x9 slices_S5x128_S1x128_0_0 i (idx_main_v72 i) (fun a => match a with
    | ⟨0, _⟩ => by show (i 0).val = 0 + (i 0).val; omega
    | ⟨1, _⟩ => by show (i 1).val = 0 + (i 1).val; omega)
def val_main_v73 (x9 : (⟨S5x128, .f32⟩ : BufTy).Contents (Elt F)) : (⟨S128, .f32⟩ : BufTy).Contents (Elt F) :=
  shapeCast _ (val_main_v72 (F := F) x9) shapeCasts_S1x128_S128
abbrev idx_main_v73 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v73_apply (x9 : (⟨S5x128, .f32⟩ : BufTy).Contents (Elt F)) (i : S128.Idx) :
    val_main_v73 (F := F) x9 i = val_main_v72 (F := F) x9 (idx_main_v73 i) := by
  unfold val_main_v73
  generalize val_main_v72 (F := F) x9 = y
  exact shapeCast_apply y shapeCasts_S1x128_S128 i (idx_main_v73 i)
    (by rewrite [Shape.rowMajor_val_two, Shape.rowMajor_val_one]; have h0 : (i 0).val < 128 := (i 0).isLt; show 0 * 128 + ((i 0).val) % 128 = (i 0).val; omega)
def val_main_cst_9 : (⟨S_, .f32⟩ : BufTy).Contents (Elt F) :=
  constant S_ .f32 0x3727C5AC#32
theorem val_main_cst_9_apply (i : S_.Idx) :
    val_main_cst_9 (F := F) i = FloatOps.ofBits .f32 0x3727C5AC#32 := rfl
def val_main_v74 : (⟨S128, .f32⟩ : BufTy).Contents (Elt F) :=
  broadcastInDim S128 ![] bcast_S_S128 (val_main_cst_9 (F := F))
abbrev idx_main_v74 (i : S128.Idx) : S_.Idx := fun a => a.elim0
theorem val_main_v74_apply (i : S128.Idx) :
    val_main_v74 (F := F) i = val_main_cst_9 (F := F) (idx_main_v74 i) := by
  unfold val_main_v74
  generalize val_main_cst_9 (F := F) = y
  exact broadcastInDim_apply _ bcast_S_S128 y i (idx_main_v74 i) (fun a => a.elim0)
def val_main_v75 (x9 : (⟨S5x128, .f32⟩ : BufTy).Contents (Elt F)) : (⟨S128, .f32⟩ : BufTy).Contents (Elt F) :=
  addf (val_main_v73 (F := F) x9) (val_main_v74 (F := F))
theorem val_main_v75_apply (x9 : (⟨S5x128, .f32⟩ : BufTy).Contents (Elt F)) (i : S128.Idx) :
    val_main_v75 (F := F) x9 i = FloatOps.addf (val_main_v73 (F := F) x9 i) (val_main_v74 (F := F) i) := rfl
def val_main_v76 (x9 : (⟨S5x128, .f32⟩ : BufTy).Contents (Elt F)) : (⟨S128, .f32⟩ : BufTy).Contents (Elt F) :=
  Host.sqrt (val_main_v75 (F := F) x9)
theorem val_main_v76_apply (x9 : (⟨S5x128, .f32⟩ : BufTy).Contents (Elt F)) (i : S128.Idx) :
    val_main_v76 (F := F) x9 i = FloatOps.hostUnary .sqrt (val_main_v75 (F := F) x9 i) := rfl
def val_main_v77 (x9 : (⟨S5x128, .f32⟩ : BufTy).Contents (Elt F)) : (⟨S1x128, .f32⟩ : BufTy).Contents (Elt F) :=
  broadcastInDim S1x128 ![1] bcast_S128_S1x128_1 (val_main_v76 (F := F) x9)
abbrev idx_main_v77 (i : S1x128.Idx) : S128.Idx := fun a => match a with
  | ⟨0, _⟩ => ⟨(i 1).val, (i 1).isLt⟩
theorem val_main_v77_apply (x9 : (⟨S5x128, .f32⟩ : BufTy).Contents (Elt F)) (i : S1x128.Idx) :
    val_main_v77 (F := F) x9 i = val_main_v76 (F := F) x9 (idx_main_v77 i) := by
  unfold val_main_v77
  generalize val_main_v76 (F := F) x9 = y
  exact broadcastInDim_apply _ bcast_S128_S1x128_1 y i (idx_main_v77 i) (fun a => match a with
    | ⟨0, _⟩ => by show (i 1).val = if (128 : Nat) = 1 then 0 else (i 1).val; rw [if_neg (by decide)])
def val_main_v78 (x9 : (⟨S5x128, .f32⟩ : BufTy).Contents (Elt F)) : (⟨S100000x128, .f32⟩ : BufTy).Contents (Elt F) :=
  broadcastInDim S100000x128 ![0, 1] bcast_S1x128_S100000x128_0_1 (val_main_v77 (F := F) x9)
abbrev idx_main_v78 (i : S100000x128.Idx) : S1x128.Idx := fun a => match a with
  | ⟨0, _⟩ => ⟨0, Nat.one_pos⟩
  | ⟨1, _⟩ => ⟨(i 1).val, (i 1).isLt⟩
theorem val_main_v78_apply (x9 : (⟨S5x128, .f32⟩ : BufTy).Contents (Elt F)) (i : S100000x128.Idx) :
    val_main_v78 (F := F) x9 i = val_main_v77 (F := F) x9 (idx_main_v78 i) := by
  unfold val_main_v78
  generalize val_main_v77 (F := F) x9 = y
  exact broadcastInDim_apply _ bcast_S1x128_S100000x128_0_1 y i (idx_main_v78 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v79 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x8 x9 : (⟨S5x128, .f32⟩ : BufTy).Contents (Elt F)) : (⟨S100000x128, .f32⟩ : BufTy).Contents (Elt F) :=
  Host.divf (val_main_v71 (F := F) x0 x1 x2 x3 x4 x5 x6 x8) (val_main_v78 (F := F) x9)
theorem val_main_v79_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x8 x9 : (⟨S5x128, .f32⟩ : BufTy).Contents (Elt F)) (i : S100000x128.Idx) :
    val_main_v79 (F := F) x0 x1 x2 x3 x4 x5 x6 x8 x9 i = FloatOps.hostDivf (val_main_v71 (F := F) x0 x1 x2 x3 x4 x5 x6 x8 i) (val_main_v78 (F := F) x9 i) := rfl
def val_main_v80 (x7 : (⟨S5x128, .f32⟩ : BufTy).Contents (Elt F)) : (⟨S1x128, .f32⟩ : BufTy).Contents (Elt F) :=
  extractStridedSlice S1x128 ![0, 0] (x7) slices_S5x128_S1x128_0_0
abbrev idx_main_v80 (i : S1x128.Idx) : S5x128.Idx := fun a => match a with
  | ⟨0, _⟩ => ⟨(i 0).val, by have h0 : (i 0).val < 1 := (i 0).isLt; show (i 0).val < 5; omega⟩
  | ⟨1, _⟩ => ⟨(i 1).val, (i 1).isLt⟩
theorem val_main_v80_apply (x7 : (⟨S5x128, .f32⟩ : BufTy).Contents (Elt F)) (i : S1x128.Idx) :
    val_main_v80 (F := F) x7 i = x7 (idx_main_v80 i) := by
  unfold val_main_v80
  exact extractStridedSlice_apply ![0, 0] x7 slices_S5x128_S1x128_0_0 i (idx_main_v80 i) (fun a => match a with
    | ⟨0, _⟩ => by show (i 0).val = 0 + (i 0).val; omega
    | ⟨1, _⟩ => by show (i 1).val = 0 + (i 1).val; omega)
def val_main_v81 (x7 : (⟨S5x128, .f32⟩ : BufTy).Contents (Elt F)) : (⟨S128, .f32⟩ : BufTy).Contents (Elt F) :=
  shapeCast _ (val_main_v80 (F := F) x7) shapeCasts_S1x128_S128
abbrev idx_main_v81 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v81_apply (x7 : (⟨S5x128, .f32⟩ : BufTy).Contents (Elt F)) (i : S128.Idx) :
    val_main_v81 (F := F) x7 i = val_main_v80 (F := F) x7 (idx_main_v81 i) := by
  unfold val_main_v81
  generalize val_main_v80 (F := F) x7 = y
  exact shapeCast_apply y shapeCasts_S1x128_S128 i (idx_main_v81 i)
    (by rewrite [Shape.rowMajor_val_two, Shape.rowMajor_val_one]; have h0 : (i 0).val < 128 := (i 0).isLt; show 0 * 128 + ((i 0).val) % 128 = (i 0).val; omega)
def val_main_v82 (x7 : (⟨S5x128, .f32⟩ : BufTy).Contents (Elt F)) : (⟨S1x128, .f32⟩ : BufTy).Contents (Elt F) :=
  broadcastInDim S1x128 ![1] bcast_S128_S1x128_1 (val_main_v81 (F := F) x7)
abbrev idx_main_v82 (i : S1x128.Idx) : S128.Idx := fun a => match a with
  | ⟨0, _⟩ => ⟨(i 1).val, (i 1).isLt⟩
theorem val_main_v82_apply (x7 : (⟨S5x128, .f32⟩ : BufTy).Contents (Elt F)) (i : S1x128.Idx) :
    val_main_v82 (F := F) x7 i = val_main_v81 (F := F) x7 (idx_main_v82 i) := by
  unfold val_main_v82
  generalize val_main_v81 (F := F) x7 = y
  exact broadcastInDim_apply _ bcast_S128_S1x128_1 y i (idx_main_v82 i) (fun a => match a with
    | ⟨0, _⟩ => by show (i 1).val = if (128 : Nat) = 1 then 0 else (i 1).val; rw [if_neg (by decide)])
def val_main_v83 (x7 : (⟨S5x128, .f32⟩ : BufTy).Contents (Elt F)) : (⟨S100000x128, .f32⟩ : BufTy).Contents (Elt F) :=
  broadcastInDim S100000x128 ![0, 1] bcast_S1x128_S100000x128_0_1 (val_main_v82 (F := F) x7)
abbrev idx_main_v83 (i : S100000x128.Idx) : S1x128.Idx := fun a => match a with
  | ⟨0, _⟩ => ⟨0, Nat.one_pos⟩
  | ⟨1, _⟩ => ⟨(i 1).val, (i 1).isLt⟩
theorem val_main_v83_apply (x7 : (⟨S5x128, .f32⟩ : BufTy).Contents (Elt F)) (i : S100000x128.Idx) :
    val_main_v83 (F := F) x7 i = val_main_v82 (F := F) x7 (idx_main_v83 i) := by
  unfold val_main_v83
  generalize val_main_v82 (F := F) x7 = y
  exact broadcastInDim_apply _ bcast_S1x128_S100000x128_0_1 y i (idx_main_v83 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v84 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v79 (F := F) x0 x1 x2 x3 x4 x5 x6 x8 x9) (val_main_v83 (F := F) x7)
theorem val_main_v84_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v84 (F := F) x0 x1 x2 x3 x4 x5 x6 x7 x8 x9 i = FloatOps.addf (val_main_v79 (F := F) x0 x1 x2 x3 x4 x5 x6 x8 x9 i) (val_main_v83 (F := F) x7 i) := rfl
def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl
def val_main_call2_v0 : (⟨S100000x128, .f32⟩ : BufTy).Contents (Elt F) :=
  broadcastInDim S100000x128 ![] bcast_S_S100000x128 (val_main_call2_cst (F := F))
abbrev idx_main_call2_v0 (i : S100000x128.Idx) : S_.Idx := fun a => a.elim0
theorem val_main_call2_v0_apply (i : S100000x128.Idx) :
    val_main_call2_v0 (F := F) i = val_main_call2_cst (F := F) (idx_main_call2_v0 i) := by
  unfold val_main_call2_v0
  generalize val_main_call2_cst (F := F) = y
  exact broadcastInDim_apply _ bcast_S_S100000x128 y i (idx_main_call2_v0 i) (fun a => a.elim0)
def val_main_v85 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v84 (F := F) x0 x1 x2 x3 x4 x5 x6 x7 x8 x9) (val_main_call2_v0 (F := F))
theorem val_main_v85_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v85 (F := F) x0 x1 x2 x3 x4 x5 x6 x7 x8 x9 i = FloatOps.maximumf (val_main_v84 (F := F) x0 x1 x2 x3 x4 x5 x6 x7 x8 x9 i) (val_main_call2_v0 (F := F) i) := rfl
def val_main_v86 (x3 : (⟨S5x128x128, .f32⟩ : BufTy).Contents (Elt F)) : (⟨S1x128x128, .f32⟩ : BufTy).Contents (Elt F) :=
  extractStridedSlice S1x128x128 ![1, 0, 0] (x3) slices_S5x128x128_S1x128x128_1_0_0
abbrev idx_main_v86 (i : S1x128x128.Idx) : S5x128x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
  | ⟨2, _⟩ => ⟨(i 2).val, (i 2).isLt⟩
theorem val_main_v86_apply (x3 : (⟨S5x128x128, .f32⟩ : BufTy).Contents (Elt F)) (i : S1x128x128.Idx) :
    val_main_v86 (F := F) x3 i = x3 (idx_main_v86 i) := by
  unfold val_main_v86
  exact extractStridedSlice_apply ![1, 0, 0] x3 slices_S5x128x128_S1x128x128_1_0_0 i (idx_main_v86 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)
def val_main_v87 (x3 : (⟨S5x128x128, .f32⟩ : BufTy).Contents (Elt F)) : (⟨S128x128, .f32⟩ : BufTy).Contents (Elt F) :=
  shapeCast _ (val_main_v86 (F := F) x3) shapeCasts_S1x128x128_S128x128
abbrev idx_main_v87 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v87_apply (x3 : (⟨S5x128x128, .f32⟩ : BufTy).Contents (Elt F)) (i : S128x128.Idx) :
    val_main_v87 (F := F) x3 i = val_main_v86 (F := F) x3 (idx_main_v87 i) := by
  unfold val_main_v87
  generalize val_main_v86 (F := F) x3 = y
  exact shapeCast_apply y shapeCasts_S1x128x128_S128x128 i (idx_main_v87 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)
def val_main_v88 (x3 : (⟨S5x128x128, .f32⟩ : BufTy).Contents (Elt F)) : (⟨S128x128, .f32⟩ : BufTy).Contents (Elt F) :=
  transpose S128x128 [1, 0] (val_main_v87 (F := F) x3) transposes_S128x128_S128x128_1_0
abbrev idx_main_v88 (i : S128x128.Idx) : S128x128.Idx := fun a => match a with
  | ⟨0, _⟩ => ⟨(i 1).val, (i 1).isLt⟩
  | ⟨1, _⟩ => ⟨(i 0).val, (i 0).isLt⟩
theorem val_main_v88_apply (x3 : (⟨S5x128x128, .f32⟩ : BufTy).Contents (Elt F)) (i : S128x128.Idx) :
    val_main_v88 (F := F) x3 i = val_main_v87 (F := F) x3 (idx_main_v88 i) := by
  unfold val_main_v88
  generalize val_main_v87 (F := F) x3 = y
  exact transpose_apply [1, 0] y transposes_S128x128_S128x128_1_0 i (idx_main_v88 i) (fun b => match b with
    | ⟨0, _⟩ => rfl
    | ⟨1, _⟩ => rfl)
def val_main_v89 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.dotGeneral dot_S100000x128_S128x128_S100000x128_1_0_0_1_n_n none (val_main_v85 (F := F) x0 x1 x2 x3 x4 x5 x6 x7 x8 x9) (val_main_v88 (F := F) x3)
theorem lhs_main_v89_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v89_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v89_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v89_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v89 (i : S100000x128.Idx) (k : Fin 128) : S100000x128.Idx := fun a => match a with
  | ⟨0, _⟩ => ⟨(i 0).val, (i 0).isLt⟩
  | ⟨1, _⟩ => ⟨k.val, k.isLt⟩
abbrev ridx_main_v89 (i : S100000x128.Idx) (k : Fin 128) : S128x128.Idx := fun a => match a with
  | ⟨0, _⟩ => ⟨k.val, k.isLt⟩
  | ⟨1, _⟩ => ⟨(i 1).val, (i 1).isLt⟩
theorem val_main_v89_apply (x0 : (⟨S100000x128, .f32⟩ : BufTy).Contents (Elt Ideal)) (x1 : (⟨S2x600000, .i32⟩ : BufTy).Contents (Elt Ideal)) (x2 : (⟨S600000x128, .i32⟩ : BufTy).Contents (Elt Ideal)) (x3 : (⟨S5x128x128, .f32⟩ : BufTy).Contents (Elt Ideal)) (x4 x5 x6 x7 x8 x9 : (⟨S5x128, .f32⟩ : BufTy).Contents (Elt Ideal)) (i : S100000x128.Idx) :
    val_main_v89 (F := Ideal) x0 x1 x2 x3 x4 x5 x6 x7 x8 x9 i = ∑ k : Fin 128, (val_main_v85 (F := Ideal) x0 x1 x2 x3 x4 x5 x6 x7 x8 x9) (lidx_main_v89 i k) * (val_main_v88 (F := Ideal) x3) (ridx_main_v89 i k) := by
  unfold val_main_v89
  generalize val_main_v85 (F := Ideal) x0 x1 x2 x3 x4 x5 x6 x7 x8 x9 = y0
  generalize val_main_v88 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v89 i k := funext fun a => Fin.ext (by
    match a with
    | ⟨0, _⟩ => exact lhs_main_v89_0 _ _
    | ⟨1, _⟩ => exact (lhs_main_v89_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v89 i k := funext fun a => Fin.ext (by
    match a with
    | ⟨0, _⟩ => exact (rhs_main_v89_0 _ _).trans hk
    | ⟨1, _⟩ => exact rhs_main_v89_1 _ _)
  rw [el, er]
def val_main_v90 (x4 : (⟨S5x128, .f32⟩ : BufTy).Contents (Elt F)) : (⟨S1x128, .f32⟩ : BufTy).Contents (Elt F) :=
  extractStridedSlice S1x128 ![1, 0] (x4) slices_S5x128_S1x128_1_0
abbrev idx_main_v90 (i : S1x128.Idx) : S5x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
theorem val_main_v90_apply (x4 : (⟨S5x128, .f32⟩ : BufTy).Contents (Elt F)) (i : S1x128.Idx) :
    val_main_v90 (F := F) x4 i = x4 (idx_main_v90 i) := by
  unfold val_main_v90
  exact extractStridedSlice_apply ![1, 0] x4 slices_S5x128_S1x128_1_0 i (idx_main_v90 i) (fun a => match a with
    | ⟨0, _⟩ => by show 1 + (i 0).val = 1 + (i 0).val; omega
    | ⟨1, _⟩ => by show (i 1).val = 0 + (i 1).val; omega)
def val_main_v91 (x4 : (⟨S5x128, .f32⟩ : BufTy).Contents (Elt F)) : (⟨S128, .f32⟩ : BufTy).Contents (Elt F) :=
  shapeCast _ (val_main_v90 (F := F) x4) shapeCasts_S1x128_S128
abbrev idx_main_v91 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v91_apply (x4 : (⟨S5x128, .f32⟩ : BufTy).Contents (Elt F)) (i : S128.Idx) :
    val_main_v91 (F := F) x4 i = val_main_v90 (F := F) x4 (idx_main_v91 i) := by
  unfold val_main_v91
  generalize val_main_v90 (F := F) x4 = y
  exact shapeCast_apply y shapeCasts_S1x128_S128 i (idx_main_v91 i)
    (by rewrite [Shape.rowMajor_val_two, Shape.rowMajor_val_one]; have h0 : (i 0).val < 128 := (i 0).isLt; show 0 * 128 + ((i 0).val) % 128 = (i 0).val; omega)
def val_main_v92 (x4 : (⟨S5x128, .f32⟩ : BufTy).Contents (Elt F)) : (⟨S1x128, .f32⟩ : BufTy).Contents (Elt F) :=
  broadcastInDim S1x128 ![1] bcast_S128_S1x128_1 (val_main_v91 (F := F) x4)
abbrev idx_main_v92 (i : S1x128.Idx) : S128.Idx := fun a => match a with
  | ⟨0, _⟩ => ⟨(i 1).val, (i 1).isLt⟩
theorem val_main_v92_apply (x4 : (⟨S5x128, .f32⟩ : BufTy).Contents (Elt F)) (i : S1x128.Idx) :
    val_main_v92 (F := F) x4 i = val_main_v91 (F := F) x4 (idx_main_v92 i) := by
  unfold val_main_v92
  generalize val_main_v91 (F := F) x4 = y
  exact broadcastInDim_apply _ bcast_S128_S1x128_1 y i (idx_main_v92 i) (fun a => match a with
    | ⟨0, _⟩ => by show (i 1).val = if (128 : Nat) = 1 then 0 else (i 1).val; rw [if_neg (by decide)])
def val_main_v93 (x4 : (⟨S5x128, .f32⟩ : BufTy).Contents (Elt F)) : (⟨S100000x128, .f32⟩ : BufTy).Contents (Elt F) :=
  broadcastInDim S100000x128 ![0, 1] bcast_S1x128_S100000x128_0_1 (val_main_v92 (F := F) x4)
abbrev idx_main_v93 (i : S100000x128.Idx) : S1x128.Idx := fun a => match a with
  | ⟨0, _⟩ => ⟨0, Nat.one_pos⟩
  | ⟨1, _⟩ => ⟨(i 1).val, (i 1).isLt⟩
theorem val_main_v93_apply (x4 : (⟨S5x128, .f32⟩ : BufTy).Contents (Elt F)) (i : S100000x128.Idx) :
    val_main_v93 (F := F) x4 i = val_main_v92 (F := F) x4 (idx_main_v93 i) := by
  unfold val_main_v93
  generalize val_main_v92 (F := F) x4 = y
  exact broadcastInDim_apply _ bcast_S1x128_S100000x128_0_1 y i (idx_main_v93 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v94 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v89 (F := F) x0 x1 x2 x3 x4 x5 x6 x7 x8 x9) (val_main_v93 (F := F) x4)
theorem val_main_v94_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v94 (F := F) x0 x1 x2 x3 x4 x5 x6 x7 x8 x9 i = FloatOps.addf (val_main_v89 (F := F) x0 x1 x2 x3 x4 x5 x6 x7 x8 x9 i) (val_main_v93 (F := F) x4 i) := rfl
def val_main_c_10 : (⟨S_, .i32⟩ : BufTy).Contents (Elt F) :=
  constantI S_ 32 0#32
def val_main_v95 : (⟨S600000, .i32⟩ : BufTy).Contents (Elt F) :=
  broadcastInDim S600000 ![] bcast_S_S600000 (val_main_c_10 (F := F))
def val_main_v96 (x1 : (⟨S2x600000, .i32⟩ : BufTy).Contents (Elt F)) : (⟨S600000, .i1⟩ : BufTy).Contents (Elt F) :=
  cmpi .slt (val_main_v2 (F := F) x1) (val_main_v95 (F := F))
def val_main_c_11 : (⟨S_, .i32⟩ : BufTy).Contents (Elt F) :=
  constantI S_ 32 100000#32
def val_main_v97 : (⟨S600000, .i32⟩ : BufTy).Contents (Elt F) :=
  broadcastInDim S600000 ![] bcast_S_S600000 (val_main_c_11 (F := F))
def val_main_v98 (x1 : (⟨S2x600000, .i32⟩ : BufTy).Contents (Elt F)) : (⟨S600000, .i32⟩ : BufTy).Contents (Elt F) :=
  addi (val_main_v2 (F := F) x1) (val_main_v97 (F := F))
def val_main_v99 (x1 : (⟨S2x600000, .i32⟩ : BufTy).Contents (Elt F)) : (⟨S600000, .i32⟩ : BufTy).Contents (Elt F) :=
  select (val_main_v96 (F := F) x1) (val_main_v98 (F := F) x1) (val_main_v2 (F := F) x1)
def val_main_v100 (x1 : (⟨S2x600000, .i32⟩ : BufTy).Contents (Elt F)) : (⟨S600000x1, .i32⟩ : BufTy).Contents (Elt F) :=
  broadcastInDim S600000x1 ![0] bcast_S600000_S600000x1_0 (val_main_v99 (F := F) x1)
def val_main_v101 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  Host.gather gather_S100000x128_S600000x1_S600000x128_1_0_n_n_0_1_1128 (val_main_v94 (F := F) x0 x1 x2 x3 x4 x5 x6 x7 x8 x9) (val_main_v100 (F := F) x1)
def val_main_v102 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  addf (val_main_v101 (F := F) x0 x1 x2 x3 x4 x5 x6 x7 x8 x9) (val_main_v0 (F := F) x2)
theorem val_main_v102_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v102 (F := F) x0 x1 x2 x3 x4 x5 x6 x7 x8 x9 i = FloatOps.addf (val_main_v101 (F := F) x0 x1 x2 x3 x4 x5 x6 x7 x8 x9 i) (val_main_v0 (F := F) x2 i) := rfl
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl
def val_main_call3_v0 : (⟨S600000x128, .f32⟩ : BufTy).Contents (Elt F) :=
  broadcastInDim S600000x128 ![] bcast_S_S600000x128 (val_main_call3_cst (F := F))
abbrev idx_main_call3_v0 (i : S600000x128.Idx) : S_.Idx := fun a => a.elim0
theorem val_main_call3_v0_apply (i : S600000x128.Idx) :
    val_main_call3_v0 (F := F) i = val_main_call3_cst (F := F) (idx_main_call3_v0 i) := by
  unfold val_main_call3_v0
  generalize val_main_call3_cst (F := F) = y
  exact broadcastInDim_apply _ bcast_S_S600000x128 y i (idx_main_call3_v0 i) (fun a => a.elim0)
def val_main_v103 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  maximumf (val_main_v102 (F := F) x0 x1 x2 x3 x4 x5 x6 x7 x8 x9) (val_main_call3_v0 (F := F))
theorem val_main_v103_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v103 (F := F) x0 x1 x2 x3 x4 x5 x6 x7 x8 x9 i = FloatOps.maximumf (val_main_v102 (F := F) x0 x1 x2 x3 x4 x5 x6 x7 x8 x9 i) (val_main_call3_v0 (F := F) i) := rfl
def val_main_v104 (x1 : (⟨S2x600000, .i32⟩ : BufTy).Contents (Elt F)) : (⟨S600000x128, .f32⟩ : BufTy).Contents (Elt F) :=
  broadcastInDim S600000x128 ![0, 1] bcast_S600000x1_S600000x128_0_1 (val_main_v28 (F := F) x1)
abbrev idx_main_v104 (i : S600000x128.Idx) : S600000x1.Idx := fun a => match a with
  | ⟨0, _⟩ => ⟨(i 0).val, (i 0).isLt⟩
  | ⟨1, _⟩ => ⟨0, Nat.one_pos⟩
theorem val_main_v104_apply (x1 : (⟨S2x600000, .i32⟩ : BufTy).Contents (Elt F)) (i : S600000x128.Idx) :
    val_main_v104 (F := F) x1 i = val_main_v28 (F := F) x1 (idx_main_v104 i) := by
  unfold val_main_v104
  generalize val_main_v28 (F := F) x1 = y
  exact broadcastInDim_apply _ bcast_S600000x1_S600000x128_0_1 y i (idx_main_v104 i) (fun a => match a with
    | ⟨0, _⟩ => by show (i 0).val = if (600000 : Nat) = 1 then 0 else (i 0).val; rw [if_neg (by decide)]
    | ⟨1, _⟩ => by show 0 = if (1 : Nat) = 1 then 0 else (i 1).val; rw [if_pos rfl])
def val_main_v105 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  mulf (val_main_v104 (F := F) x1) (val_main_v103 (F := F) x0 x1 x2 x3 x4 x5 x6 x7 x8 x9)
theorem val_main_v105_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v105 (F := F) x0 x1 x2 x3 x4 x5 x6 x7 x8 x9 i = FloatOps.mulf (val_main_v104 (F := F) x1 i) (val_main_v103 (F := F) x0 x1 x2 x3 x4 x5 x6 x7 x8 x9 i) := rfl
def val_main_cst_12 : (⟨S_, .f32⟩ : BufTy).Contents (Elt F) :=
  constant S_ .f32 0x00000000#32
def val_main_v106 : (⟨S100000x128, .f32⟩ : BufTy).Contents (Elt F) :=
  broadcastInDim S100000x128 ![] bcast_S_S100000x128 (val_main_cst_12 (F := F))
def val_main_v107 (x1 : (⟨S2x600000, .i32⟩ : BufTy).Contents (Elt F)) : (⟨S600000x1, .i32⟩ : BufTy).Contents (Elt F) :=
  broadcastInDim S600000x1 ![0] bcast_S600000_S600000x1_0 (val_main_v4 (F := F) x1)
def val_main_v108 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.scatterAdd scatter_S100000x128_S600000x1_S600000x128_1_0_0_1 (val_main_v106 (F := F)) (val_main_v107 (F := F) x1) (val_main_v105 (F := F) x0 x1 x2 x3 x4 x5 x6 x7 x8 x9)
def val_main_v109 (x5 : (⟨S5x128, .f32⟩ : BufTy).Contents (Elt F)) : (⟨S1x128, .f32⟩ : BufTy).Contents (Elt F) :=
  extractStridedSlice S1x128 ![1, 0] (x5) slices_S5x128_S1x128_1_0
abbrev idx_main_v109 (i : S1x128.Idx) : S5x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
theorem val_main_v109_apply (x5 : (⟨S5x128, .f32⟩ : BufTy).Contents (Elt F)) (i : S1x128.Idx) :
    val_main_v109 (F := F) x5 i = x5 (idx_main_v109 i) := by
  unfold val_main_v109
  exact extractStridedSlice_apply ![1, 0] x5 slices_S5x128_S1x128_1_0 i (idx_main_v109 i) (fun a => match a with
    | ⟨0, _⟩ => by show 1 + (i 0).val = 1 + (i 0).val; omega
    | ⟨1, _⟩ => by show (i 1).val = 0 + (i 1).val; omega)
def val_main_v110 (x5 : (⟨S5x128, .f32⟩ : BufTy).Contents (Elt F)) : (⟨S128, .f32⟩ : BufTy).Contents (Elt F) :=
  shapeCast _ (val_main_v109 (F := F) x5) shapeCasts_S1x128_S128
abbrev idx_main_v110 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v110_apply (x5 : (⟨S5x128, .f32⟩ : BufTy).Contents (Elt F)) (i : S128.Idx) :
    val_main_v110 (F := F) x5 i = val_main_v109 (F := F) x5 (idx_main_v110 i) := by
  unfold val_main_v110
  generalize val_main_v109 (F := F) x5 = y
  exact shapeCast_apply y shapeCasts_S1x128_S128 i (idx_main_v110 i)
    (by rewrite [Shape.rowMajor_val_two, Shape.rowMajor_val_one]; have h0 : (i 0).val < 128 := (i 0).isLt; show 0 * 128 + ((i 0).val) % 128 = (i 0).val; omega)
def val_main_v111 (x5 : (⟨S5x128, .f32⟩ : BufTy).Contents (Elt F)) : (⟨S1x128, .f32⟩ : BufTy).Contents (Elt F) :=
  broadcastInDim S1x128 ![1] bcast_S128_S1x128_1 (val_main_v110 (F := F) x5)
abbrev idx_main_v111 (i : S1x128.Idx) : S128.Idx := fun a => match a with
  | ⟨0, _⟩ => ⟨(i 1).val, (i 1).isLt⟩
theorem val_main_v111_apply (x5 : (⟨S5x128, .f32⟩ : BufTy).Contents (Elt F)) (i : S1x128.Idx) :
    val_main_v111 (F := F) x5 i = val_main_v110 (F := F) x5 (idx_main_v111 i) := by
  unfold val_main_v111
  generalize val_main_v110 (F := F) x5 = y
  exact broadcastInDim_apply _ bcast_S128_S1x128_1 y i (idx_main_v111 i) (fun a => match a with
    | ⟨0, _⟩ => by show (i 1).val = if (128 : Nat) = 1 then 0 else (i 1).val; rw [if_neg (by decide)])
def val_main_v112 (x5 : (⟨S5x128, .f32⟩ : BufTy).Contents (Elt F)) : (⟨S100000x128, .f32⟩ : BufTy).Contents (Elt F) :=
  broadcastInDim S100000x128 ![0, 1] bcast_S1x128_S100000x128_0_1 (val_main_v111 (F := F) x5)
abbrev idx_main_v112 (i : S100000x128.Idx) : S1x128.Idx := fun a => match a with
  | ⟨0, _⟩ => ⟨0, Nat.one_pos⟩
  | ⟨1, _⟩ => ⟨(i 1).val, (i 1).isLt⟩
theorem val_main_v112_apply (x5 : (⟨S5x128, .f32⟩ : BufTy).Contents (Elt F)) (i : S100000x128.Idx) :
    val_main_v112 (F := F) x5 i = val_main_v111 (F := F) x5 (idx_main_v112 i) := by
  unfold val_main_v112
  generalize val_main_v111 (F := F) x5 = y
  exact broadcastInDim_apply _ bcast_S1x128_S100000x128_0_1 y i (idx_main_v112 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v113 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v94 (F := F) x0 x1 x2 x3 x4 x5 x6 x7 x8 x9) (val_main_v112 (F := F) x5)
theorem val_main_v113_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v113 (F := F) x0 x1 x2 x3 x4 x5 x6 x7 x8 x9 i = FloatOps.addf (val_main_v94 (F := F) x0 x1 x2 x3 x4 x5 x6 x7 x8 x9 i) (val_main_v112 (F := F) x5 i) := rfl
def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl
def val_main_call4_v0 : (⟨S100000x128, .f32⟩ : BufTy).Contents (Elt F) :=
  broadcastInDim S100000x128 ![] bcast_S_S100000x128 (val_main_call4_cst (F := F))
abbrev idx_main_call4_v0 (i : S100000x128.Idx) : S_.Idx := fun a => a.elim0
theorem val_main_call4_v0_apply (i : S100000x128.Idx) :
    val_main_call4_v0 (F := F) i = val_main_call4_cst (F := F) (idx_main_call4_v0 i) := by
  unfold val_main_call4_v0
  generalize val_main_call4_cst (F := F) = y
  exact broadcastInDim_apply _ bcast_S_S100000x128 y i (idx_main_call4_v0 i) (fun a => a.elim0)
def val_main_v114 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v113 (F := F) x0 x1 x2 x3 x4 x5 x6 x7 x8 x9) (val_main_call4_v0 (F := F))
theorem val_main_v114_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v114 (F := F) x0 x1 x2 x3 x4 x5 x6 x7 x8 x9 i = FloatOps.maximumf (val_main_v113 (F := F) x0 x1 x2 x3 x4 x5 x6 x7 x8 x9 i) (val_main_call4_v0 (F := F) i) := rfl
def val_main_v115 (x1 : (⟨S2x600000, .i32⟩ : BufTy).Contents (Elt F)) : (⟨S100000x1, .f32⟩ : BufTy).Contents (Elt F) :=
  broadcastInDim S100000x1 ![0] bcast_S100000_S100000x1_0 (val_main_v10 (F := F) x1)
abbrev idx_main_v115 (i : S100000x1.Idx) : S100000.Idx := fun a => match a with
  | ⟨0, _⟩ => ⟨(i 0).val, (i 0).isLt⟩
theorem val_main_v115_apply (x1 : (⟨S2x600000, .i32⟩ : BufTy).Contents (Elt F)) (i : S100000x1.Idx) :
    val_main_v115 (F := F) x1 i = val_main_v10 (F := F) x1 (idx_main_v115 i) := by
  unfold val_main_v115
  generalize val_main_v10 (F := F) x1 = y
  exact broadcastInDim_apply _ bcast_S100000_S100000x1_0 y i (idx_main_v115 i) (fun a => match a with
    | ⟨0, _⟩ => by show (i 0).val = if (100000 : Nat) = 1 then 0 else (i 0).val; rw [if_neg (by decide)])
def val_main_v116 (x1 : (⟨S2x600000, .i32⟩ : BufTy).Contents (Elt F)) : (⟨S100000x128, .f32⟩ : BufTy).Contents (Elt F) :=
  broadcastInDim S100000x128 ![0, 1] bcast_S100000x1_S100000x128_0_1 (val_main_v115 (F := F) x1)
abbrev idx_main_v116 (i : S100000x128.Idx) : S100000x1.Idx := fun a => match a with
  | ⟨0, _⟩ => ⟨(i 0).val, (i 0).isLt⟩
  | ⟨1, _⟩ => ⟨0, Nat.one_pos⟩
theorem val_main_v116_apply (x1 : (⟨S2x600000, .i32⟩ : BufTy).Contents (Elt F)) (i : S100000x128.Idx) :
    val_main_v116 (F := F) x1 i = val_main_v115 (F := F) x1 (idx_main_v116 i) := by
  unfold val_main_v116
  generalize val_main_v115 (F := F) x1 = y
  exact broadcastInDim_apply _ bcast_S100000x1_S100000x128_0_1 y i (idx_main_v116 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
def val_main_v117 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v114 (F := F) x0 x1 x2 x3 x4 x5 x6 x7 x8 x9) (val_main_v116 (F := F) x1)
theorem val_main_v117_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v117 (F := F) x0 x1 x2 x3 x4 x5 x6 x7 x8 x9 i = FloatOps.hostDivf (val_main_v114 (F := F) x0 x1 x2 x3 x4 x5 x6 x7 x8 x9 i) (val_main_v116 (F := F) x1 i) := rfl
def val_main_v118 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v108 (F := F) x0 x1 x2 x3 x4 x5 x6 x7 x8 x9) (val_main_v117 (F := F) x0 x1 x2 x3 x4 x5 x6 x7 x8 x9)
theorem val_main_v118_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v118 (F := F) x0 x1 x2 x3 x4 x5 x6 x7 x8 x9 i = FloatOps.addf (val_main_v108 (F := F) x0 x1 x2 x3 x4 x5 x6 x7 x8 x9 i) (val_main_v117 (F := F) x0 x1 x2 x3 x4 x5 x6 x7 x8 x9 i) := rfl
def val_main_v119 (x6 : (⟨S5x128, .f32⟩ : BufTy).Contents (Elt F)) : (⟨S1x128, .f32⟩ : BufTy).Contents (Elt F) :=
  extractStridedSlice S1x128 ![1, 0] (x6) slices_S5x128_S1x128_1_0
abbrev idx_main_v119 (i : S1x128.Idx) : S5x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
theorem val_main_v119_apply (x6 : (⟨S5x128, .f32⟩ : BufTy).Contents (Elt F)) (i : S1x128.Idx) :
    val_main_v119 (F := F) x6 i = x6 (idx_main_v119 i) := by
  unfold val_main_v119
  exact extractStridedSlice_apply ![1, 0] x6 slices_S5x128_S1x128_1_0 i (idx_main_v119 i) (fun a => match a with
    | ⟨0, _⟩ => by show 1 + (i 0).val = 1 + (i 0).val; omega
    | ⟨1, _⟩ => by show (i 1).val = 0 + (i 1).val; omega)
def val_main_v120 (x6 : (⟨S5x128, .f32⟩ : BufTy).Contents (Elt F)) : (⟨S128, .f32⟩ : BufTy).Contents (Elt F) :=
  shapeCast _ (val_main_v119 (F := F) x6) shapeCasts_S1x128_S128
abbrev idx_main_v120 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v120_apply (x6 : (⟨S5x128, .f32⟩ : BufTy).Contents (Elt F)) (i : S128.Idx) :
    val_main_v120 (F := F) x6 i = val_main_v119 (F := F) x6 (idx_main_v120 i) := by
  unfold val_main_v120
  generalize val_main_v119 (F := F) x6 = y
  exact shapeCast_apply y shapeCasts_S1x128_S128 i (idx_main_v120 i)
    (by rewrite [Shape.rowMajor_val_two, Shape.rowMajor_val_one]; have h0 : (i 0).val < 128 := (i 0).isLt; show 0 * 128 + ((i 0).val) % 128 = (i 0).val; omega)
def val_main_v121 (x8 : (⟨S5x128, .f32⟩ : BufTy).Contents (Elt F)) : (⟨S1x128, .f32⟩ : BufTy).Contents (Elt F) :=
  extractStridedSlice S1x128 ![1, 0] (x8) slices_S5x128_S1x128_1_0
abbrev idx_main_v121 (i : S1x128.Idx) : S5x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
theorem val_main_v121_apply (x8 : (⟨S5x128, .f32⟩ : BufTy).Contents (Elt F)) (i : S1x128.Idx) :
    val_main_v121 (F := F) x8 i = x8 (idx_main_v121 i) := by
  unfold val_main_v121
  exact extractStridedSlice_apply ![1, 0] x8 slices_S5x128_S1x128_1_0 i (idx_main_v121 i) (fun a => match a with
    | ⟨0, _⟩ => by show 1 + (i 0).val = 1 + (i 0).val; omega
    | ⟨1, _⟩ => by show (i 1).val = 0 + (i 1).val; omega)
def val_main_v122 (x8 : (⟨S5x128, .f32⟩ : BufTy).Contents (Elt F)) : (⟨S128, .f32⟩ : BufTy).Contents (Elt F) :=
  shapeCast _ (val_main_v121 (F := F) x8) shapeCasts_S1x128_S128
abbrev idx_main_v122 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v122_apply (x8 : (⟨S5x128, .f32⟩ : BufTy).Contents (Elt F)) (i : S128.Idx) :
    val_main_v122 (F := F) x8 i = val_main_v121 (F := F) x8 (idx_main_v122 i) := by
  unfold val_main_v122
  generalize val_main_v121 (F := F) x8 = y
  exact shapeCast_apply y shapeCasts_S1x128_S128 i (idx_main_v122 i)
    (by rewrite [Shape.rowMajor_val_two, Shape.rowMajor_val_one]; have h0 : (i 0).val < 128 := (i 0).isLt; show 0 * 128 + ((i 0).val) % 128 = (i 0).val; omega)
def val_main_v123 (x8 : (⟨S5x128, .f32⟩ : BufTy).Contents (Elt F)) : (⟨S1x128, .f32⟩ : BufTy).Contents (Elt F) :=
  broadcastInDim S1x128 ![1] bcast_S128_S1x128_1 (val_main_v122 (F := F) x8)
abbrev idx_main_v123 (i : S1x128.Idx) : S128.Idx := fun a => match a with
  | ⟨0, _⟩ => ⟨(i 1).val, (i 1).isLt⟩
theorem val_main_v123_apply (x8 : (⟨S5x128, .f32⟩ : BufTy).Contents (Elt F)) (i : S1x128.Idx) :
    val_main_v123 (F := F) x8 i = val_main_v122 (F := F) x8 (idx_main_v123 i) := by
  unfold val_main_v123
  generalize val_main_v122 (F := F) x8 = y
  exact broadcastInDim_apply _ bcast_S128_S1x128_1 y i (idx_main_v123 i) (fun a => match a with
    | ⟨0, _⟩ => by show (i 1).val = if (128 : Nat) = 1 then 0 else (i 1).val; rw [if_neg (by decide)])
def val_main_v124 (x8 : (⟨S5x128, .f32⟩ : BufTy).Contents (Elt F)) : (⟨S100000x128, .f32⟩ : BufTy).Contents (Elt F) :=
  broadcastInDim S100000x128 ![0, 1] bcast_S1x128_S100000x128_0_1 (val_main_v123 (F := F) x8)
abbrev idx_main_v124 (i : S100000x128.Idx) : S1x128.Idx := fun a => match a with
  | ⟨0, _⟩ => ⟨0, Nat.one_pos⟩
  | ⟨1, _⟩ => ⟨(i 1).val, (i 1).isLt⟩
theorem val_main_v124_apply (x8 : (⟨S5x128, .f32⟩ : BufTy).Contents (Elt F)) (i : S100000x128.Idx) :
    val_main_v124 (F := F) x8 i = val_main_v123 (F := F) x8 (idx_main_v124 i) := by
  unfold val_main_v124
  generalize val_main_v123 (F := F) x8 = y
  exact broadcastInDim_apply _ bcast_S1x128_S100000x128_0_1 y i (idx_main_v124 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v125 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  subf (val_main_v118 (F := F) x0 x1 x2 x3 x4 x5 x6 x7 x8 x9) (val_main_v124 (F := F) x8)
theorem val_main_v125_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v125 (F := F) x0 x1 x2 x3 x4 x5 x6 x7 x8 x9 i = FloatOps.subf (val_main_v118 (F := F) x0 x1 x2 x3 x4 x5 x6 x7 x8 x9 i) (val_main_v124 (F := F) x8 i) := rfl
def val_main_v126 (x6 : (⟨S5x128, .f32⟩ : BufTy).Contents (Elt F)) : (⟨S1x128, .f32⟩ : BufTy).Contents (Elt F) :=
  broadcastInDim S1x128 ![1] bcast_S128_S1x128_1 (val_main_v120 (F := F) x6)
abbrev idx_main_v126 (i : S1x128.Idx) : S128.Idx := fun a => match a with
  | ⟨0, _⟩ => ⟨(i 1).val, (i 1).isLt⟩
theorem val_main_v126_apply (x6 : (⟨S5x128, .f32⟩ : BufTy).Contents (Elt F)) (i : S1x128.Idx) :
    val_main_v126 (F := F) x6 i = val_main_v120 (F := F) x6 (idx_main_v126 i) := by
  unfold val_main_v126
  generalize val_main_v120 (F := F) x6 = y
  exact broadcastInDim_apply _ bcast_S128_S1x128_1 y i (idx_main_v126 i) (fun a => match a with
    | ⟨0, _⟩ => by show (i 1).val = if (128 : Nat) = 1 then 0 else (i 1).val; rw [if_neg (by decide)])
def val_main_v127 (x6 : (⟨S5x128, .f32⟩ : BufTy).Contents (Elt F)) : (⟨S100000x128, .f32⟩ : BufTy).Contents (Elt F) :=
  broadcastInDim S100000x128 ![0, 1] bcast_S1x128_S100000x128_0_1 (val_main_v126 (F := F) x6)
abbrev idx_main_v127 (i : S100000x128.Idx) : S1x128.Idx := fun a => match a with
  | ⟨0, _⟩ => ⟨0, Nat.one_pos⟩
  | ⟨1, _⟩ => ⟨(i 1).val, (i 1).isLt⟩
theorem val_main_v127_apply (x6 : (⟨S5x128, .f32⟩ : BufTy).Contents (Elt F)) (i : S100000x128.Idx) :
    val_main_v127 (F := F) x6 i = val_main_v126 (F := F) x6 (idx_main_v127 i) := by
  unfold val_main_v127
  generalize val_main_v126 (F := F) x6 = y
  exact broadcastInDim_apply _ bcast_S1x128_S100000x128_0_1 y i (idx_main_v127 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v128 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  mulf (val_main_v127 (F := F) x6) (val_main_v125 (F := F) x0 x1 x2 x3 x4 x5 x6 x7 x8 x9)
theorem val_main_v128_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v128 (F := F) x0 x1 x2 x3 x4 x5 x6 x7 x8 x9 i = FloatOps.mulf (val_main_v127 (F := F) x6 i) (val_main_v125 (F := F) x0 x1 x2 x3 x4 x5 x6 x7 x8 x9 i) := rfl
def val_main_v129 (x9 : (⟨S5x128, .f32⟩ : BufTy).Contents (Elt F)) : (⟨S1x128, .f32⟩ : BufTy).Contents (Elt F) :=
  extractStridedSlice S1x128 ![1, 0] (x9) slices_S5x128_S1x128_1_0
abbrev idx_main_v129 (i : S1x128.Idx) : S5x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
theorem val_main_v129_apply (x9 : (⟨S5x128, .f32⟩ : BufTy).Contents (Elt F)) (i : S1x128.Idx) :
    val_main_v129 (F := F) x9 i = x9 (idx_main_v129 i) := by
  unfold val_main_v129
  exact extractStridedSlice_apply ![1, 0] x9 slices_S5x128_S1x128_1_0 i (idx_main_v129 i) (fun a => match a with
    | ⟨0, _⟩ => by show 1 + (i 0).val = 1 + (i 0).val; omega
    | ⟨1, _⟩ => by show (i 1).val = 0 + (i 1).val; omega)
def val_main_v130 (x9 : (⟨S5x128, .f32⟩ : BufTy).Contents (Elt F)) : (⟨S128, .f32⟩ : BufTy).Contents (Elt F) :=
  shapeCast _ (val_main_v129 (F := F) x9) shapeCasts_S1x128_S128
abbrev idx_main_v130 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v130_apply (x9 : (⟨S5x128, .f32⟩ : BufTy).Contents (Elt F)) (i : S128.Idx) :
    val_main_v130 (F := F) x9 i = val_main_v129 (F := F) x9 (idx_main_v130 i) := by
  unfold val_main_v130
  generalize val_main_v129 (F := F) x9 = y
  exact shapeCast_apply y shapeCasts_S1x128_S128 i (idx_main_v130 i)
    (by rewrite [Shape.rowMajor_val_two, Shape.rowMajor_val_one]; have h0 : (i 0).val < 128 := (i 0).isLt; show 0 * 128 + ((i 0).val) % 128 = (i 0).val; omega)
def val_main_cst_13 : (⟨S_, .f32⟩ : BufTy).Contents (Elt F) :=
  constant S_ .f32 0x3727C5AC#32
theorem val_main_cst_13_apply (i : S_.Idx) :
    val_main_cst_13 (F := F) i = FloatOps.ofBits .f32 0x3727C5AC#32 := rfl
def val_main_v131 : (⟨S128, .f32⟩ : BufTy).Contents (Elt F) :=
  broadcastInDim S128 ![] bcast_S_S128 (val_main_cst_13 (F := F))
abbrev idx_main_v131 (i : S128.Idx) : S_.Idx := fun a => a.elim0
theorem val_main_v131_apply (i : S128.Idx) :
    val_main_v131 (F := F) i = val_main_cst_13 (F := F) (idx_main_v131 i) := by
  unfold val_main_v131
  generalize val_main_cst_13 (F := F) = y
  exact broadcastInDim_apply _ bcast_S_S128 y i (idx_main_v131 i) (fun a => a.elim0)
def val_main_v132 (x9 : (⟨S5x128, .f32⟩ : BufTy).Contents (Elt F)) : (⟨S128, .f32⟩ : BufTy).Contents (Elt F) :=
  addf (val_main_v130 (F := F) x9) (val_main_v131 (F := F))
theorem val_main_v132_apply (x9 : (⟨S5x128, .f32⟩ : BufTy).Contents (Elt F)) (i : S128.Idx) :
    val_main_v132 (F := F) x9 i = FloatOps.addf (val_main_v130 (F := F) x9 i) (val_main_v131 (F := F) i) := rfl
def val_main_v133 (x9 : (⟨S5x128, .f32⟩ : BufTy).Contents (Elt F)) : (⟨S128, .f32⟩ : BufTy).Contents (Elt F) :=
  Host.sqrt (val_main_v132 (F := F) x9)
theorem val_main_v133_apply (x9 : (⟨S5x128, .f32⟩ : BufTy).Contents (Elt F)) (i : S128.Idx) :
    val_main_v133 (F := F) x9 i = FloatOps.hostUnary .sqrt (val_main_v132 (F := F) x9 i) := rfl
def val_main_v134 (x9 : (⟨S5x128, .f32⟩ : BufTy).Contents (Elt F)) : (⟨S1x128, .f32⟩ : BufTy).Contents (Elt F) :=
  broadcastInDim S1x128 ![1] bcast_S128_S1x128_1 (val_main_v133 (F := F) x9)
abbrev idx_main_v134 (i : S1x128.Idx) : S128.Idx := fun a => match a with
  | ⟨0, _⟩ => ⟨(i 1).val, (i 1).isLt⟩
theorem val_main_v134_apply (x9 : (⟨S5x128, .f32⟩ : BufTy).Contents (Elt F)) (i : S1x128.Idx) :
    val_main_v134 (F := F) x9 i = val_main_v133 (F := F) x9 (idx_main_v134 i) := by
  unfold val_main_v134
  generalize val_main_v133 (F := F) x9 = y
  exact broadcastInDim_apply _ bcast_S128_S1x128_1 y i (idx_main_v134 i) (fun a => match a with
    | ⟨0, _⟩ => by show (i 1).val = if (128 : Nat) = 1 then 0 else (i 1).val; rw [if_neg (by decide)])
def val_main_v135 (x9 : (⟨S5x128, .f32⟩ : BufTy).Contents (Elt F)) : (⟨S100000x128, .f32⟩ : BufTy).Contents (Elt F) :=
  broadcastInDim S100000x128 ![0, 1] bcast_S1x128_S100000x128_0_1 (val_main_v134 (F := F) x9)
abbrev idx_main_v135 (i : S100000x128.Idx) : S1x128.Idx := fun a => match a with
  | ⟨0, _⟩ => ⟨0, Nat.one_pos⟩
  | ⟨1, _⟩ => ⟨(i 1).val, (i 1).isLt⟩
theorem val_main_v135_apply (x9 : (⟨S5x128, .f32⟩ : BufTy).Contents (Elt F)) (i : S100000x128.Idx) :
    val_main_v135 (F := F) x9 i = val_main_v134 (F := F) x9 (idx_main_v135 i) := by
  unfold val_main_v135
  generalize val_main_v134 (F := F) x9 = y
  exact broadcastInDim_apply _ bcast_S1x128_S100000x128_0_1 y i (idx_main_v135 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v136 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v128 (F := F) x0 x1 x2 x3 x4 x5 x6 x7 x8 x9) (val_main_v135 (F := F) x9)
theorem val_main_v136_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v136 (F := F) x0 x1 x2 x3 x4 x5 x6 x7 x8 x9 i = FloatOps.hostDivf (val_main_v128 (F := F) x0 x1 x2 x3 x4 x5 x6 x7 x8 x9 i) (val_main_v135 (F := F) x9 i) := rfl
def val_main_v137 (x7 : (⟨S5x128, .f32⟩ : BufTy).Contents (Elt F)) : (⟨S1x128, .f32⟩ : BufTy).Contents (Elt F) :=
  extractStridedSlice S1x128 ![1, 0] (x7) slices_S5x128_S1x128_1_0
abbrev idx_main_v137 (i : S1x128.Idx) : S5x128.Idx := fun a => match a with
  | ⟨0, _⟩ => ⟨1 + (i 0).val, by have h0 : (i 0).val < 1 := (i 0).isLt; show 1 + (i 0).val < 5; omega⟩
  | ⟨1, _⟩ => ⟨(i 1).val, (i 1).isLt⟩
theorem val_main_v137_apply (x7 : (⟨S5x128, .f32⟩ : BufTy).Contents (Elt F)) (i : S1x128.Idx) :
    val_main_v137 (F := F) x7 i = x7 (idx_main_v137 i) := by
  unfold val_main_v137
  exact extractStridedSlice_apply ![1, 0] x7 slices_S5x128_S1x128_1_0 i (idx_main_v137 i) (fun a => match a with
    | ⟨0, _⟩ => by show 1 + (i 0).val = 1 + (i 0).val; omega
    | ⟨1, _⟩ => by show (i 1).val = 0 + (i 1).val; omega)
def val_main_v138 (x7 : (⟨S5x128, .f32⟩ : BufTy).Contents (Elt F)) : (⟨S128, .f32⟩ : BufTy).Contents (Elt F) :=
  shapeCast _ (val_main_v137 (F := F) x7) shapeCasts_S1x128_S128
abbrev idx_main_v138 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v138_apply (x7 : (⟨S5x128, .f32⟩ : BufTy).Contents (Elt F)) (i : S128.Idx) :
    val_main_v138 (F := F) x7 i = val_main_v137 (F := F) x7 (idx_main_v138 i) := by
  unfold val_main_v138
  generalize val_main_v137 (F := F) x7 = y
  exact shapeCast_apply y shapeCasts_S1x128_S128 i (idx_main_v138 i)
    (by rewrite [Shape.rowMajor_val_two, Shape.rowMajor_val_one]; have h0 : (i 0).val < 128 := (i 0).isLt; show 0 * 128 + ((i 0).val) % 128 = (i 0).val; omega)
def val_main_v139 (x7 : (⟨S5x128, .f32⟩ : BufTy).Contents (Elt F)) : (⟨S1x128, .f32⟩ : BufTy).Contents (Elt F) :=
  broadcastInDim S1x128 ![1] bcast_S128_S1x128_1 (val_main_v138 (F := F) x7)
abbrev idx_main_v139 (i : S1x128.Idx) : S128.Idx := fun a => match a with
  | ⟨0, _⟩ => ⟨(i 1).val, (i 1).isLt⟩
theorem val_main_v139_apply (x7 : (⟨S5x128, .f32⟩ : BufTy).Contents (Elt F)) (i : S1x128.Idx) :
    val_main_v139 (F := F) x7 i = val_main_v138 (F := F) x7 (idx_main_v139 i) := by
  unfold val_main_v139
  generalize val_main_v138 (F := F) x7 = y
  exact broadcastInDim_apply _ bcast_S128_S1x128_1 y i (idx_main_v139 i) (fun a => match a with
    | ⟨0, _⟩ => by show (i 1).val = if (128 : Nat) = 1 then 0 else (i 1).val; rw [if_neg (by decide)])
def val_main_v140 (x7 : (⟨S5x128, .f32⟩ : BufTy).Contents (Elt F)) : (⟨S100000x128, .f32⟩ : BufTy).Contents (Elt F) :=
  broadcastInDim S100000x128 ![0, 1] bcast_S1x128_S100000x128_0_1 (val_main_v139 (F := F) x7)
abbrev idx_main_v140 (i : S100000x128.Idx) : S1x128.Idx := fun a => match a with
  | ⟨0, _⟩ => ⟨0, Nat.one_pos⟩
  | ⟨1, _⟩ => ⟨(i 1).val, (i 1).isLt⟩
theorem val_main_v140_apply (x7 : (⟨S5x128, .f32⟩ : BufTy).Contents (Elt F)) (i : S100000x128.Idx) :
    val_main_v140 (F := F) x7 i = val_main_v139 (F := F) x7 (idx_main_v140 i) := by
  unfold val_main_v140
  generalize val_main_v139 (F := F) x7 = y
  exact broadcastInDim_apply _ bcast_S1x128_S100000x128_0_1 y i (idx_main_v140 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v141 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v136 (F := F) x0 x1 x2 x3 x4 x5 x6 x7 x8 x9) (val_main_v140 (F := F) x7)
theorem val_main_v141_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v141 (F := F) x0 x1 x2 x3 x4 x5 x6 x7 x8 x9 i = FloatOps.addf (val_main_v136 (F := F) x0 x1 x2 x3 x4 x5 x6 x7 x8 x9 i) (val_main_v140 (F := F) x7 i) := rfl
def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl
def val_main_call5_v0 : (⟨S100000x128, .f32⟩ : BufTy).Contents (Elt F) :=
  broadcastInDim S100000x128 ![] bcast_S_S100000x128 (val_main_call5_cst (F := F))
abbrev idx_main_call5_v0 (i : S100000x128.Idx) : S_.Idx := fun a => a.elim0
theorem val_main_call5_v0_apply (i : S100000x128.Idx) :
    val_main_call5_v0 (F := F) i = val_main_call5_cst (F := F) (idx_main_call5_v0 i) := by
  unfold val_main_call5_v0
  generalize val_main_call5_cst (F := F) = y
  exact broadcastInDim_apply _ bcast_S_S100000x128 y i (idx_main_call5_v0 i) (fun a => a.elim0)
def val_main_v142 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v141 (F := F) x0 x1 x2 x3 x4 x5 x6 x7 x8 x9) (val_main_call5_v0 (F := F))
theorem val_main_v142_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v142 (F := F) x0 x1 x2 x3 x4 x5 x6 x7 x8 x9 i = FloatOps.maximumf (val_main_v141 (F := F) x0 x1 x2 x3 x4 x5 x6 x7 x8 x9 i) (val_main_call5_v0 (F := F) i) := rfl
def val_main_v143 (x3 : (⟨S5x128x128, .f32⟩ : BufTy).Contents (Elt F)) : (⟨S1x128x128, .f32⟩ : BufTy).Contents (Elt F) :=
  extractStridedSlice S1x128x128 ![2, 0, 0] (x3) slices_S5x128x128_S1x128x128_2_0_0
abbrev idx_main_v143 (i : S1x128x128.Idx) : S5x128x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
  | ⟨2, _⟩ => ⟨(i 2).val, (i 2).isLt⟩
theorem val_main_v143_apply (x3 : (⟨S5x128x128, .f32⟩ : BufTy).Contents (Elt F)) (i : S1x128x128.Idx) :
    val_main_v143 (F := F) x3 i = x3 (idx_main_v143 i) := by
  unfold val_main_v143
  exact extractStridedSlice_apply ![2, 0, 0] x3 slices_S5x128x128_S1x128x128_2_0_0 i (idx_main_v143 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)
def val_main_v144 (x3 : (⟨S5x128x128, .f32⟩ : BufTy).Contents (Elt F)) : (⟨S128x128, .f32⟩ : BufTy).Contents (Elt F) :=
  shapeCast _ (val_main_v143 (F := F) x3) shapeCasts_S1x128x128_S128x128
abbrev idx_main_v144 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v144_apply (x3 : (⟨S5x128x128, .f32⟩ : BufTy).Contents (Elt F)) (i : S128x128.Idx) :
    val_main_v144 (F := F) x3 i = val_main_v143 (F := F) x3 (idx_main_v144 i) := by
  unfold val_main_v144
  generalize val_main_v143 (F := F) x3 = y
  exact shapeCast_apply y shapeCasts_S1x128x128_S128x128 i (idx_main_v144 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)
def val_main_v145 (x3 : (⟨S5x128x128, .f32⟩ : BufTy).Contents (Elt F)) : (⟨S128x128, .f32⟩ : BufTy).Contents (Elt F) :=
  transpose S128x128 [1, 0] (val_main_v144 (F := F) x3) transposes_S128x128_S128x128_1_0
abbrev idx_main_v145 (i : S128x128.Idx) : S128x128.Idx := fun a => match a with
  | ⟨0, _⟩ => ⟨(i 1).val, (i 1).isLt⟩
  | ⟨1, _⟩ => ⟨(i 0).val, (i 0).isLt⟩
theorem val_main_v145_apply (x3 : (⟨S5x128x128, .f32⟩ : BufTy).Contents (Elt F)) (i : S128x128.Idx) :
    val_main_v145 (F := F) x3 i = val_main_v144 (F := F) x3 (idx_main_v145 i) := by
  unfold val_main_v145
  generalize val_main_v144 (F := F) x3 = y
  exact transpose_apply [1, 0] y transposes_S128x128_S128x128_1_0 i (idx_main_v145 i) (fun b => match b with
    | ⟨0, _⟩ => rfl
    | ⟨1, _⟩ => rfl)
def val_main_v146 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.dotGeneral dot_S100000x128_S128x128_S100000x128_1_0_0_1_n_n none (val_main_v142 (F := F) x0 x1 x2 x3 x4 x5 x6 x7 x8 x9) (val_main_v145 (F := F) x3)
theorem lhs_main_v146_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v146_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v146_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v146_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v146 (i : S100000x128.Idx) (k : Fin 128) : S100000x128.Idx := fun a => match a with
  | ⟨0, _⟩ => ⟨(i 0).val, (i 0).isLt⟩
  | ⟨1, _⟩ => ⟨k.val, k.isLt⟩
abbrev ridx_main_v146 (i : S100000x128.Idx) (k : Fin 128) : S128x128.Idx := fun a => match a with
  | ⟨0, _⟩ => ⟨k.val, k.isLt⟩
  | ⟨1, _⟩ => ⟨(i 1).val, (i 1).isLt⟩
theorem val_main_v146_apply (x0 : (⟨S100000x128, .f32⟩ : BufTy).Contents (Elt Ideal)) (x1 : (⟨S2x600000, .i32⟩ : BufTy).Contents (Elt Ideal)) (x2 : (⟨S600000x128, .i32⟩ : BufTy).Contents (Elt Ideal)) (x3 : (⟨S5x128x128, .f32⟩ : BufTy).Contents (Elt Ideal)) (x4 x5 x6 x7 x8 x9 : (⟨S5x128, .f32⟩ : BufTy).Contents (Elt Ideal)) (i : S100000x128.Idx) :
    val_main_v146 (F := Ideal) x0 x1 x2 x3 x4 x5 x6 x7 x8 x9 i = ∑ k : Fin 128, (val_main_v142 (F := Ideal) x0 x1 x2 x3 x4 x5 x6 x7 x8 x9) (lidx_main_v146 i k) * (val_main_v145 (F := Ideal) x3) (ridx_main_v146 i k) := by
  unfold val_main_v146
  generalize val_main_v142 (F := Ideal) x0 x1 x2 x3 x4 x5 x6 x7 x8 x9 = y0
  generalize val_main_v145 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v146 i k := funext fun a => Fin.ext (by
    match a with
    | ⟨0, _⟩ => exact lhs_main_v146_0 _ _
    | ⟨1, _⟩ => exact (lhs_main_v146_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v146 i k := funext fun a => Fin.ext (by
    match a with
    | ⟨0, _⟩ => exact (rhs_main_v146_0 _ _).trans hk
    | ⟨1, _⟩ => exact rhs_main_v146_1 _ _)
  rw [el, er]
def val_main_v147 (x4 : (⟨S5x128, .f32⟩ : BufTy).Contents (Elt F)) : (⟨S1x128, .f32⟩ : BufTy).Contents (Elt F) :=
  extractStridedSlice S1x128 ![2, 0] (x4) slices_S5x128_S1x128_2_0
abbrev idx_main_v147 (i : S1x128.Idx) : S5x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
theorem val_main_v147_apply (x4 : (⟨S5x128, .f32⟩ : BufTy).Contents (Elt F)) (i : S1x128.Idx) :
    val_main_v147 (F := F) x4 i = x4 (idx_main_v147 i) := by
  unfold val_main_v147
  exact extractStridedSlice_apply ![2, 0] x4 slices_S5x128_S1x128_2_0 i (idx_main_v147 i) (fun a => match a with
    | ⟨0, _⟩ => by show 2 + (i 0).val = 2 + (i 0).val; omega
    | ⟨1, _⟩ => by show (i 1).val = 0 + (i 1).val; omega)
def val_main_v148 (x4 : (⟨S5x128, .f32⟩ : BufTy).Contents (Elt F)) : (⟨S128, .f32⟩ : BufTy).Contents (Elt F) :=
  shapeCast _ (val_main_v147 (F := F) x4) shapeCasts_S1x128_S128
abbrev idx_main_v148 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v148_apply (x4 : (⟨S5x128, .f32⟩ : BufTy).Contents (Elt F)) (i : S128.Idx) :
    val_main_v148 (F := F) x4 i = val_main_v147 (F := F) x4 (idx_main_v148 i) := by
  unfold val_main_v148
  generalize val_main_v147 (F := F) x4 = y
  exact shapeCast_apply y shapeCasts_S1x128_S128 i (idx_main_v148 i)
    (by rewrite [Shape.rowMajor_val_two, Shape.rowMajor_val_one]; have h0 : (i 0).val < 128 := (i 0).isLt; show 0 * 128 + ((i 0).val) % 128 = (i 0).val; omega)
def val_main_v149 (x4 : (⟨S5x128, .f32⟩ : BufTy).Contents (Elt F)) : (⟨S1x128, .f32⟩ : BufTy).Contents (Elt F) :=
  broadcastInDim S1x128 ![1] bcast_S128_S1x128_1 (val_main_v148 (F := F) x4)
abbrev idx_main_v149 (i : S1x128.Idx) : S128.Idx := fun a => match a with
  | ⟨0, _⟩ => ⟨(i 1).val, (i 1).isLt⟩
theorem val_main_v149_apply (x4 : (⟨S5x128, .f32⟩ : BufTy).Contents (Elt F)) (i : S1x128.Idx) :
    val_main_v149 (F := F) x4 i = val_main_v148 (F := F) x4 (idx_main_v149 i) := by
  unfold val_main_v149
  generalize val_main_v148 (F := F) x4 = y
  exact broadcastInDim_apply _ bcast_S128_S1x128_1 y i (idx_main_v149 i) (fun a => match a with
    | ⟨0, _⟩ => by show (i 1).val = if (128 : Nat) = 1 then 0 else (i 1).val; rw [if_neg (by decide)])
def val_main_v150 (x4 : (⟨S5x128, .f32⟩ : BufTy).Contents (Elt F)) : (⟨S100000x128, .f32⟩ : BufTy).Contents (Elt F) :=
  broadcastInDim S100000x128 ![0, 1] bcast_S1x128_S100000x128_0_1 (val_main_v149 (F := F) x4)
abbrev idx_main_v150 (i : S100000x128.Idx) : S1x128.Idx := fun a => match a with
  | ⟨0, _⟩ => ⟨0, Nat.one_pos⟩
  | ⟨1, _⟩ => ⟨(i 1).val, (i 1).isLt⟩
theorem val_main_v150_apply (x4 : (⟨S5x128, .f32⟩ : BufTy).Contents (Elt F)) (i : S100000x128.Idx) :
    val_main_v150 (F := F) x4 i = val_main_v149 (F := F) x4 (idx_main_v150 i) := by
  unfold val_main_v150
  generalize val_main_v149 (F := F) x4 = y
  exact broadcastInDim_apply _ bcast_S1x128_S100000x128_0_1 y i (idx_main_v150 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v151 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v146 (F := F) x0 x1 x2 x3 x4 x5 x6 x7 x8 x9) (val_main_v150 (F := F) x4)
theorem val_main_v151_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v151 (F := F) x0 x1 x2 x3 x4 x5 x6 x7 x8 x9 i = FloatOps.addf (val_main_v146 (F := F) x0 x1 x2 x3 x4 x5 x6 x7 x8 x9 i) (val_main_v150 (F := F) x4 i) := rfl
def val_main_c_14 : (⟨S_, .i32⟩ : BufTy).Contents (Elt F) :=
  constantI S_ 32 0#32
def val_main_v152 : (⟨S600000, .i32⟩ : BufTy).Contents (Elt F) :=
  broadcastInDim S600000 ![] bcast_S_S600000 (val_main_c_14 (F := F))
def val_main_v153 (x1 : (⟨S2x600000, .i32⟩ : BufTy).Contents (Elt F)) : (⟨S600000, .i1⟩ : BufTy).Contents (Elt F) :=
  cmpi .slt (val_main_v2 (F := F) x1) (val_main_v152 (F := F))
def val_main_c_15 : (⟨S_, .i32⟩ : BufTy).Contents (Elt F) :=
  constantI S_ 32 100000#32
def val_main_v154 : (⟨S600000, .i32⟩ : BufTy).Contents (Elt F) :=
  broadcastInDim S600000 ![] bcast_S_S600000 (val_main_c_15 (F := F))
def val_main_v155 (x1 : (⟨S2x600000, .i32⟩ : BufTy).Contents (Elt F)) : (⟨S600000, .i32⟩ : BufTy).Contents (Elt F) :=
  addi (val_main_v2 (F := F) x1) (val_main_v154 (F := F))
def val_main_v156 (x1 : (⟨S2x600000, .i32⟩ : BufTy).Contents (Elt F)) : (⟨S600000, .i32⟩ : BufTy).Contents (Elt F) :=
  select (val_main_v153 (F := F) x1) (val_main_v155 (F := F) x1) (val_main_v2 (F := F) x1)
def val_main_v157 (x1 : (⟨S2x600000, .i32⟩ : BufTy).Contents (Elt F)) : (⟨S600000x1, .i32⟩ : BufTy).Contents (Elt F) :=
  broadcastInDim S600000x1 ![0] bcast_S600000_S600000x1_0 (val_main_v156 (F := F) x1)
def val_main_v158 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  Host.gather gather_S100000x128_S600000x1_S600000x128_1_0_n_n_0_1_1128 (val_main_v151 (F := F) x0 x1 x2 x3 x4 x5 x6 x7 x8 x9) (val_main_v157 (F := F) x1)
def val_main_v159 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  addf (val_main_v158 (F := F) x0 x1 x2 x3 x4 x5 x6 x7 x8 x9) (val_main_v0 (F := F) x2)
theorem val_main_v159_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v159 (F := F) x0 x1 x2 x3 x4 x5 x6 x7 x8 x9 i = FloatOps.addf (val_main_v158 (F := F) x0 x1 x2 x3 x4 x5 x6 x7 x8 x9 i) (val_main_v0 (F := F) x2 i) := rfl
def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl
def val_main_call6_v0 : (⟨S600000x128, .f32⟩ : BufTy).Contents (Elt F) :=
  broadcastInDim S600000x128 ![] bcast_S_S600000x128 (val_main_call6_cst (F := F))
abbrev idx_main_call6_v0 (i : S600000x128.Idx) : S_.Idx := fun a => a.elim0
theorem val_main_call6_v0_apply (i : S600000x128.Idx) :
    val_main_call6_v0 (F := F) i = val_main_call6_cst (F := F) (idx_main_call6_v0 i) := by
  unfold val_main_call6_v0
  generalize val_main_call6_cst (F := F) = y
  exact broadcastInDim_apply _ bcast_S_S600000x128 y i (idx_main_call6_v0 i) (fun a => a.elim0)
def val_main_v160 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  maximumf (val_main_v159 (F := F) x0 x1 x2 x3 x4 x5 x6 x7 x8 x9) (val_main_call6_v0 (F := F))
theorem val_main_v160_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v160 (F := F) x0 x1 x2 x3 x4 x5 x6 x7 x8 x9 i = FloatOps.maximumf (val_main_v159 (F := F) x0 x1 x2 x3 x4 x5 x6 x7 x8 x9 i) (val_main_call6_v0 (F := F) i) := rfl
def val_main_v161 (x1 : (⟨S2x600000, .i32⟩ : BufTy).Contents (Elt F)) : (⟨S600000x128, .f32⟩ : BufTy).Contents (Elt F) :=
  broadcastInDim S600000x128 ![0, 1] bcast_S600000x1_S600000x128_0_1 (val_main_v28 (F := F) x1)
abbrev idx_main_v161 (i : S600000x128.Idx) : S600000x1.Idx := fun a => match a with
  | ⟨0, _⟩ => ⟨(i 0).val, (i 0).isLt⟩
  | ⟨1, _⟩ => ⟨0, Nat.one_pos⟩
theorem val_main_v161_apply (x1 : (⟨S2x600000, .i32⟩ : BufTy).Contents (Elt F)) (i : S600000x128.Idx) :
    val_main_v161 (F := F) x1 i = val_main_v28 (F := F) x1 (idx_main_v161 i) := by
  unfold val_main_v161
  generalize val_main_v28 (F := F) x1 = y
  exact broadcastInDim_apply _ bcast_S600000x1_S600000x128_0_1 y i (idx_main_v161 i) (fun a => match a with
    | ⟨0, _⟩ => by show (i 0).val = if (600000 : Nat) = 1 then 0 else (i 0).val; rw [if_neg (by decide)]
    | ⟨1, _⟩ => by show 0 = if (1 : Nat) = 1 then 0 else (i 1).val; rw [if_pos rfl])
def val_main_v162 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  mulf (val_main_v161 (F := F) x1) (val_main_v160 (F := F) x0 x1 x2 x3 x4 x5 x6 x7 x8 x9)
theorem val_main_v162_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v162 (F := F) x0 x1 x2 x3 x4 x5 x6 x7 x8 x9 i = FloatOps.mulf (val_main_v161 (F := F) x1 i) (val_main_v160 (F := F) x0 x1 x2 x3 x4 x5 x6 x7 x8 x9 i) := rfl
def val_main_cst_16 : (⟨S_, .f32⟩ : BufTy).Contents (Elt F) :=
  constant S_ .f32 0x00000000#32
def val_main_v163 : (⟨S100000x128, .f32⟩ : BufTy).Contents (Elt F) :=
  broadcastInDim S100000x128 ![] bcast_S_S100000x128 (val_main_cst_16 (F := F))
def val_main_v164 (x1 : (⟨S2x600000, .i32⟩ : BufTy).Contents (Elt F)) : (⟨S600000x1, .i32⟩ : BufTy).Contents (Elt F) :=
  broadcastInDim S600000x1 ![0] bcast_S600000_S600000x1_0 (val_main_v4 (F := F) x1)
def val_main_v165 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.scatterAdd scatter_S100000x128_S600000x1_S600000x128_1_0_0_1 (val_main_v163 (F := F)) (val_main_v164 (F := F) x1) (val_main_v162 (F := F) x0 x1 x2 x3 x4 x5 x6 x7 x8 x9)
def val_main_v166 (x5 : (⟨S5x128, .f32⟩ : BufTy).Contents (Elt F)) : (⟨S1x128, .f32⟩ : BufTy).Contents (Elt F) :=
  extractStridedSlice S1x128 ![2, 0] (x5) slices_S5x128_S1x128_2_0
abbrev idx_main_v166 (i : S1x128.Idx) : S5x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
theorem val_main_v166_apply (x5 : (⟨S5x128, .f32⟩ : BufTy).Contents (Elt F)) (i : S1x128.Idx) :
    val_main_v166 (F := F) x5 i = x5 (idx_main_v166 i) := by
  unfold val_main_v166
  exact extractStridedSlice_apply ![2, 0] x5 slices_S5x128_S1x128_2_0 i (idx_main_v166 i) (fun a => match a with
    | ⟨0, _⟩ => by show 2 + (i 0).val = 2 + (i 0).val; omega
    | ⟨1, _⟩ => by show (i 1).val = 0 + (i 1).val; omega)
def val_main_v167 (x5 : (⟨S5x128, .f32⟩ : BufTy).Contents (Elt F)) : (⟨S128, .f32⟩ : BufTy).Contents (Elt F) :=
  shapeCast _ (val_main_v166 (F := F) x5) shapeCasts_S1x128_S128
abbrev idx_main_v167 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v167_apply (x5 : (⟨S5x128, .f32⟩ : BufTy).Contents (Elt F)) (i : S128.Idx) :
    val_main_v167 (F := F) x5 i = val_main_v166 (F := F) x5 (idx_main_v167 i) := by
  unfold val_main_v167
  generalize val_main_v166 (F := F) x5 = y
  exact shapeCast_apply y shapeCasts_S1x128_S128 i (idx_main_v167 i)
    (by rewrite [Shape.rowMajor_val_two, Shape.rowMajor_val_one]; have h0 : (i 0).val < 128 := (i 0).isLt; show 0 * 128 + ((i 0).val) % 128 = (i 0).val; omega)
def val_main_v168 (x5 : (⟨S5x128, .f32⟩ : BufTy).Contents (Elt F)) : (⟨S1x128, .f32⟩ : BufTy).Contents (Elt F) :=
  broadcastInDim S1x128 ![1] bcast_S128_S1x128_1 (val_main_v167 (F := F) x5)
abbrev idx_main_v168 (i : S1x128.Idx) : S128.Idx := fun a => match a with
  | ⟨0, _⟩ => ⟨(i 1).val, (i 1).isLt⟩
theorem val_main_v168_apply (x5 : (⟨S5x128, .f32⟩ : BufTy).Contents (Elt F)) (i : S1x128.Idx) :
    val_main_v168 (F := F) x5 i = val_main_v167 (F := F) x5 (idx_main_v168 i) := by
  unfold val_main_v168
  generalize val_main_v167 (F := F) x5 = y
  exact broadcastInDim_apply _ bcast_S128_S1x128_1 y i (idx_main_v168 i) (fun a => match a with
    | ⟨0, _⟩ => by show (i 1).val = if (128 : Nat) = 1 then 0 else (i 1).val; rw [if_neg (by decide)])
def val_main_v169 (x5 : (⟨S5x128, .f32⟩ : BufTy).Contents (Elt F)) : (⟨S100000x128, .f32⟩ : BufTy).Contents (Elt F) :=
  broadcastInDim S100000x128 ![0, 1] bcast_S1x128_S100000x128_0_1 (val_main_v168 (F := F) x5)
abbrev idx_main_v169 (i : S100000x128.Idx) : S1x128.Idx := fun a => match a with
  | ⟨0, _⟩ => ⟨0, Nat.one_pos⟩
  | ⟨1, _⟩ => ⟨(i 1).val, (i 1).isLt⟩
theorem val_main_v169_apply (x5 : (⟨S5x128, .f32⟩ : BufTy).Contents (Elt F)) (i : S100000x128.Idx) :
    val_main_v169 (F := F) x5 i = val_main_v168 (F := F) x5 (idx_main_v169 i) := by
  unfold val_main_v169
  generalize val_main_v168 (F := F) x5 = y
  exact broadcastInDim_apply _ bcast_S1x128_S100000x128_0_1 y i (idx_main_v169 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v170 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v151 (F := F) x0 x1 x2 x3 x4 x5 x6 x7 x8 x9) (val_main_v169 (F := F) x5)
theorem val_main_v170_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v170 (F := F) x0 x1 x2 x3 x4 x5 x6 x7 x8 x9 i = FloatOps.addf (val_main_v151 (F := F) x0 x1 x2 x3 x4 x5 x6 x7 x8 x9 i) (val_main_v169 (F := F) x5 i) := rfl
def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl
def val_main_call7_v0 : (⟨S100000x128, .f32⟩ : BufTy).Contents (Elt F) :=
  broadcastInDim S100000x128 ![] bcast_S_S100000x128 (val_main_call7_cst (F := F))
abbrev idx_main_call7_v0 (i : S100000x128.Idx) : S_.Idx := fun a => a.elim0
theorem val_main_call7_v0_apply (i : S100000x128.Idx) :
    val_main_call7_v0 (F := F) i = val_main_call7_cst (F := F) (idx_main_call7_v0 i) := by
  unfold val_main_call7_v0
  generalize val_main_call7_cst (F := F) = y
  exact broadcastInDim_apply _ bcast_S_S100000x128 y i (idx_main_call7_v0 i) (fun a => a.elim0)
def val_main_v171 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v170 (F := F) x0 x1 x2 x3 x4 x5 x6 x7 x8 x9) (val_main_call7_v0 (F := F))
theorem val_main_v171_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v171 (F := F) x0 x1 x2 x3 x4 x5 x6 x7 x8 x9 i = FloatOps.maximumf (val_main_v170 (F := F) x0 x1 x2 x3 x4 x5 x6 x7 x8 x9 i) (val_main_call7_v0 (F := F) i) := rfl
def val_main_v172 (x1 : (⟨S2x600000, .i32⟩ : BufTy).Contents (Elt F)) : (⟨S100000x1, .f32⟩ : BufTy).Contents (Elt F) :=
  broadcastInDim S100000x1 ![0] bcast_S100000_S100000x1_0 (val_main_v10 (F := F) x1)
abbrev idx_main_v172 (i : S100000x1.Idx) : S100000.Idx := fun a => match a with
  | ⟨0, _⟩ => ⟨(i 0).val, (i 0).isLt⟩
theorem val_main_v172_apply (x1 : (⟨S2x600000, .i32⟩ : BufTy).Contents (Elt F)) (i : S100000x1.Idx) :
    val_main_v172 (F := F) x1 i = val_main_v10 (F := F) x1 (idx_main_v172 i) := by
  unfold val_main_v172
  generalize val_main_v10 (F := F) x1 = y
  exact broadcastInDim_apply _ bcast_S100000_S100000x1_0 y i (idx_main_v172 i) (fun a => match a with
    | ⟨0, _⟩ => by show (i 0).val = if (100000 : Nat) = 1 then 0 else (i 0).val; rw [if_neg (by decide)])
def val_main_v173 (x1 : (⟨S2x600000, .i32⟩ : BufTy).Contents (Elt F)) : (⟨S100000x128, .f32⟩ : BufTy).Contents (Elt F) :=
  broadcastInDim S100000x128 ![0, 1] bcast_S100000x1_S100000x128_0_1 (val_main_v172 (F := F) x1)
abbrev idx_main_v173 (i : S100000x128.Idx) : S100000x1.Idx := fun a => match a with
  | ⟨0, _⟩ => ⟨(i 0).val, (i 0).isLt⟩
  | ⟨1, _⟩ => ⟨0, Nat.one_pos⟩
theorem val_main_v173_apply (x1 : (⟨S2x600000, .i32⟩ : BufTy).Contents (Elt F)) (i : S100000x128.Idx) :
    val_main_v173 (F := F) x1 i = val_main_v172 (F := F) x1 (idx_main_v173 i) := by
  unfold val_main_v173
  generalize val_main_v172 (F := F) x1 = y
  exact broadcastInDim_apply _ bcast_S100000x1_S100000x128_0_1 y i (idx_main_v173 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
def val_main_v174 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v171 (F := F) x0 x1 x2 x3 x4 x5 x6 x7 x8 x9) (val_main_v173 (F := F) x1)
theorem val_main_v174_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v174 (F := F) x0 x1 x2 x3 x4 x5 x6 x7 x8 x9 i = FloatOps.hostDivf (val_main_v171 (F := F) x0 x1 x2 x3 x4 x5 x6 x7 x8 x9 i) (val_main_v173 (F := F) x1 i) := rfl
def val_main_v175 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v165 (F := F) x0 x1 x2 x3 x4 x5 x6 x7 x8 x9) (val_main_v174 (F := F) x0 x1 x2 x3 x4 x5 x6 x7 x8 x9)
theorem val_main_v175_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v175 (F := F) x0 x1 x2 x3 x4 x5 x6 x7 x8 x9 i = FloatOps.addf (val_main_v165 (F := F) x0 x1 x2 x3 x4 x5 x6 x7 x8 x9 i) (val_main_v174 (F := F) x0 x1 x2 x3 x4 x5 x6 x7 x8 x9 i) := rfl
def val_main_v176 (x6 : (⟨S5x128, .f32⟩ : BufTy).Contents (Elt F)) : (⟨S1x128, .f32⟩ : BufTy).Contents (Elt F) :=
  extractStridedSlice S1x128 ![2, 0] (x6) slices_S5x128_S1x128_2_0
abbrev idx_main_v176 (i : S1x128.Idx) : S5x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
theorem val_main_v176_apply (x6 : (⟨S5x128, .f32⟩ : BufTy).Contents (Elt F)) (i : S1x128.Idx) :
    val_main_v176 (F := F) x6 i = x6 (idx_main_v176 i) := by
  unfold val_main_v176
  exact extractStridedSlice_apply ![2, 0] x6 slices_S5x128_S1x128_2_0 i (idx_main_v176 i) (fun a => match a with
    | ⟨0, _⟩ => by show 2 + (i 0).val = 2 + (i 0).val; omega
    | ⟨1, _⟩ => by show (i 1).val = 0 + (i 1).val; omega)
def val_main_v177 (x6 : (⟨S5x128, .f32⟩ : BufTy).Contents (Elt F)) : (⟨S128, .f32⟩ : BufTy).Contents (Elt F) :=
  shapeCast _ (val_main_v176 (F := F) x6) shapeCasts_S1x128_S128
abbrev idx_main_v177 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v177_apply (x6 : (⟨S5x128, .f32⟩ : BufTy).Contents (Elt F)) (i : S128.Idx) :
    val_main_v177 (F := F) x6 i = val_main_v176 (F := F) x6 (idx_main_v177 i) := by
  unfold val_main_v177
  generalize val_main_v176 (F := F) x6 = y
  exact shapeCast_apply y shapeCasts_S1x128_S128 i (idx_main_v177 i)
    (by rewrite [Shape.rowMajor_val_two, Shape.rowMajor_val_one]; have h0 : (i 0).val < 128 := (i 0).isLt; show 0 * 128 + ((i 0).val) % 128 = (i 0).val; omega)
def val_main_v178 (x8 : (⟨S5x128, .f32⟩ : BufTy).Contents (Elt F)) : (⟨S1x128, .f32⟩ : BufTy).Contents (Elt F) :=
  extractStridedSlice S1x128 ![2, 0] (x8) slices_S5x128_S1x128_2_0
abbrev idx_main_v178 (i : S1x128.Idx) : S5x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
theorem val_main_v178_apply (x8 : (⟨S5x128, .f32⟩ : BufTy).Contents (Elt F)) (i : S1x128.Idx) :
    val_main_v178 (F := F) x8 i = x8 (idx_main_v178 i) := by
  unfold val_main_v178
  exact extractStridedSlice_apply ![2, 0] x8 slices_S5x128_S1x128_2_0 i (idx_main_v178 i) (fun a => match a with
    | ⟨0, _⟩ => by show 2 + (i 0).val = 2 + (i 0).val; omega
    | ⟨1, _⟩ => by show (i 1).val = 0 + (i 1).val; omega)
def val_main_v179 (x8 : (⟨S5x128, .f32⟩ : BufTy).Contents (Elt F)) : (⟨S128, .f32⟩ : BufTy).Contents (Elt F) :=
  shapeCast _ (val_main_v178 (F := F) x8) shapeCasts_S1x128_S128
abbrev idx_main_v179 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v179_apply (x8 : (⟨S5x128, .f32⟩ : BufTy).Contents (Elt F)) (i : S128.Idx) :
    val_main_v179 (F := F) x8 i = val_main_v178 (F := F) x8 (idx_main_v179 i) := by
  unfold val_main_v179
  generalize val_main_v178 (F := F) x8 = y
  exact shapeCast_apply y shapeCasts_S1x128_S128 i (idx_main_v179 i)
    (by rewrite [Shape.rowMajor_val_two, Shape.rowMajor_val_one]; have h0 : (i 0).val < 128 := (i 0).isLt; show 0 * 128 + ((i 0).val) % 128 = (i 0).val; omega)
def val_main_v180 (x8 : (⟨S5x128, .f32⟩ : BufTy).Contents (Elt F)) : (⟨S1x128, .f32⟩ : BufTy).Contents (Elt F) :=
  broadcastInDim S1x128 ![1] bcast_S128_S1x128_1 (val_main_v179 (F := F) x8)
abbrev idx_main_v180 (i : S1x128.Idx) : S128.Idx := fun a => match a with
  | ⟨0, _⟩ => ⟨(i 1).val, (i 1).isLt⟩
theorem val_main_v180_apply (x8 : (⟨S5x128, .f32⟩ : BufTy).Contents (Elt F)) (i : S1x128.Idx) :
    val_main_v180 (F := F) x8 i = val_main_v179 (F := F) x8 (idx_main_v180 i) := by
  unfold val_main_v180
  generalize val_main_v179 (F := F) x8 = y
  exact broadcastInDim_apply _ bcast_S128_S1x128_1 y i (idx_main_v180 i) (fun a => match a with
    | ⟨0, _⟩ => by show (i 1).val = if (128 : Nat) = 1 then 0 else (i 1).val; rw [if_neg (by decide)])
def val_main_v181 (x8 : (⟨S5x128, .f32⟩ : BufTy).Contents (Elt F)) : (⟨S100000x128, .f32⟩ : BufTy).Contents (Elt F) :=
  broadcastInDim S100000x128 ![0, 1] bcast_S1x128_S100000x128_0_1 (val_main_v180 (F := F) x8)
abbrev idx_main_v181 (i : S100000x128.Idx) : S1x128.Idx := fun a => match a with
  | ⟨0, _⟩ => ⟨0, Nat.one_pos⟩
  | ⟨1, _⟩ => ⟨(i 1).val, (i 1).isLt⟩
theorem val_main_v181_apply (x8 : (⟨S5x128, .f32⟩ : BufTy).Contents (Elt F)) (i : S100000x128.Idx) :
    val_main_v181 (F := F) x8 i = val_main_v180 (F := F) x8 (idx_main_v181 i) := by
  unfold val_main_v181
  generalize val_main_v180 (F := F) x8 = y
  exact broadcastInDim_apply _ bcast_S1x128_S100000x128_0_1 y i (idx_main_v181 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v182 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  subf (val_main_v175 (F := F) x0 x1 x2 x3 x4 x5 x6 x7 x8 x9) (val_main_v181 (F := F) x8)
theorem val_main_v182_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v182 (F := F) x0 x1 x2 x3 x4 x5 x6 x7 x8 x9 i = FloatOps.subf (val_main_v175 (F := F) x0 x1 x2 x3 x4 x5 x6 x7 x8 x9 i) (val_main_v181 (F := F) x8 i) := rfl
def val_main_v183 (x6 : (⟨S5x128, .f32⟩ : BufTy).Contents (Elt F)) : (⟨S1x128, .f32⟩ : BufTy).Contents (Elt F) :=
  broadcastInDim S1x128 ![1] bcast_S128_S1x128_1 (val_main_v177 (F := F) x6)
abbrev idx_main_v183 (i : S1x128.Idx) : S128.Idx := fun a => match a with
  | ⟨0, _⟩ => ⟨(i 1).val, (i 1).isLt⟩
theorem val_main_v183_apply (x6 : (⟨S5x128, .f32⟩ : BufTy).Contents (Elt F)) (i : S1x128.Idx) :
    val_main_v183 (F := F) x6 i = val_main_v177 (F := F) x6 (idx_main_v183 i) := by
  unfold val_main_v183
  generalize val_main_v177 (F := F) x6 = y
  exact broadcastInDim_apply _ bcast_S128_S1x128_1 y i (idx_main_v183 i) (fun a => match a with
    | ⟨0, _⟩ => by show (i 1).val = if (128 : Nat) = 1 then 0 else (i 1).val; rw [if_neg (by decide)])
def val_main_v184 (x6 : (⟨S5x128, .f32⟩ : BufTy).Contents (Elt F)) : (⟨S100000x128, .f32⟩ : BufTy).Contents (Elt F) :=
  broadcastInDim S100000x128 ![0, 1] bcast_S1x128_S100000x128_0_1 (val_main_v183 (F := F) x6)
abbrev idx_main_v184 (i : S100000x128.Idx) : S1x128.Idx := fun a => match a with
  | ⟨0, _⟩ => ⟨0, Nat.one_pos⟩
  | ⟨1, _⟩ => ⟨(i 1).val, (i 1).isLt⟩
theorem val_main_v184_apply (x6 : (⟨S5x128, .f32⟩ : BufTy).Contents (Elt F)) (i : S100000x128.Idx) :
    val_main_v184 (F := F) x6 i = val_main_v183 (F := F) x6 (idx_main_v184 i) := by
  unfold val_main_v184
  generalize val_main_v183 (F := F) x6 = y
  exact broadcastInDim_apply _ bcast_S1x128_S100000x128_0_1 y i (idx_main_v184 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v185 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  mulf (val_main_v184 (F := F) x6) (val_main_v182 (F := F) x0 x1 x2 x3 x4 x5 x6 x7 x8 x9)
theorem val_main_v185_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v185 (F := F) x0 x1 x2 x3 x4 x5 x6 x7 x8 x9 i = FloatOps.mulf (val_main_v184 (F := F) x6 i) (val_main_v182 (F := F) x0 x1 x2 x3 x4 x5 x6 x7 x8 x9 i) := rfl
def val_main_v186 (x9 : (⟨S5x128, .f32⟩ : BufTy).Contents (Elt F)) : (⟨S1x128, .f32⟩ : BufTy).Contents (Elt F) :=
  extractStridedSlice S1x128 ![2, 0] (x9) slices_S5x128_S1x128_2_0
abbrev idx_main_v186 (i : S1x128.Idx) : S5x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
theorem val_main_v186_apply (x9 : (⟨S5x128, .f32⟩ : BufTy).Contents (Elt F)) (i : S1x128.Idx) :
    val_main_v186 (F := F) x9 i = x9 (idx_main_v186 i) := by
  unfold val_main_v186
  exact extractStridedSlice_apply ![2, 0] x9 slices_S5x128_S1x128_2_0 i (idx_main_v186 i) (fun a => match a with
    | ⟨0, _⟩ => by show 2 + (i 0).val = 2 + (i 0).val; omega
    | ⟨1, _⟩ => by show (i 1).val = 0 + (i 1).val; omega)
def val_main_v187 (x9 : (⟨S5x128, .f32⟩ : BufTy).Contents (Elt F)) : (⟨S128, .f32⟩ : BufTy).Contents (Elt F) :=
  shapeCast _ (val_main_v186 (F := F) x9) shapeCasts_S1x128_S128
abbrev idx_main_v187 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v187_apply (x9 : (⟨S5x128, .f32⟩ : BufTy).Contents (Elt F)) (i : S128.Idx) :
    val_main_v187 (F := F) x9 i = val_main_v186 (F := F) x9 (idx_main_v187 i) := by
  unfold val_main_v187
  generalize val_main_v186 (F := F) x9 = y
  exact shapeCast_apply y shapeCasts_S1x128_S128 i (idx_main_v187 i)
    (by rewrite [Shape.rowMajor_val_two, Shape.rowMajor_val_one]; have h0 : (i 0).val < 128 := (i 0).isLt; show 0 * 128 + ((i 0).val) % 128 = (i 0).val; omega)
def val_main_cst_17 : (⟨S_, .f32⟩ : BufTy).Contents (Elt F) :=
  constant S_ .f32 0x3727C5AC#32
theorem val_main_cst_17_apply (i : S_.Idx) :
    val_main_cst_17 (F := F) i = FloatOps.ofBits .f32 0x3727C5AC#32 := rfl
def val_main_v188 : (⟨S128, .f32⟩ : BufTy).Contents (Elt F) :=
  broadcastInDim S128 ![] bcast_S_S128 (val_main_cst_17 (F := F))
abbrev idx_main_v188 (i : S128.Idx) : S_.Idx := fun a => a.elim0
theorem val_main_v188_apply (i : S128.Idx) :
    val_main_v188 (F := F) i = val_main_cst_17 (F := F) (idx_main_v188 i) := by
  unfold val_main_v188
  generalize val_main_cst_17 (F := F) = y
  exact broadcastInDim_apply _ bcast_S_S128 y i (idx_main_v188 i) (fun a => a.elim0)
def val_main_v189 (x9 : (⟨S5x128, .f32⟩ : BufTy).Contents (Elt F)) : (⟨S128, .f32⟩ : BufTy).Contents (Elt F) :=
  addf (val_main_v187 (F := F) x9) (val_main_v188 (F := F))
theorem val_main_v189_apply (x9 : (⟨S5x128, .f32⟩ : BufTy).Contents (Elt F)) (i : S128.Idx) :
    val_main_v189 (F := F) x9 i = FloatOps.addf (val_main_v187 (F := F) x9 i) (val_main_v188 (F := F) i) := rfl
def val_main_v190 (x9 : (⟨S5x128, .f32⟩ : BufTy).Contents (Elt F)) : (⟨S128, .f32⟩ : BufTy).Contents (Elt F) :=
  Host.sqrt (val_main_v189 (F := F) x9)
theorem val_main_v190_apply (x9 : (⟨S5x128, .f32⟩ : BufTy).Contents (Elt F)) (i : S128.Idx) :
    val_main_v190 (F := F) x9 i = FloatOps.hostUnary .sqrt (val_main_v189 (F := F) x9 i) := rfl
def val_main_v191 (x9 : (⟨S5x128, .f32⟩ : BufTy).Contents (Elt F)) : (⟨S1x128, .f32⟩ : BufTy).Contents (Elt F) :=
  broadcastInDim S1x128 ![1] bcast_S128_S1x128_1 (val_main_v190 (F := F) x9)
abbrev idx_main_v191 (i : S1x128.Idx) : S128.Idx := fun a => match a with
  | ⟨0, _⟩ => ⟨(i 1).val, (i 1).isLt⟩
theorem val_main_v191_apply (x9 : (⟨S5x128, .f32⟩ : BufTy).Contents (Elt F)) (i : S1x128.Idx) :
    val_main_v191 (F := F) x9 i = val_main_v190 (F := F) x9 (idx_main_v191 i) := by
  unfold val_main_v191
  generalize val_main_v190 (F := F) x9 = y
  exact broadcastInDim_apply _ bcast_S128_S1x128_1 y i (idx_main_v191 i) (fun a => match a with
    | ⟨0, _⟩ => by show (i 1).val = if (128 : Nat) = 1 then 0 else (i 1).val; rw [if_neg (by decide)])
def val_main_v192 (x9 : (⟨S5x128, .f32⟩ : BufTy).Contents (Elt F)) : (⟨S100000x128, .f32⟩ : BufTy).Contents (Elt F) :=
  broadcastInDim S100000x128 ![0, 1] bcast_S1x128_S100000x128_0_1 (val_main_v191 (F := F) x9)
abbrev idx_main_v192 (i : S100000x128.Idx) : S1x128.Idx := fun a => match a with
  | ⟨0, _⟩ => ⟨0, Nat.one_pos⟩
  | ⟨1, _⟩ => ⟨(i 1).val, (i 1).isLt⟩
theorem val_main_v192_apply (x9 : (⟨S5x128, .f32⟩ : BufTy).Contents (Elt F)) (i : S100000x128.Idx) :
    val_main_v192 (F := F) x9 i = val_main_v191 (F := F) x9 (idx_main_v192 i) := by
  unfold val_main_v192
  generalize val_main_v191 (F := F) x9 = y
  exact broadcastInDim_apply _ bcast_S1x128_S100000x128_0_1 y i (idx_main_v192 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v193 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v185 (F := F) x0 x1 x2 x3 x4 x5 x6 x7 x8 x9) (val_main_v192 (F := F) x9)
theorem val_main_v193_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v193 (F := F) x0 x1 x2 x3 x4 x5 x6 x7 x8 x9 i = FloatOps.hostDivf (val_main_v185 (F := F) x0 x1 x2 x3 x4 x5 x6 x7 x8 x9 i) (val_main_v192 (F := F) x9 i) := rfl
def val_main_v194 (x7 : (⟨S5x128, .f32⟩ : BufTy).Contents (Elt F)) : (⟨S1x128, .f32⟩ : BufTy).Contents (Elt F) :=
  extractStridedSlice S1x128 ![2, 0] (x7) slices_S5x128_S1x128_2_0
abbrev idx_main_v194 (i : S1x128.Idx) : S5x128.Idx := fun a => match a with
  | ⟨0, _⟩ => ⟨2 + (i 0).val, by have h0 : (i 0).val < 1 := (i 0).isLt; show 2 + (i 0).val < 5; omega⟩
  | ⟨1, _⟩ => ⟨(i 1).val, (i 1).isLt⟩
theorem val_main_v194_apply (x7 : (⟨S5x128, .f32⟩ : BufTy).Contents (Elt F)) (i : S1x128.Idx) :
    val_main_v194 (F := F) x7 i = x7 (idx_main_v194 i) := by
  unfold val_main_v194
  exact extractStridedSlice_apply ![2, 0] x7 slices_S5x128_S1x128_2_0 i (idx_main_v194 i) (fun a => match a with
    | ⟨0, _⟩ => by show 2 + (i 0).val = 2 + (i 0).val; omega
    | ⟨1, _⟩ => by show (i 1).val = 0 + (i 1).val; omega)
def val_main_v195 (x7 : (⟨S5x128, .f32⟩ : BufTy).Contents (Elt F)) : (⟨S128, .f32⟩ : BufTy).Contents (Elt F) :=
  shapeCast _ (val_main_v194 (F := F) x7) shapeCasts_S1x128_S128
abbrev idx_main_v195 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v195_apply (x7 : (⟨S5x128, .f32⟩ : BufTy).Contents (Elt F)) (i : S128.Idx) :
    val_main_v195 (F := F) x7 i = val_main_v194 (F := F) x7 (idx_main_v195 i) := by
  unfold val_main_v195
  generalize val_main_v194 (F := F) x7 = y
  exact shapeCast_apply y shapeCasts_S1x128_S128 i (idx_main_v195 i)
    (by rewrite [Shape.rowMajor_val_two, Shape.rowMajor_val_one]; have h0 : (i 0).val < 128 := (i 0).isLt; show 0 * 128 + ((i 0).val) % 128 = (i 0).val; omega)
def val_main_v196 (x7 : (⟨S5x128, .f32⟩ : BufTy).Contents (Elt F)) : (⟨S1x128, .f32⟩ : BufTy).Contents (Elt F) :=
  broadcastInDim S1x128 ![1] bcast_S128_S1x128_1 (val_main_v195 (F := F) x7)
abbrev idx_main_v196 (i : S1x128.Idx) : S128.Idx := fun a => match a with
  | ⟨0, _⟩ => ⟨(i 1).val, (i 1).isLt⟩
theorem val_main_v196_apply (x7 : (⟨S5x128, .f32⟩ : BufTy).Contents (Elt F)) (i : S1x128.Idx) :
    val_main_v196 (F := F) x7 i = val_main_v195 (F := F) x7 (idx_main_v196 i) := by
  unfold val_main_v196
  generalize val_main_v195 (F := F) x7 = y
  exact broadcastInDim_apply _ bcast_S128_S1x128_1 y i (idx_main_v196 i) (fun a => match a with
    | ⟨0, _⟩ => by show (i 1).val = if (128 : Nat) = 1 then 0 else (i 1).val; rw [if_neg (by decide)])
def val_main_v197 (x7 : (⟨S5x128, .f32⟩ : BufTy).Contents (Elt F)) : (⟨S100000x128, .f32⟩ : BufTy).Contents (Elt F) :=
  broadcastInDim S100000x128 ![0, 1] bcast_S1x128_S100000x128_0_1 (val_main_v196 (F := F) x7)
abbrev idx_main_v197 (i : S100000x128.Idx) : S1x128.Idx := fun a => match a with
  | ⟨0, _⟩ => ⟨0, Nat.one_pos⟩
  | ⟨1, _⟩ => ⟨(i 1).val, (i 1).isLt⟩
theorem val_main_v197_apply (x7 : (⟨S5x128, .f32⟩ : BufTy).Contents (Elt F)) (i : S100000x128.Idx) :
    val_main_v197 (F := F) x7 i = val_main_v196 (F := F) x7 (idx_main_v197 i) := by
  unfold val_main_v197
  generalize val_main_v196 (F := F) x7 = y
  exact broadcastInDim_apply _ bcast_S1x128_S100000x128_0_1 y i (idx_main_v197 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v198 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v193 (F := F) x0 x1 x2 x3 x4 x5 x6 x7 x8 x9) (val_main_v197 (F := F) x7)
theorem val_main_v198_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v198 (F := F) x0 x1 x2 x3 x4 x5 x6 x7 x8 x9 i = FloatOps.addf (val_main_v193 (F := F) x0 x1 x2 x3 x4 x5 x6 x7 x8 x9 i) (val_main_v197 (F := F) x7 i) := rfl
def val_main_call8_cst : (⟨S_, .f32⟩ : BufTy).Contents (Elt F) :=
  constant S_ .f32 0x00000000#32
theorem val_main_call8_cst_apply (i : S_.Idx) :
    val_main_call8_cst (F := F) i = FloatOps.ofBits .f32 0x00000000#32 := rfl
def val_main_call8_v0 : (⟨S100000x128, .f32⟩ : BufTy).Contents (Elt F) :=
  broadcastInDim S100000x128 ![] bcast_S_S100000x128 (val_main_call8_cst (F := F))
abbrev idx_main_call8_v0 (i : S100000x128.Idx) : S_.Idx := fun a => a.elim0
theorem val_main_call8_v0_apply (i : S100000x128.Idx) :
    val_main_call8_v0 (F := F) i = val_main_call8_cst (F := F) (idx_main_call8_v0 i) := by
  unfold val_main_call8_v0
  generalize val_main_call8_cst (F := F) = y
  exact broadcastInDim_apply _ bcast_S_S100000x128 y i (idx_main_call8_v0 i) (fun a => a.elim0)
def val_main_v199 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v198 (F := F) x0 x1 x2 x3 x4 x5 x6 x7 x8 x9) (val_main_call8_v0 (F := F))
theorem val_main_v199_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v199 (F := F) x0 x1 x2 x3 x4 x5 x6 x7 x8 x9 i = FloatOps.maximumf (val_main_v198 (F := F) x0 x1 x2 x3 x4 x5 x6 x7 x8 x9 i) (val_main_call8_v0 (F := F) i) := rfl
def val_main_v200 (x3 : (⟨S5x128x128, .f32⟩ : BufTy).Contents (Elt F)) : (⟨S1x128x128, .f32⟩ : BufTy).Contents (Elt F) :=
  extractStridedSlice S1x128x128 ![3, 0, 0] (x3) slices_S5x128x128_S1x128x128_3_0_0
abbrev idx_main_v200 (i : S1x128x128.Idx) : S5x128x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
  | ⟨2, _⟩ => ⟨(i 2).val, (i 2).isLt⟩
theorem val_main_v200_apply (x3 : (⟨S5x128x128, .f32⟩ : BufTy).Contents (Elt F)) (i : S1x128x128.Idx) :
    val_main_v200 (F := F) x3 i = x3 (idx_main_v200 i) := by
  unfold val_main_v200
  exact extractStridedSlice_apply ![3, 0, 0] x3 slices_S5x128x128_S1x128x128_3_0_0 i (idx_main_v200 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)
def val_main_v201 (x3 : (⟨S5x128x128, .f32⟩ : BufTy).Contents (Elt F)) : (⟨S128x128, .f32⟩ : BufTy).Contents (Elt F) :=
  shapeCast _ (val_main_v200 (F := F) x3) shapeCasts_S1x128x128_S128x128
abbrev idx_main_v201 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v201_apply (x3 : (⟨S5x128x128, .f32⟩ : BufTy).Contents (Elt F)) (i : S128x128.Idx) :
    val_main_v201 (F := F) x3 i = val_main_v200 (F := F) x3 (idx_main_v201 i) := by
  unfold val_main_v201
  generalize val_main_v200 (F := F) x3 = y
  exact shapeCast_apply y shapeCasts_S1x128x128_S128x128 i (idx_main_v201 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)
def val_main_v202 (x3 : (⟨S5x128x128, .f32⟩ : BufTy).Contents (Elt F)) : (⟨S128x128, .f32⟩ : BufTy).Contents (Elt F) :=
  transpose S128x128 [1, 0] (val_main_v201 (F := F) x3) transposes_S128x128_S128x128_1_0
abbrev idx_main_v202 (i : S128x128.Idx) : S128x128.Idx := fun a => match a with
  | ⟨0, _⟩ => ⟨(i 1).val, (i 1).isLt⟩
  | ⟨1, _⟩ => ⟨(i 0).val, (i 0).isLt⟩
theorem val_main_v202_apply (x3 : (⟨S5x128x128, .f32⟩ : BufTy).Contents (Elt F)) (i : S128x128.Idx) :
    val_main_v202 (F := F) x3 i = val_main_v201 (F := F) x3 (idx_main_v202 i) := by
  unfold val_main_v202
  generalize val_main_v201 (F := F) x3 = y
  exact transpose_apply [1, 0] y transposes_S128x128_S128x128_1_0 i (idx_main_v202 i) (fun b => match b with
    | ⟨0, _⟩ => rfl
    | ⟨1, _⟩ => rfl)
def val_main_v203 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.dotGeneral dot_S100000x128_S128x128_S100000x128_1_0_0_1_n_n none (val_main_v199 (F := F) x0 x1 x2 x3 x4 x5 x6 x7 x8 x9) (val_main_v202 (F := F) x3)
theorem lhs_main_v203_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v203_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v203_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v203_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v203 (i : S100000x128.Idx) (k : Fin 128) : S100000x128.Idx := fun a => match a with
  | ⟨0, _⟩ => ⟨(i 0).val, (i 0).isLt⟩
  | ⟨1, _⟩ => ⟨k.val, k.isLt⟩
abbrev ridx_main_v203 (i : S100000x128.Idx) (k : Fin 128) : S128x128.Idx := fun a => match a with
  | ⟨0, _⟩ => ⟨k.val, k.isLt⟩
  | ⟨1, _⟩ => ⟨(i 1).val, (i 1).isLt⟩
theorem val_main_v203_apply (x0 : (⟨S100000x128, .f32⟩ : BufTy).Contents (Elt Ideal)) (x1 : (⟨S2x600000, .i32⟩ : BufTy).Contents (Elt Ideal)) (x2 : (⟨S600000x128, .i32⟩ : BufTy).Contents (Elt Ideal)) (x3 : (⟨S5x128x128, .f32⟩ : BufTy).Contents (Elt Ideal)) (x4 x5 x6 x7 x8 x9 : (⟨S5x128, .f32⟩ : BufTy).Contents (Elt Ideal)) (i : S100000x128.Idx) :
    val_main_v203 (F := Ideal) x0 x1 x2 x3 x4 x5 x6 x7 x8 x9 i = ∑ k : Fin 128, (val_main_v199 (F := Ideal) x0 x1 x2 x3 x4 x5 x6 x7 x8 x9) (lidx_main_v203 i k) * (val_main_v202 (F := Ideal) x3) (ridx_main_v203 i k) := by
  unfold val_main_v203
  generalize val_main_v199 (F := Ideal) x0 x1 x2 x3 x4 x5 x6 x7 x8 x9 = y0
  generalize val_main_v202 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v203 i k := funext fun a => Fin.ext (by
    match a with
    | ⟨0, _⟩ => exact lhs_main_v203_0 _ _
    | ⟨1, _⟩ => exact (lhs_main_v203_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v203 i k := funext fun a => Fin.ext (by
    match a with
    | ⟨0, _⟩ => exact (rhs_main_v203_0 _ _).trans hk
    | ⟨1, _⟩ => exact rhs_main_v203_1 _ _)
  rw [el, er]
def val_main_v204 (x4 : (⟨S5x128, .f32⟩ : BufTy).Contents (Elt F)) : (⟨S1x128, .f32⟩ : BufTy).Contents (Elt F) :=
  extractStridedSlice S1x128 ![3, 0] (x4) slices_S5x128_S1x128_3_0
abbrev idx_main_v204 (i : S1x128.Idx) : S5x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
theorem val_main_v204_apply (x4 : (⟨S5x128, .f32⟩ : BufTy).Contents (Elt F)) (i : S1x128.Idx) :
    val_main_v204 (F := F) x4 i = x4 (idx_main_v204 i) := by
  unfold val_main_v204
  exact extractStridedSlice_apply ![3, 0] x4 slices_S5x128_S1x128_3_0 i (idx_main_v204 i) (fun a => match a with
    | ⟨0, _⟩ => by show 3 + (i 0).val = 3 + (i 0).val; omega
    | ⟨1, _⟩ => by show (i 1).val = 0 + (i 1).val; omega)
def val_main_v205 (x4 : (⟨S5x128, .f32⟩ : BufTy).Contents (Elt F)) : (⟨S128, .f32⟩ : BufTy).Contents (Elt F) :=
  shapeCast _ (val_main_v204 (F := F) x4) shapeCasts_S1x128_S128
abbrev idx_main_v205 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v205_apply (x4 : (⟨S5x128, .f32⟩ : BufTy).Contents (Elt F)) (i : S128.Idx) :
    val_main_v205 (F := F) x4 i = val_main_v204 (F := F) x4 (idx_main_v205 i) := by
  unfold val_main_v205
  generalize val_main_v204 (F := F) x4 = y
  exact shapeCast_apply y shapeCasts_S1x128_S128 i (idx_main_v205 i)
    (by rewrite [Shape.rowMajor_val_two, Shape.rowMajor_val_one]; have h0 : (i 0).val < 128 := (i 0).isLt; show 0 * 128 + ((i 0).val) % 128 = (i 0).val; omega)
def val_main_v206 (x4 : (⟨S5x128, .f32⟩ : BufTy).Contents (Elt F)) : (⟨S1x128, .f32⟩ : BufTy).Contents (Elt F) :=
  broadcastInDim S1x128 ![1] bcast_S128_S1x128_1 (val_main_v205 (F := F) x4)
abbrev idx_main_v206 (i : S1x128.Idx) : S128.Idx := fun a => match a with
  | ⟨0, _⟩ => ⟨(i 1).val, (i 1).isLt⟩
theorem val_main_v206_apply (x4 : (⟨S5x128, .f32⟩ : BufTy).Contents (Elt F)) (i : S1x128.Idx) :
    val_main_v206 (F := F) x4 i = val_main_v205 (F := F) x4 (idx_main_v206 i) := by
  unfold val_main_v206
  generalize val_main_v205 (F := F) x4 = y
  exact broadcastInDim_apply _ bcast_S128_S1x128_1 y i (idx_main_v206 i) (fun a => match a with
    | ⟨0, _⟩ => by show (i 1).val = if (128 : Nat) = 1 then 0 else (i 1).val; rw [if_neg (by decide)])
def val_main_v207 (x4 : (⟨S5x128, .f32⟩ : BufTy).Contents (Elt F)) : (⟨S100000x128, .f32⟩ : BufTy).Contents (Elt F) :=
  broadcastInDim S100000x128 ![0, 1] bcast_S1x128_S100000x128_0_1 (val_main_v206 (F := F) x4)
abbrev idx_main_v207 (i : S100000x128.Idx) : S1x128.Idx := fun a => match a with
  | ⟨0, _⟩ => ⟨0, Nat.one_pos⟩
  | ⟨1, _⟩ => ⟨(i 1).val, (i 1).isLt⟩
theorem val_main_v207_apply (x4 : (⟨S5x128, .f32⟩ : BufTy).Contents (Elt F)) (i : S100000x128.Idx) :
    val_main_v207 (F := F) x4 i = val_main_v206 (F := F) x4 (idx_main_v207 i) := by
  unfold val_main_v207
  generalize val_main_v206 (F := F) x4 = y
  exact broadcastInDim_apply _ bcast_S1x128_S100000x128_0_1 y i (idx_main_v207 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v208 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v203 (F := F) x0 x1 x2 x3 x4 x5 x6 x7 x8 x9) (val_main_v207 (F := F) x4)
theorem val_main_v208_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v208 (F := F) x0 x1 x2 x3 x4 x5 x6 x7 x8 x9 i = FloatOps.addf (val_main_v203 (F := F) x0 x1 x2 x3 x4 x5 x6 x7 x8 x9 i) (val_main_v207 (F := F) x4 i) := rfl
def val_main_c_18 : (⟨S_, .i32⟩ : BufTy).Contents (Elt F) :=
  constantI S_ 32 0#32
def val_main_v209 : (⟨S600000, .i32⟩ : BufTy).Contents (Elt F) :=
  broadcastInDim S600000 ![] bcast_S_S600000 (val_main_c_18 (F := F))
def val_main_v210 (x1 : (⟨S2x600000, .i32⟩ : BufTy).Contents (Elt F)) : (⟨S600000, .i1⟩ : BufTy).Contents (Elt F) :=
  cmpi .slt (val_main_v2 (F := F) x1) (val_main_v209 (F := F))
def val_main_c_19 : (⟨S_, .i32⟩ : BufTy).Contents (Elt F) :=
  constantI S_ 32 100000#32
def val_main_v211 : (⟨S600000, .i32⟩ : BufTy).Contents (Elt F) :=
  broadcastInDim S600000 ![] bcast_S_S600000 (val_main_c_19 (F := F))
def val_main_v212 (x1 : (⟨S2x600000, .i32⟩ : BufTy).Contents (Elt F)) : (⟨S600000, .i32⟩ : BufTy).Contents (Elt F) :=
  addi (val_main_v2 (F := F) x1) (val_main_v211 (F := F))
def val_main_v213 (x1 : (⟨S2x600000, .i32⟩ : BufTy).Contents (Elt F)) : (⟨S600000, .i32⟩ : BufTy).Contents (Elt F) :=
  select (val_main_v210 (F := F) x1) (val_main_v212 (F := F) x1) (val_main_v2 (F := F) x1)
def val_main_v214 (x1 : (⟨S2x600000, .i32⟩ : BufTy).Contents (Elt F)) : (⟨S600000x1, .i32⟩ : BufTy).Contents (Elt F) :=
  broadcastInDim S600000x1 ![0] bcast_S600000_S600000x1_0 (val_main_v213 (F := F) x1)
def val_main_v215 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  Host.gather gather_S100000x128_S600000x1_S600000x128_1_0_n_n_0_1_1128 (val_main_v208 (F := F) x0 x1 x2 x3 x4 x5 x6 x7 x8 x9) (val_main_v214 (F := F) x1)
def val_main_v216 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  addf (val_main_v215 (F := F) x0 x1 x2 x3 x4 x5 x6 x7 x8 x9) (val_main_v0 (F := F) x2)
theorem val_main_v216_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v216 (F := F) x0 x1 x2 x3 x4 x5 x6 x7 x8 x9 i = FloatOps.addf (val_main_v215 (F := F) x0 x1 x2 x3 x4 x5 x6 x7 x8 x9 i) (val_main_v0 (F := F) x2 i) := rfl
def val_main_call9_cst : (⟨S_, .f32⟩ : BufTy).Contents (Elt F) :=
  constant S_ .f32 0x00000000#32
theorem val_main_call9_cst_apply (i : S_.Idx) :
    val_main_call9_cst (F := F) i = FloatOps.ofBits .f32 0x00000000#32 := rfl
def val_main_call9_v0 : (⟨S600000x128, .f32⟩ : BufTy).Contents (Elt F) :=
  broadcastInDim S600000x128 ![] bcast_S_S600000x128 (val_main_call9_cst (F := F))
abbrev idx_main_call9_v0 (i : S600000x128.Idx) : S_.Idx := fun a => a.elim0
theorem val_main_call9_v0_apply (i : S600000x128.Idx) :
    val_main_call9_v0 (F := F) i = val_main_call9_cst (F := F) (idx_main_call9_v0 i) := by
  unfold val_main_call9_v0
  generalize val_main_call9_cst (F := F) = y
  exact broadcastInDim_apply _ bcast_S_S600000x128 y i (idx_main_call9_v0 i) (fun a => a.elim0)
def val_main_v217 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  maximumf (val_main_v216 (F := F) x0 x1 x2 x3 x4 x5 x6 x7 x8 x9) (val_main_call9_v0 (F := F))
theorem val_main_v217_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v217 (F := F) x0 x1 x2 x3 x4 x5 x6 x7 x8 x9 i = FloatOps.maximumf (val_main_v216 (F := F) x0 x1 x2 x3 x4 x5 x6 x7 x8 x9 i) (val_main_call9_v0 (F := F) i) := rfl
def val_main_v218 (x1 : (⟨S2x600000, .i32⟩ : BufTy).Contents (Elt F)) : (⟨S600000x128, .f32⟩ : BufTy).Contents (Elt F) :=
  broadcastInDim S600000x128 ![0, 1] bcast_S600000x1_S600000x128_0_1 (val_main_v28 (F := F) x1)
abbrev idx_main_v218 (i : S600000x128.Idx) : S600000x1.Idx := fun a => match a with
  | ⟨0, _⟩ => ⟨(i 0).val, (i 0).isLt⟩
  | ⟨1, _⟩ => ⟨0, Nat.one_pos⟩
theorem val_main_v218_apply (x1 : (⟨S2x600000, .i32⟩ : BufTy).Contents (Elt F)) (i : S600000x128.Idx) :
    val_main_v218 (F := F) x1 i = val_main_v28 (F := F) x1 (idx_main_v218 i) := by
  unfold val_main_v218
  generalize val_main_v28 (F := F) x1 = y
  exact broadcastInDim_apply _ bcast_S600000x1_S600000x128_0_1 y i (idx_main_v218 i) (fun a => match a with
    | ⟨0, _⟩ => by show (i 0).val = if (600000 : Nat) = 1 then 0 else (i 0).val; rw [if_neg (by decide)]
    | ⟨1, _⟩ => by show 0 = if (1 : Nat) = 1 then 0 else (i 1).val; rw [if_pos rfl])
def val_main_v219 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  mulf (val_main_v218 (F := F) x1) (val_main_v217 (F := F) x0 x1 x2 x3 x4 x5 x6 x7 x8 x9)
theorem val_main_v219_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v219 (F := F) x0 x1 x2 x3 x4 x5 x6 x7 x8 x9 i = FloatOps.mulf (val_main_v218 (F := F) x1 i) (val_main_v217 (F := F) x0 x1 x2 x3 x4 x5 x6 x7 x8 x9 i) := rfl
def val_main_cst_20 : (⟨S_, .f32⟩ : BufTy).Contents (Elt F) :=
  constant S_ .f32 0x00000000#32
def val_main_v220 : (⟨S100000x128, .f32⟩ : BufTy).Contents (Elt F) :=
  broadcastInDim S100000x128 ![] bcast_S_S100000x128 (val_main_cst_20 (F := F))
def val_main_v221 (x1 : (⟨S2x600000, .i32⟩ : BufTy).Contents (Elt F)) : (⟨S600000x1, .i32⟩ : BufTy).Contents (Elt F) :=
  broadcastInDim S600000x1 ![0] bcast_S600000_S600000x1_0 (val_main_v4 (F := F) x1)
def val_main_v222 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.scatterAdd scatter_S100000x128_S600000x1_S600000x128_1_0_0_1 (val_main_v220 (F := F)) (val_main_v221 (F := F) x1) (val_main_v219 (F := F) x0 x1 x2 x3 x4 x5 x6 x7 x8 x9)
def val_main_v223 (x5 : (⟨S5x128, .f32⟩ : BufTy).Contents (Elt F)) : (⟨S1x128, .f32⟩ : BufTy).Contents (Elt F) :=
  extractStridedSlice S1x128 ![3, 0] (x5) slices_S5x128_S1x128_3_0
abbrev idx_main_v223 (i : S1x128.Idx) : S5x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
theorem val_main_v223_apply (x5 : (⟨S5x128, .f32⟩ : BufTy).Contents (Elt F)) (i : S1x128.Idx) :
    val_main_v223 (F := F) x5 i = x5 (idx_main_v223 i) := by
  unfold val_main_v223
  exact extractStridedSlice_apply ![3, 0] x5 slices_S5x128_S1x128_3_0 i (idx_main_v223 i) (fun a => match a with
    | ⟨0, _⟩ => by show 3 + (i 0).val = 3 + (i 0).val; omega
    | ⟨1, _⟩ => by show (i 1).val = 0 + (i 1).val; omega)
def val_main_v224 (x5 : (⟨S5x128, .f32⟩ : BufTy).Contents (Elt F)) : (⟨S128, .f32⟩ : BufTy).Contents (Elt F) :=
  shapeCast _ (val_main_v223 (F := F) x5) shapeCasts_S1x128_S128
abbrev idx_main_v224 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v224_apply (x5 : (⟨S5x128, .f32⟩ : BufTy).Contents (Elt F)) (i : S128.Idx) :
    val_main_v224 (F := F) x5 i = val_main_v223 (F := F) x5 (idx_main_v224 i) := by
  unfold val_main_v224
  generalize val_main_v223 (F := F) x5 = y
  exact shapeCast_apply y shapeCasts_S1x128_S128 i (idx_main_v224 i)
    (by rewrite [Shape.rowMajor_val_two, Shape.rowMajor_val_one]; have h0 : (i 0).val < 128 := (i 0).isLt; show 0 * 128 + ((i 0).val) % 128 = (i 0).val; omega)
def val_main_v225 (x5 : (⟨S5x128, .f32⟩ : BufTy).Contents (Elt F)) : (⟨S1x128, .f32⟩ : BufTy).Contents (Elt F) :=
  broadcastInDim S1x128 ![1] bcast_S128_S1x128_1 (val_main_v224 (F := F) x5)
abbrev idx_main_v225 (i : S1x128.Idx) : S128.Idx := fun a => match a with
  | ⟨0, _⟩ => ⟨(i 1).val, (i 1).isLt⟩
theorem val_main_v225_apply (x5 : (⟨S5x128, .f32⟩ : BufTy).Contents (Elt F)) (i : S1x128.Idx) :
    val_main_v225 (F := F) x5 i = val_main_v224 (F := F) x5 (idx_main_v225 i) := by
  unfold val_main_v225
  generalize val_main_v224 (F := F) x5 = y
  exact broadcastInDim_apply _ bcast_S128_S1x128_1 y i (idx_main_v225 i) (fun a => match a with
    | ⟨0, _⟩ => by show (i 1).val = if (128 : Nat) = 1 then 0 else (i 1).val; rw [if_neg (by decide)])
def val_main_v226 (x5 : (⟨S5x128, .f32⟩ : BufTy).Contents (Elt F)) : (⟨S100000x128, .f32⟩ : BufTy).Contents (Elt F) :=
  broadcastInDim S100000x128 ![0, 1] bcast_S1x128_S100000x128_0_1 (val_main_v225 (F := F) x5)
abbrev idx_main_v226 (i : S100000x128.Idx) : S1x128.Idx := fun a => match a with
  | ⟨0, _⟩ => ⟨0, Nat.one_pos⟩
  | ⟨1, _⟩ => ⟨(i 1).val, (i 1).isLt⟩
theorem val_main_v226_apply (x5 : (⟨S5x128, .f32⟩ : BufTy).Contents (Elt F)) (i : S100000x128.Idx) :
    val_main_v226 (F := F) x5 i = val_main_v225 (F := F) x5 (idx_main_v226 i) := by
  unfold val_main_v226
  generalize val_main_v225 (F := F) x5 = y
  exact broadcastInDim_apply _ bcast_S1x128_S100000x128_0_1 y i (idx_main_v226 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v227 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v208 (F := F) x0 x1 x2 x3 x4 x5 x6 x7 x8 x9) (val_main_v226 (F := F) x5)
theorem val_main_v227_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v227 (F := F) x0 x1 x2 x3 x4 x5 x6 x7 x8 x9 i = FloatOps.addf (val_main_v208 (F := F) x0 x1 x2 x3 x4 x5 x6 x7 x8 x9 i) (val_main_v226 (F := F) x5 i) := rfl
def val_main_call10_cst : (⟨S_, .f32⟩ : BufTy).Contents (Elt F) :=
  constant S_ .f32 0x00000000#32
theorem val_main_call10_cst_apply (i : S_.Idx) :
    val_main_call10_cst (F := F) i = FloatOps.ofBits .f32 0x00000000#32 := rfl
def val_main_call10_v0 : (⟨S100000x128, .f32⟩ : BufTy).Contents (Elt F) :=
  broadcastInDim S100000x128 ![] bcast_S_S100000x128 (val_main_call10_cst (F := F))
abbrev idx_main_call10_v0 (i : S100000x128.Idx) : S_.Idx := fun a => a.elim0
theorem val_main_call10_v0_apply (i : S100000x128.Idx) :
    val_main_call10_v0 (F := F) i = val_main_call10_cst (F := F) (idx_main_call10_v0 i) := by
  unfold val_main_call10_v0
  generalize val_main_call10_cst (F := F) = y
  exact broadcastInDim_apply _ bcast_S_S100000x128 y i (idx_main_call10_v0 i) (fun a => a.elim0)
def val_main_v228 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v227 (F := F) x0 x1 x2 x3 x4 x5 x6 x7 x8 x9) (val_main_call10_v0 (F := F))
theorem val_main_v228_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v228 (F := F) x0 x1 x2 x3 x4 x5 x6 x7 x8 x9 i = FloatOps.maximumf (val_main_v227 (F := F) x0 x1 x2 x3 x4 x5 x6 x7 x8 x9 i) (val_main_call10_v0 (F := F) i) := rfl
def val_main_v229 (x1 : (⟨S2x600000, .i32⟩ : BufTy).Contents (Elt F)) : (⟨S100000x1, .f32⟩ : BufTy).Contents (Elt F) :=
  broadcastInDim S100000x1 ![0] bcast_S100000_S100000x1_0 (val_main_v10 (F := F) x1)
abbrev idx_main_v229 (i : S100000x1.Idx) : S100000.Idx := fun a => match a with
  | ⟨0, _⟩ => ⟨(i 0).val, (i 0).isLt⟩
theorem val_main_v229_apply (x1 : (⟨S2x600000, .i32⟩ : BufTy).Contents (Elt F)) (i : S100000x1.Idx) :
    val_main_v229 (F := F) x1 i = val_main_v10 (F := F) x1 (idx_main_v229 i) := by
  unfold val_main_v229
  generalize val_main_v10 (F := F) x1 = y
  exact broadcastInDim_apply _ bcast_S100000_S100000x1_0 y i (idx_main_v229 i) (fun a => match a with
    | ⟨0, _⟩ => by show (i 0).val = if (100000 : Nat) = 1 then 0 else (i 0).val; rw [if_neg (by decide)])
def val_main_v230 (x1 : (⟨S2x600000, .i32⟩ : BufTy).Contents (Elt F)) : (⟨S100000x128, .f32⟩ : BufTy).Contents (Elt F) :=
  broadcastInDim S100000x128 ![0, 1] bcast_S100000x1_S100000x128_0_1 (val_main_v229 (F := F) x1)
abbrev idx_main_v230 (i : S100000x128.Idx) : S100000x1.Idx := fun a => match a with
  | ⟨0, _⟩ => ⟨(i 0).val, (i 0).isLt⟩
  | ⟨1, _⟩ => ⟨0, Nat.one_pos⟩
theorem val_main_v230_apply (x1 : (⟨S2x600000, .i32⟩ : BufTy).Contents (Elt F)) (i : S100000x128.Idx) :
    val_main_v230 (F := F) x1 i = val_main_v229 (F := F) x1 (idx_main_v230 i) := by
  unfold val_main_v230
  generalize val_main_v229 (F := F) x1 = y
  exact broadcastInDim_apply _ bcast_S100000x1_S100000x128_0_1 y i (idx_main_v230 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
def val_main_v231 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v228 (F := F) x0 x1 x2 x3 x4 x5 x6 x7 x8 x9) (val_main_v230 (F := F) x1)
theorem val_main_v231_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v231 (F := F) x0 x1 x2 x3 x4 x5 x6 x7 x8 x9 i = FloatOps.hostDivf (val_main_v228 (F := F) x0 x1 x2 x3 x4 x5 x6 x7 x8 x9 i) (val_main_v230 (F := F) x1 i) := rfl
def val_main_v232 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v222 (F := F) x0 x1 x2 x3 x4 x5 x6 x7 x8 x9) (val_main_v231 (F := F) x0 x1 x2 x3 x4 x5 x6 x7 x8 x9)
theorem val_main_v232_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v232 (F := F) x0 x1 x2 x3 x4 x5 x6 x7 x8 x9 i = FloatOps.addf (val_main_v222 (F := F) x0 x1 x2 x3 x4 x5 x6 x7 x8 x9 i) (val_main_v231 (F := F) x0 x1 x2 x3 x4 x5 x6 x7 x8 x9 i) := rfl
def val_main_v233 (x6 : (⟨S5x128, .f32⟩ : BufTy).Contents (Elt F)) : (⟨S1x128, .f32⟩ : BufTy).Contents (Elt F) :=
  extractStridedSlice S1x128 ![3, 0] (x6) slices_S5x128_S1x128_3_0
abbrev idx_main_v233 (i : S1x128.Idx) : S5x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
theorem val_main_v233_apply (x6 : (⟨S5x128, .f32⟩ : BufTy).Contents (Elt F)) (i : S1x128.Idx) :
    val_main_v233 (F := F) x6 i = x6 (idx_main_v233 i) := by
  unfold val_main_v233
  exact extractStridedSlice_apply ![3, 0] x6 slices_S5x128_S1x128_3_0 i (idx_main_v233 i) (fun a => match a with
    | ⟨0, _⟩ => by show 3 + (i 0).val = 3 + (i 0).val; omega
    | ⟨1, _⟩ => by show (i 1).val = 0 + (i 1).val; omega)
def val_main_v234 (x6 : (⟨S5x128, .f32⟩ : BufTy).Contents (Elt F)) : (⟨S128, .f32⟩ : BufTy).Contents (Elt F) :=
  shapeCast _ (val_main_v233 (F := F) x6) shapeCasts_S1x128_S128
abbrev idx_main_v234 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v234_apply (x6 : (⟨S5x128, .f32⟩ : BufTy).Contents (Elt F)) (i : S128.Idx) :
    val_main_v234 (F := F) x6 i = val_main_v233 (F := F) x6 (idx_main_v234 i) := by
  unfold val_main_v234
  generalize val_main_v233 (F := F) x6 = y
  exact shapeCast_apply y shapeCasts_S1x128_S128 i (idx_main_v234 i)
    (by rewrite [Shape.rowMajor_val_two, Shape.rowMajor_val_one]; have h0 : (i 0).val < 128 := (i 0).isLt; show 0 * 128 + ((i 0).val) % 128 = (i 0).val; omega)
def val_main_v235 (x8 : (⟨S5x128, .f32⟩ : BufTy).Contents (Elt F)) : (⟨S1x128, .f32⟩ : BufTy).Contents (Elt F) :=
  extractStridedSlice S1x128 ![3, 0] (x8) slices_S5x128_S1x128_3_0
abbrev idx_main_v235 (i : S1x128.Idx) : S5x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
theorem val_main_v235_apply (x8 : (⟨S5x128, .f32⟩ : BufTy).Contents (Elt F)) (i : S1x128.Idx) :
    val_main_v235 (F := F) x8 i = x8 (idx_main_v235 i) := by
  unfold val_main_v235
  exact extractStridedSlice_apply ![3, 0] x8 slices_S5x128_S1x128_3_0 i (idx_main_v235 i) (fun a => match a with
    | ⟨0, _⟩ => by show 3 + (i 0).val = 3 + (i 0).val; omega
    | ⟨1, _⟩ => by show (i 1).val = 0 + (i 1).val; omega)
def val_main_v236 (x8 : (⟨S5x128, .f32⟩ : BufTy).Contents (Elt F)) : (⟨S128, .f32⟩ : BufTy).Contents (Elt F) :=
  shapeCast _ (val_main_v235 (F := F) x8) shapeCasts_S1x128_S128
abbrev idx_main_v236 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v236_apply (x8 : (⟨S5x128, .f32⟩ : BufTy).Contents (Elt F)) (i : S128.Idx) :
    val_main_v236 (F := F) x8 i = val_main_v235 (F := F) x8 (idx_main_v236 i) := by
  unfold val_main_v236
  generalize val_main_v235 (F := F) x8 = y
  exact shapeCast_apply y shapeCasts_S1x128_S128 i (idx_main_v236 i)
    (by rewrite [Shape.rowMajor_val_two, Shape.rowMajor_val_one]; have h0 : (i 0).val < 128 := (i 0).isLt; show 0 * 128 + ((i 0).val) % 128 = (i 0).val; omega)
def val_main_v237 (x8 : (⟨S5x128, .f32⟩ : BufTy).Contents (Elt F)) : (⟨S1x128, .f32⟩ : BufTy).Contents (Elt F) :=
  broadcastInDim S1x128 ![1] bcast_S128_S1x128_1 (val_main_v236 (F := F) x8)
abbrev idx_main_v237 (i : S1x128.Idx) : S128.Idx := fun a => match a with
  | ⟨0, _⟩ => ⟨(i 1).val, (i 1).isLt⟩
theorem val_main_v237_apply (x8 : (⟨S5x128, .f32⟩ : BufTy).Contents (Elt F)) (i : S1x128.Idx) :
    val_main_v237 (F := F) x8 i = val_main_v236 (F := F) x8 (idx_main_v237 i) := by
  unfold val_main_v237
  generalize val_main_v236 (F := F) x8 = y
  exact broadcastInDim_apply _ bcast_S128_S1x128_1 y i (idx_main_v237 i) (fun a => match a with
    | ⟨0, _⟩ => by show (i 1).val = if (128 : Nat) = 1 then 0 else (i 1).val; rw [if_neg (by decide)])
def val_main_v238 (x8 : (⟨S5x128, .f32⟩ : BufTy).Contents (Elt F)) : (⟨S100000x128, .f32⟩ : BufTy).Contents (Elt F) :=
  broadcastInDim S100000x128 ![0, 1] bcast_S1x128_S100000x128_0_1 (val_main_v237 (F := F) x8)
abbrev idx_main_v238 (i : S100000x128.Idx) : S1x128.Idx := fun a => match a with
  | ⟨0, _⟩ => ⟨0, Nat.one_pos⟩
  | ⟨1, _⟩ => ⟨(i 1).val, (i 1).isLt⟩
theorem val_main_v238_apply (x8 : (⟨S5x128, .f32⟩ : BufTy).Contents (Elt F)) (i : S100000x128.Idx) :
    val_main_v238 (F := F) x8 i = val_main_v237 (F := F) x8 (idx_main_v238 i) := by
  unfold val_main_v238
  generalize val_main_v237 (F := F) x8 = y
  exact broadcastInDim_apply _ bcast_S1x128_S100000x128_0_1 y i (idx_main_v238 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v239 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  subf (val_main_v232 (F := F) x0 x1 x2 x3 x4 x5 x6 x7 x8 x9) (val_main_v238 (F := F) x8)
theorem val_main_v239_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v239 (F := F) x0 x1 x2 x3 x4 x5 x6 x7 x8 x9 i = FloatOps.subf (val_main_v232 (F := F) x0 x1 x2 x3 x4 x5 x6 x7 x8 x9 i) (val_main_v238 (F := F) x8 i) := rfl
def val_main_v240 (x6 : (⟨S5x128, .f32⟩ : BufTy).Contents (Elt F)) : (⟨S1x128, .f32⟩ : BufTy).Contents (Elt F) :=
  broadcastInDim S1x128 ![1] bcast_S128_S1x128_1 (val_main_v234 (F := F) x6)
abbrev idx_main_v240 (i : S1x128.Idx) : S128.Idx := fun a => match a with
  | ⟨0, _⟩ => ⟨(i 1).val, (i 1).isLt⟩
theorem val_main_v240_apply (x6 : (⟨S5x128, .f32⟩ : BufTy).Contents (Elt F)) (i : S1x128.Idx) :
    val_main_v240 (F := F) x6 i = val_main_v234 (F := F) x6 (idx_main_v240 i) := by
  unfold val_main_v240
  generalize val_main_v234 (F := F) x6 = y
  exact broadcastInDim_apply _ bcast_S128_S1x128_1 y i (idx_main_v240 i) (fun a => match a with
    | ⟨0, _⟩ => by show (i 1).val = if (128 : Nat) = 1 then 0 else (i 1).val; rw [if_neg (by decide)])
def val_main_v241 (x6 : (⟨S5x128, .f32⟩ : BufTy).Contents (Elt F)) : (⟨S100000x128, .f32⟩ : BufTy).Contents (Elt F) :=
  broadcastInDim S100000x128 ![0, 1] bcast_S1x128_S100000x128_0_1 (val_main_v240 (F := F) x6)
abbrev idx_main_v241 (i : S100000x128.Idx) : S1x128.Idx := fun a => match a with
  | ⟨0, _⟩ => ⟨0, Nat.one_pos⟩
  | ⟨1, _⟩ => ⟨(i 1).val, (i 1).isLt⟩
theorem val_main_v241_apply (x6 : (⟨S5x128, .f32⟩ : BufTy).Contents (Elt F)) (i : S100000x128.Idx) :
    val_main_v241 (F := F) x6 i = val_main_v240 (F := F) x6 (idx_main_v241 i) := by
  unfold val_main_v241
  generalize val_main_v240 (F := F) x6 = y
  exact broadcastInDim_apply _ bcast_S1x128_S100000x128_0_1 y i (idx_main_v241 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v242 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  mulf (val_main_v241 (F := F) x6) (val_main_v239 (F := F) x0 x1 x2 x3 x4 x5 x6 x7 x8 x9)
theorem val_main_v242_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v242 (F := F) x0 x1 x2 x3 x4 x5 x6 x7 x8 x9 i = FloatOps.mulf (val_main_v241 (F := F) x6 i) (val_main_v239 (F := F) x0 x1 x2 x3 x4 x5 x6 x7 x8 x9 i) := rfl
def val_main_v243 (x9 : (⟨S5x128, .f32⟩ : BufTy).Contents (Elt F)) : (⟨S1x128, .f32⟩ : BufTy).Contents (Elt F) :=
  extractStridedSlice S1x128 ![3, 0] (x9) slices_S5x128_S1x128_3_0
abbrev idx_main_v243 (i : S1x128.Idx) : S5x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
theorem val_main_v243_apply (x9 : (⟨S5x128, .f32⟩ : BufTy).Contents (Elt F)) (i : S1x128.Idx) :
    val_main_v243 (F := F) x9 i = x9 (idx_main_v243 i) := by
  unfold val_main_v243
  exact extractStridedSlice_apply ![3, 0] x9 slices_S5x128_S1x128_3_0 i (idx_main_v243 i) (fun a => match a with
    | ⟨0, _⟩ => by show 3 + (i 0).val = 3 + (i 0).val; omega
    | ⟨1, _⟩ => by show (i 1).val = 0 + (i 1).val; omega)
def val_main_v244 (x9 : (⟨S5x128, .f32⟩ : BufTy).Contents (Elt F)) : (⟨S128, .f32⟩ : BufTy).Contents (Elt F) :=
  shapeCast _ (val_main_v243 (F := F) x9) shapeCasts_S1x128_S128
abbrev idx_main_v244 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v244_apply (x9 : (⟨S5x128, .f32⟩ : BufTy).Contents (Elt F)) (i : S128.Idx) :
    val_main_v244 (F := F) x9 i = val_main_v243 (F := F) x9 (idx_main_v244 i) := by
  unfold val_main_v244
  generalize val_main_v243 (F := F) x9 = y
  exact shapeCast_apply y shapeCasts_S1x128_S128 i (idx_main_v244 i)
    (by rewrite [Shape.rowMajor_val_two, Shape.rowMajor_val_one]; have h0 : (i 0).val < 128 := (i 0).isLt; show 0 * 128 + ((i 0).val) % 128 = (i 0).val; omega)
def val_main_cst_21 : (⟨S_, .f32⟩ : BufTy).Contents (Elt F) :=
  constant S_ .f32 0x3727C5AC#32
theorem val_main_cst_21_apply (i : S_.Idx) :
    val_main_cst_21 (F := F) i = FloatOps.ofBits .f32 0x3727C5AC#32 := rfl
def val_main_v245 : (⟨S128, .f32⟩ : BufTy).Contents (Elt F) :=
  broadcastInDim S128 ![] bcast_S_S128 (val_main_cst_21 (F := F))
abbrev idx_main_v245 (i : S128.Idx) : S_.Idx := fun a => a.elim0
theorem val_main_v245_apply (i : S128.Idx) :
    val_main_v245 (F := F) i = val_main_cst_21 (F := F) (idx_main_v245 i) := by
  unfold val_main_v245
  generalize val_main_cst_21 (F := F) = y
  exact broadcastInDim_apply _ bcast_S_S128 y i (idx_main_v245 i) (fun a => a.elim0)
def val_main_v246 (x9 : (⟨S5x128, .f32⟩ : BufTy).Contents (Elt F)) : (⟨S128, .f32⟩ : BufTy).Contents (Elt F) :=
  addf (val_main_v244 (F := F) x9) (val_main_v245 (F := F))
theorem val_main_v246_apply (x9 : (⟨S5x128, .f32⟩ : BufTy).Contents (Elt F)) (i : S128.Idx) :
    val_main_v246 (F := F) x9 i = FloatOps.addf (val_main_v244 (F := F) x9 i) (val_main_v245 (F := F) i) := rfl
def val_main_v247 (x9 : (⟨S5x128, .f32⟩ : BufTy).Contents (Elt F)) : (⟨S128, .f32⟩ : BufTy).Contents (Elt F) :=
  Host.sqrt (val_main_v246 (F := F) x9)
theorem val_main_v247_apply (x9 : (⟨S5x128, .f32⟩ : BufTy).Contents (Elt F)) (i : S128.Idx) :
    val_main_v247 (F := F) x9 i = FloatOps.hostUnary .sqrt (val_main_v246 (F := F) x9 i) := rfl
def val_main_v248 (x9 : (⟨S5x128, .f32⟩ : BufTy).Contents (Elt F)) : (⟨S1x128, .f32⟩ : BufTy).Contents (Elt F) :=
  broadcastInDim S1x128 ![1] bcast_S128_S1x128_1 (val_main_v247 (F := F) x9)
abbrev idx_main_v248 (i : S1x128.Idx) : S128.Idx := fun a => match a with
  | ⟨0, _⟩ => ⟨(i 1).val, (i 1).isLt⟩
theorem val_main_v248_apply (x9 : (⟨S5x128, .f32⟩ : BufTy).Contents (Elt F)) (i : S1x128.Idx) :
    val_main_v248 (F := F) x9 i = val_main_v247 (F := F) x9 (idx_main_v248 i) := by
  unfold val_main_v248
  generalize val_main_v247 (F := F) x9 = y
  exact broadcastInDim_apply _ bcast_S128_S1x128_1 y i (idx_main_v248 i) (fun a => match a with
    | ⟨0, _⟩ => by show (i 1).val = if (128 : Nat) = 1 then 0 else (i 1).val; rw [if_neg (by decide)])
def val_main_v249 (x9 : (⟨S5x128, .f32⟩ : BufTy).Contents (Elt F)) : (⟨S100000x128, .f32⟩ : BufTy).Contents (Elt F) :=
  broadcastInDim S100000x128 ![0, 1] bcast_S1x128_S100000x128_0_1 (val_main_v248 (F := F) x9)
abbrev idx_main_v249 (i : S100000x128.Idx) : S1x128.Idx := fun a => match a with
  | ⟨0, _⟩ => ⟨0, Nat.one_pos⟩
  | ⟨1, _⟩ => ⟨(i 1).val, (i 1).isLt⟩
theorem val_main_v249_apply (x9 : (⟨S5x128, .f32⟩ : BufTy).Contents (Elt F)) (i : S100000x128.Idx) :
    val_main_v249 (F := F) x9 i = val_main_v248 (F := F) x9 (idx_main_v249 i) := by
  unfold val_main_v249
  generalize val_main_v248 (F := F) x9 = y
  exact broadcastInDim_apply _ bcast_S1x128_S100000x128_0_1 y i (idx_main_v249 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v250 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v242 (F := F) x0 x1 x2 x3 x4 x5 x6 x7 x8 x9) (val_main_v249 (F := F) x9)
theorem val_main_v250_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v250 (F := F) x0 x1 x2 x3 x4 x5 x6 x7 x8 x9 i = FloatOps.hostDivf (val_main_v242 (F := F) x0 x1 x2 x3 x4 x5 x6 x7 x8 x9 i) (val_main_v249 (F := F) x9 i) := rfl
def val_main_v251 (x7 : (⟨S5x128, .f32⟩ : BufTy).Contents (Elt F)) : (⟨S1x128, .f32⟩ : BufTy).Contents (Elt F) :=
  extractStridedSlice S1x128 ![3, 0] (x7) slices_S5x128_S1x128_3_0
abbrev idx_main_v251 (i : S1x128.Idx) : S5x128.Idx := fun a => match a with
  | ⟨0, _⟩ => ⟨3 + (i 0).val, by have h0 : (i 0).val < 1 := (i 0).isLt; show 3 + (i 0).val < 5; omega⟩
  | ⟨1, _⟩ => ⟨(i 1).val, (i 1).isLt⟩
theorem val_main_v251_apply (x7 : (⟨S5x128, .f32⟩ : BufTy).Contents (Elt F)) (i : S1x128.Idx) :
    val_main_v251 (F := F) x7 i = x7 (idx_main_v251 i) := by
  unfold val_main_v251
  exact extractStridedSlice_apply ![3, 0] x7 slices_S5x128_S1x128_3_0 i (idx_main_v251 i) (fun a => match a with
    | ⟨0, _⟩ => by show 3 + (i 0).val = 3 + (i 0).val; omega
    | ⟨1, _⟩ => by show (i 1).val = 0 + (i 1).val; omega)
def val_main_v252 (x7 : (⟨S5x128, .f32⟩ : BufTy).Contents (Elt F)) : (⟨S128, .f32⟩ : BufTy).Contents (Elt F) :=
  shapeCast _ (val_main_v251 (F := F) x7) shapeCasts_S1x128_S128
abbrev idx_main_v252 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v252_apply (x7 : (⟨S5x128, .f32⟩ : BufTy).Contents (Elt F)) (i : S128.Idx) :
    val_main_v252 (F := F) x7 i = val_main_v251 (F := F) x7 (idx_main_v252 i) := by
  unfold val_main_v252
  generalize val_main_v251 (F := F) x7 = y
  exact shapeCast_apply y shapeCasts_S1x128_S128 i (idx_main_v252 i)
    (by rewrite [Shape.rowMajor_val_two, Shape.rowMajor_val_one]; have h0 : (i 0).val < 128 := (i 0).isLt; show 0 * 128 + ((i 0).val) % 128 = (i 0).val; omega)
def val_main_v253 (x7 : (⟨S5x128, .f32⟩ : BufTy).Contents (Elt F)) : (⟨S1x128, .f32⟩ : BufTy).Contents (Elt F) :=
  broadcastInDim S1x128 ![1] bcast_S128_S1x128_1 (val_main_v252 (F := F) x7)
abbrev idx_main_v253 (i : S1x128.Idx) : S128.Idx := fun a => match a with
  | ⟨0, _⟩ => ⟨(i 1).val, (i 1).isLt⟩
theorem val_main_v253_apply (x7 : (⟨S5x128, .f32⟩ : BufTy).Contents (Elt F)) (i : S1x128.Idx) :
    val_main_v253 (F := F) x7 i = val_main_v252 (F := F) x7 (idx_main_v253 i) := by
  unfold val_main_v253
  generalize val_main_v252 (F := F) x7 = y
  exact broadcastInDim_apply _ bcast_S128_S1x128_1 y i (idx_main_v253 i) (fun a => match a with
    | ⟨0, _⟩ => by show (i 1).val = if (128 : Nat) = 1 then 0 else (i 1).val; rw [if_neg (by decide)])
def val_main_v254 (x7 : (⟨S5x128, .f32⟩ : BufTy).Contents (Elt F)) : (⟨S100000x128, .f32⟩ : BufTy).Contents (Elt F) :=
  broadcastInDim S100000x128 ![0, 1] bcast_S1x128_S100000x128_0_1 (val_main_v253 (F := F) x7)
abbrev idx_main_v254 (i : S100000x128.Idx) : S1x128.Idx := fun a => match a with
  | ⟨0, _⟩ => ⟨0, Nat.one_pos⟩
  | ⟨1, _⟩ => ⟨(i 1).val, (i 1).isLt⟩
theorem val_main_v254_apply (x7 : (⟨S5x128, .f32⟩ : BufTy).Contents (Elt F)) (i : S100000x128.Idx) :
    val_main_v254 (F := F) x7 i = val_main_v253 (F := F) x7 (idx_main_v254 i) := by
  unfold val_main_v254
  generalize val_main_v253 (F := F) x7 = y
  exact broadcastInDim_apply _ bcast_S1x128_S100000x128_0_1 y i (idx_main_v254 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v255 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v250 (F := F) x0 x1 x2 x3 x4 x5 x6 x7 x8 x9) (val_main_v254 (F := F) x7)
theorem val_main_v255_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v255 (F := F) x0 x1 x2 x3 x4 x5 x6 x7 x8 x9 i = FloatOps.addf (val_main_v250 (F := F) x0 x1 x2 x3 x4 x5 x6 x7 x8 x9 i) (val_main_v254 (F := F) x7 i) := rfl
def val_main_call11_cst : (⟨S_, .f32⟩ : BufTy).Contents (Elt F) :=
  constant S_ .f32 0x00000000#32
theorem val_main_call11_cst_apply (i : S_.Idx) :
    val_main_call11_cst (F := F) i = FloatOps.ofBits .f32 0x00000000#32 := rfl
def val_main_call11_v0 : (⟨S100000x128, .f32⟩ : BufTy).Contents (Elt F) :=
  broadcastInDim S100000x128 ![] bcast_S_S100000x128 (val_main_call11_cst (F := F))
abbrev idx_main_call11_v0 (i : S100000x128.Idx) : S_.Idx := fun a => a.elim0
theorem val_main_call11_v0_apply (i : S100000x128.Idx) :
    val_main_call11_v0 (F := F) i = val_main_call11_cst (F := F) (idx_main_call11_v0 i) := by
  unfold val_main_call11_v0
  generalize val_main_call11_cst (F := F) = y
  exact broadcastInDim_apply _ bcast_S_S100000x128 y i (idx_main_call11_v0 i) (fun a => a.elim0)
def val_main_v256 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v255 (F := F) x0 x1 x2 x3 x4 x5 x6 x7 x8 x9) (val_main_call11_v0 (F := F))
theorem val_main_v256_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v256 (F := F) x0 x1 x2 x3 x4 x5 x6 x7 x8 x9 i = FloatOps.maximumf (val_main_v255 (F := F) x0 x1 x2 x3 x4 x5 x6 x7 x8 x9 i) (val_main_call11_v0 (F := F) i) := rfl
def val_main_v257 (x3 : (⟨S5x128x128, .f32⟩ : BufTy).Contents (Elt F)) : (⟨S1x128x128, .f32⟩ : BufTy).Contents (Elt F) :=
  extractStridedSlice S1x128x128 ![4, 0, 0] (x3) slices_S5x128x128_S1x128x128_4_0_0
abbrev idx_main_v257 (i : S1x128x128.Idx) : S5x128x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
  | ⟨2, _⟩ => ⟨(i 2).val, (i 2).isLt⟩
theorem val_main_v257_apply (x3 : (⟨S5x128x128, .f32⟩ : BufTy).Contents (Elt F)) (i : S1x128x128.Idx) :
    val_main_v257 (F := F) x3 i = x3 (idx_main_v257 i) := by
  unfold val_main_v257
  exact extractStridedSlice_apply ![4, 0, 0] x3 slices_S5x128x128_S1x128x128_4_0_0 i (idx_main_v257 i) (fun a => match a with
    | ⟨0, _⟩ => by show 4 + (i 0).val = 4 + (i 0).val; omega
    | ⟨1, _⟩ => by show (i 1).val = 0 + (i 1).val; omega
    | ⟨2, _⟩ => by show (i 2).val = 0 + (i 2).val; omega)
def val_main_v258 (x3 : (⟨S5x128x128, .f32⟩ : BufTy).Contents (Elt F)) : (⟨S128x128, .f32⟩ : BufTy).Contents (Elt F) :=
  shapeCast _ (val_main_v257 (F := F) x3) shapeCasts_S1x128x128_S128x128
abbrev idx_main_v258 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v258_apply (x3 : (⟨S5x128x128, .f32⟩ : BufTy).Contents (Elt F)) (i : S128x128.Idx) :
    val_main_v258 (F := F) x3 i = val_main_v257 (F := F) x3 (idx_main_v258 i) := by
  unfold val_main_v258
  generalize val_main_v257 (F := F) x3 = y
  exact shapeCast_apply y shapeCasts_S1x128x128_S128x128 i (idx_main_v258 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)
def val_main_v259 (x3 : (⟨S5x128x128, .f32⟩ : BufTy).Contents (Elt F)) : (⟨S128x128, .f32⟩ : BufTy).Contents (Elt F) :=
  transpose S128x128 [1, 0] (val_main_v258 (F := F) x3) transposes_S128x128_S128x128_1_0
abbrev idx_main_v259 (i : S128x128.Idx) : S128x128.Idx := fun a => match a with
  | ⟨0, _⟩ => ⟨(i 1).val, (i 1).isLt⟩
  | ⟨1, _⟩ => ⟨(i 0).val, (i 0).isLt⟩
theorem val_main_v259_apply (x3 : (⟨S5x128x128, .f32⟩ : BufTy).Contents (Elt F)) (i : S128x128.Idx) :
    val_main_v259 (F := F) x3 i = val_main_v258 (F := F) x3 (idx_main_v259 i) := by
  unfold val_main_v259
  generalize val_main_v258 (F := F) x3 = y
  exact transpose_apply [1, 0] y transposes_S128x128_S128x128_1_0 i (idx_main_v259 i) (fun b => match b with
    | ⟨0, _⟩ => rfl
    | ⟨1, _⟩ => rfl)
def val_main_v260 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.dotGeneral dot_S100000x128_S128x128_S100000x128_1_0_0_1_n_n none (val_main_v256 (F := F) x0 x1 x2 x3 x4 x5 x6 x7 x8 x9) (val_main_v259 (F := F) x3)
theorem lhs_main_v260_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v260_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v260_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v260_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v260 (i : S100000x128.Idx) (k : Fin 128) : S100000x128.Idx := fun a => match a with
  | ⟨0, _⟩ => ⟨(i 0).val, (i 0).isLt⟩
  | ⟨1, _⟩ => ⟨k.val, k.isLt⟩
abbrev ridx_main_v260 (i : S100000x128.Idx) (k : Fin 128) : S128x128.Idx := fun a => match a with
  | ⟨0, _⟩ => ⟨k.val, k.isLt⟩
  | ⟨1, _⟩ => ⟨(i 1).val, (i 1).isLt⟩
theorem val_main_v260_apply (x0 : (⟨S100000x128, .f32⟩ : BufTy).Contents (Elt Ideal)) (x1 : (⟨S2x600000, .i32⟩ : BufTy).Contents (Elt Ideal)) (x2 : (⟨S600000x128, .i32⟩ : BufTy).Contents (Elt Ideal)) (x3 : (⟨S5x128x128, .f32⟩ : BufTy).Contents (Elt Ideal)) (x4 x5 x6 x7 x8 x9 : (⟨S5x128, .f32⟩ : BufTy).Contents (Elt Ideal)) (i : S100000x128.Idx) :
    val_main_v260 (F := Ideal) x0 x1 x2 x3 x4 x5 x6 x7 x8 x9 i = ∑ k : Fin 128, (val_main_v256 (F := Ideal) x0 x1 x2 x3 x4 x5 x6 x7 x8 x9) (lidx_main_v260 i k) * (val_main_v259 (F := Ideal) x3) (ridx_main_v260 i k) := by
  unfold val_main_v260
  generalize val_main_v256 (F := Ideal) x0 x1 x2 x3 x4 x5 x6 x7 x8 x9 = y0
  generalize val_main_v259 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v260 i k := funext fun a => Fin.ext (by
    match a with
    | ⟨0, _⟩ => exact lhs_main_v260_0 _ _
    | ⟨1, _⟩ => exact (lhs_main_v260_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v260 i k := funext fun a => Fin.ext (by
    match a with
    | ⟨0, _⟩ => exact (rhs_main_v260_0 _ _).trans hk
    | ⟨1, _⟩ => exact rhs_main_v260_1 _ _)
  rw [el, er]
def val_main_v261 (x4 : (⟨S5x128, .f32⟩ : BufTy).Contents (Elt F)) : (⟨S1x128, .f32⟩ : BufTy).Contents (Elt F) :=
  extractStridedSlice S1x128 ![4, 0] (x4) slices_S5x128_S1x128_4_0
abbrev idx_main_v261 (i : S1x128.Idx) : S5x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
theorem val_main_v261_apply (x4 : (⟨S5x128, .f32⟩ : BufTy).Contents (Elt F)) (i : S1x128.Idx) :
    val_main_v261 (F := F) x4 i = x4 (idx_main_v261 i) := by
  unfold val_main_v261
  exact extractStridedSlice_apply ![4, 0] x4 slices_S5x128_S1x128_4_0 i (idx_main_v261 i) (fun a => match a with
    | ⟨0, _⟩ => by show 4 + (i 0).val = 4 + (i 0).val; omega
    | ⟨1, _⟩ => by show (i 1).val = 0 + (i 1).val; omega)
def val_main_v262 (x4 : (⟨S5x128, .f32⟩ : BufTy).Contents (Elt F)) : (⟨S128, .f32⟩ : BufTy).Contents (Elt F) :=
  shapeCast _ (val_main_v261 (F := F) x4) shapeCasts_S1x128_S128
abbrev idx_main_v262 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v262_apply (x4 : (⟨S5x128, .f32⟩ : BufTy).Contents (Elt F)) (i : S128.Idx) :
    val_main_v262 (F := F) x4 i = val_main_v261 (F := F) x4 (idx_main_v262 i) := by
  unfold val_main_v262
  generalize val_main_v261 (F := F) x4 = y
  exact shapeCast_apply y shapeCasts_S1x128_S128 i (idx_main_v262 i)
    (by rewrite [Shape.rowMajor_val_two, Shape.rowMajor_val_one]; have h0 : (i 0).val < 128 := (i 0).isLt; show 0 * 128 + ((i 0).val) % 128 = (i 0).val; omega)
def val_main_v263 (x4 : (⟨S5x128, .f32⟩ : BufTy).Contents (Elt F)) : (⟨S1x128, .f32⟩ : BufTy).Contents (Elt F) :=
  broadcastInDim S1x128 ![1] bcast_S128_S1x128_1 (val_main_v262 (F := F) x4)
abbrev idx_main_v263 (i : S1x128.Idx) : S128.Idx := fun a => match a with
  | ⟨0, _⟩ => ⟨(i 1).val, (i 1).isLt⟩
theorem val_main_v263_apply (x4 : (⟨S5x128, .f32⟩ : BufTy).Contents (Elt F)) (i : S1x128.Idx) :
    val_main_v263 (F := F) x4 i = val_main_v262 (F := F) x4 (idx_main_v263 i) := by
  unfold val_main_v263
  generalize val_main_v262 (F := F) x4 = y
  exact broadcastInDim_apply _ bcast_S128_S1x128_1 y i (idx_main_v263 i) (fun a => match a with
    | ⟨0, _⟩ => by show (i 1).val = if (128 : Nat) = 1 then 0 else (i 1).val; rw [if_neg (by decide)])
def val_main_v264 (x4 : (⟨S5x128, .f32⟩ : BufTy).Contents (Elt F)) : (⟨S100000x128, .f32⟩ : BufTy).Contents (Elt F) :=
  broadcastInDim S100000x128 ![0, 1] bcast_S1x128_S100000x128_0_1 (val_main_v263 (F := F) x4)
abbrev idx_main_v264 (i : S100000x128.Idx) : S1x128.Idx := fun a => match a with
  | ⟨0, _⟩ => ⟨0, Nat.one_pos⟩
  | ⟨1, _⟩ => ⟨(i 1).val, (i 1).isLt⟩
theorem val_main_v264_apply (x4 : (⟨S5x128, .f32⟩ : BufTy).Contents (Elt F)) (i : S100000x128.Idx) :
    val_main_v264 (F := F) x4 i = val_main_v263 (F := F) x4 (idx_main_v264 i) := by
  unfold val_main_v264
  generalize val_main_v263 (F := F) x4 = y
  exact broadcastInDim_apply _ bcast_S1x128_S100000x128_0_1 y i (idx_main_v264 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v265 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v260 (F := F) x0 x1 x2 x3 x4 x5 x6 x7 x8 x9) (val_main_v264 (F := F) x4)
theorem val_main_v265_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v265 (F := F) x0 x1 x2 x3 x4 x5 x6 x7 x8 x9 i = FloatOps.addf (val_main_v260 (F := F) x0 x1 x2 x3 x4 x5 x6 x7 x8 x9 i) (val_main_v264 (F := F) x4 i) := rfl
def val_main_c_22 : (⟨S_, .i32⟩ : BufTy).Contents (Elt F) :=
  constantI S_ 32 0#32
def val_main_v266 : (⟨S600000, .i32⟩ : BufTy).Contents (Elt F) :=
  broadcastInDim S600000 ![] bcast_S_S600000 (val_main_c_22 (F := F))
def val_main_v267 (x1 : (⟨S2x600000, .i32⟩ : BufTy).Contents (Elt F)) : (⟨S600000, .i1⟩ : BufTy).Contents (Elt F) :=
  cmpi .slt (val_main_v2 (F := F) x1) (val_main_v266 (F := F))
def val_main_c_23 : (⟨S_, .i32⟩ : BufTy).Contents (Elt F) :=
  constantI S_ 32 100000#32
def val_main_v268 : (⟨S600000, .i32⟩ : BufTy).Contents (Elt F) :=
  broadcastInDim S600000 ![] bcast_S_S600000 (val_main_c_23 (F := F))
def val_main_v269 (x1 : (⟨S2x600000, .i32⟩ : BufTy).Contents (Elt F)) : (⟨S600000, .i32⟩ : BufTy).Contents (Elt F) :=
  addi (val_main_v2 (F := F) x1) (val_main_v268 (F := F))
def val_main_v270 (x1 : (⟨S2x600000, .i32⟩ : BufTy).Contents (Elt F)) : (⟨S600000, .i32⟩ : BufTy).Contents (Elt F) :=
  select (val_main_v267 (F := F) x1) (val_main_v269 (F := F) x1) (val_main_v2 (F := F) x1)
def val_main_v271 (x1 : (⟨S2x600000, .i32⟩ : BufTy).Contents (Elt F)) : (⟨S600000x1, .i32⟩ : BufTy).Contents (Elt F) :=
  broadcastInDim S600000x1 ![0] bcast_S600000_S600000x1_0 (val_main_v270 (F := F) x1)
def val_main_v272 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  Host.gather gather_S100000x128_S600000x1_S600000x128_1_0_n_n_0_1_1128 (val_main_v265 (F := F) x0 x1 x2 x3 x4 x5 x6 x7 x8 x9) (val_main_v271 (F := F) x1)
def val_main_v273 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  addf (val_main_v272 (F := F) x0 x1 x2 x3 x4 x5 x6 x7 x8 x9) (val_main_v0 (F := F) x2)
theorem val_main_v273_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v273 (F := F) x0 x1 x2 x3 x4 x5 x6 x7 x8 x9 i = FloatOps.addf (val_main_v272 (F := F) x0 x1 x2 x3 x4 x5 x6 x7 x8 x9 i) (val_main_v0 (F := F) x2 i) := rfl
def val_main_call12_cst : (⟨S_, .f32⟩ : BufTy).Contents (Elt F) :=
  constant S_ .f32 0x00000000#32
theorem val_main_call12_cst_apply (i : S_.Idx) :
    val_main_call12_cst (F := F) i = FloatOps.ofBits .f32 0x00000000#32 := rfl
def val_main_call12_v0 : (⟨S600000x128, .f32⟩ : BufTy).Contents (Elt F) :=
  broadcastInDim S600000x128 ![] bcast_S_S600000x128 (val_main_call12_cst (F := F))
abbrev idx_main_call12_v0 (i : S600000x128.Idx) : S_.Idx := fun a => a.elim0
theorem val_main_call12_v0_apply (i : S600000x128.Idx) :
    val_main_call12_v0 (F := F) i = val_main_call12_cst (F := F) (idx_main_call12_v0 i) := by
  unfold val_main_call12_v0
  generalize val_main_call12_cst (F := F) = y
  exact broadcastInDim_apply _ bcast_S_S600000x128 y i (idx_main_call12_v0 i) (fun a => a.elim0)
def val_main_v274 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  maximumf (val_main_v273 (F := F) x0 x1 x2 x3 x4 x5 x6 x7 x8 x9) (val_main_call12_v0 (F := F))
theorem val_main_v274_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v274 (F := F) x0 x1 x2 x3 x4 x5 x6 x7 x8 x9 i = FloatOps.maximumf (val_main_v273 (F := F) x0 x1 x2 x3 x4 x5 x6 x7 x8 x9 i) (val_main_call12_v0 (F := F) i) := rfl
def val_main_v275 (x1 : (⟨S2x600000, .i32⟩ : BufTy).Contents (Elt F)) : (⟨S600000x128, .f32⟩ : BufTy).Contents (Elt F) :=
  broadcastInDim S600000x128 ![0, 1] bcast_S600000x1_S600000x128_0_1 (val_main_v28 (F := F) x1)
abbrev idx_main_v275 (i : S600000x128.Idx) : S600000x1.Idx := fun a => match a with
  | ⟨0, _⟩ => ⟨(i 0).val, (i 0).isLt⟩
  | ⟨1, _⟩ => ⟨0, Nat.one_pos⟩
theorem val_main_v275_apply (x1 : (⟨S2x600000, .i32⟩ : BufTy).Contents (Elt F)) (i : S600000x128.Idx) :
    val_main_v275 (F := F) x1 i = val_main_v28 (F := F) x1 (idx_main_v275 i) := by
  unfold val_main_v275
  generalize val_main_v28 (F := F) x1 = y
  exact broadcastInDim_apply _ bcast_S600000x1_S600000x128_0_1 y i (idx_main_v275 i) (fun a => match a with
    | ⟨0, _⟩ => by show (i 0).val = if (600000 : Nat) = 1 then 0 else (i 0).val; rw [if_neg (by decide)]
    | ⟨1, _⟩ => by show 0 = if (1 : Nat) = 1 then 0 else (i 1).val; rw [if_pos rfl])
def val_main_v276 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S600000x128, .f32⟩ : BufTy).Contents (Elt F) :=
  mulf (val_main_v275 (F := F) x1) (val_main_v274 (F := F) x0 x1 x2 x3 x4 x5 x6 x7 x8 x9)
theorem val_main_v276_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S600000x128.Idx) :
    val_main_v276 (F := F) x0 x1 x2 x3 x4 x5 x6 x7 x8 x9 i = FloatOps.mulf (val_main_v275 (F := F) x1 i) (val_main_v274 (F := F) x0 x1 x2 x3 x4 x5 x6 x7 x8 x9 i) := rfl
def val_main_cst_24 : (⟨S_, .f32⟩ : BufTy).Contents (Elt F) :=
  constant S_ .f32 0x00000000#32
def val_main_v277 : (⟨S100000x128, .f32⟩ : BufTy).Contents (Elt F) :=
  broadcastInDim S100000x128 ![] bcast_S_S100000x128 (val_main_cst_24 (F := F))
def val_main_v278 (x1 : (⟨S2x600000, .i32⟩ : BufTy).Contents (Elt F)) : (⟨S600000x1, .i32⟩ : BufTy).Contents (Elt F) :=
  broadcastInDim S600000x1 ![0] bcast_S600000_S600000x1_0 (val_main_v4 (F := F) x1)
def val_main_v279 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.scatterAdd scatter_S100000x128_S600000x1_S600000x128_1_0_0_1 (val_main_v277 (F := F)) (val_main_v278 (F := F) x1) (val_main_v276 (F := F) x0 x1 x2 x3 x4 x5 x6 x7 x8 x9)
def val_main_v280 (x5 : (⟨S5x128, .f32⟩ : BufTy).Contents (Elt F)) : (⟨S1x128, .f32⟩ : BufTy).Contents (Elt F) :=
  extractStridedSlice S1x128 ![4, 0] (x5) slices_S5x128_S1x128_4_0
abbrev idx_main_v280 (i : S1x128.Idx) : S5x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
theorem val_main_v280_apply (x5 : (⟨S5x128, .f32⟩ : BufTy).Contents (Elt F)) (i : S1x128.Idx) :
    val_main_v280 (F := F) x5 i = x5 (idx_main_v280 i) := by
  unfold val_main_v280
  exact extractStridedSlice_apply ![4, 0] x5 slices_S5x128_S1x128_4_0 i (idx_main_v280 i) (fun a => match a with
    | ⟨0, _⟩ => by show 4 + (i 0).val = 4 + (i 0).val; omega
    | ⟨1, _⟩ => by show (i 1).val = 0 + (i 1).val; omega)
def val_main_v281 (x5 : (⟨S5x128, .f32⟩ : BufTy).Contents (Elt F)) : (⟨S128, .f32⟩ : BufTy).Contents (Elt F) :=
  shapeCast _ (val_main_v280 (F := F) x5) shapeCasts_S1x128_S128
abbrev idx_main_v281 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v281_apply (x5 : (⟨S5x128, .f32⟩ : BufTy).Contents (Elt F)) (i : S128.Idx) :
    val_main_v281 (F := F) x5 i = val_main_v280 (F := F) x5 (idx_main_v281 i) := by
  unfold val_main_v281
  generalize val_main_v280 (F := F) x5 = y
  exact shapeCast_apply y shapeCasts_S1x128_S128 i (idx_main_v281 i)
    (by rewrite [Shape.rowMajor_val_two, Shape.rowMajor_val_one]; have h0 : (i 0).val < 128 := (i 0).isLt; show 0 * 128 + ((i 0).val) % 128 = (i 0).val; omega)
def val_main_v282 (x5 : (⟨S5x128, .f32⟩ : BufTy).Contents (Elt F)) : (⟨S1x128, .f32⟩ : BufTy).Contents (Elt F) :=
  broadcastInDim S1x128 ![1] bcast_S128_S1x128_1 (val_main_v281 (F := F) x5)
abbrev idx_main_v282 (i : S1x128.Idx) : S128.Idx := fun a => match a with
  | ⟨0, _⟩ => ⟨(i 1).val, (i 1).isLt⟩
theorem val_main_v282_apply (x5 : (⟨S5x128, .f32⟩ : BufTy).Contents (Elt F)) (i : S1x128.Idx) :
    val_main_v282 (F := F) x5 i = val_main_v281 (F := F) x5 (idx_main_v282 i) := by
  unfold val_main_v282
  generalize val_main_v281 (F := F) x5 = y
  exact broadcastInDim_apply _ bcast_S128_S1x128_1 y i (idx_main_v282 i) (fun a => match a with
    | ⟨0, _⟩ => by show (i 1).val = if (128 : Nat) = 1 then 0 else (i 1).val; rw [if_neg (by decide)])
def val_main_v283 (x5 : (⟨S5x128, .f32⟩ : BufTy).Contents (Elt F)) : (⟨S100000x128, .f32⟩ : BufTy).Contents (Elt F) :=
  broadcastInDim S100000x128 ![0, 1] bcast_S1x128_S100000x128_0_1 (val_main_v282 (F := F) x5)
abbrev idx_main_v283 (i : S100000x128.Idx) : S1x128.Idx := fun a => match a with
  | ⟨0, _⟩ => ⟨0, Nat.one_pos⟩
  | ⟨1, _⟩ => ⟨(i 1).val, (i 1).isLt⟩
theorem val_main_v283_apply (x5 : (⟨S5x128, .f32⟩ : BufTy).Contents (Elt F)) (i : S100000x128.Idx) :
    val_main_v283 (F := F) x5 i = val_main_v282 (F := F) x5 (idx_main_v283 i) := by
  unfold val_main_v283
  generalize val_main_v282 (F := F) x5 = y
  exact broadcastInDim_apply _ bcast_S1x128_S100000x128_0_1 y i (idx_main_v283 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v284 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v265 (F := F) x0 x1 x2 x3 x4 x5 x6 x7 x8 x9) (val_main_v283 (F := F) x5)
theorem val_main_v284_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v284 (F := F) x0 x1 x2 x3 x4 x5 x6 x7 x8 x9 i = FloatOps.addf (val_main_v265 (F := F) x0 x1 x2 x3 x4 x5 x6 x7 x8 x9 i) (val_main_v283 (F := F) x5 i) := rfl
def val_main_call13_cst : (⟨S_, .f32⟩ : BufTy).Contents (Elt F) :=
  constant S_ .f32 0x00000000#32
theorem val_main_call13_cst_apply (i : S_.Idx) :
    val_main_call13_cst (F := F) i = FloatOps.ofBits .f32 0x00000000#32 := rfl
def val_main_call13_v0 : (⟨S100000x128, .f32⟩ : BufTy).Contents (Elt F) :=
  broadcastInDim S100000x128 ![] bcast_S_S100000x128 (val_main_call13_cst (F := F))
abbrev idx_main_call13_v0 (i : S100000x128.Idx) : S_.Idx := fun a => a.elim0
theorem val_main_call13_v0_apply (i : S100000x128.Idx) :
    val_main_call13_v0 (F := F) i = val_main_call13_cst (F := F) (idx_main_call13_v0 i) := by
  unfold val_main_call13_v0
  generalize val_main_call13_cst (F := F) = y
  exact broadcastInDim_apply _ bcast_S_S100000x128 y i (idx_main_call13_v0 i) (fun a => a.elim0)
def val_main_v285 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  maximumf (val_main_v284 (F := F) x0 x1 x2 x3 x4 x5 x6 x7 x8 x9) (val_main_call13_v0 (F := F))
theorem val_main_v285_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v285 (F := F) x0 x1 x2 x3 x4 x5 x6 x7 x8 x9 i = FloatOps.maximumf (val_main_v284 (F := F) x0 x1 x2 x3 x4 x5 x6 x7 x8 x9 i) (val_main_call13_v0 (F := F) i) := rfl
def val_main_v286 (x1 : (⟨S2x600000, .i32⟩ : BufTy).Contents (Elt F)) : (⟨S100000x1, .f32⟩ : BufTy).Contents (Elt F) :=
  broadcastInDim S100000x1 ![0] bcast_S100000_S100000x1_0 (val_main_v10 (F := F) x1)
abbrev idx_main_v286 (i : S100000x1.Idx) : S100000.Idx := fun a => match a with
  | ⟨0, _⟩ => ⟨(i 0).val, (i 0).isLt⟩
theorem val_main_v286_apply (x1 : (⟨S2x600000, .i32⟩ : BufTy).Contents (Elt F)) (i : S100000x1.Idx) :
    val_main_v286 (F := F) x1 i = val_main_v10 (F := F) x1 (idx_main_v286 i) := by
  unfold val_main_v286
  generalize val_main_v10 (F := F) x1 = y
  exact broadcastInDim_apply _ bcast_S100000_S100000x1_0 y i (idx_main_v286 i) (fun a => match a with
    | ⟨0, _⟩ => by show (i 0).val = if (100000 : Nat) = 1 then 0 else (i 0).val; rw [if_neg (by decide)])
def val_main_v287 (x1 : (⟨S2x600000, .i32⟩ : BufTy).Contents (Elt F)) : (⟨S100000x128, .f32⟩ : BufTy).Contents (Elt F) :=
  broadcastInDim S100000x128 ![0, 1] bcast_S100000x1_S100000x128_0_1 (val_main_v286 (F := F) x1)
abbrev idx_main_v287 (i : S100000x128.Idx) : S100000x1.Idx := fun a => match a with
  | ⟨0, _⟩ => ⟨(i 0).val, (i 0).isLt⟩
  | ⟨1, _⟩ => ⟨0, Nat.one_pos⟩
theorem val_main_v287_apply (x1 : (⟨S2x600000, .i32⟩ : BufTy).Contents (Elt F)) (i : S100000x128.Idx) :
    val_main_v287 (F := F) x1 i = val_main_v286 (F := F) x1 (idx_main_v287 i) := by
  unfold val_main_v287
  generalize val_main_v286 (F := F) x1 = y
  exact broadcastInDim_apply _ bcast_S100000x1_S100000x128_0_1 y i (idx_main_v287 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
def val_main_v288 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v285 (F := F) x0 x1 x2 x3 x4 x5 x6 x7 x8 x9) (val_main_v287 (F := F) x1)
theorem val_main_v288_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v288 (F := F) x0 x1 x2 x3 x4 x5 x6 x7 x8 x9 i = FloatOps.hostDivf (val_main_v285 (F := F) x0 x1 x2 x3 x4 x5 x6 x7 x8 x9 i) (val_main_v287 (F := F) x1 i) := rfl
def val_main_v289 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v279 (F := F) x0 x1 x2 x3 x4 x5 x6 x7 x8 x9) (val_main_v288 (F := F) x0 x1 x2 x3 x4 x5 x6 x7 x8 x9)
theorem val_main_v289_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v289 (F := F) x0 x1 x2 x3 x4 x5 x6 x7 x8 x9 i = FloatOps.addf (val_main_v279 (F := F) x0 x1 x2 x3 x4 x5 x6 x7 x8 x9 i) (val_main_v288 (F := F) x0 x1 x2 x3 x4 x5 x6 x7 x8 x9 i) := rfl
def val_main_v290 (x6 : (⟨S5x128, .f32⟩ : BufTy).Contents (Elt F)) : (⟨S1x128, .f32⟩ : BufTy).Contents (Elt F) :=
  extractStridedSlice S1x128 ![4, 0] (x6) slices_S5x128_S1x128_4_0
abbrev idx_main_v290 (i : S1x128.Idx) : S5x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
theorem val_main_v290_apply (x6 : (⟨S5x128, .f32⟩ : BufTy).Contents (Elt F)) (i : S1x128.Idx) :
    val_main_v290 (F := F) x6 i = x6 (idx_main_v290 i) := by
  unfold val_main_v290
  exact extractStridedSlice_apply ![4, 0] x6 slices_S5x128_S1x128_4_0 i (idx_main_v290 i) (fun a => match a with
    | ⟨0, _⟩ => by show 4 + (i 0).val = 4 + (i 0).val; omega
    | ⟨1, _⟩ => by show (i 1).val = 0 + (i 1).val; omega)
def val_main_v291 (x6 : (⟨S5x128, .f32⟩ : BufTy).Contents (Elt F)) : (⟨S128, .f32⟩ : BufTy).Contents (Elt F) :=
  shapeCast _ (val_main_v290 (F := F) x6) shapeCasts_S1x128_S128
abbrev idx_main_v291 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v291_apply (x6 : (⟨S5x128, .f32⟩ : BufTy).Contents (Elt F)) (i : S128.Idx) :
    val_main_v291 (F := F) x6 i = val_main_v290 (F := F) x6 (idx_main_v291 i) := by
  unfold val_main_v291
  generalize val_main_v290 (F := F) x6 = y
  exact shapeCast_apply y shapeCasts_S1x128_S128 i (idx_main_v291 i)
    (by rewrite [Shape.rowMajor_val_two, Shape.rowMajor_val_one]; have h0 : (i 0).val < 128 := (i 0).isLt; show 0 * 128 + ((i 0).val) % 128 = (i 0).val; omega)
def val_main_v292 (x8 : (⟨S5x128, .f32⟩ : BufTy).Contents (Elt F)) : (⟨S1x128, .f32⟩ : BufTy).Contents (Elt F) :=
  extractStridedSlice S1x128 ![4, 0] (x8) slices_S5x128_S1x128_4_0
abbrev idx_main_v292 (i : S1x128.Idx) : S5x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
theorem val_main_v292_apply (x8 : (⟨S5x128, .f32⟩ : BufTy).Contents (Elt F)) (i : S1x128.Idx) :
    val_main_v292 (F := F) x8 i = x8 (idx_main_v292 i) := by
  unfold val_main_v292
  exact extractStridedSlice_apply ![4, 0] x8 slices_S5x128_S1x128_4_0 i (idx_main_v292 i) (fun a => match a with
    | ⟨0, _⟩ => by show 4 + (i 0).val = 4 + (i 0).val; omega
    | ⟨1, _⟩ => by show (i 1).val = 0 + (i 1).val; omega)
def val_main_v293 (x8 : (⟨S5x128, .f32⟩ : BufTy).Contents (Elt F)) : (⟨S128, .f32⟩ : BufTy).Contents (Elt F) :=
  shapeCast _ (val_main_v292 (F := F) x8) shapeCasts_S1x128_S128
abbrev idx_main_v293 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v293_apply (x8 : (⟨S5x128, .f32⟩ : BufTy).Contents (Elt F)) (i : S128.Idx) :
    val_main_v293 (F := F) x8 i = val_main_v292 (F := F) x8 (idx_main_v293 i) := by
  unfold val_main_v293
  generalize val_main_v292 (F := F) x8 = y
  exact shapeCast_apply y shapeCasts_S1x128_S128 i (idx_main_v293 i)
    (by rewrite [Shape.rowMajor_val_two, Shape.rowMajor_val_one]; have h0 : (i 0).val < 128 := (i 0).isLt; show 0 * 128 + ((i 0).val) % 128 = (i 0).val; omega)
def val_main_v294 (x8 : (⟨S5x128, .f32⟩ : BufTy).Contents (Elt F)) : (⟨S1x128, .f32⟩ : BufTy).Contents (Elt F) :=
  broadcastInDim S1x128 ![1] bcast_S128_S1x128_1 (val_main_v293 (F := F) x8)
abbrev idx_main_v294 (i : S1x128.Idx) : S128.Idx := fun a => match a with
  | ⟨0, _⟩ => ⟨(i 1).val, (i 1).isLt⟩
theorem val_main_v294_apply (x8 : (⟨S5x128, .f32⟩ : BufTy).Contents (Elt F)) (i : S1x128.Idx) :
    val_main_v294 (F := F) x8 i = val_main_v293 (F := F) x8 (idx_main_v294 i) := by
  unfold val_main_v294
  generalize val_main_v293 (F := F) x8 = y
  exact broadcastInDim_apply _ bcast_S128_S1x128_1 y i (idx_main_v294 i) (fun a => match a with
    | ⟨0, _⟩ => by show (i 1).val = if (128 : Nat) = 1 then 0 else (i 1).val; rw [if_neg (by decide)])
def val_main_v295 (x8 : (⟨S5x128, .f32⟩ : BufTy).Contents (Elt F)) : (⟨S100000x128, .f32⟩ : BufTy).Contents (Elt F) :=
  broadcastInDim S100000x128 ![0, 1] bcast_S1x128_S100000x128_0_1 (val_main_v294 (F := F) x8)
abbrev idx_main_v295 (i : S100000x128.Idx) : S1x128.Idx := fun a => match a with
  | ⟨0, _⟩ => ⟨0, Nat.one_pos⟩
  | ⟨1, _⟩ => ⟨(i 1).val, (i 1).isLt⟩
theorem val_main_v295_apply (x8 : (⟨S5x128, .f32⟩ : BufTy).Contents (Elt F)) (i : S100000x128.Idx) :
    val_main_v295 (F := F) x8 i = val_main_v294 (F := F) x8 (idx_main_v295 i) := by
  unfold val_main_v295
  generalize val_main_v294 (F := F) x8 = y
  exact broadcastInDim_apply _ bcast_S1x128_S100000x128_0_1 y i (idx_main_v295 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v296 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  subf (val_main_v289 (F := F) x0 x1 x2 x3 x4 x5 x6 x7 x8 x9) (val_main_v295 (F := F) x8)
theorem val_main_v296_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v296 (F := F) x0 x1 x2 x3 x4 x5 x6 x7 x8 x9 i = FloatOps.subf (val_main_v289 (F := F) x0 x1 x2 x3 x4 x5 x6 x7 x8 x9 i) (val_main_v295 (F := F) x8 i) := rfl
def val_main_v297 (x6 : (⟨S5x128, .f32⟩ : BufTy).Contents (Elt F)) : (⟨S1x128, .f32⟩ : BufTy).Contents (Elt F) :=
  broadcastInDim S1x128 ![1] bcast_S128_S1x128_1 (val_main_v291 (F := F) x6)
abbrev idx_main_v297 (i : S1x128.Idx) : S128.Idx := fun a => match a with
  | ⟨0, _⟩ => ⟨(i 1).val, (i 1).isLt⟩
theorem val_main_v297_apply (x6 : (⟨S5x128, .f32⟩ : BufTy).Contents (Elt F)) (i : S1x128.Idx) :
    val_main_v297 (F := F) x6 i = val_main_v291 (F := F) x6 (idx_main_v297 i) := by
  unfold val_main_v297
  generalize val_main_v291 (F := F) x6 = y
  exact broadcastInDim_apply _ bcast_S128_S1x128_1 y i (idx_main_v297 i) (fun a => match a with
    | ⟨0, _⟩ => by show (i 1).val = if (128 : Nat) = 1 then 0 else (i 1).val; rw [if_neg (by decide)])
def val_main_v298 (x6 : (⟨S5x128, .f32⟩ : BufTy).Contents (Elt F)) : (⟨S100000x128, .f32⟩ : BufTy).Contents (Elt F) :=
  broadcastInDim S100000x128 ![0, 1] bcast_S1x128_S100000x128_0_1 (val_main_v297 (F := F) x6)
abbrev idx_main_v298 (i : S100000x128.Idx) : S1x128.Idx := fun a => match a with
  | ⟨0, _⟩ => ⟨0, Nat.one_pos⟩
  | ⟨1, _⟩ => ⟨(i 1).val, (i 1).isLt⟩
theorem val_main_v298_apply (x6 : (⟨S5x128, .f32⟩ : BufTy).Contents (Elt F)) (i : S100000x128.Idx) :
    val_main_v298 (F := F) x6 i = val_main_v297 (F := F) x6 (idx_main_v298 i) := by
  unfold val_main_v298
  generalize val_main_v297 (F := F) x6 = y
  exact broadcastInDim_apply _ bcast_S1x128_S100000x128_0_1 y i (idx_main_v298 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v299 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  mulf (val_main_v298 (F := F) x6) (val_main_v296 (F := F) x0 x1 x2 x3 x4 x5 x6 x7 x8 x9)
theorem val_main_v299_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v299 (F := F) x0 x1 x2 x3 x4 x5 x6 x7 x8 x9 i = FloatOps.mulf (val_main_v298 (F := F) x6 i) (val_main_v296 (F := F) x0 x1 x2 x3 x4 x5 x6 x7 x8 x9 i) := rfl
def val_main_v300 (x9 : (⟨S5x128, .f32⟩ : BufTy).Contents (Elt F)) : (⟨S1x128, .f32⟩ : BufTy).Contents (Elt F) :=
  extractStridedSlice S1x128 ![4, 0] (x9) slices_S5x128_S1x128_4_0
abbrev idx_main_v300 (i : S1x128.Idx) : S5x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
theorem val_main_v300_apply (x9 : (⟨S5x128, .f32⟩ : BufTy).Contents (Elt F)) (i : S1x128.Idx) :
    val_main_v300 (F := F) x9 i = x9 (idx_main_v300 i) := by
  unfold val_main_v300
  exact extractStridedSlice_apply ![4, 0] x9 slices_S5x128_S1x128_4_0 i (idx_main_v300 i) (fun a => match a with
    | ⟨0, _⟩ => by show 4 + (i 0).val = 4 + (i 0).val; omega
    | ⟨1, _⟩ => by show (i 1).val = 0 + (i 1).val; omega)
def val_main_v301 (x9 : (⟨S5x128, .f32⟩ : BufTy).Contents (Elt F)) : (⟨S128, .f32⟩ : BufTy).Contents (Elt F) :=
  shapeCast _ (val_main_v300 (F := F) x9) shapeCasts_S1x128_S128
abbrev idx_main_v301 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v301_apply (x9 : (⟨S5x128, .f32⟩ : BufTy).Contents (Elt F)) (i : S128.Idx) :
    val_main_v301 (F := F) x9 i = val_main_v300 (F := F) x9 (idx_main_v301 i) := by
  unfold val_main_v301
  generalize val_main_v300 (F := F) x9 = y
  exact shapeCast_apply y shapeCasts_S1x128_S128 i (idx_main_v301 i)
    (by rewrite [Shape.rowMajor_val_two, Shape.rowMajor_val_one]; have h0 : (i 0).val < 128 := (i 0).isLt; show 0 * 128 + ((i 0).val) % 128 = (i 0).val; omega)
def val_main_cst_25 : (⟨S_, .f32⟩ : BufTy).Contents (Elt F) :=
  constant S_ .f32 0x3727C5AC#32
theorem val_main_cst_25_apply (i : S_.Idx) :
    val_main_cst_25 (F := F) i = FloatOps.ofBits .f32 0x3727C5AC#32 := rfl
def val_main_v302 : (⟨S128, .f32⟩ : BufTy).Contents (Elt F) :=
  broadcastInDim S128 ![] bcast_S_S128 (val_main_cst_25 (F := F))
abbrev idx_main_v302 (i : S128.Idx) : S_.Idx := fun a => a.elim0
theorem val_main_v302_apply (i : S128.Idx) :
    val_main_v302 (F := F) i = val_main_cst_25 (F := F) (idx_main_v302 i) := by
  unfold val_main_v302
  generalize val_main_cst_25 (F := F) = y
  exact broadcastInDim_apply _ bcast_S_S128 y i (idx_main_v302 i) (fun a => a.elim0)
def val_main_v303 (x9 : (⟨S5x128, .f32⟩ : BufTy).Contents (Elt F)) : (⟨S128, .f32⟩ : BufTy).Contents (Elt F) :=
  addf (val_main_v301 (F := F) x9) (val_main_v302 (F := F))
theorem val_main_v303_apply (x9 : (⟨S5x128, .f32⟩ : BufTy).Contents (Elt F)) (i : S128.Idx) :
    val_main_v303 (F := F) x9 i = FloatOps.addf (val_main_v301 (F := F) x9 i) (val_main_v302 (F := F) i) := rfl
def val_main_v304 (x9 : (⟨S5x128, .f32⟩ : BufTy).Contents (Elt F)) : (⟨S128, .f32⟩ : BufTy).Contents (Elt F) :=
  Host.sqrt (val_main_v303 (F := F) x9)
theorem val_main_v304_apply (x9 : (⟨S5x128, .f32⟩ : BufTy).Contents (Elt F)) (i : S128.Idx) :
    val_main_v304 (F := F) x9 i = FloatOps.hostUnary .sqrt (val_main_v303 (F := F) x9 i) := rfl
def val_main_v305 (x9 : (⟨S5x128, .f32⟩ : BufTy).Contents (Elt F)) : (⟨S1x128, .f32⟩ : BufTy).Contents (Elt F) :=
  broadcastInDim S1x128 ![1] bcast_S128_S1x128_1 (val_main_v304 (F := F) x9)
abbrev idx_main_v305 (i : S1x128.Idx) : S128.Idx := fun a => match a with
  | ⟨0, _⟩ => ⟨(i 1).val, (i 1).isLt⟩
theorem val_main_v305_apply (x9 : (⟨S5x128, .f32⟩ : BufTy).Contents (Elt F)) (i : S1x128.Idx) :
    val_main_v305 (F := F) x9 i = val_main_v304 (F := F) x9 (idx_main_v305 i) := by
  unfold val_main_v305
  generalize val_main_v304 (F := F) x9 = y
  exact broadcastInDim_apply _ bcast_S128_S1x128_1 y i (idx_main_v305 i) (fun a => match a with
    | ⟨0, _⟩ => by show (i 1).val = if (128 : Nat) = 1 then 0 else (i 1).val; rw [if_neg (by decide)])
def val_main_v306 (x9 : (⟨S5x128, .f32⟩ : BufTy).Contents (Elt F)) : (⟨S100000x128, .f32⟩ : BufTy).Contents (Elt F) :=
  broadcastInDim S100000x128 ![0, 1] bcast_S1x128_S100000x128_0_1 (val_main_v305 (F := F) x9)
abbrev idx_main_v306 (i : S100000x128.Idx) : S1x128.Idx := fun a => match a with
  | ⟨0, _⟩ => ⟨0, Nat.one_pos⟩
  | ⟨1, _⟩ => ⟨(i 1).val, (i 1).isLt⟩
theorem val_main_v306_apply (x9 : (⟨S5x128, .f32⟩ : BufTy).Contents (Elt F)) (i : S100000x128.Idx) :
    val_main_v306 (F := F) x9 i = val_main_v305 (F := F) x9 (idx_main_v306 i) := by
  unfold val_main_v306
  generalize val_main_v305 (F := F) x9 = y
  exact broadcastInDim_apply _ bcast_S1x128_S100000x128_0_1 y i (idx_main_v306 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v307 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  Host.divf (val_main_v299 (F := F) x0 x1 x2 x3 x4 x5 x6 x7 x8 x9) (val_main_v306 (F := F) x9)
theorem val_main_v307_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v307 (F := F) x0 x1 x2 x3 x4 x5 x6 x7 x8 x9 i = FloatOps.hostDivf (val_main_v299 (F := F) x0 x1 x2 x3 x4 x5 x6 x7 x8 x9 i) (val_main_v306 (F := F) x9 i) := rfl
def val_main_v308 (x7 : (⟨S5x128, .f32⟩ : BufTy).Contents (Elt F)) : (⟨S1x128, .f32⟩ : BufTy).Contents (Elt F) :=
  extractStridedSlice S1x128 ![4, 0] (x7) slices_S5x128_S1x128_4_0
abbrev idx_main_v308 (i : S1x128.Idx) : S5x128.Idx := fun a => match a with
  | ⟨0, _⟩ => ⟨4 + (i 0).val, by have h0 : (i 0).val < 1 := (i 0).isLt; show 4 + (i 0).val < 5; omega⟩
  | ⟨1, _⟩ => ⟨(i 1).val, (i 1).isLt⟩
theorem val_main_v308_apply (x7 : (⟨S5x128, .f32⟩ : BufTy).Contents (Elt F)) (i : S1x128.Idx) :
    val_main_v308 (F := F) x7 i = x7 (idx_main_v308 i) := by
  unfold val_main_v308
  exact extractStridedSlice_apply ![4, 0] x7 slices_S5x128_S1x128_4_0 i (idx_main_v308 i) (fun a => match a with
    | ⟨0, _⟩ => by show 4 + (i 0).val = 4 + (i 0).val; omega
    | ⟨1, _⟩ => by show (i 1).val = 0 + (i 1).val; omega)
def val_main_v309 (x7 : (⟨S5x128, .f32⟩ : BufTy).Contents (Elt F)) : (⟨S128, .f32⟩ : BufTy).Contents (Elt F) :=
  shapeCast _ (val_main_v308 (F := F) x7) shapeCasts_S1x128_S128
abbrev idx_main_v309 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v309_apply (x7 : (⟨S5x128, .f32⟩ : BufTy).Contents (Elt F)) (i : S128.Idx) :
    val_main_v309 (F := F) x7 i = val_main_v308 (F := F) x7 (idx_main_v309 i) := by
  unfold val_main_v309
  generalize val_main_v308 (F := F) x7 = y
  exact shapeCast_apply y shapeCasts_S1x128_S128 i (idx_main_v309 i)
    (by rewrite [Shape.rowMajor_val_two, Shape.rowMajor_val_one]; have h0 : (i 0).val < 128 := (i 0).isLt; show 0 * 128 + ((i 0).val) % 128 = (i 0).val; omega)
def val_main_v310 (x7 : (⟨S5x128, .f32⟩ : BufTy).Contents (Elt F)) : (⟨S1x128, .f32⟩ : BufTy).Contents (Elt F) :=
  broadcastInDim S1x128 ![1] bcast_S128_S1x128_1 (val_main_v309 (F := F) x7)
abbrev idx_main_v310 (i : S1x128.Idx) : S128.Idx := fun a => match a with
  | ⟨0, _⟩ => ⟨(i 1).val, (i 1).isLt⟩
theorem val_main_v310_apply (x7 : (⟨S5x128, .f32⟩ : BufTy).Contents (Elt F)) (i : S1x128.Idx) :
    val_main_v310 (F := F) x7 i = val_main_v309 (F := F) x7 (idx_main_v310 i) := by
  unfold val_main_v310
  generalize val_main_v309 (F := F) x7 = y
  exact broadcastInDim_apply _ bcast_S128_S1x128_1 y i (idx_main_v310 i) (fun a => match a with
    | ⟨0, _⟩ => by show (i 1).val = if (128 : Nat) = 1 then 0 else (i 1).val; rw [if_neg (by decide)])
def val_main_v311 (x7 : (⟨S5x128, .f32⟩ : BufTy).Contents (Elt F)) : (⟨S100000x128, .f32⟩ : BufTy).Contents (Elt F) :=
  broadcastInDim S100000x128 ![0, 1] bcast_S1x128_S100000x128_0_1 (val_main_v310 (F := F) x7)
abbrev idx_main_v311 (i : S100000x128.Idx) : S1x128.Idx := fun a => match a with
  | ⟨0, _⟩ => ⟨0, Nat.one_pos⟩
  | ⟨1, _⟩ => ⟨(i 1).val, (i 1).isLt⟩
theorem val_main_v311_apply (x7 : (⟨S5x128, .f32⟩ : BufTy).Contents (Elt F)) (i : S100000x128.Idx) :
    val_main_v311 (F := F) x7 i = val_main_v310 (F := F) x7 (idx_main_v311 i) := by
  unfold val_main_v311
  generalize val_main_v310 (F := F) x7 = y
  exact broadcastInDim_apply _ bcast_S1x128_S100000x128_0_1 y i (idx_main_v311 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v312 (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) : (⟨S100000x128, .f32⟩ : BufTy).Contents (Elt F) :=
  addf (val_main_v307 (F := F) x0 x1 x2 x3 x4 x5 x6 x7 x8 x9) (val_main_v311 (F := F) x7)
theorem val_main_v312_apply (x0 : (⟨S100000x128, .f32⟩ : BufTy).Contents (Elt F)) (x1 : (⟨S2x600000, .i32⟩ : BufTy).Contents (Elt F)) (x2 : (⟨S600000x128, .i32⟩ : BufTy).Contents (Elt F)) (x3 : (⟨S5x128x128, .f32⟩ : BufTy).Contents (Elt F)) (x4 x5 x6 x7 x8 x9 : (⟨S5x128, .f32⟩ : BufTy).Contents (Elt F)) (i : S100000x128.Idx) :
    val_main_v312 (F := F) x0 x1 x2 x3 x4 x5 x6 x7 x8 x9 i = FloatOps.addf (val_main_v307 (F := F) x0 x1 x2 x3 x4 x5 x6 x7 x8 x9 i) (val_main_v311 (F := F) x7 i) := rfl

end Cert.ReferenceIdeal.Read

end
-- ==== Proof.RImports.lean ====
import proofs.«408040_j36369783063008_1_alg».proof.Proof.RRead
-- ==== Proof.RRunP0.lean ====
import proofs.«408040_j36369783063008_1_alg».proof.Proof.RRunOps
import proofs.«408040_j36369783063008_1_alg».proof.Proof.RRead

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev X0 (V : Valuation τ sig (Elt F)) : (⟨S100000x128, .f32⟩ : BufTy).Contents (Elt F) := V (Proc.devRef .tc main_arg0)

abbrev X1 (V : Valuation τ sig (Elt F)) : (⟨S2x600000, .i32⟩ : BufTy).Contents (Elt F) := V (Proc.devRef .tc main_arg1)

abbrev X2 (V : Valuation τ sig (Elt F)) : (⟨S600000x128, .i32⟩ : BufTy).Contents (Elt F) := V (Proc.devRef .tc main_arg2)

abbrev X3 (V : Valuation τ sig (Elt F)) : (⟨S5x128x128, .f32⟩ : BufTy).Contents (Elt F) := V (Proc.devRef .tc main_arg3)

abbrev X4 (V : Valuation τ sig (Elt F)) : (⟨S5x128, .f32⟩ : BufTy).Contents (Elt F) := V (Proc.devRef .tc main_arg4)

abbrev X5 (V : Valuation τ sig (Elt F)) : (⟨S5x128, .f32⟩ : BufTy).Contents (Elt F) := V (Proc.devRef .tc main_arg5)

abbrev X6 (V : Valuation τ sig (Elt F)) : (⟨S5x128, .f32⟩ : BufTy).Contents (Elt F) := V (Proc.devRef .tc main_arg6)

abbrev X7 (V : Valuation τ sig (Elt F)) : (⟨S5x128, .f32⟩ : BufTy).Contents (Elt F) := V (Proc.devRef .tc main_arg7)

abbrev X8 (V : Valuation τ sig (Elt F)) : (⟨S5x128, .f32⟩ : BufTy).Contents (Elt F) := V (Proc.devRef .tc main_arg8)

abbrev X9 (V : Valuation τ sig (Elt F)) : (⟨S5x128, .f32⟩ : BufTy).Contents (Elt F) := V (Proc.devRef .tc main_arg9)

structure Shared (V0 V : Valuation τ sig (Elt F)) : Prop where
  a0 : V (no_index (Proc.devRef .tc main_arg0)) = X0 V0
  a1 : V (no_index (Proc.devRef .tc main_arg1)) = X1 V0
  a2 : V (no_index (Proc.devRef .tc main_arg2)) = X2 V0
  a3 : V (no_index (Proc.devRef .tc main_arg3)) = X3 V0
  a4 : V (no_index (Proc.devRef .tc main_arg4)) = X4 V0
  a5 : V (no_index (Proc.devRef .tc main_arg5)) = X5 V0
  a6 : V (no_index (Proc.devRef .tc main_arg6)) = X6 V0
  a7 : V (no_index (Proc.devRef .tc main_arg7)) = X7 V0
  a8 : V (no_index (Proc.devRef .tc main_arg8)) = X8 V0
  a9 : V (no_index (Proc.devRef .tc main_arg9)) = X9 V0
  v0 : V (no_index (Proc.devRef .tc main_v0)) = val_main_v0 (F := F) (X2 V0)
  v2 : V (no_index (Proc.devRef .tc main_v2)) = val_main_v2 (F := F) (X1 V0)
  v4 : V (no_index (Proc.devRef .tc main_v4)) = val_main_v4 (F := F) (X1 V0)
  v10 : V (no_index (Proc.devRef .tc main_v10)) = val_main_v10 (F := F) (X1 V0)
  v28 : V (no_index (Proc.devRef .tc main_v28)) = val_main_v28 (F := F) (X1 V0)

set_option maxRecDepth 8192 in
set_option maxHeartbeats 2000000 in

theorem p0_shared (V0 : Valuation τ sig (Elt F)) : Shared V0 (after ops0 V0) where
  a0 := by simp only [ops0]; after_results_simp
  a1 := by simp only [ops0]; after_results_simp
  a2 := by simp only [ops0]; after_results_simp
  a3 := by simp only [ops0]; after_results_simp
  a4 := by simp only [ops0]; after_results_simp
  a5 := by simp only [ops0]; after_results_simp
  a6 := by simp only [ops0]; after_results_simp
  a7 := by simp only [ops0]; after_results_simp
  a8 := by simp only [ops0]; after_results_simp
  a9 := by simp only [ops0]; after_results_simp
  v0 := by simp only [ops0]; after_results_simp; all_goals rfl
  v2 := by simp only [ops0]; after_results_simp; all_goals rfl
  v4 := by simp only [ops0]; after_results_simp; all_goals rfl
  v10 := by simp only [ops0]; after_results_simp; all_goals rfl
  v28 := by simp only [ops0]; after_results_simp; all_goals rfl

end Cert.ReferenceIdeal.GnnRun

end
-- ==== Proof.RRunP1.lean ====
import proofs.«408040_j36369783063008_1_alg».proof.Proof.RRunP0

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in

theorem p1_result {V0 V : Valuation τ sig (Elt F)} (S : Shared V0 V)
    (hin : V (no_index (Proc.devRef .tc main_arg0)) = X0 V0) :
    after ops1 V (Proc.devRef .tc main_v85) = val_main_v85 (F := F) (X0 V0) (X1 V0) (X2 V0) (X3 V0) (X4 V0) (X5 V0) (X6 V0) (X7 V0) (X8 V0) (X9 V0) := by
  simp only [ops1]
  after_results_simp
  simp only [hin, S.a3, S.a4, S.a5, S.a6, S.a7, S.a8, S.a9, S.v0, S.v2, S.v4, S.v10, S.v28] <;> rfl

set_option maxRecDepth 8192 in
set_option maxHeartbeats 4000000 in

theorem p1_shared {V0 V : Valuation τ sig (Elt F)} (S : Shared V0 V) : Shared V0 (after ops1 V) where
  a0 := (by simp only [ops1]; after_results_simp : after ops1 V (Proc.devRef .tc main_arg0) = V (Proc.devRef .tc main_arg0)).trans S.a0
  a1 := (by simp only [ops1]; after_results_simp : after ops1 V (Proc.devRef .tc main_arg1) = V (Proc.devRef .tc main_arg1)).trans S.a1
  a2 := (by simp only [ops1]; after_results_simp : after ops1 V (Proc.devRef .tc main_arg2) = V (Proc.devRef .tc main_arg2)).trans S.a2
  a3 := (by simp only [ops1]; after_results_simp : after ops1 V (Proc.devRef .tc main_arg3) = V (Proc.devRef .tc main_arg3)).trans S.a3
  a4 := (by simp only [ops1]; after_results_simp : after ops1 V (Proc.devRef .tc main_arg4) = V (Proc.devRef .tc main_arg4)).trans S.a4
  a5 := (by simp only [ops1]; after_results_simp : after ops1 V (Proc.devRef .tc main_arg5) = V (Proc.devRef .tc main_arg5)).trans S.a5
  a6 := (by simp only [ops1]; after_results_simp : after ops1 V (Proc.devRef .tc main_arg6) = V (Proc.devRef .tc main_arg6)).trans S.a6
  a7 := (by simp only [ops1]; after_results_simp : after ops1 V (Proc.devRef .tc main_arg7) = V (Proc.devRef .tc main_arg7)).trans S.a7
  a8 := (by simp only [ops1]; after_results_simp : after ops1 V (Proc.devRef .tc main_arg8) = V (Proc.devRef .tc main_arg8)).trans S.a8
  a9 := (by simp only [ops1]; after_results_simp : after ops1 V (Proc.devRef .tc main_arg9) = V (Proc.devRef .tc main_arg9)).trans S.a9
  v0 := (by simp only [ops1]; after_results_simp : after ops1 V (Proc.devRef .tc main_v0) = V (Proc.devRef .tc main_v0)).trans S.v0
  v2 := (by simp only [ops1]; after_results_simp : after ops1 V (Proc.devRef .tc main_v2) = V (Proc.devRef .tc main_v2)).trans S.v2
  v4 := (by simp only [ops1]; after_results_simp : after ops1 V (Proc.devRef .tc main_v4) = V (Proc.devRef .tc main_v4)).trans S.v4
  v10 := (by simp only [ops1]; after_results_simp : after ops1 V (Proc.devRef .tc main_v10) = V (Proc.devRef .tc main_v10)).trans S.v10
  v28 := (by simp only [ops1]; after_results_simp : after ops1 V (Proc.devRef .tc main_v28) = V (Proc.devRef .tc main_v28)).trans S.v28

end Cert.ReferenceIdeal.GnnRun

end
-- ==== Proof.RRunP2.lean ====
/-
  The reference's run, layer 1's part: layer 0's part with the lists' and the buffers' names moved along.
-/
import proofs.«408040_j36369783063008_1_alg».proof.Proof.RRunP0

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The layer's result, from contents that hold the invariant and the layer's input. -/
theorem p2_result {V0 V : Valuation τ sig (Elt F)} (S : Shared V0 V)
    (hin : V (no_index (Proc.devRef .tc main_v85)) = val_main_v85 (F := F) (X0 V0) (X1 V0) (X2 V0) (X3 V0) (X4 V0) (X5 V0) (X6 V0) (X7 V0) (X8 V0) (X9 V0)) :
    after ops2 V (Proc.devRef .tc main_v142) = val_main_v142 (F := F) (X0 V0) (X1 V0) (X2 V0) (X3 V0) (X4 V0) (X5 V0) (X6 V0) (X7 V0) (X8 V0) (X9 V0) := by
  simp only [ops2]
  after_results_simp
  simp only [hin, S.a3, S.a4, S.a5, S.a6, S.a7, S.a8, S.a9, S.v0, S.v2, S.v4, S.v10, S.v28] <;> rfl

set_option maxRecDepth 8192 in
set_option maxHeartbeats 4000000 in
/-- The part hands the invariant on. -/
theorem p2_shared {V0 V : Valuation τ sig (Elt F)} (S : Shared V0 V) : Shared V0 (after ops2 V) where
  a0 := (by simp only [ops2]; after_results_simp : after ops2 V (Proc.devRef .tc main_arg0) = V (Proc.devRef .tc main_arg0)).trans S.a0
  a1 := (by simp only [ops2]; after_results_simp : after ops2 V (Proc.devRef .tc main_arg1) = V (Proc.devRef .tc main_arg1)).trans S.a1
  a2 := (by simp only [ops2]; after_results_simp : after ops2 V (Proc.devRef .tc main_arg2) = V (Proc.devRef .tc main_arg2)).trans S.a2
  a3 := (by simp only [ops2]; after_results_simp : after ops2 V (Proc.devRef .tc main_arg3) = V (Proc.devRef .tc main_arg3)).trans S.a3
  a4 := (by simp only [ops2]; after_results_simp : after ops2 V (Proc.devRef .tc main_arg4) = V (Proc.devRef .tc main_arg4)).trans S.a4
  a5 := (by simp only [ops2]; after_results_simp : after ops2 V (Proc.devRef .tc main_arg5) = V (Proc.devRef .tc main_arg5)).trans S.a5
  a6 := (by simp only [ops2]; after_results_simp : after ops2 V (Proc.devRef .tc main_arg6) = V (Proc.devRef .tc main_arg6)).trans S.a6
  a7 := (by simp only [ops2]; after_results_simp : after ops2 V (Proc.devRef .tc main_arg7) = V (Proc.devRef .tc main_arg7)).trans S.a7
  a8 := (by simp only [ops2]; after_results_simp : after ops2 V (Proc.devRef .tc main_arg8) = V (Proc.devRef .tc main_arg8)).trans S.a8
  a9 := (by simp only [ops2]; after_results_simp : after ops2 V (Proc.devRef .tc main_arg9) = V (Proc.devRef .tc main_arg9)).trans S.a9
  v0 := (by simp only [ops2]; after_results_simp : after ops2 V (Proc.devRef .tc main_v0) = V (Proc.devRef .tc main_v0)).trans S.v0
  v2 := (by simp only [ops2]; after_results_simp : after ops2 V (Proc.devRef .tc main_v2) = V (Proc.devRef .tc main_v2)).trans S.v2
  v4 := (by simp only [ops2]; after_results_simp : after ops2 V (Proc.devRef .tc main_v4) = V (Proc.devRef .tc main_v4)).trans S.v4
  v10 := (by simp only [ops2]; after_results_simp : after ops2 V (Proc.devRef .tc main_v10) = V (Proc.devRef .tc main_v10)).trans S.v10
  v28 := (by simp only [ops2]; after_results_simp : after ops2 V (Proc.devRef .tc main_v28) = V (Proc.devRef .tc main_v28)).trans S.v28

end Cert.ReferenceIdeal.GnnRun

end
-- ==== Proof.RRunP3.lean ====
/-
  The reference's run, layer 2's part: layer 0's part with the lists' and the buffers' names moved along.
-/
import proofs.«408040_j36369783063008_1_alg».proof.Proof.RRunP0

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The layer's result, from contents that hold the invariant and the layer's input. -/
theorem p3_result {V0 V : Valuation τ sig (Elt F)} (S : Shared V0 V)
    (hin : V (no_index (Proc.devRef .tc main_v142)) = val_main_v142 (F := F) (X0 V0) (X1 V0) (X2 V0) (X3 V0) (X4 V0) (X5 V0) (X6 V0) (X7 V0) (X8 V0) (X9 V0)) :
    after ops3 V (Proc.devRef .tc main_v199) = val_main_v199 (F := F) (X0 V0) (X1 V0) (X2 V0) (X3 V0) (X4 V0) (X5 V0) (X6 V0) (X7 V0) (X8 V0) (X9 V0) := by
  simp only [ops3]
  after_results_simp
  simp only [hin, S.a3, S.a4, S.a5, S.a6, S.a7, S.a8, S.a9, S.v0, S.v2, S.v4, S.v10, S.v28] <;> rfl

set_option maxRecDepth 8192 in
set_option maxHeartbeats 4000000 in
/-- The part hands the invariant on. -/
theorem p3_shared {V0 V : Valuation τ sig (Elt F)} (S : Shared V0 V) : Shared V0 (after ops3 V) where
  a0 := (by simp only [ops3]; after_results_simp : after ops3 V (Proc.devRef .tc main_arg0) = V (Proc.devRef .tc main_arg0)).trans S.a0
  a1 := (by simp only [ops3]; after_results_simp : after ops3 V (Proc.devRef .tc main_arg1) = V (Proc.devRef .tc main_arg1)).trans S.a1
  a2 := (by simp only [ops3]; after_results_simp : after ops3 V (Proc.devRef .tc main_arg2) = V (Proc.devRef .tc main_arg2)).trans S.a2
  a3 := (by simp only [ops3]; after_results_simp : after ops3 V (Proc.devRef .tc main_arg3) = V (Proc.devRef .tc main_arg3)).trans S.a3
  a4 := (by simp only [ops3]; after_results_simp : after ops3 V (Proc.devRef .tc main_arg4) = V (Proc.devRef .tc main_arg4)).trans S.a4
  a5 := (by simp only [ops3]; after_results_simp : after ops3 V (Proc.devRef .tc main_arg5) = V (Proc.devRef .tc main_arg5)).trans S.a5
  a6 := (by simp only [ops3]; after_results_simp : after ops3 V (Proc.devRef .tc main_arg6) = V (Proc.devRef .tc main_arg6)).trans S.a6
  a7 := (by simp only [ops3]; after_results_simp : after ops3 V (Proc.devRef .tc main_arg7) = V (Proc.devRef .tc main_arg7)).trans S.a7
  a8 := (by simp only [ops3]; after_results_simp : after ops3 V (Proc.devRef .tc main_arg8) = V (Proc.devRef .tc main_arg8)).trans S.a8
  a9 := (by simp only [ops3]; after_results_simp : after ops3 V (Proc.devRef .tc main_arg9) = V (Proc.devRef .tc main_arg9)).trans S.a9
  v0 := (by simp only [ops3]; after_results_simp : after ops3 V (Proc.devRef .tc main_v0) = V (Proc.devRef .tc main_v0)).trans S.v0
  v2 := (by simp only [ops3]; after_results_simp : after ops3 V (Proc.devRef .tc main_v2) = V (Proc.devRef .tc main_v2)).trans S.v2
  v4 := (by simp only [ops3]; after_results_simp : after ops3 V (Proc.devRef .tc main_v4) = V (Proc.devRef .tc main_v4)).trans S.v4
  v10 := (by simp only [ops3]; after_results_simp : after ops3 V (Proc.devRef .tc main_v10) = V (Proc.devRef .tc main_v10)).trans S.v10
  v28 := (by simp only [ops3]; after_results_simp : after ops3 V (Proc.devRef .tc main_v28) = V (Proc.devRef .tc main_v28)).trans S.v28

end Cert.ReferenceIdeal.GnnRun

end
-- ==== Proof.RRunP4.lean ====
/-
  The reference's run, layer 3's part: layer 0's part with the lists' and the buffers' names moved along.
-/
import proofs.«408040_j36369783063008_1_alg».proof.Proof.RRunP0

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The layer's result, from contents that hold the invariant and the layer's input. -/
theorem p4_result {V0 V : Valuation τ sig (Elt F)} (S : Shared V0 V)
    (hin : V (no_index (Proc.devRef .tc main_v199)) = val_main_v199 (F := F) (X0 V0) (X1 V0) (X2 V0) (X3 V0) (X4 V0) (X5 V0) (X6 V0) (X7 V0) (X8 V0) (X9 V0)) :
    after ops4 V (Proc.devRef .tc main_v256) = val_main_v256 (F := F) (X0 V0) (X1 V0) (X2 V0) (X3 V0) (X4 V0) (X5 V0) (X6 V0) (X7 V0) (X8 V0) (X9 V0) := by
  simp only [ops4]
  after_results_simp
  simp only [hin, S.a3, S.a4, S.a5, S.a6, S.a7, S.a8, S.a9, S.v0, S.v2, S.v4, S.v10, S.v28] <;> rfl

set_option maxRecDepth 8192 in
set_option maxHeartbeats 4000000 in
/-- The part hands the invariant on. -/
theorem p4_shared {V0 V : Valuation τ sig (Elt F)} (S : Shared V0 V) : Shared V0 (after ops4 V) where
  a0 := (by simp only [ops4]; after_results_simp : after ops4 V (Proc.devRef .tc main_arg0) = V (Proc.devRef .tc main_arg0)).trans S.a0
  a1 := (by simp only [ops4]; after_results_simp : after ops4 V (Proc.devRef .tc main_arg1) = V (Proc.devRef .tc main_arg1)).trans S.a1
  a2 := (by simp only [ops4]; after_results_simp : after ops4 V (Proc.devRef .tc main_arg2) = V (Proc.devRef .tc main_arg2)).trans S.a2
  a3 := (by simp only [ops4]; after_results_simp : after ops4 V (Proc.devRef .tc main_arg3) = V (Proc.devRef .tc main_arg3)).trans S.a3
  a4 := (by simp only [ops4]; after_results_simp : after ops4 V (Proc.devRef .tc main_arg4) = V (Proc.devRef .tc main_arg4)).trans S.a4
  a5 := (by simp only [ops4]; after_results_simp : after ops4 V (Proc.devRef .tc main_arg5) = V (Proc.devRef .tc main_arg5)).trans S.a5
  a6 := (by simp only [ops4]; after_results_simp : after ops4 V (Proc.devRef .tc main_arg6) = V (Proc.devRef .tc main_arg6)).trans S.a6
  a7 := (by simp only [ops4]; after_results_simp : after ops4 V (Proc.devRef .tc main_arg7) = V (Proc.devRef .tc main_arg7)).trans S.a7
  a8 := (by simp only [ops4]; after_results_simp : after ops4 V (Proc.devRef .tc main_arg8) = V (Proc.devRef .tc main_arg8)).trans S.a8
  a9 := (by simp only [ops4]; after_results_simp : after ops4 V (Proc.devRef .tc main_arg9) = V (Proc.devRef .tc main_arg9)).trans S.a9
  v0 := (by simp only [ops4]; after_results_simp : after ops4 V (Proc.devRef .tc main_v0) = V (Proc.devRef .tc main_v0)).trans S.v0
  v2 := (by simp only [ops4]; after_results_simp : after ops4 V (Proc.devRef .tc main_v2) = V (Proc.devRef .tc main_v2)).trans S.v2
  v4 := (by simp only [ops4]; after_results_simp : after ops4 V (Proc.devRef .tc main_v4) = V (Proc.devRef .tc main_v4)).trans S.v4
  v10 := (by simp only [ops4]; after_results_simp : after ops4 V (Proc.devRef .tc main_v10) = V (Proc.devRef .tc main_v10)).trans S.v10
  v28 := (by simp only [ops4]; after_results_simp : after ops4 V (Proc.devRef .tc main_v28) = V (Proc.devRef .tc main_v28)).trans S.v28

end Cert.ReferenceIdeal.GnnRun

end
-- ==== Proof.RRunP5.lean ====
/-
  The reference's run, layer 4's part: layer 0's part with the lists' and the buffers' names moved along (the last layer has no closing relu, so its result is one stage earlier).
-/
import proofs.«408040_j36369783063008_1_alg».proof.Proof.RRunP0

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- The layer's result, from contents that hold the invariant and the layer's input. -/
theorem p5_result {V0 V : Valuation τ sig (Elt F)} (S : Shared V0 V)
    (hin : V (no_index (Proc.devRef .tc main_v256)) = val_main_v256 (F := F) (X0 V0) (X1 V0) (X2 V0) (X3 V0) (X4 V0) (X5 V0) (X6 V0) (X7 V0) (X8 V0) (X9 V0)) :
    after ops5 V (Proc.devRef .tc main_v312) = val_main_v312 (F := F) (X0 V0) (X1 V0) (X2 V0) (X3 V0) (X4 V0) (X5 V0) (X6 V0) (X7 V0) (X8 V0) (X9 V0) := by
  simp only [ops5]
  after_results_simp
  simp only [hin, S.a3, S.a4, S.a5, S.a6, S.a7, S.a8, S.a9, S.v0, S.v2, S.v4, S.v10, S.v28] <;> rfl

set_option maxRecDepth 8192 in
set_option maxHeartbeats 4000000 in
/-- The part hands the invariant on. -/
theorem p5_shared {V0 V : Valuation τ sig (Elt F)} (S : Shared V0 V) : Shared V0 (after ops5 V) where
  a0 := (by simp only [ops5]; after_results_simp : after ops5 V (Proc.devRef .tc main_arg0) = V (Proc.devRef .tc main_arg0)).trans S.a0
  a1 := (by simp only [ops5]; after_results_simp : after ops5 V (Proc.devRef .tc main_arg1) = V (Proc.devRef .tc main_arg1)).trans S.a1
  a2 := (by simp only [ops5]; after_results_simp : after ops5 V (Proc.devRef .tc main_arg2) = V (Proc.devRef .tc main_arg2)).trans S.a2
  a3 := (by simp only [ops5]; after_results_simp : after ops5 V (Proc.devRef .tc main_arg3) = V (Proc.devRef .tc main_arg3)).trans S.a3
  a4 := (by simp only [ops5]; after_results_simp : after ops5 V (Proc.devRef .tc main_arg4) = V (Proc.devRef .tc main_arg4)).trans S.a4
  a5 := (by simp only [ops5]; after_results_simp : after ops5 V (Proc.devRef .tc main_arg5) = V (Proc.devRef .tc main_arg5)).trans S.a5
  a6 := (by simp only [ops5]; after_results_simp : after ops5 V (Proc.devRef .tc main_arg6) = V (Proc.devRef .tc main_arg6)).trans S.a6
  a7 := (by simp only [ops5]; after_results_simp : after ops5 V (Proc.devRef .tc main_arg7) = V (Proc.devRef .tc main_arg7)).trans S.a7
  a8 := (by simp only [ops5]; after_results_simp : after ops5 V (Proc.devRef .tc main_arg8) = V (Proc.devRef .tc main_arg8)).trans S.a8
  a9 := (by simp only [ops5]; after_results_simp : after ops5 V (Proc.devRef .tc main_arg9) = V (Proc.devRef .tc main_arg9)).trans S.a9
  v0 := (by simp only [ops5]; after_results_simp : after ops5 V (Proc.devRef .tc main_v0) = V (Proc.devRef .tc main_v0)).trans S.v0
  v2 := (by simp only [ops5]; after_results_simp : after ops5 V (Proc.devRef .tc main_v2) = V (Proc.devRef .tc main_v2)).trans S.v2
  v4 := (by simp only [ops5]; after_results_simp : after ops5 V (Proc.devRef .tc main_v4) = V (Proc.devRef .tc main_v4)).trans S.v4
  v10 := (by simp only [ops5]; after_results_simp : after ops5 V (Proc.devRef .tc main_v10) = V (Proc.devRef .tc main_v10)).trans S.v10
  v28 := (by simp only [ops5]; after_results_simp : after ops5 V (Proc.devRef .tc main_v28) = V (Proc.devRef .tc main_v28)).trans S.v28

end Cert.ReferenceIdeal.GnnRun

end
-- ==== Proof.RRun.lean ====
import proofs.«408040_j36369783063008_1_alg».proof.Proof.RRunP1
import proofs.«408040_j36369783063008_1_alg».proof.Proof.RRunP2
import proofs.«408040_j36369783063008_1_alg».proof.Proof.RRunP3
import proofs.«408040_j36369783063008_1_alg».proof.Proof.RRunP4
import proofs.«408040_j36369783063008_1_alg».proof.Proof.RRunP5
import Idealize.ShloMosaic.Lib.Pipeline.Frame

noncomputable section

namespace Cert.ReferenceIdeal.GnnRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ (ops4 ++ ops5))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

theorem ops_fresh : ∀ op ∈ (ops : List (HloOp τ sig (Elt F))), op.fresh = ∅ := fun op h => by
  simp only [ops, List.mem_append] at h
  rcases h with h | h | h | h | h | h
  exacts [ops0_fresh op h, ops1_fresh op h, ops2_fresh op h, ops3_fresh op h, ops4_fresh op h, ops5_fresh op h]

theorem after_ops (V0 : Valuation τ sig (Elt F)) :
    after ops V0 = after ops5 (after ops4 (after ops3 (after ops2 (after ops1 (after ops0 V0))))) := by
  simp only [ops, after_append]

theorem after_ops_result (V0 : Valuation τ sig (Elt F)) :
    after ops V0 (Proc.devRef .tc main_v312) = val_main_v312 (F := F) (X0 V0) (X1 V0) (X2 V0) (X3 V0) (X4 V0) (X5 V0) (X6 V0) (X7 V0) (X8 V0) (X9 V0) := by
  rw [after_ops]
  have S1 := p0_shared V0
  have R1 := p1_result S1 S1.a0
  have S2 := p1_shared S1
  have R2 := p2_result S2 R1
  have S3 := p2_shared S2
  have R3 := p3_result S3 R2
  have S4 := p3_shared S3
  have R4 := p4_result S4 R3
  have S5 := p4_shared S4
  exact p5_result S5 R4

theorem after_ops_shared (V0 : Valuation τ sig (Elt F)) : Shared V0 (after ops V0) := by
  rw [after_ops]
  exact p5_shared (p4_shared (p3_shared (p2_shared (p1_shared (p0_shared V0)))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v312) = val_main_v312 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v312).trans (after_ops_result (launchContents m c)),
      (h c main_arg0).trans (after_ops_shared (launchContents m c)).a0,
      (h c main_arg1).trans (after_ops_shared (launchContents m c)).a1,
      (h c main_arg2).trans (after_ops_shared (launchContents m c)).a2,
      (h c main_arg3).trans (after_ops_shared (launchContents m c)).a3,
      (h c main_arg4).trans (after_ops_shared (launchContents m c)).a4,
      (h c main_arg5).trans (after_ops_shared (launchContents m c)).a5,
      (h c main_arg6).trans (after_ops_shared (launchContents m c)).a6,
      (h c main_arg7).trans (after_ops_shared (launchContents m c)).a7,
      (h c main_arg8).trans (after_ops_shared (launchContents m c)).a8,
      (h c main_arg9).trans (after_ops_shared (launchContents m c)).a9⟩)
    (run_seq scopedRefs_eq scopedSems_eq defs main (fun _ => ops) main_eq (fun _ => ops_sub) m ρ (fun _ => ops_fresh))

end Cert.ReferenceIdeal.GnnRun

end
-- ==== Proof.Spec.lean ====
import Idealize.ShloMosaic.PureOps.Ideal
import Idealize.ShloMosaic.Lib.ValueIdx

noncomputable section

open scoped BigOperators
open Idealize.ShloMosaic Idealize.ShloMosaic.ValueIdx

namespace Cert.GnnSpec

abbrev E := EReal

abbrev SN : Shape := ⟨1, ![100000]⟩
abbrev SE : Shape := ⟨1, ![600000]⟩
abbrev SND : Shape := ⟨2, ![100000, 128]⟩
abbrev SED : Shape := ⟨2, ![600000, 128]⟩
abbrev SN1 : Shape := ⟨2, ![100000, 1]⟩
abbrev SE1 : Shape := ⟨2, ![600000, 1]⟩
abbrev SDD : Shape := ⟨2, ![128, 128]⟩
abbrev S1D : Shape := ⟨2, ![1, 128]⟩
abbrev SLD : Shape := ⟨2, ![5, 128]⟩
abbrev SLDD : Shape := ⟨3, ![5, 128, 128]⟩

def eps : E := Ideal.ofBits .f32 0x3727C5AC#32

/-- A node's row times the transposed weight, plus the bias row. -/
def linHl (h : SND.Idx → E) (wt : SDD.Idx → E) (b : S1D.Idx → E) : SND.Idx → E :=
  fun i => (∑ k : Fin 128, h (ix2 (i 0 : Fin 100000) k) * wt (ix2 k (i 1 : Fin 128))) + b (ix2 (0 : Fin 1) (i 1 : Fin 128))

/-- The self-loop term: the positive part of that plus the root row, times the reciprocal degree. -/
def linSelf (h : SND.Idx → E) (wt : SDD.Idx → E) (b root : S1D.Idx → E) (dinv2 : SN1.Idx → E) : SND.Idx → E :=
  fun i => max (linHl h wt b i + root (ix2 (0 : Fin 1) (i 1 : Fin 128))) 0 * dinv2 (ix2 (i 0 : Fin 100000) (0 : Fin 1))

/-- A message: the edge's weight times the positive part of the gathered row plus the edge attribute. -/
def msgF (g : SED.Idx → E) (ea : SED.Idx → BitVec 32) (norm1 : SE1.Idx → E) : SED.Idx → E :=
  fun e => norm1 (ix2 (e 0 : Fin 600000) (0 : Fin 1)) * max (g e + (((ea e).toInt : ℝ) : E)) 0

/-- Batch norm of the aggregate plus the self-loop term, written with the inverse square root. -/
def finF (agg self : SND.Idx → E) (γ β μ v : S1D.Idx → E) : SND.Idx → E :=
  fun i => γ (ix2 (0 : Fin 1) (i 1 : Fin 128)) * ((agg i + self i) - μ (ix2 (0 : Fin 1) (i 1 : Fin 128)))
    * Ideal.rsqrt (v (ix2 (0 : Fin 1) (i 1 : Fin 128)) + eps) + β (ix2 (0 : Fin 1) (i 1 : Fin 128))

def finFrelu (agg self : SND.Idx → E) (γ β μ v : S1D.Idx → E) : SND.Idx → E :=
  fun i => max (finF agg self γ β μ v i) 0

def hlS (l : Fin 5) (W : SLDD.Idx → E) (b : SLD.Idx → E) (h : SND.Idx → E) : SND.Idx → E :=
  fun i => (∑ k : Fin 128, h (ix2 (i 0 : Fin 100000) k) * W (ix3 l (i 1 : Fin 128) k)) + b (ix2 l (i 1 : Fin 128))

def msgS (ea : SED.Idx → BitVec 32) (norm : SE.Idx → E) (g : SED.Idx → E) : SED.Idx → E :=
  fun e => norm (ix1 (e 0 : Fin 600000)) * max (g e + (((ea e).toInt : ℝ) : E)) 0

/-- A layer before batch norm, as the plain program writes it: messages summed onto targets, plus the self-loop quotient by the degree. -/
def preS (l : Fin 5) (W : SLDD.Idx → E) (b root : SLD.Idx → E) (ea : SED.Idx → BitVec 32) (deg : SN.Idx → E)
    (norm : SE.Idx → E) (gath : (SND.Idx → E) → SED.Idx → E) (scat : (SED.Idx → E) → SND.Idx → E)
    (h : SND.Idx → E) : SND.Idx → E :=
  fun i => scat (msgS ea norm (gath (hlS l W b h))) i
    + Ideal.div (max (hlS l W b h i + root (ix2 l (i 1 : Fin 128))) 0) (deg (ix1 (i 0 : Fin 100000)))

/-- Batch norm written with the quotient by the square root. -/
def bnS (l : Fin 5) (γ β μ var : SLD.Idx → E) (x : SND.Idx → E) : SND.Idx → E :=
  fun i => Ideal.div (γ (ix2 l (i 1 : Fin 128)) * (x i - μ (ix2 l (i 1 : Fin 128))))
    (Ideal.sqrt (var (ix2 l (i 1 : Fin 128)) + eps)) + β (ix2 l (i 1 : Fin 128))

def layerR (l : Fin 5) (W : SLDD.Idx → E) (b root γ β μ var : SLD.Idx → E) (ea : SED.Idx → BitVec 32)
    (deg : SN.Idx → E) (norm : SE.Idx → E) (gath : (SND.Idx → E) → SED.Idx → E) (scat : (SED.Idx → E) → SND.Idx → E)
    (h : SND.Idx → E) : SND.Idx → E :=
  fun i => max (bnS l γ β μ var (preS l W b root ea deg norm gath scat h) i) 0

def layerL (l : Fin 5) (W : SLDD.Idx → E) (b root γ β μ var : SLD.Idx → E) (ea : SED.Idx → BitVec 32)
    (deg : SN.Idx → E) (norm : SE.Idx → E) (gath : (SND.Idx → E) → SED.Idx → E) (scat : (SED.Idx → E) → SND.Idx → E)
    (h : SND.Idx → E) : SND.Idx → E :=
  bnS l γ β μ var (preS l W b root ea deg norm gath scat h)

/-- The five layers in turn; the last has no positive part. -/
def netS (W : SLDD.Idx → E) (b root γ β μ var : SLD.Idx → E) (ea : SED.Idx → BitVec 32)
    (deg : SN.Idx → E) (norm : SE.Idx → E) (gath : (SND.Idx → E) → SED.Idx → E) (scat : (SED.Idx → E) → SND.Idx → E)
    (x : SND.Idx → E) : SND.Idx → E :=
  layerL 4 W b root γ β μ var ea deg norm gath scat
    (layerR 3 W b root γ β μ var ea deg norm gath scat
      (layerR 2 W b root γ β μ var ea deg norm gath scat
        (layerR 1 W b root γ β μ var ea deg norm gath scat
          (layerR 0 W b root γ β μ var ea deg norm gath scat x))))

end Cert.GnnSpec

end
-- ==== Proof.Laws.lean ====
import Idealize.ShloMosaic.PureOps.Ideal
import proofs.«408040_j36369783063008_1_alg».proof.Proof.Spec

noncomputable section

open Idealize.ShloMosaic

namespace Cert.GnnSpec

/-- x · (1/d) = x/d for a nonzero real d. -/
theorem mul_one_div (x : E) {d : ℝ} (hd : d ≠ 0) : x * Ideal.div 1 ((d : ℝ) : E) = Ideal.div x ((d : ℝ) : E) := by
  rw [Ideal.div_coe hd, Ideal.div_coe hd, one_mul]

/-- y · v^(-1/2) = y / √v for a positive real v. -/
theorem mul_rsqrt (y : E) {v : ℝ} (hv : 0 < v) :
    y * Ideal.rsqrt ((v : ℝ) : E) = Ideal.div y (Ideal.sqrt ((v : ℝ) : E)) := by
  have hs : Real.sqrt v ≠ 0 := (Real.sqrt_pos.mpr hv).ne'
  rw [Ideal.rsqrt_coe, Ideal.sqrt_coe, if_neg (not_lt.mpr hv.le), if_neg hv.ne', if_neg (not_lt.mpr hv.le),
    Ideal.div_coe hs, one_div]

/-- The variance offset is a positive real, so variance plus offset stays positive. -/
theorem eps_pos : ∃ e : ℝ, 0 < e ∧ eps = ((e : ℝ) : E) := by
  refine ⟨(10995116 : ℝ) * (2 : ℝ) ^ (-40 : ℤ), by positivity, ?_⟩
  simp [eps, Ideal.ofBits, Ideal.ieee, -EReal.coe_mul]

end Cert.GnnSpec

end
-- ==== Proof.LayerCore.lean ====
import proofs.«408040_j36369783063008_1_alg».proof.Proof.Spec
import proofs.«408040_j36369783063008_1_alg».proof.Proof.Laws

noncomputable section

open scoped BigOperators
open Idealize.ShloMosaic Idealize.ShloMosaic.ValueIdx

namespace Cert.GnnSpec

variable (l : Fin 5) (W : SLDD.Idx → E) (b root γ β μ var : SLD.Idx → E) (ea : SED.Idx → BitVec 32)
  (deg : SN.Idx → E) (norm : SE.Idx → E) (gath : (SND.Idx → E) → SED.Idx → E) (scat : (SED.Idx → E) → SND.Idx → E)
  (h : SND.Idx → E)
  (wt : SDD.Idx → E) (brow rootrow γrow βrow μrow vrow : S1D.Idx → E) (dinv2 : SN1.Idx → E) (norm1 : SE1.Idx → E)

set_option backward.isDefEq.respectTransparency.types false in

theorem linHl_eq (hwt : ∀ k j : Fin 128, wt (ix2 k j) = W (ix3 l j k)) (hb : ∀ j : Fin 128, brow (ix2 (0 : Fin 1) j) = b (ix2 l j)) :
    linHl h wt brow = hlS l W b h := by
  funext i
  simp only [linHl, hlS, hwt, hb]

set_option backward.isDefEq.respectTransparency.types false in

theorem msgF_eq (g : SED.Idx → E) (hnorm : ∀ e : Fin 600000, norm1 (ix2 e (0 : Fin 1)) = norm (ix1 e)) :
    msgF g ea norm1 = msgS ea norm g := by
  funext e
  simp only [msgF, msgS, hnorm]

-- what a layer's tiled kernels read, against the stacked parameters; degrees at least one, variances non-negative reals
variable
    (hwt : ∀ k j : Fin 128, wt (ix2 k j) = W (ix3 l j k)) (hb : ∀ j : Fin 128, brow (ix2 (0 : Fin 1) j) = b (ix2 l j))
    (hroot : ∀ j : Fin 128, rootrow (ix2 (0 : Fin 1) j) = root (ix2 l j))
    (hγ : ∀ j : Fin 128, γrow (ix2 (0 : Fin 1) j) = γ (ix2 l j)) (hβ : ∀ j : Fin 128, βrow (ix2 (0 : Fin 1) j) = β (ix2 l j))
    (hμ : ∀ j : Fin 128, μrow (ix2 (0 : Fin 1) j) = μ (ix2 l j)) (hv : ∀ j : Fin 128, vrow (ix2 (0 : Fin 1) j) = var (ix2 l j))
    (hdinv2 : ∀ n : Fin 100000, dinv2 (ix2 n (0 : Fin 1)) = Ideal.div 1 (deg (ix1 n)))
    (hdeg : ∀ n : Fin 100000, ∃ r : ℝ, 1 ≤ r ∧ deg (ix1 n) = ((r : ℝ) : E))
    (hnorm : ∀ e : Fin 600000, norm1 (ix2 e (0 : Fin 1)) = norm (ix1 e))
    (hvar : ∀ j : Fin 128, ∃ r : ℝ, 0 ≤ r ∧ var (ix2 l j) = ((r : ℝ) : E))
include hwt hb hroot hγ hβ hμ hv hdinv2 hdeg hnorm hvar

set_option backward.isDefEq.respectTransparency.types false in
/-- With reciprocals read as quotients the tiled layer before the positive part is the plain layer's. -/
theorem layer_core_pre :
    finF (scat (msgF (gath (linHl h wt brow)) ea norm1)) (linSelf h wt brow rootrow dinv2) γrow βrow μrow vrow
      = bnS l γ β μ var (preS l W b root ea deg norm gath scat h) := by
  have e1 : linHl h wt brow = hlS l W b h := linHl_eq l W b h wt brow hwt hb
  funext i
  simp only [finF, bnS, preS, linSelf]
  rw [e1, msgF_eq ea norm norm1 _ hnorm, hγ, hβ, hμ, hv, hroot, hdinv2]
  obtain ⟨r, hr, hd⟩ := hdeg (i 0 : Fin 100000)
  obtain ⟨v, hv0, hvv⟩ := hvar (i 1 : Fin 128)
  obtain ⟨e, he, hee⟩ := eps_pos
  rw [hd, mul_one_div _ (ne_of_gt (by linarith : (0 : ℝ) < r)), hvv, hee, ← EReal.coe_add, mul_rsqrt _ (by linarith : 0 < v + e)]

theorem layer_core_relu :
    finFrelu (scat (msgF (gath (linHl h wt brow)) ea norm1)) (linSelf h wt brow rootrow dinv2) γrow βrow μrow vrow
      = layerR l W b root γ β μ var ea deg norm gath scat h := by
  funext i
  simp only [finFrelu, layerR]
  rw [layer_core_pre l W b root γ β μ var ea deg norm gath scat h wt brow rootrow γrow βrow μrow vrow dinv2 norm1
    hwt hb hroot hγ hβ hμ hv hdinv2 hdeg hnorm hvar]

theorem layer_core_last :
    finF (scat (msgF (gath (linHl h wt brow)) ea norm1)) (linSelf h wt brow rootrow dinv2) γrow βrow μrow vrow
      = layerL l W b root γ β μ var ea deg norm gath scat h :=
  layer_core_pre l W b root γ β μ var ea deg norm gath scat h wt brow rootrow γrow βrow μrow vrow dinv2 norm1
    hwt hb hroot hγ hβ hμ hv hdinv2 hdeg hnorm hvar

end Cert.GnnSpec

end
-- ==== Proof.KDefs.lean ====
import proofs.«408040_j36369783063008_1_alg».proof.Proof.Gen.KernelIdeal.Frame
import proofs.«408040_j36369783063008_1_alg».proof.Proof.Spec

noncomputable section

namespace Cert.KernelIdeal.GnnK

open Cert.KernelIdeal Cert.KernelIdeal.Gen Cert.GnnSpec
open Idealize.ShloMosaic Idealize.ShloMosaic.TcCoe Idealize.SL.Sem

def wrapIdx (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

def takeMask (v : IVec S600000 32) : IVec S600000 1 :=
  Host.reduce IntOp.andi
    (andi (cmpi .sge (wrapIdx v) (broadcastInDim S600000x1 ![] bcast_S_S600000x1 (constantI S_ 32 0#32)))
      (cmpi .sle (wrapIdx v) (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

def kTake (hl : FVec Ideal S100000x128 .f32) (row : IVec S600000 32) : FVec Ideal S600000x128 .f32 :=
  select (broadcastInDim S600000x128 ![0] bcast_S600000_S600000x128_0 (takeMask row))
    (Host.gather gather_S100000x128_S600000x1_S600000x128_1_0_n_n_0_1_1128 hl (wrapIdx row))
    (broadcastInDim S600000x128 ![] bcast_S_S600000x128 (constant S_ .f32 0x7FC00000#32))

def kGath (row : IVec S600000 32) (hl : FVec Ideal S100000x128 .f32) : FVec Ideal S600000x128 .f32 :=
  Host.gather gather_S100000x128_S600000x1_S600000x128_1_0_n_n_0_1_1128 hl (wrapIdx row)

def kScat (col : IVec S600000 32) (u : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 col) u

variable (m : (ℓ : Loc nD τ sig) → Buf (Elt Ideal) ℓ) (ρ : Dev nD → PrngReg)

abbrev rowK (c : Dev nD) : IVec S600000 32 := W1 (F := Ideal) m ρ c (Proc.devRef .tc main_v1)
abbrev colK (c : Dev nD) : IVec S600000 32 := W1 (F := Ideal) m ρ c (Proc.devRef .tc main_v3)
abbrev degK (c : Dev nD) : FVec Ideal S100000 .f32 := W1 (F := Ideal) m ρ c (Proc.devRef .tc main_v9)
abbrev normK (c : Dev nD) : FVec Ideal S600000 .f32 := W1 (F := Ideal) m ρ c (Proc.devRef .tc main_v29)

end Cert.KernelIdeal.GnnK

end
-- ==== Proof.KTake.lean ====
import proofs.«408040_j36369783063008_1_alg».proof.Proof.KDefs
import Idealize.ShloMosaic.Lib.StableHlo.Predicate

noncomputable section

namespace Cert.KernelIdeal.GnnK

open Cert.KernelIdeal Cert.KernelIdeal.Gen
open Idealize.ShloMosaic Idealize.ShloMosaic.TcCoe Idealize.SL.Sem

theorem word_range (r : BitVec 32) (h0 : 0 ≤ r.toInt) (h1 : r.toInt < 100000) :
    IntOp.cmpi .slt r 0#32 = 0#1 ∧ IntOp.cmpi .sge r 0#32 = 1#1 ∧ IntOp.cmpi .sle r 99999#32 = 1#1 := by
  have z : (0#32 : BitVec 32).toInt = 0 := by decide
  have n : (99999#32 : BitVec 32).toInt = 99999 := by decide
  refine ⟨?_, ?_, ?_⟩
  · simp only [IntOp.cmpi, BitVec.slt, z]
    rw [decide_eq_false (by omega)]; rfl
  · simp only [IntOp.cmpi, BitVec.sle, z]
    rw [decide_eq_true (by omega)]; rfl
  · simp only [IntOp.cmpi, BitVec.sle, n]
    rw [decide_eq_true (by omega)]; rfl

theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  have key : ∀ (l : List s.Idx) (r : BitVec 1), r = 1#1 → l.foldl (fun r i => IntOp.andi r (x i)) r = 1#1 := by
    intro l
    induction l with
    | nil => intro r hr; exact hr
    | cons a l ih =>
      intro r hr
      rw [List.foldl_cons]
      apply ih
      show IntOp.andi r (x a) = 1#1
      rw [hr, hx a]; rfl
  rw [Host.reduce_eq_foldl]
  exact key _ _ hinit

theorem wrapIdx_eq (row : IVec S600000 32) (hrow : ∀ e : S600000.Idx, 0 ≤ (row e).toInt ∧ (row e).toInt < 100000) :
    wrapIdx row = broadcastInDim S600000x1 ![0] bcast_S600000_S600000x1_0 row := by
  unfold wrapIdx
  congr 1
  funext e
  show Scalar.select (IntOp.cmpi .slt (row e) 0#32) (IntOp.addi (row e) 100000#32) (row e) = row e
  rw [(word_range _ (hrow e).1 (hrow e).2).1]
  exact if_neg (by decide)

theorem wrapIdx_range (row : IVec S600000 32) (hrow : ∀ e : S600000.Idx, 0 ≤ (row e).toInt ∧ (row e).toInt < 100000)
    (i : S600000x1.Idx) : 0 ≤ (wrapIdx row i).toInt ∧ (wrapIdx row i).toInt < 100000 := by
  rw [wrapIdx_eq row hrow]
  show 0 ≤ (row _).toInt ∧ (row _).toInt < 100000
  exact hrow _

theorem takeMask_eq_one (row : IVec S600000 32) (hrow : ∀ e : S600000.Idx, 0 ≤ (row e).toInt ∧ (row e).toInt < 100000)
    (e : S600000.Idx) : takeMask row e = 1#1 := by
  unfold takeMask
  refine reduce_andi_one _ _ _ _ (fun i => ?_) rfl e
  show IntOp.andi (IntOp.cmpi .sge (wrapIdx row i) 0#32) (IntOp.cmpi .sle (wrapIdx row i) 99999#32) = 1#1
  obtain ⟨h0, h1⟩ := wrapIdx_range row hrow i
  rw [(word_range _ h0 h1).2.1, (word_range _ h0 h1).2.2]; rfl

/-- With every source index in 0 … 99999 the guarded gather (wrap a negative index, mask what is out of range) is the plain gather. -/
theorem kTake_eq_kGath (hl : FVec Ideal S100000x128 .f32) (row : IVec S600000 32)
    (hrow : ∀ e : S600000.Idx, 0 ≤ (row e).toInt ∧ (row e).toInt < 100000) : kTake hl row = kGath row hl := by
  have hm : takeMask row = fun _ => 1#1 := funext (takeMask_eq_one row hrow)
  unfold kTake kGath
  rw [hm]
  funext i
  show Scalar.select (1#1) _ _ = _
  exact if_pos rfl

end Cert.KernelIdeal.GnnK

end
-- ==== Proof.KHost0.lean ====
import proofs.«408040_j36369783063008_1_alg».proof.Proof.Gen.KernelIdeal.Frame
import proofs.«408040_j36369783063008_1_alg».proof.Proof.Spec
import proofs.«408040_j36369783063008_1_alg».proof.Proof.KDefs
import Idealize.ShloMosaic.Lib.StableHlo.Run
import Idealize.ShloMosaic.Lib.ValueLayout
import Idealize.ShloMosaic.Lib.IdealHost

noncomputable section

open scoped BigOperators

namespace Cert.KernelIdeal.GnnK

open Cert.KernelIdeal Cert.KernelIdeal.Gen Cert.GnnSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem ofBuf_toBuf {Val : EltTy → Type} {T : BufTy} (x : StableHlo.TRef sig T) (v : T.Contents Val) :
    x.ofBuf (x.toBuf v) = v := by
  obtain ⟨r, h1, h2, h3⟩ := x
  subst h1
  rfl

theorem ofBuf_main_v1 {Val : EltTy → Type} (h1 h2 h3) (u : (main_v1 : Ref sig .tc).ty.Contents Val) :
    (StableHlo.TRef.of (T := ⟨S600000, .i32⟩) main_v1 h1 h2 h3).ofBuf u = u := rfl
theorem ofBuf_main_v40_0 {Val : EltTy → Type} (h1 h2 h3) (u : (main_v40_0 : Ref sig .tc).ty.Contents Val) :
    (StableHlo.TRef.of (T := ⟨S100000x128, .f32⟩) main_v40_0 h1 h2 h3).ofBuf u = u := rfl
theorem toBuf_main_v41 {Val : EltTy → Type} (h1 h2 h3) (u : (⟨S600000x128, .f32⟩ : BufTy).Contents Val) :
    (StableHlo.TRef.of (T := ⟨S600000x128, .f32⟩) main_v41 h1 h2 h3).toBuf u = u := rfl

section Stretch0

variable (V : Valuation τ sig (Elt Ideal))

theorem h0_row :
    StableHlo.after (hostOps0 (F := Ideal)) V (Proc.devRef .tc main_v1)
      = shapeCast S600000 (extractStridedSlice S1x600000 ![0, 0] (V (Proc.devRef .tc main_arg1))
          slices_S2x600000_S1x600000_0_0) shapeCasts_S1x600000_S600000 := by
  after_results_simp
  all_goals rfl

theorem h0_col :
    StableHlo.after (hostOps0 (F := Ideal)) V (Proc.devRef .tc main_v3)
      = shapeCast S600000 (extractStridedSlice S1x600000 ![1, 0] (V (Proc.devRef .tc main_arg1))
          slices_S2x600000_S1x600000_1_0) shapeCasts_S1x600000_S600000 := by
  after_results_simp
  all_goals rfl

theorem h0_deg :
    StableHlo.after (hostOps0 (F := Ideal)) V (Proc.devRef .tc main_v9)
      = addf (Host.scatterAdd (F := Ideal) scatter_S100000_S600000x1_S600000_n_0_0_1
          (broadcastInDim S100000 ![] bcast_S_S100000 (constant (F := Ideal) S_ .f32 0x00000000#32))
          (broadcastInDim S600000x1 ![0] bcast_S600000_S600000x1_0
            (StableHlo.after (hostOps0 (F := Ideal)) V (Proc.devRef .tc main_v1)))
          (broadcastInDim S600000 ![] bcast_S_S600000 (constant (F := Ideal) S_ .f32 0x3F800000#32)))
        (broadcastInDim S100000 ![] bcast_S_S100000 (constant (F := Ideal) S_ .f32 0x3F800000#32)) := by
  after_results_simp
  all_goals rfl

theorem h0_norm :
    StableHlo.after (hostOps0 (F := Ideal)) V (Proc.devRef .tc main_v29)
      = mulf
        (Host.gather gather_S100000_S600000x1_S600000_n_0_n_n_0_1_1
          (Host.powf (F := Ideal) (StableHlo.after (hostOps0 (F := Ideal)) V (Proc.devRef .tc main_v9))
            (broadcastInDim S100000 ![] bcast_S_S100000 (constant (F := Ideal) S_ .f32 0xBF000000#32)))
          (wrapIdx (StableHlo.after (hostOps0 (F := Ideal)) V (Proc.devRef .tc main_v1))))
        (Host.gather gather_S100000_S600000x1_S600000_n_0_n_n_0_1_1
          (Host.powf (F := Ideal) (StableHlo.after (hostOps0 (F := Ideal)) V (Proc.devRef .tc main_v9))
            (broadcastInDim S100000 ![] bcast_S_S100000 (constant (F := Ideal) S_ .f32 0xBF000000#32)))
          (wrapIdx (StableHlo.after (hostOps0 (F := Ideal)) V (Proc.devRef .tc main_v3)))) := by
  unfold wrapIdx
  after_results_simp
  all_goals rfl

theorem h0_v30 :
    StableHlo.after (hostOps0 (F := Ideal)) V (Proc.devRef .tc main_v30)
      = shapeCast S600000x1 (StableHlo.after (hostOps0 (F := Ideal)) V (Proc.devRef .tc main_v29))
          shapeCasts_S600000_S600000x1 := by
  after_results_simp
  all_goals rfl

theorem h0_v14 :
    StableHlo.after (hostOps0 (F := Ideal)) V (Proc.devRef .tc main_v14)
      = shapeCast S100000x1
          (Host.divf (F := Ideal)
            (broadcastInDim S100000 ![] bcast_S_S100000 (constant (F := Ideal) S_ .f32 0x3F800000#32))
            (StableHlo.after (hostOps0 (F := Ideal)) V (Proc.devRef .tc main_v9)))
          shapeCasts_S100000_S100000x1 := by
  after_results_simp
  all_goals rfl

theorem h0_v31 :
    StableHlo.after (hostOps0 (F := Ideal)) V (Proc.devRef .tc main_v31)
      = transpose S5x128x128 [0, 2, 1] (V (Proc.devRef .tc main_arg3)) transposes_S5x128x128_S5x128x128_0_2_1 := by
  after_results_simp
  all_goals rfl

theorem h0_v33 :
    StableHlo.after (hostOps0 (F := Ideal)) V (Proc.devRef .tc main_v33)
      = shapeCast S128x128 (extractStridedSlice S1x128x128 ![0, 0, 0]
          (transpose S5x128x128 [0, 2, 1] (V (Proc.devRef .tc main_arg3)) transposes_S5x128x128_S5x128x128_0_2_1)
          slices_S5x128x128_S1x128x128_0_0_0) shapeCasts_S1x128x128_S128x128 := by
  after_results_simp
  all_goals rfl

theorem h0_v36 :
    StableHlo.after (hostOps0 (F := Ideal)) V (Proc.devRef .tc main_v36)
      = shapeCast S1x128 (shapeCast S128 (extractStridedSlice S1x128 ![0, 0] (V (Proc.devRef .tc main_arg4))
          slices_S5x128_S1x128_0_0) shapeCasts_S1x128_S128) shapeCasts_S128_S1x128 := by
  after_results_simp
  all_goals rfl

theorem h0_v39 :
    StableHlo.after (hostOps0 (F := Ideal)) V (Proc.devRef .tc main_v39)
      = shapeCast S1x128 (shapeCast S128 (extractStridedSlice S1x128 ![0, 0] (V (Proc.devRef .tc main_arg5))
          slices_S5x128_S1x128_0_0) shapeCasts_S1x128_S128) shapeCasts_S128_S1x128 := by
  after_results_simp
  all_goals rfl

end Stretch0

section Stretch12

variable (V : Valuation τ sig (Elt Ideal))

theorem h1_take :
    StableHlo.after (hostOps1 (F := Ideal)) V (Proc.devRef .tc main_v41)
      = kTake (V (Proc.devRef .tc main_v40_0)) (V (Proc.devRef .tc main_v1)) := by
  unfold kTake takeMask wrapIdx
  after_results_simp
  simp only [ofBuf_toBuf, ofBuf_main_v1, ofBuf_main_v40_0, toBuf_main_v41]
  all_goals rfl

theorem h2_agg :
    StableHlo.after (hostOps2 (F := Ideal)) V (Proc.devRef .tc main_v45)
      = kScat (V (Proc.devRef .tc main_v3)) (V (Proc.devRef .tc main_v42)) := by
  unfold kScat
  after_results_simp
  all_goals rfl

theorem h2_v48 :
    StableHlo.after (hostOps2 (F := Ideal)) V (Proc.devRef .tc main_v48)
      = shapeCast S1x128 (shapeCast S128 (extractStridedSlice S1x128 ![0, 0] (V (Proc.devRef .tc main_arg6))
          slices_S5x128_S1x128_0_0) shapeCasts_S1x128_S128) shapeCasts_S128_S1x128 := by
  after_results_simp
  all_goals rfl

theorem h2_v51 :
    StableHlo.after (hostOps2 (F := Ideal)) V (Proc.devRef .tc main_v51)
      = shapeCast S1x128 (shapeCast S128 (extractStridedSlice S1x128 ![0, 0] (V (Proc.devRef .tc main_arg7))
          slices_S5x128_S1x128_0_0) shapeCasts_S1x128_S128) shapeCasts_S128_S1x128 := by
  after_results_simp
  all_goals rfl

theorem h2_v54 :
    StableHlo.after (hostOps2 (F := Ideal)) V (Proc.devRef .tc main_v54)
      = shapeCast S1x128 (shapeCast S128 (extractStridedSlice S1x128 ![0, 0] (V (Proc.devRef .tc main_arg8))
          slices_S5x128_S1x128_0_0) shapeCasts_S1x128_S128) shapeCasts_S128_S1x128 := by
  after_results_simp
  all_goals rfl

theorem h2_v57 :
    StableHlo.after (hostOps2 (F := Ideal)) V (Proc.devRef .tc main_v57)
      = shapeCast S1x128 (shapeCast S128 (extractStridedSlice S1x128 ![0, 0] (V (Proc.devRef .tc main_arg9))
          slices_S5x128_S1x128_0_0) shapeCasts_S1x128_S128) shapeCasts_S128_S1x128 := by
  after_results_simp
  all_goals rfl

end Stretch12

section Reads

theorem wt0_read (X : S5x128x128.Idx → EReal) (k j : Fin 128) :
    shapeCast S128x128 (extractStridedSlice S1x128x128 ![0, 0, 0]
        (transpose S5x128x128 [0, 2, 1] X transposes_S5x128x128_S5x128x128_0_2_1)
        slices_S5x128x128_S1x128x128_0_0_0) shapeCasts_S1x128x128_S128x128 (ix2 k j)
      = X (ix3 (0 : Fin 5) j k) := by
  rw [shapeCast_1ab_ab_apply]
  refine (extractStridedSlice_apply _ _ _ _ (ix3 (0 : Fin 5) k j) (fun ax => ?_)).trans
    (transpose_ix3_021_apply X _ (0 : Fin 5) k j)
  match ax with
  | ⟨0, _⟩ => rfl
  | ⟨1, _⟩ => exact (Nat.zero_add _).symm
  | ⟨2, _⟩ => exact (Nat.zero_add _).symm

theorem row0_read (X : S5x128.Idx → EReal) (j : Fin 128) :
    shapeCast S1x128 (shapeCast S128 (extractStridedSlice S1x128 ![0, 0] X slices_S5x128_S1x128_0_0)
        shapeCasts_S1x128_S128) shapeCasts_S128_S1x128 (ix2 (0 : Fin 1) j)
      = X (ix2 (0 : Fin 5) j) := by
  rw [shapeCast_a_1a_apply, shapeCast_1a_a_apply]
  exact slice2_axis0_apply 0 X slices_S5x128_S1x128_0_0 (0 : Fin 1) j (0 : Fin 5) rfl

theorem ecol_read (x : S600000.Idx → EReal) (e : Fin 600000) :
    shapeCast S600000x1 x shapeCasts_S600000_S600000x1 (ix2 e (0 : Fin 1)) = x (ix1 e) :=
  shapeCast_apply x _ _ _ (by
    rw [Shape.rowMajor_val_one, Shape.rowMajor_val_two]
    show e.val = e.val * 1 + 0
    omega)

theorem ncol_recip_read (D : FVec Ideal S100000 .f32) (n : Fin 100000) :
    shapeCast S100000x1
        (Host.divf (F := Ideal)
          (broadcastInDim S100000 ![] bcast_S_S100000 (constant (F := Ideal) S_ .f32 0x3F800000#32)) D)
        shapeCasts_S100000_S100000x1 (ix2 n (0 : Fin 1))
      = Ideal.div 1 (D (ix1 n)) := by
  refine (shapeCast_apply _ _ _ (ix1 n) (by
    rw [Shape.rowMajor_val_one, Shape.rowMajor_val_two]
    show n.val = n.val * 1 + 0
    omega)).trans ?_
  rw [hostDivf_apply, broadcastInDim_scalar_apply, constant_apply, Ideal.ofBits_one_f32]

theorem sum_ones_real {ι : Type} (s : Finset ι) (f : ι → EReal) (hf : ∀ j, f j = 1) :
    ∃ r : ℝ, 0 ≤ r ∧ ∑ j ∈ s, f j = (r : EReal) := by
  classical
  refine Finset.induction_on s ⟨0, le_refl 0, by rw [Finset.sum_empty, EReal.coe_zero]⟩ ?_
  intro a s ha ih
  obtain ⟨r, hr, e⟩ := ih
  exact ⟨1 + r, add_nonneg zero_le_one hr, by rw [Finset.sum_insert ha, hf, e, EReal.coe_add, EReal.coe_one]⟩

theorem scatter_ones_real (idx : IVec S600000x1 32) (n : Fin 100000) : ∃ r : ℝ, 1 ≤ r ∧
    addf (Host.scatterAdd (F := Ideal) scatter_S100000_S600000x1_S600000_n_0_0_1
        (broadcastInDim S100000 ![] bcast_S_S100000 (constant (F := Ideal) S_ .f32 0x00000000#32)) idx
        (broadcastInDim S600000 ![] bcast_S_S600000 (constant (F := Ideal) S_ .f32 0x3F800000#32)))
      (broadcastInDim S100000 ![] bcast_S_S100000 (constant (F := Ideal) S_ .f32 0x3F800000#32)) (ix1 n)
      = (r : EReal) := by
  obtain ⟨r, hr, e⟩ := sum_ones_real
    (Finset.univ.filter fun j => scatter_S100000_S600000x1_S600000_n_0_0_1.resultIdx? j idx = some (ix1 n))
    (broadcastInDim S600000 ![] bcast_S_S600000 (constant (F := Ideal) S_ .f32 0x3F800000#32))
    (fun j => by rw [broadcastInDim_scalar_apply, constant_apply, Ideal.ofBits_one_f32])
  refine ⟨r + 1, le_add_of_nonneg_left hr, ?_⟩
  rw [addf_apply]
  unfold Host.scatterAdd
  rw [Ideal.hostScatterAdd_def]
  unfold Ideal.hostScatterAdd
  rw [broadcastInDim_scalar_apply, broadcastInDim_scalar_apply, constant_apply, constant_apply,
    Ideal.ofBits_zero_f32, Ideal.ofBits_one_f32, zero_add, EReal.coe_add, EReal.coe_one]
  exact congrArg (· + (1 : EReal)) e

end Reads

variable (m : (ℓ : Loc nD τ sig) → Buf (Elt Ideal) ℓ) (ρ : Dev nD → PrngReg)

macro "host_keeps" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem kh_row (c : Dev nD) : rowK m ρ c
    = shapeCast S600000 (extractStridedSlice S1x600000 ![0, 0] (m ((c : Thread nD τ).loc main_arg1))
        slices_S2x600000_S1x600000_0_0) shapeCasts_S1x600000_S600000 :=
  h0_row (W0 (F := Ideal) m ρ c)

theorem kh_col (c : Dev nD) : colK m ρ c
    = shapeCast S600000 (extractStridedSlice S1x600000 ![1, 0] (m ((c : Thread nD τ).loc main_arg1))
        slices_S2x600000_S1x600000_1_0) shapeCasts_S1x600000_S600000 :=
  h0_col (W0 (F := Ideal) m ρ c)

theorem kh_deg (c : Dev nD) : degK m ρ c
    = addf (Host.scatterAdd (F := Ideal) scatter_S100000_S600000x1_S600000_n_0_0_1
        (broadcastInDim S100000 ![] bcast_S_S100000 (constant (F := Ideal) S_ .f32 0x00000000#32))
        (broadcastInDim S600000x1 ![0] bcast_S600000_S600000x1_0 (rowK m ρ c))
        (broadcastInDim S600000 ![] bcast_S_S600000 (constant (F := Ideal) S_ .f32 0x3F800000#32)))
      (broadcastInDim S100000 ![] bcast_S_S100000 (constant (F := Ideal) S_ .f32 0x3F800000#32)) :=
  h0_deg (W0 (F := Ideal) m ρ c)

theorem kh_normdef (c : Dev nD) : normK m ρ c
    = mulf
      (Host.gather gather_S100000_S600000x1_S600000_n_0_n_n_0_1_1
        (Host.powf (F := Ideal) (degK m ρ c)
          (broadcastInDim S100000 ![] bcast_S_S100000 (constant (F := Ideal) S_ .f32 0xBF000000#32)))
        (wrapIdx (rowK m ρ c)))
      (Host.gather gather_S100000_S600000x1_S600000_n_0_n_n_0_1_1
        (Host.powf (F := Ideal) (degK m ρ c)
          (broadcastInDim S100000 ![] bcast_S_S100000 (constant (F := Ideal) S_ .f32 0xBF000000#32)))
        (wrapIdx (colK m ρ c))) :=
  h0_norm (W0 (F := Ideal) m ρ c)

theorem row_at_2 (c : Dev nD) : W2 (F := Ideal) m ρ c (Proc.devRef .tc main_v1) = rowK m ρ c :=
  W2_of_ne m ρ c main_v1 (by decide)

theorem col_at_4 (c : Dev nD) : W4 (F := Ideal) m ρ c (Proc.devRef .tc main_v3) = colK m ρ c :=
  calc W4 (F := Ideal) m ρ c (Proc.devRef .tc main_v3)
    _ = W3 (F := Ideal) m ρ c (Proc.devRef .tc main_v3) := W4_of_ne m ρ c main_v3 (by decide)
    _ = W2 (F := Ideal) m ρ c (Proc.devRef .tc main_v3) := by host_keeps
    _ = W1 (F := Ideal) m ρ c (Proc.devRef .tc main_v3) := W2_of_ne m ρ c main_v3 (by decide)

theorem norm1_at_3 (c : Dev nD) :
    W3 (F := Ideal) m ρ c (Proc.devRef .tc main_v30) = W1 (F := Ideal) m ρ c (Proc.devRef .tc main_v30) :=
  calc W3 (F := Ideal) m ρ c (Proc.devRef .tc main_v30)
    _ = W2 (F := Ideal) m ρ c (Proc.devRef .tc main_v30) := by host_keeps
    _ = W1 (F := Ideal) m ρ c (Proc.devRef .tc main_v30) := W2_of_ne m ρ c main_v30 (by decide)

macro "arg_at_4" m:ident ρ:ident c:ident b:ident : tactic => `(tactic| (
  calc W4 (F := Ideal) $m $ρ $c (Proc.devRef .tc $b)
    _ = W3 (F := Ideal) $m $ρ $c (Proc.devRef .tc $b) := W4_of_ne $m $ρ $c $b (by decide)
    _ = W2 (F := Ideal) $m $ρ $c (Proc.devRef .tc $b) := by host_keeps
    _ = W1 (F := Ideal) $m $ρ $c (Proc.devRef .tc $b) := W2_of_ne $m $ρ $c $b (by decide)
    _ = W0 (F := Ideal) $m $ρ $c (Proc.devRef .tc $b) := by host_keeps
    _ = $m (($c : Thread nD τ).loc $b) := rfl))

theorem arg6_at_4 (c : Dev nD) :
    W4 (F := Ideal) m ρ c (Proc.devRef .tc main_arg6) = m ((c : Thread nD τ).loc main_arg6) := by arg_at_4 m ρ c main_arg6
theorem arg7_at_4 (c : Dev nD) :
    W4 (F := Ideal) m ρ c (Proc.devRef .tc main_arg7) = m ((c : Thread nD τ).loc main_arg7) := by arg_at_4 m ρ c main_arg7
theorem arg8_at_4 (c : Dev nD) :
    W4 (F := Ideal) m ρ c (Proc.devRef .tc main_arg8) = m ((c : Thread nD τ).loc main_arg8) := by arg_at_4 m ρ c main_arg8
theorem arg9_at_4 (c : Dev nD) :
    W4 (F := Ideal) m ρ c (Proc.devRef .tc main_arg9) = m ((c : Thread nD τ).loc main_arg9) := by arg_at_4 m ρ c main_arg9

theorem kh0_wt (c : Dev nD) (k j : Fin 128) :
    (W1 (F := Ideal) m ρ c (Proc.devRef .tc main_v33) : S128x128.Idx → EReal) (ix2 k j)
      = m ((c : Thread nD τ).loc main_arg3) (ix3 (0 : Fin 5) j k) :=
  (congrFun (h0_v33 (W0 (F := Ideal) m ρ c)) (ix2 k j)).trans (wt0_read _ k j)

theorem kh0_b (c : Dev nD) (j : Fin 128) :
    (W1 (F := Ideal) m ρ c (Proc.devRef .tc main_v36) : S1x128.Idx → EReal) (ix2 (0 : Fin 1) j)
      = m ((c : Thread nD τ).loc main_arg4) (ix2 (0 : Fin 5) j) :=
  (congrFun (h0_v36 (W0 (F := Ideal) m ρ c)) (ix2 (0 : Fin 1) j)).trans (row0_read _ j)

theorem kh0_root (c : Dev nD) (j : Fin 128) :
    (W1 (F := Ideal) m ρ c (Proc.devRef .tc main_v39) : S1x128.Idx → EReal) (ix2 (0 : Fin 1) j)
      = m ((c : Thread nD τ).loc main_arg5) (ix2 (0 : Fin 5) j) :=
  (congrFun (h0_v39 (W0 (F := Ideal) m ρ c)) (ix2 (0 : Fin 1) j)).trans (row0_read _ j)

theorem kh0_dinv2 (c : Dev nD) (n : Fin 100000) :
    (W1 (F := Ideal) m ρ c (Proc.devRef .tc main_v14) : S100000x1.Idx → EReal) (ix2 n (0 : Fin 1))
      = Ideal.div 1 (degK m ρ c (ix1 n)) :=
  (congrFun (h0_v14 (W0 (F := Ideal) m ρ c)) (ix2 n (0 : Fin 1))).trans (ncol_recip_read (degK m ρ c) n)

theorem kh0_hin (c : Dev nD) :
    W1 (F := Ideal) m ρ c (Proc.devRef .tc main_arg0) = m ((c : Thread nD τ).loc main_arg0) :=
  calc W1 (F := Ideal) m ρ c (Proc.devRef .tc main_arg0)
    _ = W0 (F := Ideal) m ρ c (Proc.devRef .tc main_arg0) := by host_keeps
    _ = m ((c : Thread nD τ).loc main_arg0) := rfl

theorem kh_v31 (c : Dev nD) (a : Fin 5) (k j : Fin 128) :
    (W1 (F := Ideal) m ρ c (Proc.devRef .tc main_v31) : S5x128x128.Idx → EReal) (ix3 a k j)
      = m ((c : Thread nD τ).loc main_arg3) (ix3 a j k) :=
  (congrFun (h0_v31 (W0 (F := Ideal) m ρ c)) (ix3 a k j)).trans
    (transpose_ix3_021_apply (m ((c : Thread nD τ).loc main_arg3)) transposes_S5x128x128_S5x128x128_0_2_1 a k j)

theorem kh0_take (c : Dev nD) :
    W3 (F := Ideal) m ρ c (Proc.devRef .tc main_v41)
      = kTake (W2 (F := Ideal) m ρ c (Proc.devRef .tc main_v40_0)) (rowK m ρ c) :=
  (h1_take (W2 (F := Ideal) m ρ c)).trans
    (congrArg (kTake (W2 (F := Ideal) m ρ c (Proc.devRef .tc main_v40_0))) (row_at_2 m ρ c))

theorem kh0_ea (c : Dev nD) :
    W3 (F := Ideal) m ρ c (Proc.devRef .tc main_arg2) = m ((c : Thread nD τ).loc main_arg2) :=
  calc W3 (F := Ideal) m ρ c (Proc.devRef .tc main_arg2)
    _ = W2 (F := Ideal) m ρ c (Proc.devRef .tc main_arg2) := by host_keeps
    _ = W1 (F := Ideal) m ρ c (Proc.devRef .tc main_arg2) := W2_of_ne m ρ c main_arg2 (by decide)
    _ = W0 (F := Ideal) m ρ c (Proc.devRef .tc main_arg2) := by host_keeps
    _ = m ((c : Thread nD τ).loc main_arg2) := rfl

theorem kh0_norm (c : Dev nD) (e : Fin 600000) :
    (W3 (F := Ideal) m ρ c (Proc.devRef .tc main_v30) : S600000x1.Idx → EReal) (ix2 e (0 : Fin 1))
      = normK m ρ c (ix1 e) :=
  (congrFun ((norm1_at_3 m ρ c).trans (h0_v30 (W0 (F := Ideal) m ρ c))) (ix2 e (0 : Fin 1))).trans
    (ecol_read (normK m ρ c) e)

theorem kh0_agg (c : Dev nD) :
    W5 (F := Ideal) m ρ c (Proc.devRef .tc main_v45)
      = kScat (colK m ρ c) (W4 (F := Ideal) m ρ c (Proc.devRef .tc main_v42)) :=
  (h2_agg (W4 (F := Ideal) m ρ c)).trans
    (congrArg (fun x => kScat x (W4 (F := Ideal) m ρ c (Proc.devRef .tc main_v42))) (col_at_4 m ρ c))

theorem kh0_self (c : Dev nD) :
    W5 (F := Ideal) m ρ c (Proc.devRef .tc main_v40_1) = W2 (F := Ideal) m ρ c (Proc.devRef .tc main_v40_1) :=
  calc W5 (F := Ideal) m ρ c (Proc.devRef .tc main_v40_1)
    _ = W4 (F := Ideal) m ρ c (Proc.devRef .tc main_v40_1) := by host_keeps
    _ = W3 (F := Ideal) m ρ c (Proc.devRef .tc main_v40_1) := W4_of_ne m ρ c main_v40_1 (by decide)
    _ = W2 (F := Ideal) m ρ c (Proc.devRef .tc main_v40_1) := by host_keeps

theorem kh0_gamma (c : Dev nD) (j : Fin 128) :
    (W5 (F := Ideal) m ρ c (Proc.devRef .tc main_v48) : S1x128.Idx → EReal) (ix2 (0 : Fin 1) j)
      = m ((c : Thread nD τ).loc main_arg6) (ix2 (0 : Fin 5) j) :=
  ((congrFun (h2_v48 (W4 (F := Ideal) m ρ c)) (ix2 (0 : Fin 1) j)).trans (row0_read _ j)).trans
    (congrFun (arg6_at_4 m ρ c) (ix2 (0 : Fin 5) j))

theorem kh0_beta (c : Dev nD) (j : Fin 128) :
    (W5 (F := Ideal) m ρ c (Proc.devRef .tc main_v51) : S1x128.Idx → EReal) (ix2 (0 : Fin 1) j)
      = m ((c : Thread nD τ).loc main_arg7) (ix2 (0 : Fin 5) j) :=
  ((congrFun (h2_v51 (W4 (F := Ideal) m ρ c)) (ix2 (0 : Fin 1) j)).trans (row0_read _ j)).trans
    (congrFun (arg7_at_4 m ρ c) (ix2 (0 : Fin 5) j))

theorem kh0_mean (c : Dev nD) (j : Fin 128) :
    (W5 (F := Ideal) m ρ c (Proc.devRef .tc main_v54) : S1x128.Idx → EReal) (ix2 (0 : Fin 1) j)
      = m ((c : Thread nD τ).loc main_arg8) (ix2 (0 : Fin 5) j) :=
  ((congrFun (h2_v54 (W4 (F := Ideal) m ρ c)) (ix2 (0 : Fin 1) j)).trans (row0_read _ j)).trans
    (congrFun (arg8_at_4 m ρ c) (ix2 (0 : Fin 5) j))

theorem kh0_var (c : Dev nD) (j : Fin 128) :
    (W5 (F := Ideal) m ρ c (Proc.devRef .tc main_v57) : S1x128.Idx → EReal) (ix2 (0 : Fin 1) j)
      = m ((c : Thread nD τ).loc main_arg9) (ix2 (0 : Fin 5) j) :=
  ((congrFun (h2_v57 (W4 (F := Ideal) m ρ c)) (ix2 (0 : Fin 1) j)).trans (row0_read _ j)).trans
    (congrFun (arg9_at_4 m ρ c) (ix2 (0 : Fin 5) j))

theorem degK_real (c : Dev nD) (n : Fin 100000) : ∃ r : ℝ, 1 ≤ r ∧ degK m ρ c (ix1 n) = (r : EReal) := by
  obtain ⟨r, hr, e⟩ := scatter_ones_real (broadcastInDim S600000x1 ![0] bcast_S600000_S600000x1_0 (rowK m ρ c)) n
  exact ⟨r, hr, (congrFun (kh_deg m ρ c) (ix1 n)).trans e⟩

end Cert.KernelIdeal.GnnK

end
-- ==== Proof.KLin0.lean ====
import proofs.«408040_j36369783063008_1_alg».proof.Proof.Gen.KernelIdeal.Frame
import proofs.«408040_j36369783063008_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem lin0_lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lin0_lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem lin0_rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem lin0_rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

theorem lin0_matmul_apply (a : FVec Ideal S1000x128 .bf16) (b : FVec Ideal S128x128 .bf16) (p : Fin 1000) (q : Fin 128) :
    matmul dot_S1000x128_S128x128_S1000x128_1_0_0_1_n_n none a b (constant (F := Ideal) S1000x128 .f32 0x00000000#32) (ix2 p q)
      = ∑ k : Fin 128, a (ix2 p k) * b (ix2 k q) := by
  refine (Ideal.matmul_constant_zero_apply dot_S1000x128_S128x128_S1000x128_1_0_0_1_n_n none a b (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lin0_lhs_0 _ _
    | ⟨1, _⟩ => exact (lin0_lhs_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (lin0_rhs_0 _ _).trans hk
    | ⟨1, _⟩ => exact lin0_rhs_1 _ _)
  rw [el, er]

theorem lin0_bcast_row (x : Vec Ideal S1x128 .f32) (p : Fin 1000) (q : Fin 128) :
    broadcastTo S1000x128 x broadcasts_S1x128_S1000x128 (ix2 p q) = x (ix2 (0 : Fin 1) q) :=
  broadcastTo_apply x broadcasts_S1x128_S1000x128 (ix2 p q) (ix2 (0 : Fin 1) q) (fun a => by
    match a with
    | ⟨0, _⟩ => rfl
    | ⟨1, _⟩ => show q.val = if (128 : Nat) = 1 then 0 else q.val; rw [if_neg (by decide)])

theorem lin0_bcast_col (x : Vec Ideal S1000x1 .f32) (p : Fin 1000) (q : Fin 128) :
    broadcastTo S1000x128 x broadcasts_S1000x1_S1000x128 (ix2 p q) = x (ix2 p (0 : Fin 1)) :=
  broadcastTo_apply x broadcasts_S1000x1_S1000x128 (ix2 p q) (ix2 p (0 : Fin 1)) (fun a => by
    match a with
    | ⟨0, _⟩ => show p.val = if (1000 : Nat) = 1 then 0 else p.val; rw [if_neg (by decide)]
    | ⟨1, _⟩ => rfl)

theorem lin0_pay1_apply (x0 : Vec Ideal S1000x128 .f32) (x1 : Vec Ideal S128x128 .f32) (x2 : Vec Ideal S1x128 .f32)
    (p : Fin 1000) (q : Fin 128) :
    k0_pay1 (F := Ideal) x0 x1 x2 (ix2 p q) = (∑ k : Fin 128, x0 (ix2 p k) * x1 (ix2 k q)) + x2 (ix2 (0 : Fin 1) q) := by
  unfold k0_pay1
  simp only [shapeCast_self]
  refine congrArg₂ (· + ·) ?_ ?_
  · exact lin0_matmul_apply _ _ p q
  · exact lin0_bcast_row x2 p q

theorem lin0_pay2_apply (x0 : Vec Ideal S1000x128 .f32) (x1 : Vec Ideal S128x128 .f32) (x2 x3 : Vec Ideal S1x128 .f32)
    (x4 : Vec Ideal S1000x1 .f32) (p : Fin 1000) (q : Fin 128) :
    k0_pay2 (F := Ideal) x0 x1 x2 x3 x4 (ix2 p q)
      = max (k0_pay1 (F := Ideal) x0 x1 x2 (ix2 p q) + x3 (ix2 (0 : Fin 1) q)) 0 * x4 (ix2 p (0 : Fin 1)) := by
  unfold k0_pay2
  simp only [shapeCast_self]
  refine congrArg₂ (· * ·) (congrArg₂ max (congrArg₂ (· + ·) rfl ?_) ?_) ?_
  · exact lin0_bcast_row x3 p q
  · exact Ideal.ofBits_zero_f32
  · exact lin0_bcast_col x4 p q

theorem lin0_hl_block (h : SND.Idx → E) (wt : SDD.Idx → E) (b : S1D.Idx → E)
    (x0 : Vec Ideal S1000x128 .f32) (x1 : Vec Ideal S128x128 .f32) (x2 : Vec Ideal S1x128 .f32)
    (i : SND.Idx) (p : Fin 1000) (q : Fin 128)
    (h0 : ∀ k : Fin 128, x0 (ix2 p k) = h (ix2 (i 0 : Fin 100000) k))
    (h1 : ∀ k : Fin 128, x1 (ix2 k q) = wt (ix2 k (i 1 : Fin 128)))
    (h2 : x2 (ix2 (0 : Fin 1) q) = b (ix2 (0 : Fin 1) (i 1 : Fin 128))) :
    k0_pay1 (F := Ideal) x0 x1 x2 (ix2 p q) = linHl h wt b i := by
  rw [lin0_pay1_apply, h2]
  unfold linHl
  exact congrArg (· + b (ix2 (0 : Fin 1) (i 1 : Fin 128))) (Finset.sum_congr rfl fun k _ => by rw [h0 k, h1 k])

theorem lin0_self_block (h : SND.Idx → E) (wt : SDD.Idx → E) (b root : S1D.Idx → E) (dinv2 : SN1.Idx → E)
    (x0 : Vec Ideal S1000x128 .f32) (x1 : Vec Ideal S128x128 .f32) (x2 x3 : Vec Ideal S1x128 .f32)
    (x4 : Vec Ideal S1000x1 .f32) (i : SND.Idx) (p : Fin 1000) (q : Fin 128)
    (h0 : ∀ k : Fin 128, x0 (ix2 p k) = h (ix2 (i 0 : Fin 100000) k))
    (h1 : ∀ k : Fin 128, x1 (ix2 k q) = wt (ix2 k (i 1 : Fin 128)))
    (h2 : x2 (ix2 (0 : Fin 1) q) = b (ix2 (0 : Fin 1) (i 1 : Fin 128)))
    (h3 : x3 (ix2 (0 : Fin 1) q) = root (ix2 (0 : Fin 1) (i 1 : Fin 128)))
    (h4 : x4 (ix2 p (0 : Fin 1)) = dinv2 (ix2 (i 0 : Fin 100000) (0 : Fin 1))) :
    k0_pay2 (F := Ideal) x0 x1 x2 x3 x4 (ix2 p q) = linSelf h wt b root dinv2 i := by
  rw [lin0_pay2_apply, lin0_hl_block h wt b x0 x1 x2 i p q h0 h1 h2, h3, h4]
  rfl

theorem lin0_hz : (![0, 0] : Fin 2 → Nat) = fun _ => 0 := funext fun a => by fin_cases a <;> rfl

theorem lin0_idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lin0_flushed5 (c : Dev nD) (t : Fin cfg0.N) :
    (dat0 (F := Ideal) V c).flushed 5 t
      = ((cfg0.win 5).blk t).view.read (Elt Ideal) (linHl (V c main_arg0) (V c main_v33) (V c main_v36)) := by
  show (cfg0.win 5).cut (grid0.coords t) ((dat0 (F := Ideal) V c).after 5 t) = _
  rw [after0_5]
  unfold out0_5
  rw [View.canon_unit_zero lin0_hz]
  simp only [View.ld_unit_zero (S := S1000x128) lin0_hz, View.ld_unit_zero (S := S128x128) lin0_hz,
    View.ld_unit_zero (S := S1x128) lin0_hz]
  obtain ⟨e00, e01, e10, e11, e20, e21, e30, e31, e40, e41, e50, e51, e60, e61⟩ := lin0_idx_facts t
  funext j
  obtain ⟨p, q, rfl⟩ : ∃ (p : Fin 1000) (q : Fin 128), j = ix2 p q := ⟨j 0, j 1, eq_ix2 j⟩
  show k0_pay1 (F := Ideal) (iblk0 V c 0 t) (iblk0 V c 1 t) (iblk0 V c 2 t) (ix2 p q)
    = linHl (V c main_arg0) (V c main_v33) (V c main_v36) (((cfg0.win 5).blk t).view.emb (ix2 p q))
  refine lin0_hl_block (V c main_arg0) (V c main_v33) (V c main_v36) (iblk0 V c 0 t) (iblk0 V c 1 t) (iblk0 V c 2 t)
    (((cfg0.win 5).blk t).view.emb (ix2 p q)) p q ?_ ?_ ?_
  · intro k
    show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = win0_5.index t (0 : Fin 2) * 1000 + 1 * p.val; omega
    | ⟨1, _⟩ => show win0_0.index t (1 : Fin 2) * 128 + 1 * k.val = k.val; omega
  · intro k
    show V c main_v33 (((cfg0.win 1).blk t).view.emb (ix2 k q)) = _
    refine congrArg (V c main_v33) (funext fun a => Fin.ext ?_)
    match a with
    | ⟨0, _⟩ => show win0_1.index t (0 : Fin 2) * 128 + 1 * k.val = k.val; omega
    | ⟨1, _⟩ => show win0_1.index t (1 : Fin 2) * 128 + 1 * q.val = win0_5.index t (1 : Fin 2) * 128 + 1 * q.val; omega
  · show V c main_v36 (((cfg0.win 2).blk t).view.emb (ix2 (0 : Fin 1) q)) = _
    refine congrArg (V c main_v36) (funext fun a => Fin.ext ?_)
    match a with
    | ⟨0, _⟩ => show win0_2.index t (0 : Fin 2) * 1 + 1 * 0 = 0; omega
    | ⟨1, _⟩ => show win0_2.index t (1 : Fin 2) * 128 + 1 * q.val = win0_5.index t (1 : Fin 2) * 128 + 1 * q.val; omega

theorem lin0_flushed6 (c : Dev nD) (t : Fin cfg0.N) :
    (dat0 (F := Ideal) V c).flushed 6 t
      = ((cfg0.win 6).blk t).view.read (Elt Ideal)
          (linSelf (V c main_arg0) (V c main_v33) (V c main_v36) (V c main_v39) (V c main_v14)) := by
  show (cfg0.win 6).cut (grid0.coords t) ((dat0 (F := Ideal) V c).after 6 t) = _
  rw [after0_6]
  unfold out0_6
  rw [View.canon_unit_zero lin0_hz]
  simp only [View.ld_unit_zero (S := S1000x128) lin0_hz, View.ld_unit_zero (S := S128x128) lin0_hz,
    View.ld_unit_zero (S := S1x128) lin0_hz, View.ld_unit_zero (S := S1000x1) lin0_hz]
  obtain ⟨e00, e01, e10, e11, e20, e21, e30, e31, e40, e41, e50, e51, e60, e61⟩ := lin0_idx_facts t
  funext j
  obtain ⟨p, q, rfl⟩ : ∃ (p : Fin 1000) (q : Fin 128), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = linSelf (V c main_arg0) (V c main_v33) (V c main_v36) (V c main_v39) (V c main_v14)
        (((cfg0.win 6).blk t).view.emb (ix2 p q))
  refine lin0_self_block (V c main_arg0) (V c main_v33) (V c main_v36) (V c main_v39) (V c main_v14)
    (iblk0 V c 0 t) (iblk0 V c 1 t) (iblk0 V c 2 t) (iblk0 V c 3 t) (iblk0 V c 4 t)
    (((cfg0.win 6).blk t).view.emb (ix2 p q)) p q ?_ ?_ ?_ ?_ ?_
  · intro k
    show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = win0_6.index t (0 : Fin 2) * 1000 + 1 * p.val; omega
    | ⟨1, _⟩ => show win0_0.index t (1 : Fin 2) * 128 + 1 * k.val = k.val; omega
  · intro k
    show V c main_v33 (((cfg0.win 1).blk t).view.emb (ix2 k q)) = _
    refine congrArg (V c main_v33) (funext fun a => Fin.ext ?_)
    match a with
    | ⟨0, _⟩ => show win0_1.index t (0 : Fin 2) * 128 + 1 * k.val = k.val; omega
    | ⟨1, _⟩ => show win0_1.index t (1 : Fin 2) * 128 + 1 * q.val = win0_6.index t (1 : Fin 2) * 128 + 1 * q.val; omega
  · show V c main_v36 (((cfg0.win 2).blk t).view.emb (ix2 (0 : Fin 1) q)) = _
    refine congrArg (V c main_v36) (funext fun a => Fin.ext ?_)
    match a with
    | ⟨0, _⟩ => show win0_2.index t (0 : Fin 2) * 1 + 1 * 0 = 0; omega
    | ⟨1, _⟩ => show win0_2.index t (1 : Fin 2) * 128 + 1 * q.val = win0_6.index t (1 : Fin 2) * 128 + 1 * q.val; omega
  · show V c main_v39 (((cfg0.win 3).blk t).view.emb (ix2 (0 : Fin 1) q)) = _
    refine congrArg (V c main_v39) (funext fun a => Fin.ext ?_)
    match a with
    | ⟨0, _⟩ => show win0_3.index t (0 : Fin 2) * 1 + 1 * 0 = 0; omega
    | ⟨1, _⟩ => show win0_3.index t (1 : Fin 2) * 128 + 1 * q.val = win0_6.index t (1 : Fin 2) * 128 + 1 * q.val; omega
  · show V c main_v14 (((cfg0.win 4).blk t).view.emb (ix2 p (0 : Fin 1))) = _
    refine congrArg (V c main_v14) (funext fun a => Fin.ext ?_)
    match a with
    | ⟨0, _⟩ => show win0_4.index t (0 : Fin 2) * 1000 + 1 * p.val = win0_6.index t (0 : Fin 2) * 1000 + 1 * p.val; omega
    | ⟨1, _⟩ => show win0_4.index t (1 : Fin 2) * 1 + 1 * 0 = 0; omega

theorem lin0_mem_blk5 (t : Fin cfg0.N) (i : S100000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v40_0).slice (win0_5.rect t)).set ↔ _
  rw [View.set_slice_whole, Rect.mem_set_unit]
  exact Iff.rfl

theorem lin0_mem_blk6 (t : Fin cfg0.N) (i : S100000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v40_1).slice (win0_6.rect t)).set ↔ _
  rw [View.set_slice_whole, Rect.mem_set_unit]
  exact Iff.rfl

theorem lin0_cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 100 := N_0
  have ht : (i 0).val / 1000 < grid0.N := by rw [hN]; omega
  obtain ⟨e00, e01, e10, e11, e20, e21, e30, e31, e40, e41, e50, e51, e60, e61⟩ := lin0_idx_facts ⟨(i 0).val / 1000, ht⟩
  refine ⟨⟨(i 0).val / 1000, ht⟩, flush0_5 _, ?_⟩
  rw [lin0_mem_blk5]
  intro a
  match a with
  | ⟨0, _⟩ =>
    show win0_5.index ⟨(i 0).val / 1000, ht⟩ (0 : Fin 2) * 1000 ≤ (i 0).val ∧ (i 0).val < win0_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win0_5.index ⟨(i 0).val / 1000, ht⟩ (1 : Fin 2) * 128 ≤ (i 1).val ∧ (i 1).val < win0_5.index ⟨(i 0).val / 1000, ht⟩ (1 : Fin 2) * 128 + 128
    rw [e51]
    omega

theorem lin0_cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 100 := N_0
  have ht : (i 0).val / 1000 < grid0.N := by rw [hN]; omega
  obtain ⟨e00, e01, e10, e11, e20, e21, e30, e31, e40, e41, e50, e51, e60, e61⟩ := lin0_idx_facts ⟨(i 0).val / 1000, ht⟩
  refine ⟨⟨(i 0).val / 1000, ht⟩, flush0_6 _, ?_⟩
  rw [lin0_mem_blk6]
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e60]
    show (i 0).val / 1000 * 1000 ≤ (i 0).val ∧ (i 0).val < (i 0).val / 1000 * 1000 + 1000
    omega
  | ⟨1, _⟩ =>
    show win0_6.index ⟨(i 0).val / 1000, ht⟩ (1 : Fin 2) * 128 ≤ (i 1).val ∧ (i 1).val < win0_6.index ⟨(i 0).val / 1000, ht⟩ (1 : Fin 2) * 128 + 128
    rw [e61]
    omega

/-- Each block written back is the block of one whole-array function and the blocks tile the array, so the array is that function. -/
theorem lin0_hl (c : Dev nD) :
    (dat0 (F := Ideal) V c).arrAt 5 cfg0.N = linHl (V c main_arg0) (V c main_v33) (V c main_v36) :=
  (dat0 (F := Ideal) V c).arrAt_eq_of_cover 5 (linHl (V c main_arg0) (V c main_v33) (V c main_v36))
    (fun t _ => lin0_flushed5 V c t) lin0_cover5

theorem lin0_self (c : Dev nD) :
    (dat0 (F := Ideal) V c).arrAt 6 cfg0.N
      = linSelf (V c main_arg0) (V c main_v33) (V c main_v36) (V c main_v39) (V c main_v14) :=
  (dat0 (F := Ideal) V c).arrAt_eq_of_cover 6
    (linSelf (V c main_arg0) (V c main_v33) (V c main_v36) (V c main_v39) (V c main_v14))
    (fun t _ => lin0_flushed6 V c t) lin0_cover6

end Cert.KernelIdeal.GnnK

end
-- ==== Proof.KMsg1.lean ====
import proofs.«408040_j36369783063008_1_alg».proof.Proof.Gen.KernelIdeal.Frame
import proofs.«408040_j36369783063008_1_alg».proof.Proof.Spec
import Idealize.ShloMosaic.Lib.Pipeline.Value
import Idealize.ShloMosaic.Lib.ValueIdx
import Idealize.ShloMosaic.PureOps.Ideal.Laws

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem msg1_hz : (![0, 0] : Fin 2 → Nat) = fun _ => 0 := funext fun a => by fin_cases a <;> rfl

theorem msg1_col (x2 : Vec Ideal S2000x1 .f32) (p : Fin 2000) (q : Fin 128) :
    broadcastTo S2000x128 x2 broadcasts_S2000x1_S2000x128 (ix2 p q) = x2 (ix2 p (0 : Fin 1)) :=
  broadcastTo_apply x2 broadcasts_S2000x1_S2000x128 (ix2 p q) (ix2 p (0 : Fin 1)) (fun a => by
    match a with
    | ⟨0, _⟩ => rfl
    | ⟨1, _⟩ => rfl)

theorem msg1_pay (x0 : Vec Ideal S2000x128 .f32) (x1 : Vec Ideal S2000x128 .i32) (x2 : Vec Ideal S2000x1 .f32)
    (p : Fin 2000) (q : Fin 128) :
    k1_pay1 (F := Ideal) x0 x1 x2 (ix2 p q)
      = x2 (ix2 p (0 : Fin 1)) * max (x0 (ix2 p q) + (((x1 (ix2 p q)).toInt : ℝ) : EReal)) 0 := by
  unfold k1_pay1
  show broadcastTo S2000x128 (shapeCast S2000x1 x2 shapeCasts_S2000x1_S2000x1) broadcasts_S2000x1_S2000x128 (ix2 p q)
      * max (shapeCast S2000x128 x0 shapeCasts_S2000x128_S2000x128 (ix2 p q) + (((x1 (ix2 p q)).toInt : ℝ) : EReal))
          (Ideal.ofBits .f32 0x00000000#32) = _
  rw [shapeCast_self x2, shapeCast_self x0, Ideal.ofBits_zero_f32, msg1_col]

theorem msg1_block (g : SED.Idx → E) (ea : SED.Idx → BitVec 32) (n1 : SE1.Idx → E)
    (x0 : Vec Ideal S2000x128 .f32) (x1 : Vec Ideal S2000x128 .i32) (x2 : Vec Ideal S2000x1 .f32)
    (i : SED.Idx) (j : S2000x128.Idx)
    (h0 : x0 j = g i) (h1 : x1 j = ea i)
    (h2 : x2 (ix2 (j 0 : Fin 2000) (0 : Fin 1)) = n1 (ix2 (i 0 : Fin 600000) (0 : Fin 1))) :
    k1_pay1 (F := Ideal) x0 x1 x2 j = msgF g ea n1 i := by
  obtain ⟨p, q, rfl⟩ : ∃ (p : Fin 2000) (q : Fin 128), j = ix2 p q := ⟨j 0, j 1, eq_ix2 j⟩
  have h2' : x2 (ix2 p (0 : Fin 1)) = n1 (ix2 (i 0 : Fin 600000) (0 : Fin 1)) := h2
  rw [msg1_pay, h0, h1, h2']
  rfl

theorem msg1_idx : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = win1_3.index t (0 : Fin 2)
    ∧ win1_2.index t (1 : Fin 2) = 0
    ∧ win1_3.index t (0 : Fin 2) = t.val
    ∧ win1_3.index t (1 : Fin 2) = 0 :=
  (by decide +kernel : ∀ t : Fin grid1.N, _)

theorem msg1_flushed (c : Dev nD) (t : Fin cfg1.N) :
    (dat1 (F := Ideal) V c).flushed 3 t
      = ((cfg1.win 3).blk t).view.read (Elt Ideal) (msgF (V c main_v41) (V c main_arg2) (V c main_v30)) := by
  show (cfg1.win 3).cut (grid1.coords t) ((dat1 (F := Ideal) V c).after 3 t) = _
  rw [after1_3]
  unfold out1_3
  rw [View.canon_unit_zero msg1_hz]
  simp only [View.ld_unit_zero (S := S2000x128) msg1_hz, View.ld_unit_zero (S := S2000x1) msg1_hz]
  obtain ⟨e00, e01, e10, e11, e20, e21, e30, e31⟩ := msg1_idx t
  funext j
  show k1_pay1 (F := Ideal) (iblk1 V c 0 t) (iblk1 V c 1 t) (iblk1 V c 2 t) j
      = msgF (V c main_v41) (V c main_arg2) (V c main_v30) (((cfg1.win 3).blk t).view.emb j)
  refine msg1_block (V c main_v41) (V c main_arg2) (V c main_v30) (iblk1 V c 0 t) (iblk1 V c 1 t) (iblk1 V c 2 t)
    (((cfg1.win 3).blk t).view.emb j) j ?_ ?_ ?_
  ·
    show V c main_v41 (((cfg1.win 0).blk t).view.emb j) = V c main_v41 (((cfg1.win 3).blk t).view.emb j)
    have h : ((cfg1.win 0).blk t).view.emb j = ((cfg1.win 3).blk t).view.emb j := by
      funext a; apply Fin.ext
      match a with
      | ⟨0, _⟩ => show win1_0.index t (0 : Fin 2) * 2000 + 1 * (j 0).val = win1_3.index t (0 : Fin 2) * 2000 + 1 * (j 0).val; omega
      | ⟨1, _⟩ => show win1_0.index t (1 : Fin 2) * 128 + 1 * (j 1).val = win1_3.index t (1 : Fin 2) * 128 + 1 * (j 1).val; omega
    rw [h]
  ·
    show V c main_arg2 (((cfg1.win 1).blk t).view.emb j) = V c main_arg2 (((cfg1.win 3).blk t).view.emb j)
    have h : ((cfg1.win 1).blk t).view.emb j = ((cfg1.win 3).blk t).view.emb j := by
      funext a; apply Fin.ext
      match a with
      | ⟨0, _⟩ => show win1_1.index t (0 : Fin 2) * 2000 + 1 * (j 0).val = win1_3.index t (0 : Fin 2) * 2000 + 1 * (j 0).val; omega
      | ⟨1, _⟩ => show win1_1.index t (1 : Fin 2) * 128 + 1 * (j 1).val = win1_3.index t (1 : Fin 2) * 128 + 1 * (j 1).val; omega
    rw [h]
  ·
    show V c main_v30 (((cfg1.win 2).blk t).view.emb (ix2 (j 0 : Fin 2000) (0 : Fin 1)))
        = V c main_v30 (ix2 ((((cfg1.win 3).blk t).view.emb j) 0 : Fin 600000) (0 : Fin 1))
    have h : ((cfg1.win 2).blk t).view.emb (ix2 (j 0 : Fin 2000) (0 : Fin 1))
        = ix2 ((((cfg1.win 3).blk t).view.emb j) 0 : Fin 600000) (0 : Fin 1) := by
      funext a; apply Fin.ext
      match a with
      | ⟨0, _⟩ => show win1_2.index t (0 : Fin 2) * 2000 + 1 * (j 0).val = win1_3.index t (0 : Fin 2) * 2000 + 1 * (j 0).val; omega
      | ⟨1, _⟩ => show win1_2.index t (1 : Fin 2) * 1 + 1 * 0 = 0; omega
    exact congrArg (V c main_v30) h

theorem msg1_mem_blk (t : Fin cfg1.N) (i : S600000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v42).slice (win1_3.rect t)).set ↔ _
  rw [View.set_slice_whole, Rect.mem_set_unit]
  exact Iff.rfl

theorem msg1_cover (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 300 := N_1
  have hlt : (i 0).val / 2000 < cfg1.N := by omega
  obtain ⟨-, -, -, -, -, -, e30, e31⟩ := msg1_idx ⟨(i 0).val / 2000, hlt⟩
  have e30' : win1_3.index ⟨(i 0).val / 2000, hlt⟩ (0 : Fin 2) = (i 0).val / 2000 := e30
  refine ⟨⟨(i 0).val / 2000, hlt⟩, flush1_3 _, ?_⟩
  rw [msg1_mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    omega

/-- The message kernel's output array is the message function of the three arrays its windows read. -/
theorem msg1_out (c : Dev nD) : (dat1 (F := Ideal) V c).arrAt 3 cfg1.N = msgF (V c main_v41) (V c main_arg2) (V c main_v30) :=
  (dat1 (F := Ideal) V c).arrAt_eq_of_cover 3 (msgF (V c main_v41) (V c main_arg2) (V c main_v30))
    (fun t _ => msg1_flushed V c t) msg1_cover

end Cert.KernelIdeal.GnnK

end
-- ==== Proof.KFin2.lean ====
import proofs.«408040_j36369783063008_1_alg».proof.Proof.Gen.KernelIdeal.Frame
import proofs.«408040_j36369783063008_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem fin2_hz : (![0, 0] : Fin 2 → Nat) = fun _ => 0 := funext fun a => by fin_cases a <;> rfl

theorem fin2_pay (x0 x1 : Vec Ideal S1000x128 .f32) (g mu vr b : Vec Ideal S1x128 .f32) (p : Fin 1000) (q : Fin 128) :
    k2_pay1 (F := Ideal) x0 x1 g mu vr b (ix2 p q)
      = max (g (ix2 (0 : Fin 1) q) * ((x0 (ix2 p q) + x1 (ix2 p q)) - mu (ix2 (0 : Fin 1) q))
          * Ideal.rsqrt (vr (ix2 (0 : Fin 1) q) + Ideal.ofBits .f32 0x3727C5AC#32) + b (ix2 (0 : Fin 1) q)) 0 := by
  unfold k2_pay1
  simp only [shapeCast_self]
  show max (broadcastTo S1000x128 g broadcasts_S1x128_S1000x128 (ix2 p q)
        * ((x0 (ix2 p q) + x1 (ix2 p q)) - broadcastTo S1000x128 mu broadcasts_S1x128_S1000x128 (ix2 p q))
        * broadcastTo S1000x128 (rsqrt (addf vr (broadcast S1x128 (Scalar.ofBits (F := Ideal) .f32 0x3727C5AC#32)))) broadcasts_S1x128_S1000x128 (ix2 p q)
        + broadcastTo S1000x128 b broadcasts_S1x128_S1000x128 (ix2 p q)) (Ideal.ofBits .f32 0x00000000#32) = _
  rw [broadcastTo_1b_ab_apply, broadcastTo_1b_ab_apply, broadcastTo_1b_ab_apply, broadcastTo_1b_ab_apply, Ideal.ofBits_zero_f32]
  rfl

theorem fin2_point (A S : SND.Idx → E) (γ β μ v : S1D.Idx → E)
    (x0 x1 : Vec Ideal S1000x128 .f32) (g bt mu vr : Vec Ideal S1x128 .f32) (p : Fin 1000) (q : Fin 128) (r : Fin 100000)
    (a0 : x0 (ix2 p q) = A (ix2 r q)) (a1 : x1 (ix2 p q) = S (ix2 r q))
    (a2 : g (ix2 (0 : Fin 1) q) = γ (ix2 (0 : Fin 1) q)) (a3 : bt (ix2 (0 : Fin 1) q) = β (ix2 (0 : Fin 1) q))
    (a4 : mu (ix2 (0 : Fin 1) q) = μ (ix2 (0 : Fin 1) q)) (a5 : vr (ix2 (0 : Fin 1) q) = v (ix2 (0 : Fin 1) q)) :
    k2_pay1 (F := Ideal) x0 x1 g mu vr bt (ix2 p q) = finFrelu A S γ β μ v (ix2 r q) := by
  rw [fin2_pay, a0, a1, a2, a3, a4, a5]
  rfl

theorem fin2_idx : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 99 ∧ win2_6.index t (1 : Fin 2) = 0 :=
  (by decide +kernel : ∀ t : Fin grid2.N, _)

theorem fin2_onto : ∀ r : Fin 100, ∃ t : Fin cfg2.N, win2_6.index t (0 : Fin 2) = r.val :=
  (by decide +kernel : ∀ r : Fin 100, ∃ t : Fin grid2.N, win2_6.index t (0 : Fin 2) = r.val)

theorem fin2_flushed (c : Dev nD) (t : Fin cfg2.N) :
    (dat2 (F := Ideal) V c).flushed 6 t
      = ((cfg2.win 6).blk t).view.read (Elt Ideal)
          (finFrelu (V c main_v45) (V c main_v40_1) (V c main_v48) (V c main_v51) (V c main_v54) (V c main_v57)) := by
  show (cfg2.win 6).cut (grid2.coords t) ((dat2 (F := Ideal) V c).after 6 t) = _
  rw [after2_6]
  unfold out2_6
  rw [View.canon_unit_zero fin2_hz]
  simp only [View.ld_unit_zero (S := S1000x128) fin2_hz, View.ld_unit_zero (S := S1x128) fin2_hz]
  obtain ⟨e00, e01, e10, e11, e20, e21, e30, e31, e40, e41, e50, e51, e60, e61⟩ := fin2_idx t
  funext j
  obtain ⟨p, q, rfl⟩ : ∃ (p : Fin 1000) (q : Fin 128), j = ix2 p q := ⟨j 0, j 1, eq_ix2 j⟩

  have hr : win2_6.index t (0 : Fin 2) * 1000 + p.val < 100000 := by have := p.isLt; omega
  have h6 : ((cfg2.win 6).blk t).view.emb (ix2 p q) = ix2 (⟨win2_6.index t (0 : Fin 2) * 1000 + p.val, hr⟩ : Fin 100000) q := by
    funext a; apply Fin.ext
    match a with
    | ⟨0, _⟩ => show win2_6.index t (0 : Fin 2) * 1000 + 1 * p.val = win2_6.index t (0 : Fin 2) * 1000 + p.val; omega
    | ⟨1, _⟩ => show win2_6.index t (1 : Fin 2) * 128 + 1 * q.val = q.val; omega

  have a0 : iblk2 V c 0 t (ix2 p q) = V c main_v45 (ix2 (⟨win2_6.index t (0 : Fin 2) * 1000 + p.val, hr⟩ : Fin 100000) q) := by
    show V c main_v45 (((cfg2.win 0).blk t).view.emb (ix2 p q)) = _
    refine congrArg (V c main_v45) (funext fun a => Fin.ext ?_)
    match a with
    | ⟨0, _⟩ => show win2_0.index t (0 : Fin 2) * 1000 + 1 * p.val = win2_6.index t (0 : Fin 2) * 1000 + p.val; omega
    | ⟨1, _⟩ => show win2_0.index t (1 : Fin 2) * 128 + 1 * q.val = q.val; omega
  have a1 : iblk2 V c 1 t (ix2 p q) = V c main_v40_1 (ix2 (⟨win2_6.index t (0 : Fin 2) * 1000 + p.val, hr⟩ : Fin 100000) q) := by
    show V c main_v40_1 (((cfg2.win 1).blk t).view.emb (ix2 p q)) = _
    refine congrArg (V c main_v40_1) (funext fun a => Fin.ext ?_)
    match a with
    | ⟨0, _⟩ => show win2_1.index t (0 : Fin 2) * 1000 + 1 * p.val = win2_6.index t (0 : Fin 2) * 1000 + p.val; omega
    | ⟨1, _⟩ => show win2_1.index t (1 : Fin 2) * 128 + 1 * q.val = q.val; omega
  have a2 : iblk2 V c 2 t (ix2 (0 : Fin 1) q) = V c main_v48 (ix2 (0 : Fin 1) q) := by
    show V c main_v48 (((cfg2.win 2).blk t).view.emb (ix2 (0 : Fin 1) q)) = _
    refine congrArg (V c main_v48) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have a3 : iblk2 V c 3 t (ix2 (0 : Fin 1) q) = V c main_v51 (ix2 (0 : Fin 1) q) := by
    show V c main_v51 (((cfg2.win 3).blk t).view.emb (ix2 (0 : Fin 1) q)) = _
    refine congrArg (V c main_v51) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  have a4 : iblk2 V c 4 t (ix2 (0 : Fin 1) q) = V c main_v54 (ix2 (0 : Fin 1) q) := by
    show V c main_v54 (((cfg2.win 4).blk t).view.emb (ix2 (0 : Fin 1) q)) = _
    refine congrArg (V c main_v54) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  have a5 : iblk2 V c 5 t (ix2 (0 : Fin 1) q) = V c main_v57 (ix2 (0 : Fin 1) q) := by
    show V c main_v57 (((cfg2.win 5).blk t).view.emb (ix2 (0 : Fin 1) q)) = _
    refine congrArg (V c main_v57) (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  show k2_pay1 (F := Ideal) (iblk2 V c 0 t) (iblk2 V c 1 t) (iblk2 V c 2 t) (iblk2 V c 4 t) (iblk2 V c 5 t) (iblk2 V c 3 t) (ix2 p q)
      = finFrelu (V c main_v45) (V c main_v40_1) (V c main_v48) (V c main_v51) (V c main_v54) (V c main_v57)
          (((cfg2.win 6).blk t).view.emb (ix2 p q))
  rw [h6]
  exact fin2_point (V c main_v45) (V c main_v40_1) (V c main_v48) (V c main_v51) (V c main_v54) (V c main_v57)
    (iblk2 V c 0 t) (iblk2 V c 1 t) (iblk2 V c 2 t) (iblk2 V c 3 t) (iblk2 V c 4 t) (iblk2 V c 5 t) p q
    (⟨win2_6.index t (0 : Fin 2) * 1000 + p.val, hr⟩ : Fin 100000) a0 a1 a2 a3 a4 a5

theorem fin2_mem_blk (t : Fin cfg2.N) (i : S100000x128.Idx) :
    i ∈ ((cfg2.win 6).blk t).view.set ↔ ∀ a : Fin 2, win2_6.index t a * S1000x128.size a ≤ (i a).val ∧ (i a).val < win2_6.index t a * S1000x128.size a + S1000x128.size a := by
  show i ∈ ((View.whole main_v58).slice (win2_6.rect t)).set ↔ _
  rw [View.set_slice_whole, Rect.mem_set_unit]
  exact Iff.rfl

theorem fin2_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := fin2_onto ⟨(i 0).val / 1000, by omega⟩
  have q0 : win2_6.index t (0 : Fin 2) = (i 0).val / 1000 := ht
  obtain ⟨-, -, -, -, -, -, -, -, -, -, -, -, -, e61⟩ := fin2_idx t
  refine ⟨t, flush2_6 t, ?_⟩
  rw [fin2_mem_blk]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 128 ≤ (i 1).val ∧ (i 1).val < win2_6.index t (1 : Fin 2) * 128 + 128; omega

/-- The finalize kernel's output array is batch norm then positive part of aggregate plus self-loop term. -/
theorem fin2_out (c : Dev nD) : (dat2 (F := Ideal) V c).arrAt 6 cfg2.N = finFrelu (V c main_v45) (V c main_v40_1) (V c main_v48) (V c main_v51) (V c main_v54) (V c main_v57) :=
  (dat2 (F := Ideal) V c).arrAt_eq_of_cover 6
    (finFrelu (V c main_v45) (V c main_v40_1) (V c main_v48) (V c main_v51) (V c main_v54) (V c main_v57))
    (fun t _ => fin2_flushed V c t) fin2_cover

end Cert.KernelIdeal.GnnK

end
-- ==== Proof.KStep0.lean ====
import proofs.«408040_j36369783063008_1_alg».proof.Proof.Gen.KernelIdeal.Frame
import proofs.«408040_j36369783063008_1_alg».proof.Proof.Spec
import proofs.«408040_j36369783063008_1_alg».proof.Proof.Laws
import proofs.«408040_j36369783063008_1_alg».proof.Proof.LayerCore
import proofs.«408040_j36369783063008_1_alg».proof.Proof.KDefs
import proofs.«408040_j36369783063008_1_alg».proof.Proof.KTake
import proofs.«408040_j36369783063008_1_alg».proof.Proof.KHost0
import proofs.«408040_j36369783063008_1_alg».proof.Proof.KLin0
import proofs.«408040_j36369783063008_1_alg».proof.Proof.KMsg1
import proofs.«408040_j36369783063008_1_alg».proof.Proof.KFin2

set_option maxRecDepth 16384

noncomputable section

namespace Cert.KernelIdeal.GnnK

open Cert.KernelIdeal Cert.KernelIdeal.Gen Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 0 of the tiled program: the contents of its result buffer at the layer's last boundary are the layer of
    the specification applied to the contents of its input buffer at the layer's first boundary. The three kernels'
    arrays are read off the pipelines' write-backs, the host stretches between them off their operations, and the
    composition is joined to the specification index by index. -/
theorem kstep0 (c : Dev nD)
    (hrow : ∀ e : S600000.Idx, 0 ≤ (rowK m ρ c e).toInt ∧ (rowK m ρ c e).toInt < 100000)
    (hvar : ∀ i : S5x128.Idx, ∃ r : ℝ, 0 ≤ r ∧ m ((c : Thread nD τ).loc main_arg9) i = ((r : ℝ) : EReal)) :
    W6 (F := Ideal) m ρ c (Proc.devRef .tc main_v58) =
      layerR 0 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg2))
        (degK m ρ c) (normK m ρ c) (kGath (rowK m ρ c)) (kScat (colK m ρ c)) (m ((c : Thread nD τ).loc main_arg0)) := by
  have hHl : W2 (F := Ideal) m ρ c (Proc.devRef .tc main_v40_0) = linHl (W1 (F := Ideal) m ρ c (Proc.devRef .tc main_arg0)) (W1 (F := Ideal) m ρ c (Proc.devRef .tc main_v33)) (W1 (F := Ideal) m ρ c (Proc.devRef .tc main_v36)) :=
    (W2_arr m ρ c 5).trans (lin0_hl (V1 m ρ) c)
  have hSelf : W2 (F := Ideal) m ρ c (Proc.devRef .tc main_v40_1) = linSelf (W1 (F := Ideal) m ρ c (Proc.devRef .tc main_arg0)) (W1 (F := Ideal) m ρ c (Proc.devRef .tc main_v33)) (W1 (F := Ideal) m ρ c (Proc.devRef .tc main_v36)) (W1 (F := Ideal) m ρ c (Proc.devRef .tc main_v39)) (W1 (F := Ideal) m ρ c (Proc.devRef .tc main_v14)) :=
    (W2_arr m ρ c 6).trans (lin0_self (V1 m ρ) c)
  have hMsg : W4 (F := Ideal) m ρ c (Proc.devRef .tc main_v42) = msgF (W3 (F := Ideal) m ρ c (Proc.devRef .tc main_v41)) (W3 (F := Ideal) m ρ c (Proc.devRef .tc main_arg2)) (W3 (F := Ideal) m ρ c (Proc.devRef .tc main_v30)) :=
    (W4_arr m ρ c 3).trans (msg1_out (V3 m ρ) c)
  have hFin : W6 (F := Ideal) m ρ c (Proc.devRef .tc main_v58) = finFrelu (W5 (F := Ideal) m ρ c (Proc.devRef .tc main_v45)) (W5 (F := Ideal) m ρ c (Proc.devRef .tc main_v40_1)) (W5 (F := Ideal) m ρ c (Proc.devRef .tc main_v48)) (W5 (F := Ideal) m ρ c (Proc.devRef .tc main_v51)) (W5 (F := Ideal) m ρ c (Proc.devRef .tc main_v54)) (W5 (F := Ideal) m ρ c (Proc.devRef .tc main_v57)) :=
    (W6_arr m ρ c 6).trans (fin2_out (V5 m ρ) c)
  rw [hFin, kh0_agg m ρ c, hMsg, kh0_take m ρ c, kTake_eq_kGath _ _ hrow, hHl, kh0_self m ρ c, hSelf, kh0_ea m ρ c,
    kh0_hin m ρ c]
  exact layer_core_relu 0 _ _ _ _ _ _ _ _ _ _ _ _ _ _ _ _ _ _ _ _ _ _
    (fun k j => kh0_wt m ρ c k j) (fun j => kh0_b m ρ c j) (fun j => kh0_root m ρ c j)
    (fun j => kh0_gamma m ρ c j) (fun j => kh0_beta m ρ c j) (fun j => kh0_mean m ρ c j) (fun j => kh0_var m ρ c j)
    (fun n => kh0_dinv2 m ρ c n) (fun n => degK_real m ρ c n) (fun e => kh0_norm m ρ c e)
    (fun j => hvar (ix2 (0 : Fin 5) j))

end Cert.KernelIdeal.GnnK

end
-- ==== Proof.KCarry.lean ====
import proofs.«408040_j36369783063008_1_alg».proof.Proof.Gen.KernelIdeal.Frame
import Idealize.ShloMosaic.Lib.StableHlo.Run
import Idealize.ShloMosaic.PureOps.Ideal

noncomputable section

namespace Cert.KernelIdeal.GnnK

open Cert.KernelIdeal Cert.KernelIdeal.Gen
open Idealize.ShloMosaic Idealize.ShloMosaic.TcCoe
open Idealize.SL Idealize.SL.Sem
open Idealize.ShloMosaic.Pipeline (Dat Cfg Window)

/-- The arguments read after the first region's entry. -/
noncomputable def args : List (Ref sig .tc) := [main_arg2, main_arg4, main_arg5, main_arg6, main_arg7, main_arg8, main_arg9]

/-- The buffers nothing writes after the first region's entry: those arguments and five arrays made before it. -/
noncomputable def kept : List (Ref sig .tc) := args ++ [main_v1, main_v3, main_v14, main_v30, main_v31]

/-- What host stretch `j` must leave alone. -/
noncomputable def keptAt : Nat → List (Ref sig .tc)
  | 0 => args
  | _ => kept

/-- The host stretches, by number. -/
noncomputable def host : Nat → List (HloOp τ sig (Elt Ideal))
  | 0 => hostOps0
  | 1 => hostOps1
  | 2 => hostOps2
  | 3 => hostOps3
  | 4 => hostOps4
  | 5 => hostOps5
  | 6 => hostOps6
  | 7 => hostOps7
  | 8 => hostOps8
  | 9 => hostOps9
  | 10 => hostOps10
  | 11 => hostOps11
  | 12 => hostOps12
  | 13 => hostOps13
  | 14 => hostOps14
  | _ => []

/-- No operation of host stretch `j` has one of `keptAt j` as its result. -/
theorem host_keep (j : Nat) {b : Ref sig .tc} (hb : b ∈ keptAt j) (V : Valuation τ sig (Elt Ideal)) (hj : j ≤ 14 := by decide) :
    StableHlo.after (host j) V (Proc.devRef .tc b) = V (Proc.devRef .tc b) := by
  refine StableHlo.after_of_forall_not_mem _ _ (List.forall_iff_forall_mem.mp ?_)
  interval_cases j
  all_goals
    have hne : ∀ y : Ref sig .tc, y ∉ keptAt _ → Proc.devRef (τ := τ) .tc b ≠ Proc.devRef .tc y :=
      fun y hy => StableHlo.devRef_ne_of_ne fun e => hy (e ▸ hb)
    simp only [host, hostOps0, hostOps1, hostOps2, hostOps3, hostOps4, hostOps5, hostOps6, hostOps7, hostOps8, hostOps9, hostOps10, hostOps11, hostOps12, hostOps13, hostOps14, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact hne _ (by decide)

/-- Two cases: the buffer is one of the region's arrays, or it is none of them. -/
theorem exit_keep {n : Nat} {arr : Fin n → Ref sig .tc} {Wn Wp : Valuation τ sig (Elt Ideal)}
    (hne : ∀ b : Ref sig .tc, (∀ w, arr w ≠ b) → Wn (Proc.devRef .tc b) = Wp (Proc.devRef .tc b)) {b : Ref sig .tc}
    (hin : ∀ w, arr w = b → Wn (Proc.devRef .tc (arr w)) = Wp (Proc.devRef .tc (arr w))) :
    Wn (Proc.devRef .tc b) = Wp (Proc.devRef .tc b) := by
  by_cases h : ∃ w, arr w = b
  · obtain ⟨w, rfl⟩ := h; exact hin w rfl
  · exact hne b fun w e => h ⟨w, e⟩

variable (m : (ℓ : Loc nD τ sig) → Buf (Elt Ideal) ℓ) (ρ : Dev nD → PrngReg)

/-- The buffer contents at boundary `k`. -/
noncomputable def Wat : Nat → Dev nD → Valuation τ sig (Elt Ideal)
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | 22 => W22 m ρ
  | 23 => W23 m ρ
  | 24 => W24 m ρ
  | 25 => W25 m ρ
  | 26 => W26 m ρ
  | 27 => W27 m ρ
  | 28 => W28 m ρ
  | _ => W0 m ρ

/-- One boundary to the next: no region has a kept buffer as an output, no host stretch writes one. -/
theorem step (c : Dev nD) {b : Ref sig .tc} (hb : b ∈ kept) (k : Nat) (h1 : 1 ≤ k) (h2 : k < 28) :
    Wat m ρ (k + 1) c (Proc.devRef .tc b) = Wat m ρ k c (Proc.devRef .tc b) := by
  interval_cases k
  · exact exit_keep (W2_of_ne m ρ c) fun w e => (W2_arr m ρ c w).trans (((dat0 (V1 m ρ) c).arrAt_in w
      ((by decide : ∀ w, Pipeline.arrRef spec0 w ∈ kept → (cfg0.win w).isOut = false) w (e ▸ hb)) _).trans (A_eq0 (V1 m ρ) c w))
  · exact host_keep 1 hb _
  · exact exit_keep (W4_of_ne m ρ c) fun w e => (W4_arr m ρ c w).trans (((dat1 (V3 m ρ) c).arrAt_in w
      ((by decide : ∀ w, Pipeline.arrRef spec1 w ∈ kept → (cfg1.win w).isOut = false) w (e ▸ hb)) _).trans (A_eq1 (V3 m ρ) c w))
  · exact host_keep 2 hb _
  · exact exit_keep (W6_of_ne m ρ c) fun w e => (W6_arr m ρ c w).trans (((dat2 (V5 m ρ) c).arrAt_in w
      ((by decide : ∀ w, Pipeline.arrRef spec2 w ∈ kept → (cfg2.win w).isOut = false) w (e ▸ hb)) _).trans (A_eq2 (V5 m ρ) c w))
  · exact host_keep 3 hb _
  · exact exit_keep (W8_of_ne m ρ c) fun w e => (W8_arr m ρ c w).trans (((dat3 (V7 m ρ) c).arrAt_in w
      ((by decide : ∀ w, Pipeline.arrRef spec3 w ∈ kept → (cfg3.win w).isOut = false) w (e ▸ hb)) _).trans (A_eq3 (V7 m ρ) c w))
  · exact host_keep 4 hb _
  · exact exit_keep (W10_of_ne m ρ c) fun w e => (W10_arr m ρ c w).trans (((dat4 (V9 m ρ) c).arrAt_in w
      ((by decide : ∀ w, Pipeline.arrRef spec4 w ∈ kept → (cfg4.win w).isOut = false) w (e ▸ hb)) _).trans (A_eq4 (V9 m ρ) c w))
  · exact host_keep 5 hb _
  · exact exit_keep (W12_of_ne m ρ c) fun w e => (W12_arr m ρ c w).trans (((dat5 (V11 m ρ) c).arrAt_in w
      ((by decide : ∀ w, Pipeline.arrRef spec5 w ∈ kept → (cfg5.win w).isOut = false) w (e ▸ hb)) _).trans (A_eq5 (V11 m ρ) c w))
  · exact host_keep 6 hb _
  · exact exit_keep (W14_of_ne m ρ c) fun w e => (W14_arr m ρ c w).trans (((dat6 (V13 m ρ) c).arrAt_in w
      ((by decide : ∀ w, Pipeline.arrRef spec6 w ∈ kept → (cfg6.win w).isOut = false) w (e ▸ hb)) _).trans (A_eq6 (V13 m ρ) c w))
  · exact host_keep 7 hb _
  · exact exit_keep (W16_of_ne m ρ c) fun w e => (W16_arr m ρ c w).trans (((dat7 (V15 m ρ) c).arrAt_in w
      ((by decide : ∀ w, Pipeline.arrRef spec7 w ∈ kept → (cfg7.win w).isOut = false) w (e ▸ hb)) _).trans (A_eq7 (V15 m ρ) c w))
  · exact host_keep 8 hb _
  · exact exit_keep (W18_of_ne m ρ c) fun w e => (W18_arr m ρ c w).trans (((dat8 (V17 m ρ) c).arrAt_in w
      ((by decide : ∀ w, Pipeline.arrRef spec8 w ∈ kept → (cfg8.win w).isOut = false) w (e ▸ hb)) _).trans (A_eq8 (V17 m ρ) c w))
  · exact host_keep 9 hb _
  · exact exit_keep (W20_of_ne m ρ c) fun w e => (W20_arr m ρ c w).trans (((dat9 (V19 m ρ) c).arrAt_in w
      ((by decide : ∀ w, Pipeline.arrRef spec9 w ∈ kept → (cfg9.win w).isOut = false) w (e ▸ hb)) _).trans (A_eq9 (V19 m ρ) c w))
  · exact host_keep 10 hb _
  · exact exit_keep (W22_of_ne m ρ c) fun w e => (W22_arr m ρ c w).trans (((dat10 (V21 m ρ) c).arrAt_in w
      ((by decide : ∀ w, Pipeline.arrRef spec10 w ∈ kept → (cfg10.win w).isOut = false) w (e ▸ hb)) _).trans (A_eq10 (V21 m ρ) c w))
  · exact host_keep 11 hb _
  · exact exit_keep (W24_of_ne m ρ c) fun w e => (W24_arr m ρ c w).trans (((dat11 (V23 m ρ) c).arrAt_in w
      ((by decide : ∀ w, Pipeline.arrRef spec11 w ∈ kept → (cfg11.win w).isOut = false) w (e ▸ hb)) _).trans (A_eq11 (V23 m ρ) c w))
  · exact host_keep 12 hb _
  · exact exit_keep (W26_of_ne m ρ c) fun w e => (W26_arr m ρ c w).trans (((dat12 (V25 m ρ) c).arrAt_in w
      ((by decide : ∀ w, Pipeline.arrRef spec12 w ∈ kept → (cfg12.win w).isOut = false) w (e ▸ hb)) _).trans (A_eq12 (V25 m ρ) c w))
  · exact host_keep 13 hb _
  · exact exit_keep (W28_of_ne m ρ c) fun w e => (W28_arr m ρ c w).trans (((dat13 (V27 m ρ) c).arrAt_in w
      ((by decide : ∀ w, Pipeline.arrRef spec13 w ∈ kept → (cfg13.win w).isOut = false) w (e ▸ hb)) _).trans (A_eq13 (V27 m ρ) c w))

/-- A kept buffer holds at every boundary what it held at the first region's entry. -/
theorem keep (c : Dev nD) (k : Nat) (b : Ref sig .tc) (h : b ∈ kept ∧ 1 ≤ k ∧ k ≤ 28 := by decide) :
    Wat m ρ k c (Proc.devRef .tc b) = W1 m ρ c (Proc.devRef .tc b) := by
  obtain ⟨hb, h1, h2⟩ := h
  induction k, h1 using Nat.le_induction with
  | base => rfl
  | succ k hk ih => exact (step m ρ c hb k hk (by omega)).trans (ih (by omega))

/-- An argument holds at every boundary what the launch memory holds. -/
theorem keep_arg (c : Dev nD) (k : Nat) (b : Ref sig .tc) (h : b ∈ args ∧ 1 ≤ k ∧ k ≤ 28 := by decide) :
    Wat m ρ k c (Proc.devRef .tc b) = m ((c : Thread nD τ).loc b) :=
  (keep m ρ c k b ⟨List.mem_append_left _ h.1, h.2⟩).trans (host_keep 0 h.1 _)

end Cert.KernelIdeal.GnnK

end
-- ==== Proof.KHost1.lean ====
import proofs.«408040_j36369783063008_1_alg».proof.Proof.Gen.KernelIdeal.Frame
import proofs.«408040_j36369783063008_1_alg».proof.Proof.Spec
import proofs.«408040_j36369783063008_1_alg».proof.Proof.KDefs
import proofs.«408040_j36369783063008_1_alg».proof.Proof.KCarry
import proofs.«408040_j36369783063008_1_alg».proof.Proof.KHost0
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable (m : (ℓ : Loc nD τ sig) → Buf (Elt Ideal) ℓ) (ρ : Dev nD → PrngReg)

theorem ofBuf_main_v67_0 {Val : EltTy → Type} (h1 h2 h3) (u : (main_v67_0 : Ref sig .tc).ty.Contents Val) :
    (StableHlo.TRef.of (T := ⟨S100000x128, .f32⟩) main_v67_0 h1 h2 h3).ofBuf u = u := rfl
theorem toBuf_main_v68 {Val : EltTy → Type} (h1 h2 h3) (u : (⟨S600000x128, .f32⟩ : BufTy).Contents Val) :
    (StableHlo.TRef.of (T := ⟨S600000x128, .f32⟩) main_v68 h1 h2 h3).toBuf u = u := rfl

theorem kh1_row (X : S5x128.Idx → EReal) (j : Fin 128) :
    shapeCast S1x128 (shapeCast S128 (extractStridedSlice S1x128 ![1, 0] X slices_S5x128_S1x128_1_0)
      shapeCasts_S1x128_S128) shapeCasts_S128_S1x128 (ix2 (0 : Fin 1) j) = X (ix2 (1 : Fin 5) j) := by
  rw [shapeCast_a_1a_apply, shapeCast_1a_a_apply]
  exact slice2_axis0_apply _ X _ (0 : Fin 1) j (1 : Fin 5) (by rfl)

theorem kh1_slab (X : S5x128x128.Idx → EReal) (k j : Fin 128) :
    shapeCast S128x128 (extractStridedSlice S1x128x128 ![1, 0, 0] X slices_S5x128x128_S1x128x128_1_0_0)
      shapeCasts_S1x128x128_S128x128 (ix2 k j) = X (ix3 (1 : Fin 5) k j) := by
  rw [shapeCast_1ab_ab_apply]
  exact extractStridedSlice_apply _ _ _ _ (ix3 (1 : Fin 5) k j) (fun ax => by
    match ax with
    | ⟨0, _⟩ => rfl
    | ⟨1, _⟩ => exact (Nat.zero_add _).symm
    | ⟨2, _⟩ => exact (Nat.zero_add _).symm)

theorem kh1_wt_val (V : Valuation τ sig (Elt Ideal)) :
    (StableHlo.after hostOps3 V (Proc.devRef .tc main_v60) : S128x128.Idx → EReal)
      = shapeCast S128x128 (extractStridedSlice S1x128x128 ![1, 0, 0]
          (V (Proc.devRef .tc main_v31) : S5x128x128.Idx → EReal)
          slices_S5x128x128_S1x128x128_1_0_0) shapeCasts_S1x128x128_S128x128 := by
  after_results
  rfl

theorem kh1_wt (c : Dev nD) (k j : Fin 128) :
    (W7 (F := Ideal) m ρ c (Proc.devRef .tc main_v60) : S128x128.Idx → EReal) (ix2 k j)
      = (m ((c : Thread nD τ).loc main_arg3) : S5x128x128.Idx → EReal) (ix3 (1 : Fin 5) j k) := by
  refine (congrFun (kh1_wt_val (W6 (F := Ideal) m ρ c)) (ix2 k j)).trans ?_
  rw [show W6 (F := Ideal) m ρ c (Proc.devRef .tc main_v31) = W1 (F := Ideal) m ρ c (Proc.devRef .tc main_v31) from keep m ρ c 6 main_v31]
  exact (kh1_slab _ k j).trans (kh_v31 m ρ c (1 : Fin 5) k j)

theorem kh1_b_val (V : Valuation τ sig (Elt Ideal)) (j : Fin 128) :
    (StableHlo.after hostOps3 V (Proc.devRef .tc main_v63) : S1x128.Idx → EReal) (ix2 (0 : Fin 1) j)
      = (V (Proc.devRef .tc main_arg4) : S5x128.Idx → EReal) (ix2 (1 : Fin 5) j) := by
  have e : (StableHlo.after hostOps3 V (Proc.devRef .tc main_v63) : S1x128.Idx → EReal)
      = shapeCast S1x128 (shapeCast S128 (extractStridedSlice S1x128 ![1, 0]
          (V (Proc.devRef .tc main_arg4) : S5x128.Idx → EReal) slices_S5x128_S1x128_1_0)
          shapeCasts_S1x128_S128) shapeCasts_S128_S1x128 := by
    after_results
    rfl
  rw [e]
  exact kh1_row _ j
theorem kh1_b (c : Dev nD) (j : Fin 128) :
    (W7 (F := Ideal) m ρ c (Proc.devRef .tc main_v63) : S1x128.Idx → EReal) (ix2 (0 : Fin 1) j)
      = (m ((c : Thread nD τ).loc main_arg4) : S5x128.Idx → EReal) (ix2 (1 : Fin 5) j) :=
  (kh1_b_val (W6 (F := Ideal) m ρ c) j).trans (congrFun (keep_arg m ρ c 6 main_arg4) _)

theorem kh1_root_val (V : Valuation τ sig (Elt Ideal)) (j : Fin 128) :
    (StableHlo.after hostOps3 V (Proc.devRef .tc main_v66) : S1x128.Idx → EReal) (ix2 (0 : Fin 1) j)
      = (V (Proc.devRef .tc main_arg5) : S5x128.Idx → EReal) (ix2 (1 : Fin 5) j) := by
  have e : (StableHlo.after hostOps3 V (Proc.devRef .tc main_v66) : S1x128.Idx → EReal)
      = shapeCast S1x128 (shapeCast S128 (extractStridedSlice S1x128 ![1, 0]
          (V (Proc.devRef .tc main_arg5) : S5x128.Idx → EReal) slices_S5x128_S1x128_1_0)
          shapeCasts_S1x128_S128) shapeCasts_S128_S1x128 := by
    after_results
    rfl
  rw [e]
  exact kh1_row _ j
theorem kh1_root (c : Dev nD) (j : Fin 128) :
    (W7 (F := Ideal) m ρ c (Proc.devRef .tc main_v66) : S1x128.Idx → EReal) (ix2 (0 : Fin 1) j)
      = (m ((c : Thread nD τ).loc main_arg5) : S5x128.Idx → EReal) (ix2 (1 : Fin 5) j) :=
  (kh1_root_val (W6 (F := Ideal) m ρ c) j).trans (congrFun (keep_arg m ρ c 6 main_arg5) _)

theorem kh1_dinv2 (c : Dev nD) (n : Fin 100000) :
    (W7 (F := Ideal) m ρ c (Proc.devRef .tc main_v14) : S100000x1.Idx → EReal) (ix2 n (0 : Fin 1))
      = Ideal.div 1 (degK m ρ c (ix1 n)) :=
  (congrFun (keep m ρ c 7 main_v14) (ix2 n (0 : Fin 1))).trans (kh0_dinv2 m ρ c n)

theorem kh1_hin (c : Dev nD) :
    W7 (F := Ideal) m ρ c (Proc.devRef .tc main_v58) = W6 (F := Ideal) m ρ c (Proc.devRef .tc main_v58) :=
  StableHlo.after_of_forall_not_mem (b := Proc.devRef .tc main_v58) _ _ (List.forall_iff_forall_mem.mp (by
      simp only [hostOps3, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh1_take_val (V : Valuation τ sig (Elt Ideal)) :
    (StableHlo.after hostOps4 V (Proc.devRef .tc main_v68) : S600000x128.Idx → EReal)
      = kTake (V (Proc.devRef .tc main_v67_0)) (V (Proc.devRef .tc main_v1)) := by
  unfold kTake takeMask wrapIdx
  after_results_simp
  simp only [ofBuf_toBuf, ofBuf_main_v1, ofBuf_main_v67_0, toBuf_main_v68]
  all_goals rfl

theorem kh1_take (c : Dev nD) :
    (W9 (F := Ideal) m ρ c (Proc.devRef .tc main_v68) : S600000x128.Idx → EReal)
      = kTake (W8 (F := Ideal) m ρ c (Proc.devRef .tc main_v67_0)) (rowK m ρ c) :=
  (kh1_take_val (W8 (F := Ideal) m ρ c)).trans
    (congrArg (kTake (W8 (F := Ideal) m ρ c (Proc.devRef .tc main_v67_0))) (keep m ρ c 8 main_v1))

theorem kh1_ea (c : Dev nD) :
    W9 (F := Ideal) m ρ c (Proc.devRef .tc main_arg2) = m ((c : Thread nD τ).loc main_arg2) :=
  keep_arg m ρ c 9 main_arg2

theorem kh1_norm (c : Dev nD) (e : Fin 600000) :
    (W9 (F := Ideal) m ρ c (Proc.devRef .tc main_v30) : S600000x1.Idx → EReal) (ix2 e (0 : Fin 1))
      = normK m ρ c (ix1 e) :=
  (congrFun ((keep m ρ c 9 main_v30).trans (h0_v30 (W0 (F := Ideal) m ρ c))) (ix2 e (0 : Fin 1))).trans
    (ecol_read (normK m ρ c) e)

theorem kh1_agg_val (V : Valuation τ sig (Elt Ideal)) :
    (StableHlo.after hostOps5 V (Proc.devRef .tc main_v72) : S100000x128.Idx → EReal)
      = kScat (V (Proc.devRef .tc main_v3)) (V (Proc.devRef .tc main_v69)) := by
  after_results
  rfl

theorem kh1_agg (c : Dev nD) :
    (W11 (F := Ideal) m ρ c (Proc.devRef .tc main_v72) : S100000x128.Idx → EReal)
      = kScat (colK m ρ c) (W10 (F := Ideal) m ρ c (Proc.devRef .tc main_v69)) :=
  (kh1_agg_val (W10 (F := Ideal) m ρ c)).trans
    (congrArg (fun r => kScat r (W10 (F := Ideal) m ρ c (Proc.devRef .tc main_v69))) (keep m ρ c 10 main_v3))

theorem kh1_self (c : Dev nD) :
    W11 (F := Ideal) m ρ c (Proc.devRef .tc main_v67_1) = W8 (F := Ideal) m ρ c (Proc.devRef .tc main_v67_1) :=
  calc W11 (F := Ideal) m ρ c (Proc.devRef .tc main_v67_1)
    _ = W10 (F := Ideal) m ρ c (Proc.devRef .tc main_v67_1) :=
        StableHlo.after_of_forall_not_mem (b := Proc.devRef .tc main_v67_1) _ _ (List.forall_iff_forall_mem.mp (by
      simp only [hostOps5, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W9 (F := Ideal) m ρ c (Proc.devRef .tc main_v67_1) := W10_of_ne m ρ c main_v67_1 (by decide)
    _ = W8 (F := Ideal) m ρ c (Proc.devRef .tc main_v67_1) :=
        StableHlo.after_of_forall_not_mem (b := Proc.devRef .tc main_v67_1) _ _ (List.forall_iff_forall_mem.mp (by
      simp only [hostOps4, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh1_gamma_val (V : Valuation τ sig (Elt Ideal)) (j : Fin 128) :
    (StableHlo.after hostOps5 V (Proc.devRef .tc main_v75) : S1x128.Idx → EReal) (ix2 (0 : Fin 1) j)
      = (V (Proc.devRef .tc main_arg6) : S5x128.Idx → EReal) (ix2 (1 : Fin 5) j) := by
  have e : (StableHlo.after hostOps5 V (Proc.devRef .tc main_v75) : S1x128.Idx → EReal)
      = shapeCast S1x128 (shapeCast S128 (extractStridedSlice S1x128 ![1, 0]
          (V (Proc.devRef .tc main_arg6) : S5x128.Idx → EReal) slices_S5x128_S1x128_1_0)
          shapeCasts_S1x128_S128) shapeCasts_S128_S1x128 := by
    after_results
    rfl
  rw [e]
  exact kh1_row _ j
theorem kh1_gamma (c : Dev nD) (j : Fin 128) :
    (W11 (F := Ideal) m ρ c (Proc.devRef .tc main_v75) : S1x128.Idx → EReal) (ix2 (0 : Fin 1) j)
      = (m ((c : Thread nD τ).loc main_arg6) : S5x128.Idx → EReal) (ix2 (1 : Fin 5) j) :=
  (kh1_gamma_val (W10 (F := Ideal) m ρ c) j).trans (congrFun (keep_arg m ρ c 10 main_arg6) _)

theorem kh1_beta_val (V : Valuation τ sig (Elt Ideal)) (j : Fin 128) :
    (StableHlo.after hostOps5 V (Proc.devRef .tc main_v78) : S1x128.Idx → EReal) (ix2 (0 : Fin 1) j)
      = (V (Proc.devRef .tc main_arg7) : S5x128.Idx → EReal) (ix2 (1 : Fin 5) j) := by
  have e : (StableHlo.after hostOps5 V (Proc.devRef .tc main_v78) : S1x128.Idx → EReal)
      = shapeCast S1x128 (shapeCast S128 (extractStridedSlice S1x128 ![1, 0]
          (V (Proc.devRef .tc main_arg7) : S5x128.Idx → EReal) slices_S5x128_S1x128_1_0)
          shapeCasts_S1x128_S128) shapeCasts_S128_S1x128 := by
    after_results
    rfl
  rw [e]
  exact kh1_row _ j
theorem kh1_beta (c : Dev nD) (j : Fin 128) :
    (W11 (F := Ideal) m ρ c (Proc.devRef .tc main_v78) : S1x128.Idx → EReal) (ix2 (0 : Fin 1) j)
      = (m ((c : Thread nD τ).loc main_arg7) : S5x128.Idx → EReal) (ix2 (1 : Fin 5) j) :=
  (kh1_beta_val (W10 (F := Ideal) m ρ c) j).trans (congrFun (keep_arg m ρ c 10 main_arg7) _)

theorem kh1_mean_val (V : Valuation τ sig (Elt Ideal)) (j : Fin 128) :
    (StableHlo.after hostOps5 V (Proc.devRef .tc main_v81) : S1x128.Idx → EReal) (ix2 (0 : Fin 1) j)
      = (V (Proc.devRef .tc main_arg8) : S5x128.Idx → EReal) (ix2 (1 : Fin 5) j) := by
  have e : (StableHlo.after hostOps5 V (Proc.devRef .tc main_v81) : S1x128.Idx → EReal)
      = shapeCast S1x128 (shapeCast S128 (extractStridedSlice S1x128 ![1, 0]
          (V (Proc.devRef .tc main_arg8) : S5x128.Idx → EReal) slices_S5x128_S1x128_1_0)
          shapeCasts_S1x128_S128) shapeCasts_S128_S1x128 := by
    after_results
    rfl
  rw [e]
  exact kh1_row _ j
theorem kh1_mean (c : Dev nD) (j : Fin 128) :
    (W11 (F := Ideal) m ρ c (Proc.devRef .tc main_v81) : S1x128.Idx → EReal) (ix2 (0 : Fin 1) j)
      = (m ((c : Thread nD τ).loc main_arg8) : S5x128.Idx → EReal) (ix2 (1 : Fin 5) j) :=
  (kh1_mean_val (W10 (F := Ideal) m ρ c) j).trans (congrFun (keep_arg m ρ c 10 main_arg8) _)

theorem kh1_var_val (V : Valuation τ sig (Elt Ideal)) (j : Fin 128) :
    (StableHlo.after hostOps5 V (Proc.devRef .tc main_v84) : S1x128.Idx → EReal) (ix2 (0 : Fin 1) j)
      = (V (Proc.devRef .tc main_arg9) : S5x128.Idx → EReal) (ix2 (1 : Fin 5) j) := by
  have e : (StableHlo.after hostOps5 V (Proc.devRef .tc main_v84) : S1x128.Idx → EReal)
      = shapeCast S1x128 (shapeCast S128 (extractStridedSlice S1x128 ![1, 0]
          (V (Proc.devRef .tc main_arg9) : S5x128.Idx → EReal) slices_S5x128_S1x128_1_0)
          shapeCasts_S1x128_S128) shapeCasts_S128_S1x128 := by
    after_results
    rfl
  rw [e]
  exact kh1_row _ j
theorem kh1_var (c : Dev nD) (j : Fin 128) :
    (W11 (F := Ideal) m ρ c (Proc.devRef .tc main_v84) : S1x128.Idx → EReal) (ix2 (0 : Fin 1) j)
      = (m ((c : Thread nD τ).loc main_arg9) : S5x128.Idx → EReal) (ix2 (1 : Fin 5) j) :=
  (kh1_var_val (W10 (F := Ideal) m ρ c) j).trans (congrFun (keep_arg m ρ c 10 main_arg9) _)

end Cert.KernelIdeal.GnnK

end
-- ==== Proof.KLin3.lean ====
import proofs.«408040_j36369783063008_1_alg».proof.Proof.Gen.KernelIdeal.Frame
import proofs.«408040_j36369783063008_1_alg».proof.Proof.KLin0
import Idealize.ShloMosaic.Lib.Pipeline.Value
import Idealize.ShloMosaic.Lib.ValueIdx
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem lin3_pay1_eq (x0 : Vec Ideal S1000x128 .f32) (x1 : Vec Ideal S128x128 .f32) (x2 : Vec Ideal S1x128 .f32) :
    k3_pay1 (F := Ideal) x0 x1 x2 = k0_pay1 x0 x1 x2 := by
  unfold k3_pay1 k0_pay1
  simp only [shapeCast_self]

theorem lin3_pay2_eq (x0 : Vec Ideal S1000x128 .f32) (x1 : Vec Ideal S128x128 .f32) (x2 x3 : Vec Ideal S1x128 .f32)
    (x4 : Vec Ideal S1000x1 .f32) : k3_pay2 (F := Ideal) x0 x1 x2 x3 x4 = k0_pay2 x0 x1 x2 x3 x4 := by
  unfold k3_pay2 k0_pay2
  simp only [shapeCast_self, lin3_pay1_eq]

theorem lin3_idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem lin3_flushed5 (c : Dev nD) (t : Fin cfg3.N) :
    (dat3 (F := Ideal) V c).flushed 5 t
      = ((cfg3.win 5).blk t).view.read (Elt Ideal) (linHl (V c main_v58) (V c main_v60) (V c main_v63)) := by
  show (cfg3.win 5).cut (grid3.coords t) ((dat3 (F := Ideal) V c).after 5 t) = _
  rw [after3_5]
  unfold out3_5
  rw [View.canon_unit_zero lin0_hz]
  simp only [View.ld_unit_zero (S := S1000x128) lin0_hz, View.ld_unit_zero (S := S128x128) lin0_hz,
    View.ld_unit_zero (S := S1x128) lin0_hz]
  obtain ⟨e00, e01, e10, e11, e20, e21, e30, e31, e40, e41, e50, e51, e60, e61⟩ := lin3_idx_facts t
  funext j
  obtain ⟨p, q, rfl⟩ : ∃ (p : Fin 1000) (q : Fin 128), j = ix2 p q := ⟨j 0, j 1, eq_ix2 j⟩
  show k3_pay1 (F := Ideal) (iblk3 V c 0 t) (iblk3 V c 1 t) (iblk3 V c 2 t) (ix2 p q)
    = linHl (V c main_v58) (V c main_v60) (V c main_v63) (((cfg3.win 5).blk t).view.emb (ix2 p q))
  rw [lin3_pay1_eq]
  refine lin0_hl_block (V c main_v58) (V c main_v60) (V c main_v63) (iblk3 V c 0 t) (iblk3 V c 1 t) (iblk3 V c 2 t)
    (((cfg3.win 5).blk t).view.emb (ix2 p q)) p q ?_ ?_ ?_
  · intro k
    show V c main_v58 (((cfg3.win 0).blk t).view.emb (ix2 p k)) = _
    refine congrArg (V c main_v58) (funext fun a => Fin.ext ?_)
    match a with
    | ⟨0, _⟩ => show win3_0.index t (0 : Fin 2) * 1000 + 1 * p.val = win3_5.index t (0 : Fin 2) * 1000 + 1 * p.val; omega
    | ⟨1, _⟩ => show win3_0.index t (1 : Fin 2) * 128 + 1 * k.val = k.val; omega
  · intro k
    show V c main_v60 (((cfg3.win 1).blk t).view.emb (ix2 k q)) = _
    refine congrArg (V c main_v60) (funext fun a => Fin.ext ?_)
    match a with
    | ⟨0, _⟩ => show win3_1.index t (0 : Fin 2) * 128 + 1 * k.val = k.val; omega
    | ⟨1, _⟩ => show win3_1.index t (1 : Fin 2) * 128 + 1 * q.val = win3_5.index t (1 : Fin 2) * 128 + 1 * q.val; omega
  · show V c main_v63 (((cfg3.win 2).blk t).view.emb (ix2 (0 : Fin 1) q)) = _
    refine congrArg (V c main_v63) (funext fun a => Fin.ext ?_)
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega

theorem lin3_flushed6 (c : Dev nD) (t : Fin cfg3.N) :
    (dat3 (F := Ideal) V c).flushed 6 t
      = ((cfg3.win 6).blk t).view.read (Elt Ideal)
          (linSelf (V c main_v58) (V c main_v60) (V c main_v63) (V c main_v66) (V c main_v14)) := by
  show (cfg3.win 6).cut (grid3.coords t) ((dat3 (F := Ideal) V c).after 6 t) = _
  rw [after3_6]
  unfold out3_6
  rw [View.canon_unit_zero lin0_hz]
  simp only [View.ld_unit_zero (S := S1000x128) lin0_hz, View.ld_unit_zero (S := S128x128) lin0_hz,
    View.ld_unit_zero (S := S1x128) lin0_hz, View.ld_unit_zero (S := S1000x1) lin0_hz]
  obtain ⟨e00, e01, e10, e11, e20, e21, e30, e31, e40, e41, e50, e51, e60, e61⟩ := lin3_idx_facts t
  funext j
  obtain ⟨p, q, rfl⟩ : ∃ (p : Fin 1000) (q : Fin 128), j = ix2 p q := ⟨j 0, j 1, eq_ix2 j⟩
  show k3_pay2 (F := Ideal) (iblk3 V c 0 t) (iblk3 V c 1 t) (iblk3 V c 2 t) (iblk3 V c 3 t) (iblk3 V c 4 t) (ix2 p q)
    = linSelf (V c main_v58) (V c main_v60) (V c main_v63) (V c main_v66) (V c main_v14)
        (((cfg3.win 6).blk t).view.emb (ix2 p q))
  rw [lin3_pay2_eq]
  refine lin0_self_block (V c main_v58) (V c main_v60) (V c main_v63) (V c main_v66) (V c main_v14)
    (iblk3 V c 0 t) (iblk3 V c 1 t) (iblk3 V c 2 t) (iblk3 V c 3 t) (iblk3 V c 4 t)
    (((cfg3.win 6).blk t).view.emb (ix2 p q)) p q ?_ ?_ ?_ ?_ ?_
  · intro k
    show V c main_v58 (((cfg3.win 0).blk t).view.emb (ix2 p k)) = _
    refine congrArg (V c main_v58) (funext fun a => Fin.ext ?_)
    match a with
    | ⟨0, _⟩ => show win3_0.index t (0 : Fin 2) * 1000 + 1 * p.val = win3_6.index t (0 : Fin 2) * 1000 + 1 * p.val; omega
    | ⟨1, _⟩ => show win3_0.index t (1 : Fin 2) * 128 + 1 * k.val = k.val; omega
  · intro k
    show V c main_v60 (((cfg3.win 1).blk t).view.emb (ix2 k q)) = _
    refine congrArg (V c main_v60) (funext fun a => Fin.ext ?_)
    match a with
    | ⟨0, _⟩ => show win3_1.index t (0 : Fin 2) * 128 + 1 * k.val = k.val; omega
    | ⟨1, _⟩ => show win3_1.index t (1 : Fin 2) * 128 + 1 * q.val = win3_6.index t (1 : Fin 2) * 128 + 1 * q.val; omega
  · show V c main_v63 (((cfg3.win 2).blk t).view.emb (ix2 (0 : Fin 1) q)) = _
    refine congrArg (V c main_v63) (funext fun a => Fin.ext ?_)
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  · show V c main_v66 (((cfg3.win 3).blk t).view.emb (ix2 (0 : Fin 1) q)) = _
    refine congrArg (V c main_v66) (funext fun a => Fin.ext ?_)
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  · show V c main_v14 (((cfg3.win 4).blk t).view.emb (ix2 p (0 : Fin 1))) = _
    refine congrArg (V c main_v14) (funext fun a => Fin.ext ?_)
    match a with
    | ⟨0, _⟩ => show win3_4.index t (0 : Fin 2) * 1000 + 1 * p.val = win3_6.index t (0 : Fin 2) * 1000 + 1 * p.val; omega
    | ⟨1, _⟩ => show win3_4.index t (1 : Fin 2) * 1 + 1 * 0 = 0; omega

theorem lin3_mem_blk5 (t : Fin cfg3.N) (i : S100000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v67_0).slice (win3_5.rect t)).set ↔ _
  rw [View.set_slice_whole, Rect.mem_set_unit]
  exact Iff.rfl

theorem lin3_mem_blk6 (t : Fin cfg3.N) (i : S100000x128.Idx) :
    i ∈ ((cfg3.win 6).blk t).view.set ↔ ∀ a : Fin 2, win3_6.index t a * S1000x128.size a ≤ (i a).val ∧ (i a).val < win3_6.index t a * S1000x128.size a + S1000x128.size a := by
  show i ∈ ((View.whole main_v67_1).slice (win3_6.rect t)).set ↔ _
  rw [View.set_slice_whole, Rect.mem_set_unit]
  exact Iff.rfl

theorem lin3_cover5 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 100 := N_3
  have ht : (i 0).val / 1000 < grid3.N := by rw [hN]; omega
  obtain ⟨e00, e01, e10, e11, e20, e21, e30, e31, e40, e41, e50, e51, e60, e61⟩ := lin3_idx_facts ⟨(i 0).val / 1000, ht⟩
  refine ⟨⟨(i 0).val / 1000, ht⟩, flush3_5 _, ?_⟩
  rw [lin3_mem_blk5]
  intro a
  match a with
  | ⟨0, _⟩ =>
    show win3_5.index ⟨(i 0).val / 1000, ht⟩ (0 : Fin 2) * 1000 ≤ (i 0).val ∧ (i 0).val < win3_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win3_5.index ⟨(i 0).val / 1000, ht⟩ (1 : Fin 2) * 128 ≤ (i 1).val ∧ (i 1).val < win3_5.index ⟨(i 0).val / 1000, ht⟩ (1 : Fin 2) * 128 + 128
    rw [e51]
    omega

theorem lin3_cover6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : grid3.N = 100 := N_3
  have ht : (i 0).val / 1000 < grid3.N := by rw [hN]; omega
  obtain ⟨e00, e01, e10, e11, e20, e21, e30, e31, e40, e41, e50, e51, e60, e61⟩ := lin3_idx_facts ⟨(i 0).val / 1000, ht⟩
  refine ⟨⟨(i 0).val / 1000, ht⟩, flush3_6 _, ?_⟩
  rw [lin3_mem_blk6]
  intro a
  match a with
  | ⟨0, _⟩ =>
    show win3_6.index ⟨(i 0).val / 1000, ht⟩ (0 : Fin 2) * 1000 ≤ (i 0).val ∧ (i 0).val < win3_6.index ⟨(i 0).val / 1000, ht⟩ (0 : Fin 2) * 1000 + 1000
    rw [e60]
    show (i 0).val / 1000 * 1000 ≤ (i 0).val ∧ (i 0).val < (i 0).val / 1000 * 1000 + 1000
    omega
  | ⟨1, _⟩ =>
    show win3_6.index ⟨(i 0).val / 1000, ht⟩ (1 : Fin 2) * 128 ≤ (i 1).val ∧ (i 1).val < win3_6.index ⟨(i 0).val / 1000, ht⟩ (1 : Fin 2) * 128 + 128
    rw [e61]
    omega

theorem lin3_hl (c : Dev nD) :
    (dat3 (F := Ideal) V c).arrAt 5 cfg3.N = linHl (V c main_v58) (V c main_v60) (V c main_v63) :=
  (dat3 (F := Ideal) V c).arrAt_eq_of_cover 5 (linHl (V c main_v58) (V c main_v60) (V c main_v63))
    (fun t _ => lin3_flushed5 V c t) lin3_cover5

theorem lin3_self (c : Dev nD) :
    (dat3 (F := Ideal) V c).arrAt 6 cfg3.N
      = linSelf (V c main_v58) (V c main_v60) (V c main_v63) (V c main_v66) (V c main_v14) :=
  (dat3 (F := Ideal) V c).arrAt_eq_of_cover 6
    (linSelf (V c main_v58) (V c main_v60) (V c main_v63) (V c main_v66) (V c main_v14))
    (fun t _ => lin3_flushed6 V c t) lin3_cover6

end Cert.KernelIdeal.GnnK

end
-- ==== Proof.KMsg4.lean ====
import proofs.«408040_j36369783063008_1_alg».proof.Proof.Gen.KernelIdeal.Frame
import proofs.«408040_j36369783063008_1_alg».proof.Proof.KMsg1
import Idealize.ShloMosaic.Lib.Pipeline.Value
import Idealize.ShloMosaic.Lib.ValueIdx
import Idealize.ShloMosaic.PureOps.Ideal.Laws

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem msg4_idx : ∀ t : Fin cfg4.N, win4_0.index t (0 : Fin 2) = win4_3.index t (0 : Fin 2)
    ∧ win4_0.index t (1 : Fin 2) = 0
    ∧ win4_1.index t (0 : Fin 2) = win4_3.index t (0 : Fin 2)
    ∧ win4_1.index t (1 : Fin 2) = 0
    ∧ win4_2.index t (0 : Fin 2) = win4_3.index t (0 : Fin 2)
    ∧ win4_2.index t (1 : Fin 2) = 0
    ∧ win4_3.index t (0 : Fin 2) = t.val
    ∧ win4_3.index t (1 : Fin 2) = 0 :=
  (by decide +kernel : ∀ t : Fin grid4.N, _)

theorem msg4_flushed (c : Dev nD) (t : Fin cfg4.N) :
    (dat4 (F := Ideal) V c).flushed 3 t
      = ((cfg4.win 3).blk t).view.read (Elt Ideal) (msgF (V c main_v68) (V c main_arg2) (V c main_v30)) := by
  show (cfg4.win 3).cut (grid4.coords t) ((dat4 (F := Ideal) V c).after 3 t) = _
  rw [after4_3]
  unfold out4_3
  rw [View.canon_unit_zero msg1_hz]
  simp only [View.ld_unit_zero (S := S2000x128) msg1_hz, View.ld_unit_zero (S := S2000x1) msg1_hz]
  obtain ⟨e00, e01, e10, e11, e20, e21, e30, e31⟩ := msg4_idx t
  funext j
  show k4_pay1 (F := Ideal) (iblk4 V c 0 t) (iblk4 V c 1 t) (iblk4 V c 2 t) j
      = msgF (V c main_v68) (V c main_arg2) (V c main_v30) (((cfg4.win 3).blk t).view.emb j)
  refine msg1_block (V c main_v68) (V c main_arg2) (V c main_v30) (iblk4 V c 0 t) (iblk4 V c 1 t) (iblk4 V c 2 t)
    (((cfg4.win 3).blk t).view.emb j) j ?_ ?_ ?_
  ·
    show V c main_v68 (((cfg4.win 0).blk t).view.emb j) = V c main_v68 (((cfg4.win 3).blk t).view.emb j)
    have h : ((cfg4.win 0).blk t).view.emb j = ((cfg4.win 3).blk t).view.emb j := by
      funext a; apply Fin.ext
      match a with
      | ⟨0, _⟩ => show win4_0.index t (0 : Fin 2) * 2000 + 1 * (j 0).val = win4_3.index t (0 : Fin 2) * 2000 + 1 * (j 0).val; omega
      | ⟨1, _⟩ => show win4_0.index t (1 : Fin 2) * 128 + 1 * (j 1).val = win4_3.index t (1 : Fin 2) * 128 + 1 * (j 1).val; omega
    rw [h]
  ·
    show V c main_arg2 (((cfg4.win 1).blk t).view.emb j) = V c main_arg2 (((cfg4.win 3).blk t).view.emb j)
    have h : ((cfg4.win 1).blk t).view.emb j = ((cfg4.win 3).blk t).view.emb j := by
      funext a; apply Fin.ext
      match a with
      | ⟨0, _⟩ => show win4_1.index t (0 : Fin 2) * 2000 + 1 * (j 0).val = win4_3.index t (0 : Fin 2) * 2000 + 1 * (j 0).val; omega
      | ⟨1, _⟩ => show win4_1.index t (1 : Fin 2) * 128 + 1 * (j 1).val = win4_3.index t (1 : Fin 2) * 128 + 1 * (j 1).val; omega
    rw [h]
  ·
    show V c main_v30 (((cfg4.win 2).blk t).view.emb (ix2 (j 0 : Fin 2000) (0 : Fin 1)))
        = V c main_v30 (ix2 ((((cfg4.win 3).blk t).view.emb j) 0 : Fin 600000) (0 : Fin 1))
    have h : ((cfg4.win 2).blk t).view.emb (ix2 (j 0 : Fin 2000) (0 : Fin 1))
        = ix2 ((((cfg4.win 3).blk t).view.emb j) 0 : Fin 600000) (0 : Fin 1) := by
      funext a; apply Fin.ext
      match a with
      | ⟨0, _⟩ => show win4_2.index t (0 : Fin 2) * 2000 + 1 * (j 0).val = win4_3.index t (0 : Fin 2) * 2000 + 1 * (j 0).val; omega
      | ⟨1, _⟩ => show win4_2.index t (1 : Fin 2) * 1 + 1 * 0 = 0; omega
    exact congrArg (V c main_v30) h

theorem msg4_mem_blk (t : Fin cfg4.N) (i : S600000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v69).slice (win4_3.rect t)).set ↔ _
  rw [View.set_slice_whole, Rect.mem_set_unit]
  exact Iff.rfl

theorem msg4_cover (i : S600000x128.Idx) :
    ∃ t : Fin cfg4.N, (cfg4.win 3).flush t = true ∧ i ∈ ((cfg4.win 3).blk t).view.set := by
  have hi0 : (i 0).val < 600000 := (i 0).isLt
  have hi1 : (i 1).val < 128 := (i 1).isLt
  have hN : cfg4.N = 300 := N_4
  have hlt : (i 0).val / 2000 < cfg4.N := by omega
  obtain ⟨-, -, -, -, -, -, e30, e31⟩ := msg4_idx ⟨(i 0).val / 2000, hlt⟩
  have e30' : win4_3.index ⟨(i 0).val / 2000, hlt⟩ (0 : Fin 2) = (i 0).val / 2000 := e30
  refine ⟨⟨(i 0).val / 2000, hlt⟩, flush4_3 _, ?_⟩
  rw [msg4_mem_blk]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    omega
  | ⟨1, _⟩ =>
    show win4_3.index ⟨(i 0).val / 2000, hlt⟩ (1 : Fin 2) * 128 ≤ (i 1).val
      ∧ (i 1).val < win4_3.index ⟨(i 0).val / 2000, hlt⟩ (1 : Fin 2) * 128 + 128
    omega

theorem msg4_out (c : Dev nD) : (dat4 (F := Ideal) V c).arrAt 3 cfg4.N = msgF (V c main_v68) (V c main_arg2) (V c main_v30) :=
  (dat4 (F := Ideal) V c).arrAt_eq_of_cover 3 (msgF (V c main_v68) (V c main_arg2) (V c main_v30))
    (fun t _ => msg4_flushed V c t) msg4_cover

end Cert.KernelIdeal.GnnK

end
-- ==== Proof.KFin5.lean ====
import proofs.«408040_j36369783063008_1_alg».proof.Proof.Gen.KernelIdeal.Frame
import proofs.«408040_j36369783063008_1_alg».proof.Proof.KFin2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem fin5_idx : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) ≤ 99 ∧ win5_6.index t (1 : Fin 2) = 0 :=
  (by decide +kernel : ∀ t : Fin grid5.N, _)

theorem fin5_onto : ∀ r : Fin 100, ∃ t : Fin cfg5.N, win5_6.index t (0 : Fin 2) = r.val :=
  (by decide +kernel : ∀ r : Fin 100, ∃ t : Fin grid5.N, win5_6.index t (0 : Fin 2) = r.val)

theorem fin5_flushed (c : Dev nD) (t : Fin cfg5.N) :
    (dat5 (F := Ideal) V c).flushed 6 t
      = ((cfg5.win 6).blk t).view.read (Elt Ideal)
          (finFrelu (V c main_v72) (V c main_v67_1) (V c main_v75) (V c main_v78) (V c main_v81) (V c main_v84)) := by
  show (cfg5.win 6).cut (grid5.coords t) ((dat5 (F := Ideal) V c).after 6 t) = _
  rw [after5_6]
  unfold out5_6
  rw [View.canon_unit_zero fin2_hz]
  simp only [View.ld_unit_zero (S := S1000x128) fin2_hz, View.ld_unit_zero (S := S1x128) fin2_hz]
  obtain ⟨e00, e01, e10, e11, e20, e21, e30, e31, e40, e41, e50, e51, e60, e61⟩ := fin5_idx t
  funext j
  obtain ⟨p, q, rfl⟩ : ∃ (p : Fin 1000) (q : Fin 128), j = ix2 p q := ⟨j 0, j 1, eq_ix2 j⟩

  have hr : win5_6.index t (0 : Fin 2) * 1000 + p.val < 100000 := by have := p.isLt; omega
  have h6 : ((cfg5.win 6).blk t).view.emb (ix2 p q) = ix2 (⟨win5_6.index t (0 : Fin 2) * 1000 + p.val, hr⟩ : Fin 100000) q := by
    funext a; apply Fin.ext
    match a with
    | ⟨0, _⟩ => show win5_6.index t (0 : Fin 2) * 1000 + 1 * p.val = win5_6.index t (0 : Fin 2) * 1000 + p.val; omega
    | ⟨1, _⟩ => show win5_6.index t (1 : Fin 2) * 128 + 1 * q.val = q.val; omega

  have a0 : iblk5 V c 0 t (ix2 p q) = V c main_v72 (ix2 (⟨win5_6.index t (0 : Fin 2) * 1000 + p.val, hr⟩ : Fin 100000) q) := by
    show V c main_v72 (((cfg5.win 0).blk t).view.emb (ix2 p q)) = _
    refine congrArg (V c main_v72) (funext fun a => Fin.ext ?_)
    match a with
    | ⟨0, _⟩ => show win5_0.index t (0 : Fin 2) * 1000 + 1 * p.val = win5_6.index t (0 : Fin 2) * 1000 + p.val; omega
    | ⟨1, _⟩ => show win5_0.index t (1 : Fin 2) * 128 + 1 * q.val = q.val; omega
  have a1 : iblk5 V c 1 t (ix2 p q) = V c main_v67_1 (ix2 (⟨win5_6.index t (0 : Fin 2) * 1000 + p.val, hr⟩ : Fin 100000) q) := by
    show V c main_v67_1 (((cfg5.win 1).blk t).view.emb (ix2 p q)) = _
    refine congrArg (V c main_v67_1) (funext fun a => Fin.ext ?_)
    match a with
    | ⟨0, _⟩ => show win5_1.index t (0 : Fin 2) * 1000 + 1 * p.val = win5_6.index t (0 : Fin 2) * 1000 + p.val; omega
    | ⟨1, _⟩ => show win5_1.index t (1 : Fin 2) * 128 + 1 * q.val = q.val; omega
  have a2 : iblk5 V c 2 t (ix2 (0 : Fin 1) q) = V c main_v75 (ix2 (0 : Fin 1) q) := by
    show V c main_v75 (((cfg5.win 2).blk t).view.emb (ix2 (0 : Fin 1) q)) = _
    refine congrArg (V c main_v75) (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  have a3 : iblk5 V c 3 t (ix2 (0 : Fin 1) q) = V c main_v78 (ix2 (0 : Fin 1) q) := by
    show V c main_v78 (((cfg5.win 3).blk t).view.emb (ix2 (0 : Fin 1) q)) = _
    refine congrArg (V c main_v78) (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  have a4 : iblk5 V c 4 t (ix2 (0 : Fin 1) q) = V c main_v81 (ix2 (0 : Fin 1) q) := by
    show V c main_v81 (((cfg5.win 4).blk t).view.emb (ix2 (0 : Fin 1) q)) = _
    refine congrArg (V c main_v81) (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega
  have a5 : iblk5 V c 5 t (ix2 (0 : Fin 1) q) = V c main_v84 (ix2 (0 : Fin 1) q) := by
    show V c main_v84 (((cfg5.win 5).blk t).view.emb (ix2 (0 : Fin 1) q)) = _
    refine congrArg (V c main_v84) (funext fun a => Fin.ext ?_)
    match a with
    | ⟨0, _⟩ => show win5_5.index t (0 : Fin 2) * 1 + 1 * 0 = 0; omega
    | ⟨1, _⟩ => show win5_5.index t (1 : Fin 2) * 128 + 1 * q.val = q.val; omega
  show k5_pay1 (F := Ideal) (iblk5 V c 0 t) (iblk5 V c 1 t) (iblk5 V c 2 t) (iblk5 V c 4 t) (iblk5 V c 5 t) (iblk5 V c 3 t) (ix2 p q)
      = finFrelu (V c main_v72) (V c main_v67_1) (V c main_v75) (V c main_v78) (V c main_v81) (V c main_v84)
          (((cfg5.win 6).blk t).view.emb (ix2 p q))
  rw [h6]
  exact fin2_point (V c main_v72) (V c main_v67_1) (V c main_v75) (V c main_v78) (V c main_v81) (V c main_v84)
    (iblk5 V c 0 t) (iblk5 V c 1 t) (iblk5 V c 2 t) (iblk5 V c 3 t) (iblk5 V c 4 t) (iblk5 V c 5 t) p q
    (⟨win5_6.index t (0 : Fin 2) * 1000 + p.val, hr⟩ : Fin 100000) a0 a1 a2 a3 a4 a5

theorem fin5_mem_blk (t : Fin cfg5.N) (i : S100000x128.Idx) :
    i ∈ ((cfg5.win 6).blk t).view.set ↔ ∀ a : Fin 2, win5_6.index t a * S1000x128.size a ≤ (i a).val ∧ (i a).val < win5_6.index t a * S1000x128.size a + S1000x128.size a := by
  show i ∈ ((View.whole main_v85).slice (win5_6.rect t)).set ↔ _
  rw [View.set_slice_whole, Rect.mem_set_unit]
  exact Iff.rfl

theorem fin5_cover (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ := fin5_onto ⟨(i 0).val / 1000, by omega⟩
  have q0 : win5_6.index t (0 : Fin 2) = (i 0).val / 1000 := ht
  obtain ⟨-, -, -, -, -, -, -, -, -, -, -, -, -, e61⟩ := fin5_idx t
  refine ⟨t, flush5_6 t, ?_⟩
  rw [fin5_mem_blk]
  intro a
  match a with
  | ⟨0, _⟩ => show win5_6.index t (0 : Fin 2) * 1000 ≤ (i 0).val ∧ (i 0).val < win5_6.index t (0 : Fin 2) * 1000 + 1000; omega
  | ⟨1, _⟩ => show win5_6.index t (1 : Fin 2) * 128 ≤ (i 1).val ∧ (i 1).val < win5_6.index t (1 : Fin 2) * 128 + 128; omega

theorem fin5_out (c : Dev nD) : (dat5 (F := Ideal) V c).arrAt 6 cfg5.N = finFrelu (V c main_v72) (V c main_v67_1) (V c main_v75) (V c main_v78) (V c main_v81) (V c main_v84) :=
  (dat5 (F := Ideal) V c).arrAt_eq_of_cover 6
    (finFrelu (V c main_v72) (V c main_v67_1) (V c main_v75) (V c main_v78) (V c main_v81) (V c main_v84))
    (fun t _ => fin5_flushed V c t) fin5_cover

end Cert.KernelIdeal.GnnK

end
-- ==== Proof.KStep1.lean ====
import proofs.«408040_j36369783063008_1_alg».proof.Proof.Gen.KernelIdeal.Frame
import proofs.«408040_j36369783063008_1_alg».proof.Proof.Spec
import proofs.«408040_j36369783063008_1_alg».proof.Proof.Laws
import proofs.«408040_j36369783063008_1_alg».proof.Proof.LayerCore
import proofs.«408040_j36369783063008_1_alg».proof.Proof.KDefs
import proofs.«408040_j36369783063008_1_alg».proof.Proof.KTake
import proofs.«408040_j36369783063008_1_alg».proof.Proof.KHost0
import proofs.«408040_j36369783063008_1_alg».proof.Proof.KHost1
import proofs.«408040_j36369783063008_1_alg».proof.Proof.KLin3
import proofs.«408040_j36369783063008_1_alg».proof.Proof.KMsg4
import proofs.«408040_j36369783063008_1_alg».proof.Proof.KFin5

set_option maxRecDepth 16384

noncomputable section

namespace Cert.KernelIdeal.GnnK

open Cert.KernelIdeal Cert.KernelIdeal.Gen Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 1 of the tiled program: the contents of its result buffer at the layer's last boundary are the layer of
    the specification applied to the contents of its input buffer at the layer's first boundary. The three kernels'
    arrays are read off the pipelines' write-backs, the host stretches between them off their operations, and the
    composition is joined to the specification index by index. -/
theorem kstep1 (c : Dev nD)
    (hrow : ∀ e : S600000.Idx, 0 ≤ (rowK m ρ c e).toInt ∧ (rowK m ρ c e).toInt < 100000)
    (hvar : ∀ i : S5x128.Idx, ∃ r : ℝ, 0 ≤ r ∧ m ((c : Thread nD τ).loc main_arg9) i = ((r : ℝ) : EReal)) :
    W12 (F := Ideal) m ρ c (Proc.devRef .tc main_v85) =
      layerR 1 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg2))
        (degK m ρ c) (normK m ρ c) (kGath (rowK m ρ c)) (kScat (colK m ρ c)) (W6 (F := Ideal) m ρ c (Proc.devRef .tc main_v58)) := by
  have hHl : W8 (F := Ideal) m ρ c (Proc.devRef .tc main_v67_0) = linHl (W7 (F := Ideal) m ρ c (Proc.devRef .tc main_v58)) (W7 (F := Ideal) m ρ c (Proc.devRef .tc main_v60)) (W7 (F := Ideal) m ρ c (Proc.devRef .tc main_v63)) :=
    (W8_arr m ρ c 5).trans (lin3_hl (V7 m ρ) c)
  have hSelf : W8 (F := Ideal) m ρ c (Proc.devRef .tc main_v67_1) = linSelf (W7 (F := Ideal) m ρ c (Proc.devRef .tc main_v58)) (W7 (F := Ideal) m ρ c (Proc.devRef .tc main_v60)) (W7 (F := Ideal) m ρ c (Proc.devRef .tc main_v63)) (W7 (F := Ideal) m ρ c (Proc.devRef .tc main_v66)) (W7 (F := Ideal) m ρ c (Proc.devRef .tc main_v14)) :=
    (W8_arr m ρ c 6).trans (lin3_self (V7 m ρ) c)
  have hMsg : W10 (F := Ideal) m ρ c (Proc.devRef .tc main_v69) = msgF (W9 (F := Ideal) m ρ c (Proc.devRef .tc main_v68)) (W9 (F := Ideal) m ρ c (Proc.devRef .tc main_arg2)) (W9 (F := Ideal) m ρ c (Proc.devRef .tc main_v30)) :=
    (W10_arr m ρ c 3).trans (msg4_out (V9 m ρ) c)
  have hFin : W12 (F := Ideal) m ρ c (Proc.devRef .tc main_v85) = finFrelu (W11 (F := Ideal) m ρ c (Proc.devRef .tc main_v72)) (W11 (F := Ideal) m ρ c (Proc.devRef .tc main_v67_1)) (W11 (F := Ideal) m ρ c (Proc.devRef .tc main_v75)) (W11 (F := Ideal) m ρ c (Proc.devRef .tc main_v78)) (W11 (F := Ideal) m ρ c (Proc.devRef .tc main_v81)) (W11 (F := Ideal) m ρ c (Proc.devRef .tc main_v84)) :=
    (W12_arr m ρ c 6).trans (fin5_out (V11 m ρ) c)
  rw [hFin, kh1_agg m ρ c, hMsg, kh1_take m ρ c, kTake_eq_kGath _ _ hrow, hHl, kh1_self m ρ c, hSelf, kh1_ea m ρ c,
    kh1_hin m ρ c]
  exact layer_core_relu 1 _ _ _ _ _ _ _ _ _ _ _ _ _ _ _ _ _ _ _ _ _ _
    (fun k j => kh1_wt m ρ c k j) (fun j => kh1_b m ρ c j) (fun j => kh1_root m ρ c j)
    (fun j => kh1_gamma m ρ c j) (fun j => kh1_beta m ρ c j) (fun j => kh1_mean m ρ c j) (fun j => kh1_var m ρ c j)
    (fun n => kh1_dinv2 m ρ c n) (fun n => degK_real m ρ c n) (fun e => kh1_norm m ρ c e)
    (fun j => hvar (ix2 (1 : Fin 5) j))

end Cert.KernelIdeal.GnnK

end
-- ==== Proof.KHost2.lean ====
import proofs.«408040_j36369783063008_1_alg».proof.Proof.Gen.KernelIdeal.Frame
import proofs.«408040_j36369783063008_1_alg».proof.Proof.Spec
import proofs.«408040_j36369783063008_1_alg».proof.Proof.KDefs
import proofs.«408040_j36369783063008_1_alg».proof.Proof.KCarry
import proofs.«408040_j36369783063008_1_alg».proof.Proof.KHost0
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable (m : (ℓ : Loc nD τ sig) → Buf (Elt Ideal) ℓ) (ρ : Dev nD → PrngReg)

theorem ofBuf_main_v94_0 {Val : EltTy → Type} (h1 h2 h3) (u : (main_v94_0 : Ref sig .tc).ty.Contents Val) :
    (StableHlo.TRef.of (T := ⟨S100000x128, .f32⟩) main_v94_0 h1 h2 h3).ofBuf u = u := rfl
theorem toBuf_main_v95 {Val : EltTy → Type} (h1 h2 h3) (u : (⟨S600000x128, .f32⟩ : BufTy).Contents Val) :
    (StableHlo.TRef.of (T := ⟨S600000x128, .f32⟩) main_v95 h1 h2 h3).toBuf u = u := rfl

theorem kh2_row (X : S5x128.Idx → EReal) (j : Fin 128) :
    shapeCast S1x128 (shapeCast S128 (extractStridedSlice S1x128 ![2, 0] X slices_S5x128_S1x128_2_0)
      shapeCasts_S1x128_S128) shapeCasts_S128_S1x128 (ix2 (0 : Fin 1) j) = X (ix2 (2 : Fin 5) j) := by
  rw [shapeCast_a_1a_apply, shapeCast_1a_a_apply]
  exact slice2_axis0_apply _ X _ (0 : Fin 1) j (2 : Fin 5) (by rfl)

theorem kh2_slab (X : S5x128x128.Idx → EReal) (k j : Fin 128) :
    shapeCast S128x128 (extractStridedSlice S1x128x128 ![2, 0, 0] X slices_S5x128x128_S1x128x128_2_0_0)
      shapeCasts_S1x128x128_S128x128 (ix2 k j) = X (ix3 (2 : Fin 5) k j) := by
  rw [shapeCast_1ab_ab_apply]
  exact extractStridedSlice_apply _ _ _ _ (ix3 (2 : Fin 5) k j) (fun ax => by
    match ax with
    | ⟨0, _⟩ => rfl
    | ⟨1, _⟩ => exact (Nat.zero_add _).symm
    | ⟨2, _⟩ => exact (Nat.zero_add _).symm)

theorem kh2_wt_val (V : Valuation τ sig (Elt Ideal)) :
    (StableHlo.after hostOps6 V (Proc.devRef .tc main_v87) : S128x128.Idx → EReal)
      = shapeCast S128x128 (extractStridedSlice S1x128x128 ![2, 0, 0]
          (V (Proc.devRef .tc main_v31) : S5x128x128.Idx → EReal)
          slices_S5x128x128_S1x128x128_2_0_0) shapeCasts_S1x128x128_S128x128 := by
  after_results
  rfl

theorem kh2_wt (c : Dev nD) (k j : Fin 128) :
    (W13 (F := Ideal) m ρ c (Proc.devRef .tc main_v87) : S128x128.Idx → EReal) (ix2 k j)
      = (m ((c : Thread nD τ).loc main_arg3) : S5x128x128.Idx → EReal) (ix3 (2 : Fin 5) j k) := by
  refine (congrFun (kh2_wt_val (W12 (F := Ideal) m ρ c)) (ix2 k j)).trans ?_
  rw [show W12 (F := Ideal) m ρ c (Proc.devRef .tc main_v31) = W1 (F := Ideal) m ρ c (Proc.devRef .tc main_v31) from keep m ρ c 12 main_v31]
  exact (kh2_slab _ k j).trans (kh_v31 m ρ c (2 : Fin 5) k j)

theorem kh2_b_val (V : Valuation τ sig (Elt Ideal)) (j : Fin 128) :
    (StableHlo.after hostOps6 V (Proc.devRef .tc main_v90) : S1x128.Idx → EReal) (ix2 (0 : Fin 1) j)
      = (V (Proc.devRef .tc main_arg4) : S5x128.Idx → EReal) (ix2 (2 : Fin 5) j) := by
  have e : (StableHlo.after hostOps6 V (Proc.devRef .tc main_v90) : S1x128.Idx → EReal)
      = shapeCast S1x128 (shapeCast S128 (extractStridedSlice S1x128 ![2, 0]
          (V (Proc.devRef .tc main_arg4) : S5x128.Idx → EReal) slices_S5x128_S1x128_2_0)
          shapeCasts_S1x128_S128) shapeCasts_S128_S1x128 := by
    after_results
    rfl
  rw [e]
  exact kh2_row _ j
theorem kh2_b (c : Dev nD) (j : Fin 128) :
    (W13 (F := Ideal) m ρ c (Proc.devRef .tc main_v90) : S1x128.Idx → EReal) (ix2 (0 : Fin 1) j)
      = (m ((c : Thread nD τ).loc main_arg4) : S5x128.Idx → EReal) (ix2 (2 : Fin 5) j) :=
  (kh2_b_val (W12 (F := Ideal) m ρ c) j).trans (congrFun (keep_arg m ρ c 12 main_arg4) _)

theorem kh2_root_val (V : Valuation τ sig (Elt Ideal)) (j : Fin 128) :
    (StableHlo.after hostOps6 V (Proc.devRef .tc main_v93) : S1x128.Idx → EReal) (ix2 (0 : Fin 1) j)
      = (V (Proc.devRef .tc main_arg5) : S5x128.Idx → EReal) (ix2 (2 : Fin 5) j) := by
  have e : (StableHlo.after hostOps6 V (Proc.devRef .tc main_v93) : S1x128.Idx → EReal)
      = shapeCast S1x128 (shapeCast S128 (extractStridedSlice S1x128 ![2, 0]
          (V (Proc.devRef .tc main_arg5) : S5x128.Idx → EReal) slices_S5x128_S1x128_2_0)
          shapeCasts_S1x128_S128) shapeCasts_S128_S1x128 := by
    after_results
    rfl
  rw [e]
  exact kh2_row _ j
theorem kh2_root (c : Dev nD) (j : Fin 128) :
    (W13 (F := Ideal) m ρ c (Proc.devRef .tc main_v93) : S1x128.Idx → EReal) (ix2 (0 : Fin 1) j)
      = (m ((c : Thread nD τ).loc main_arg5) : S5x128.Idx → EReal) (ix2 (2 : Fin 5) j) :=
  (kh2_root_val (W12 (F := Ideal) m ρ c) j).trans (congrFun (keep_arg m ρ c 12 main_arg5) _)

theorem kh2_dinv2 (c : Dev nD) (n : Fin 100000) :
    (W13 (F := Ideal) m ρ c (Proc.devRef .tc main_v14) : S100000x1.Idx → EReal) (ix2 n (0 : Fin 1))
      = Ideal.div 1 (degK m ρ c (ix1 n)) :=
  (congrFun (keep m ρ c 13 main_v14) (ix2 n (0 : Fin 1))).trans (kh0_dinv2 m ρ c n)

theorem kh2_hin (c : Dev nD) :
    W13 (F := Ideal) m ρ c (Proc.devRef .tc main_v85) = W12 (F := Ideal) m ρ c (Proc.devRef .tc main_v85) :=
  StableHlo.after_of_forall_not_mem (b := Proc.devRef .tc main_v85) _ _ (List.forall_iff_forall_mem.mp (by
      simp only [hostOps6, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh2_take_val (V : Valuation τ sig (Elt Ideal)) :
    (StableHlo.after hostOps7 V (Proc.devRef .tc main_v95) : S600000x128.Idx → EReal)
      = kTake (V (Proc.devRef .tc main_v94_0)) (V (Proc.devRef .tc main_v1)) := by
  unfold kTake takeMask wrapIdx
  after_results_simp
  simp only [ofBuf_toBuf, ofBuf_main_v1, ofBuf_main_v94_0, toBuf_main_v95]
  all_goals rfl

theorem kh2_take (c : Dev nD) :
    (W15 (F := Ideal) m ρ c (Proc.devRef .tc main_v95) : S600000x128.Idx → EReal)
      = kTake (W14 (F := Ideal) m ρ c (Proc.devRef .tc main_v94_0)) (rowK m ρ c) :=
  (kh2_take_val (W14 (F := Ideal) m ρ c)).trans
    (congrArg (kTake (W14 (F := Ideal) m ρ c (Proc.devRef .tc main_v94_0))) (keep m ρ c 14 main_v1))

theorem kh2_ea (c : Dev nD) :
    W15 (F := Ideal) m ρ c (Proc.devRef .tc main_arg2) = m ((c : Thread nD τ).loc main_arg2) :=
  keep_arg m ρ c 15 main_arg2

theorem kh2_norm (c : Dev nD) (e : Fin 600000) :
    (W15 (F := Ideal) m ρ c (Proc.devRef .tc main_v30) : S600000x1.Idx → EReal) (ix2 e (0 : Fin 1))
      = normK m ρ c (ix1 e) :=
  (congrFun ((keep m ρ c 15 main_v30).trans (h0_v30 (W0 (F := Ideal) m ρ c))) (ix2 e (0 : Fin 1))).trans
    (ecol_read (normK m ρ c) e)

theorem kh2_agg_val (V : Valuation τ sig (Elt Ideal)) :
    (StableHlo.after hostOps8 V (Proc.devRef .tc main_v99) : S100000x128.Idx → EReal)
      = kScat (V (Proc.devRef .tc main_v3)) (V (Proc.devRef .tc main_v96)) := by
  after_results
  rfl

theorem kh2_agg (c : Dev nD) :
    (W17 (F := Ideal) m ρ c (Proc.devRef .tc main_v99) : S100000x128.Idx → EReal)
      = kScat (colK m ρ c) (W16 (F := Ideal) m ρ c (Proc.devRef .tc main_v96)) :=
  (kh2_agg_val (W16 (F := Ideal) m ρ c)).trans
    (congrArg (fun r => kScat r (W16 (F := Ideal) m ρ c (Proc.devRef .tc main_v96))) (keep m ρ c 16 main_v3))

theorem kh2_self (c : Dev nD) :
    W17 (F := Ideal) m ρ c (Proc.devRef .tc main_v94_1) = W14 (F := Ideal) m ρ c (Proc.devRef .tc main_v94_1) :=
  calc W17 (F := Ideal) m ρ c (Proc.devRef .tc main_v94_1)
    _ = W16 (F := Ideal) m ρ c (Proc.devRef .tc main_v94_1) :=
        StableHlo.after_of_forall_not_mem (b := Proc.devRef .tc main_v94_1) _ _ (List.forall_iff_forall_mem.mp (by
      simp only [hostOps8, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W15 (F := Ideal) m ρ c (Proc.devRef .tc main_v94_1) := W16_of_ne m ρ c main_v94_1 (by decide)
    _ = W14 (F := Ideal) m ρ c (Proc.devRef .tc main_v94_1) :=
        StableHlo.after_of_forall_not_mem (b := Proc.devRef .tc main_v94_1) _ _ (List.forall_iff_forall_mem.mp (by
      simp only [hostOps7, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh2_gamma_val (V : Valuation τ sig (Elt Ideal)) (j : Fin 128) :
    (StableHlo.after hostOps8 V (Proc.devRef .tc main_v102) : S1x128.Idx → EReal) (ix2 (0 : Fin 1) j)
      = (V (Proc.devRef .tc main_arg6) : S5x128.Idx → EReal) (ix2 (2 : Fin 5) j) := by
  have e : (StableHlo.after hostOps8 V (Proc.devRef .tc main_v102) : S1x128.Idx → EReal)
      = shapeCast S1x128 (shapeCast S128 (extractStridedSlice S1x128 ![2, 0]
          (V (Proc.devRef .tc main_arg6) : S5x128.Idx → EReal) slices_S5x128_S1x128_2_0)
          shapeCasts_S1x128_S128) shapeCasts_S128_S1x128 := by
    after_results
    rfl
  rw [e]
  exact kh2_row _ j
theorem kh2_gamma (c : Dev nD) (j : Fin 128) :
    (W17 (F := Ideal) m ρ c (Proc.devRef .tc main_v102) : S1x128.Idx → EReal) (ix2 (0 : Fin 1) j)
      = (m ((c : Thread nD τ).loc main_arg6) : S5x128.Idx → EReal) (ix2 (2 : Fin 5) j) :=
  (kh2_gamma_val (W16 (F := Ideal) m ρ c) j).trans (congrFun (keep_arg m ρ c 16 main_arg6) _)

theorem kh2_beta_val (V : Valuation τ sig (Elt Ideal)) (j : Fin 128) :
    (StableHlo.after hostOps8 V (Proc.devRef .tc main_v105) : S1x128.Idx → EReal) (ix2 (0 : Fin 1) j)
      = (V (Proc.devRef .tc main_arg7) : S5x128.Idx → EReal) (ix2 (2 : Fin 5) j) := by
  have e : (StableHlo.after hostOps8 V (Proc.devRef .tc main_v105) : S1x128.Idx → EReal)
      = shapeCast S1x128 (shapeCast S128 (extractStridedSlice S1x128 ![2, 0]
          (V (Proc.devRef .tc main_arg7) : S5x128.Idx → EReal) slices_S5x128_S1x128_2_0)
          shapeCasts_S1x128_S128) shapeCasts_S128_S1x128 := by
    after_results
    rfl
  rw [e]
  exact kh2_row _ j
theorem kh2_beta (c : Dev nD) (j : Fin 128) :
    (W17 (F := Ideal) m ρ c (Proc.devRef .tc main_v105) : S1x128.Idx → EReal) (ix2 (0 : Fin 1) j)
      = (m ((c : Thread nD τ).loc main_arg7) : S5x128.Idx → EReal) (ix2 (2 : Fin 5) j) :=
  (kh2_beta_val (W16 (F := Ideal) m ρ c) j).trans (congrFun (keep_arg m ρ c 16 main_arg7) _)

theorem kh2_mean_val (V : Valuation τ sig (Elt Ideal)) (j : Fin 128) :
    (StableHlo.after hostOps8 V (Proc.devRef .tc main_v108) : S1x128.Idx → EReal) (ix2 (0 : Fin 1) j)
      = (V (Proc.devRef .tc main_arg8) : S5x128.Idx → EReal) (ix2 (2 : Fin 5) j) := by
  have e : (StableHlo.after hostOps8 V (Proc.devRef .tc main_v108) : S1x128.Idx → EReal)
      = shapeCast S1x128 (shapeCast S128 (extractStridedSlice S1x128 ![2, 0]
          (V (Proc.devRef .tc main_arg8) : S5x128.Idx → EReal) slices_S5x128_S1x128_2_0)
          shapeCasts_S1x128_S128) shapeCasts_S128_S1x128 := by
    after_results
    rfl
  rw [e]
  exact kh2_row _ j
theorem kh2_mean (c : Dev nD) (j : Fin 128) :
    (W17 (F := Ideal) m ρ c (Proc.devRef .tc main_v108) : S1x128.Idx → EReal) (ix2 (0 : Fin 1) j)
      = (m ((c : Thread nD τ).loc main_arg8) : S5x128.Idx → EReal) (ix2 (2 : Fin 5) j) :=
  (kh2_mean_val (W16 (F := Ideal) m ρ c) j).trans (congrFun (keep_arg m ρ c 16 main_arg8) _)

theorem kh2_var_val (V : Valuation τ sig (Elt Ideal)) (j : Fin 128) :
    (StableHlo.after hostOps8 V (Proc.devRef .tc main_v111) : S1x128.Idx → EReal) (ix2 (0 : Fin 1) j)
      = (V (Proc.devRef .tc main_arg9) : S5x128.Idx → EReal) (ix2 (2 : Fin 5) j) := by
  have e : (StableHlo.after hostOps8 V (Proc.devRef .tc main_v111) : S1x128.Idx → EReal)
      = shapeCast S1x128 (shapeCast S128 (extractStridedSlice S1x128 ![2, 0]
          (V (Proc.devRef .tc main_arg9) : S5x128.Idx → EReal) slices_S5x128_S1x128_2_0)
          shapeCasts_S1x128_S128) shapeCasts_S128_S1x128 := by
    after_results
    rfl
  rw [e]
  exact kh2_row _ j
theorem kh2_var (c : Dev nD) (j : Fin 128) :
    (W17 (F := Ideal) m ρ c (Proc.devRef .tc main_v111) : S1x128.Idx → EReal) (ix2 (0 : Fin 1) j)
      = (m ((c : Thread nD τ).loc main_arg9) : S5x128.Idx → EReal) (ix2 (2 : Fin 5) j) :=
  (kh2_var_val (W16 (F := Ideal) m ρ c) j).trans (congrFun (keep_arg m ρ c 16 main_arg9) _)

end Cert.KernelIdeal.GnnK

end
-- ==== Proof.KLin6.lean ====
import proofs.«408040_j36369783063008_1_alg».proof.Proof.Gen.KernelIdeal.Frame
import proofs.«408040_j36369783063008_1_alg».proof.Proof.KLin0
import Idealize.ShloMosaic.Lib.Pipeline.Value
import Idealize.ShloMosaic.Lib.ValueIdx
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem lin6_pay1_eq (x0 : Vec Ideal S1000x128 .f32) (x1 : Vec Ideal S128x128 .f32) (x2 : Vec Ideal S1x128 .f32) :
    k6_pay1 (F := Ideal) x0 x1 x2 = k0_pay1 x0 x1 x2 := by
  unfold k6_pay1 k0_pay1
  simp only [shapeCast_self]

theorem lin6_pay2_eq (x0 : Vec Ideal S1000x128 .f32) (x1 : Vec Ideal S128x128 .f32) (x2 x3 : Vec Ideal S1x128 .f32)
    (x4 : Vec Ideal S1000x1 .f32) : k6_pay2 (F := Ideal) x0 x1 x2 x3 x4 = k0_pay2 x0 x1 x2 x3 x4 := by
  unfold k6_pay2 k0_pay2
  simp only [shapeCast_self, lin6_pay1_eq]

theorem lin6_idx_facts : ∀ t : Fin cfg6.N,
      win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

theorem lin6_flushed5 (c : Dev nD) (t : Fin cfg6.N) :
    (dat6 (F := Ideal) V c).flushed 5 t
      = ((cfg6.win 5).blk t).view.read (Elt Ideal) (linHl (V c main_v85) (V c main_v87) (V c main_v90)) := by
  show (cfg6.win 5).cut (grid6.coords t) ((dat6 (F := Ideal) V c).after 5 t) = _
  rw [after6_5]
  unfold out6_5
  rw [View.canon_unit_zero lin0_hz]
  simp only [View.ld_unit_zero (S := S1000x128) lin0_hz, View.ld_unit_zero (S := S128x128) lin0_hz,
    View.ld_unit_zero (S := S1x128) lin0_hz]
  obtain ⟨e00, e01, e10, e11, e20, e21, e30, e31, e40, e41, e50, e51, e60, e61⟩ := lin6_idx_facts t
  funext j
  obtain ⟨p, q, rfl⟩ : ∃ (p : Fin 1000) (q : Fin 128), j = ix2 p q := ⟨j 0, j 1, eq_ix2 j⟩
  show k6_pay1 (F := Ideal) (iblk6 V c 0 t) (iblk6 V c 1 t) (iblk6 V c 2 t) (ix2 p q)
    = linHl (V c main_v85) (V c main_v87) (V c main_v90) (((cfg6.win 5).blk t).view.emb (ix2 p q))
  rw [lin6_pay1_eq]
  refine lin0_hl_block (V c main_v85) (V c main_v87) (V c main_v90) (iblk6 V c 0 t) (iblk6 V c 1 t) (iblk6 V c 2 t)
    (((cfg6.win 5).blk t).view.emb (ix2 p q)) p q ?_ ?_ ?_
  · intro k
    show V c main_v85 (((cfg6.win 0).blk t).view.emb (ix2 p k)) = _
    refine congrArg (V c main_v85) (funext fun a => Fin.ext ?_)
    match a with
    | ⟨0, _⟩ => show win6_0.index t (0 : Fin 2) * 1000 + 1 * p.val = win6_5.index t (0 : Fin 2) * 1000 + 1 * p.val; omega
    | ⟨1, _⟩ => show win6_0.index t (1 : Fin 2) * 128 + 1 * k.val = k.val; omega
  · intro k
    show V c main_v87 (((cfg6.win 1).blk t).view.emb (ix2 k q)) = _
    refine congrArg (V c main_v87) (funext fun a => Fin.ext ?_)
    match a with
    | ⟨0, _⟩ => show win6_1.index t (0 : Fin 2) * 128 + 1 * k.val = k.val; omega
    | ⟨1, _⟩ => show win6_1.index t (1 : Fin 2) * 128 + 1 * q.val = win6_5.index t (1 : Fin 2) * 128 + 1 * q.val; omega
  · show V c main_v90 (((cfg6.win 2).blk t).view.emb (ix2 (0 : Fin 1) q)) = _
    refine congrArg (V c main_v90) (funext fun a => Fin.ext ?_)
    match a with
    | ⟨0, _⟩ => show win6_2.index t (0 : Fin 2) * 1 + 1 * 0 = 0; omega
    | ⟨1, _⟩ => show win6_2.index t (1 : Fin 2) * 128 + 1 * q.val = win6_5.index t (1 : Fin 2) * 128 + 1 * q.val; omega

theorem lin6_flushed6 (c : Dev nD) (t : Fin cfg6.N) :
    (dat6 (F := Ideal) V c).flushed 6 t
      = ((cfg6.win 6).blk t).view.read (Elt Ideal)
          (linSelf (V c main_v85) (V c main_v87) (V c main_v90) (V c main_v93) (V c main_v14)) := by
  show (cfg6.win 6).cut (grid6.coords t) ((dat6 (F := Ideal) V c).after 6 t) = _
  rw [after6_6]
  unfold out6_6
  rw [View.canon_unit_zero lin0_hz]
  simp only [View.ld_unit_zero (S := S1000x128) lin0_hz, View.ld_unit_zero (S := S128x128) lin0_hz,
    View.ld_unit_zero (S := S1x128) lin0_hz, View.ld_unit_zero (S := S1000x1) lin0_hz]
  obtain ⟨e00, e01, e10, e11, e20, e21, e30, e31, e40, e41, e50, e51, e60, e61⟩ := lin6_idx_facts t
  funext j
  obtain ⟨p, q, rfl⟩ : ∃ (p : Fin 1000) (q : Fin 128), j = ix2 p q := ⟨j 0, j 1, eq_ix2 j⟩
  show k6_pay2 (F := Ideal) (iblk6 V c 0 t) (iblk6 V c 1 t) (iblk6 V c 2 t) (iblk6 V c 3 t) (iblk6 V c 4 t) (ix2 p q)
    = linSelf (V c main_v85) (V c main_v87) (V c main_v90) (V c main_v93) (V c main_v14)
        (((cfg6.win 6).blk t).view.emb (ix2 p q))
  rw [lin6_pay2_eq]
  refine lin0_self_block (V c main_v85) (V c main_v87) (V c main_v90) (V c main_v93) (V c main_v14)
    (iblk6 V c 0 t) (iblk6 V c 1 t) (iblk6 V c 2 t) (iblk6 V c 3 t) (iblk6 V c 4 t)
    (((cfg6.win 6).blk t).view.emb (ix2 p q)) p q ?_ ?_ ?_ ?_ ?_
  · intro k
    show V c main_v85 (((cfg6.win 0).blk t).view.emb (ix2 p k)) = _
    refine congrArg (V c main_v85) (funext fun a => Fin.ext ?_)
    match a with
    | ⟨0, _⟩ => show win6_0.index t (0 : Fin 2) * 1000 + 1 * p.val = win6_6.index t (0 : Fin 2) * 1000 + 1 * p.val; omega
    | ⟨1, _⟩ => show win6_0.index t (1 : Fin 2) * 128 + 1 * k.val = k.val; omega
  · intro k
    show V c main_v87 (((cfg6.win 1).blk t).view.emb (ix2 k q)) = _
    refine congrArg (V c main_v87) (funext fun a => Fin.ext ?_)
    match a with
    | ⟨0, _⟩ => show win6_1.index t (0 : Fin 2) * 128 + 1 * k.val = k.val; omega
    | ⟨1, _⟩ => show win6_1.index t (1 : Fin 2) * 128 + 1 * q.val = win6_6.index t (1 : Fin 2) * 128 + 1 * q.val; omega
  · show V c main_v90 (((cfg6.win 2).blk t).view.emb (ix2 (0 : Fin 1) q)) = _
    refine congrArg (V c main_v90) (funext fun a => Fin.ext ?_)
    match a with
    | ⟨0, _⟩ => show win6_2.index t (0 : Fin 2) * 1 + 1 * 0 = 0; omega
    | ⟨1, _⟩ => show win6_2.index t (1 : Fin 2) * 128 + 1 * q.val = win6_6.index t (1 : Fin 2) * 128 + 1 * q.val; omega
  · show V c main_v93 (((cfg6.win 3).blk t).view.emb (ix2 (0 : Fin 1) q)) = _
    refine congrArg (V c main_v93) (funext fun a => Fin.ext ?_)
    match a with
    | ⟨0, _⟩ => show win6_3.index t (0 : Fin 2) * 1 + 1 * 0 = 0; omega
    | ⟨1, _⟩ => show win6_3.index t (1 : Fin 2) * 128 + 1 * q.val = win6_6.index t (1 : Fin 2) * 128 + 1 * q.val; omega
  · show V c main_v14 (((cfg6.win 4).blk t).view.emb (ix2 p (0 : Fin 1))) = _
    refine congrArg (V c main_v14) (funext fun a => Fin.ext ?_)
    match a with
    | ⟨0, _⟩ => show win6_4.index t (0 : Fin 2) * 1000 + 1 * p.val = win6_6.index t (0 : Fin 2) * 1000 + 1 * p.val; omega
    | ⟨1, _⟩ => show win6_4.index t (1 : Fin 2) * 1 + 1 * 0 = 0; omega

theorem lin6_mem_blk5 (t : Fin cfg6.N) (i : S100000x128.Idx) :
    i ∈ ((cfg6.win 5).blk t).view.set ↔ ∀ a : Fin 2, win6_5.index t a * S1000x128.size a ≤ (i a).val ∧ (i a).val < win6_5.index t a * S1000x128.size a + S1000x128.size a := by
  show i ∈ ((View.whole main_v94_0).slice (win6_5.rect t)).set ↔ _
  rw [View.set_slice_whole, Rect.mem_set_unit]
  exact Iff.rfl

theorem lin6_mem_blk6 (t : Fin cfg6.N) (i : S100000x128.Idx) :
    i ∈ ((cfg6.win 6).blk t).view.set ↔ ∀ a : Fin 2, win6_6.index t a * S1000x128.size a ≤ (i a).val ∧ (i a).val < win6_6.index t a * S1000x128.size a + S1000x128.size a := by
  show i ∈ ((View.whole main_v94_1).slice (win6_6.rect t)).set ↔ _
  rw [View.set_slice_whole, Rect.mem_set_unit]
  exact Iff.rfl

theorem lin6_cover5 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : grid6.N = 100 := N_6
  have ht : (i 0).val / 1000 < grid6.N := by rw [hN]; omega
  obtain ⟨e00, e01, e10, e11, e20, e21, e30, e31, e40, e41, e50, e51, e60, e61⟩ := lin6_idx_facts ⟨(i 0).val / 1000, ht⟩
  refine ⟨⟨(i 0).val / 1000, ht⟩, flush6_5 _, ?_⟩
  rw [lin6_mem_blk5]
  intro a
  match a with
  | ⟨0, _⟩ =>
    show win6_5.index ⟨(i 0).val / 1000, ht⟩ (0 : Fin 2) * 1000 ≤ (i 0).val ∧ (i 0).val < win6_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win6_5.index ⟨(i 0).val / 1000, ht⟩ (1 : Fin 2) * 128 ≤ (i 1).val ∧ (i 1).val < win6_5.index ⟨(i 0).val / 1000, ht⟩ (1 : Fin 2) * 128 + 128
    rw [e51]
    omega

theorem lin6_cover6 (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : grid6.N = 100 := N_6
  have ht : (i 0).val / 1000 < grid6.N := by rw [hN]; omega
  obtain ⟨e00, e01, e10, e11, e20, e21, e30, e31, e40, e41, e50, e51, e60, e61⟩ := lin6_idx_facts ⟨(i 0).val / 1000, ht⟩
  refine ⟨⟨(i 0).val / 1000, ht⟩, flush6_6 _, ?_⟩
  rw [lin6_mem_blk6]
  intro a
  match a with
  | ⟨0, _⟩ =>
    show win6_6.index ⟨(i 0).val / 1000, ht⟩ (0 : Fin 2) * 1000 ≤ (i 0).val ∧ (i 0).val < win6_6.index ⟨(i 0).val / 1000, ht⟩ (0 : Fin 2) * 1000 + 1000
    rw [e60]
    show (i 0).val / 1000 * 1000 ≤ (i 0).val ∧ (i 0).val < (i 0).val / 1000 * 1000 + 1000
    omega
  | ⟨1, _⟩ =>
    show win6_6.index ⟨(i 0).val / 1000, ht⟩ (1 : Fin 2) * 128 ≤ (i 1).val ∧ (i 1).val < win6_6.index ⟨(i 0).val / 1000, ht⟩ (1 : Fin 2) * 128 + 128
    rw [e61]
    omega

theorem lin6_hl (c : Dev nD) :
    (dat6 (F := Ideal) V c).arrAt 5 cfg6.N = linHl (V c main_v85) (V c main_v87) (V c main_v90) :=
  (dat6 (F := Ideal) V c).arrAt_eq_of_cover 5 (linHl (V c main_v85) (V c main_v87) (V c main_v90))
    (fun t _ => lin6_flushed5 V c t) lin6_cover5

theorem lin6_self (c : Dev nD) :
    (dat6 (F := Ideal) V c).arrAt 6 cfg6.N
      = linSelf (V c main_v85) (V c main_v87) (V c main_v90) (V c main_v93) (V c main_v14) :=
  (dat6 (F := Ideal) V c).arrAt_eq_of_cover 6
    (linSelf (V c main_v85) (V c main_v87) (V c main_v90) (V c main_v93) (V c main_v14))
    (fun t _ => lin6_flushed6 V c t) lin6_cover6

end Cert.KernelIdeal.GnnK

end
-- ==== Proof.KMsg7.lean ====
import proofs.«408040_j36369783063008_1_alg».proof.Proof.Gen.KernelIdeal.Frame
import proofs.«408040_j36369783063008_1_alg».proof.Proof.KMsg1
import Idealize.ShloMosaic.Lib.Pipeline.Value
import Idealize.ShloMosaic.Lib.ValueIdx
import Idealize.ShloMosaic.PureOps.Ideal.Laws

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem msg7_idx : ∀ t : Fin cfg7.N, win7_0.index t (0 : Fin 2) = win7_3.index t (0 : Fin 2)
    ∧ win7_0.index t (1 : Fin 2) = 0
    ∧ win7_1.index t (0 : Fin 2) = win7_3.index t (0 : Fin 2)
    ∧ win7_1.index t (1 : Fin 2) = 0
    ∧ win7_2.index t (0 : Fin 2) = win7_3.index t (0 : Fin 2)
    ∧ win7_2.index t (1 : Fin 2) = 0
    ∧ win7_3.index t (0 : Fin 2) = t.val
    ∧ win7_3.index t (1 : Fin 2) = 0 :=
  (by decide +kernel : ∀ t : Fin grid7.N, _)

theorem msg7_flushed (c : Dev nD) (t : Fin cfg7.N) :
    (dat7 (F := Ideal) V c).flushed 3 t
      = ((cfg7.win 3).blk t).view.read (Elt Ideal) (msgF (V c main_v95) (V c main_arg2) (V c main_v30)) := by
  show (cfg7.win 3).cut (grid7.coords t) ((dat7 (F := Ideal) V c).after 3 t) = _
  rw [after7_3]
  unfold out7_3
  rw [View.canon_unit_zero msg1_hz]
  simp only [View.ld_unit_zero (S := S2000x128) msg1_hz, View.ld_unit_zero (S := S2000x1) msg1_hz]
  obtain ⟨e00, e01, e10, e11, e20, e21, e30, e31⟩ := msg7_idx t
  funext j
  show k7_pay1 (F := Ideal) (iblk7 V c 0 t) (iblk7 V c 1 t) (iblk7 V c 2 t) j
      = msgF (V c main_v95) (V c main_arg2) (V c main_v30) (((cfg7.win 3).blk t).view.emb j)
  refine msg1_block (V c main_v95) (V c main_arg2) (V c main_v30) (iblk7 V c 0 t) (iblk7 V c 1 t) (iblk7 V c 2 t)
    (((cfg7.win 3).blk t).view.emb j) j ?_ ?_ ?_
  ·
    show V c main_v95 (((cfg7.win 0).blk t).view.emb j) = V c main_v95 (((cfg7.win 3).blk t).view.emb j)
    have h : ((cfg7.win 0).blk t).view.emb j = ((cfg7.win 3).blk t).view.emb j := by
      funext a; apply Fin.ext
      match a with
      | ⟨0, _⟩ => show win7_0.index t (0 : Fin 2) * 2000 + 1 * (j 0).val = win7_3.index t (0 : Fin 2) * 2000 + 1 * (j 0).val; omega
      | ⟨1, _⟩ => show win7_0.index t (1 : Fin 2) * 128 + 1 * (j 1).val = win7_3.index t (1 : Fin 2) * 128 + 1 * (j 1).val; omega
    rw [h]
  ·
    show V c main_arg2 (((cfg7.win 1).blk t).view.emb j) = V c main_arg2 (((cfg7.win 3).blk t).view.emb j)
    have h : ((cfg7.win 1).blk t).view.emb j = ((cfg7.win 3).blk t).view.emb j := by
      funext a; apply Fin.ext
      match a with
      | ⟨0, _⟩ => show win7_1.index t (0 : Fin 2) * 2000 + 1 * (j 0).val = win7_3.index t (0 : Fin 2) * 2000 + 1 * (j 0).val; omega
      | ⟨1, _⟩ => show win7_1.index t (1 : Fin 2) * 128 + 1 * (j 1).val = win7_3.index t (1 : Fin 2) * 128 + 1 * (j 1).val; omega
    rw [h]
  ·
    show V c main_v30 (((cfg7.win 2).blk t).view.emb (ix2 (j 0 : Fin 2000) (0 : Fin 1)))
        = V c main_v30 (ix2 ((((cfg7.win 3).blk t).view.emb j) 0 : Fin 600000) (0 : Fin 1))
    have h : ((cfg7.win 2).blk t).view.emb (ix2 (j 0 : Fin 2000) (0 : Fin 1))
        = ix2 ((((cfg7.win 3).blk t).view.emb j) 0 : Fin 600000) (0 : Fin 1) := by
      funext a; apply Fin.ext
      match a with
      | ⟨0, _⟩ => show win7_2.index t (0 : Fin 2) * 2000 + 1 * (j 0).val = win7_3.index t (0 : Fin 2) * 2000 + 1 * (j 0).val; omega
      | ⟨1, _⟩ => show win7_2.index t (1 : Fin 2) * 1 + 1 * 0 = 0; omega
    exact congrArg (V c main_v30) h

theorem msg7_mem_blk (t : Fin cfg7.N) (i : S600000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v96).slice (win7_3.rect t)).set ↔ _
  rw [View.set_slice_whole, Rect.mem_set_unit]
  exact Iff.rfl

theorem msg7_cover (i : S600000x128.Idx) :
    ∃ t : Fin cfg7.N, (cfg7.win 3).flush t = true ∧ i ∈ ((cfg7.win 3).blk t).view.set := by
  have hi0 : (i 0).val < 600000 := (i 0).isLt
  have hi1 : (i 1).val < 128 := (i 1).isLt
  have hN : cfg7.N = 300 := N_7
  have hlt : (i 0).val / 2000 < cfg7.N := by omega
  obtain ⟨-, -, -, -, -, -, e30, e31⟩ := msg7_idx ⟨(i 0).val / 2000, hlt⟩
  have e30' : win7_3.index ⟨(i 0).val / 2000, hlt⟩ (0 : Fin 2) = (i 0).val / 2000 := e30
  refine ⟨⟨(i 0).val / 2000, hlt⟩, flush7_3 _, ?_⟩
  rw [msg7_mem_blk]
  intro a
  match a with
  | ⟨0, _⟩ =>
    show win7_3.index ⟨(i 0).val / 2000, hlt⟩ (0 : Fin 2) * 2000 ≤ (i 0).val
      ∧ (i 0).val < win7_3.index ⟨(i 0).val / 2000, hlt⟩ (0 : Fin 2) * 2000 + 2000
    omega
  | ⟨1, _⟩ =>
    show win7_3.index ⟨(i 0).val / 2000, hlt⟩ (1 : Fin 2) * 128 ≤ (i 1).val
      ∧ (i 1).val < win7_3.index ⟨(i 0).val / 2000, hlt⟩ (1 : Fin 2) * 128 + 128
    omega

theorem msg7_out (c : Dev nD) : (dat7 (F := Ideal) V c).arrAt 3 cfg7.N = msgF (V c main_v95) (V c main_arg2) (V c main_v30) :=
  (dat7 (F := Ideal) V c).arrAt_eq_of_cover 3 (msgF (V c main_v95) (V c main_arg2) (V c main_v30))
    (fun t _ => msg7_flushed V c t) msg7_cover

end Cert.KernelIdeal.GnnK

end
-- ==== Proof.KFin8.lean ====
import proofs.«408040_j36369783063008_1_alg».proof.Proof.Gen.KernelIdeal.Frame
import proofs.«408040_j36369783063008_1_alg».proof.Proof.KFin2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem fin8_idx : ∀ t : Fin cfg8.N,
    win8_0.index t (0 : Fin 2) = win8_6.index t (0 : Fin 2) ∧ win8_0.index t (1 : Fin 2) = 0
    ∧ win8_1.index t (0 : Fin 2) = win8_6.index t (0 : Fin 2) ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) ≤ 99 ∧ win8_6.index t (1 : Fin 2) = 0 :=
  (by decide +kernel : ∀ t : Fin grid8.N, _)

theorem fin8_onto : ∀ r : Fin 100, ∃ t : Fin cfg8.N, win8_6.index t (0 : Fin 2) = r.val :=
  (by decide +kernel : ∀ r : Fin 100, ∃ t : Fin grid8.N, win8_6.index t (0 : Fin 2) = r.val)

theorem fin8_flushed (c : Dev nD) (t : Fin cfg8.N) :
    (dat8 (F := Ideal) V c).flushed 6 t
      = ((cfg8.win 6).blk t).view.read (Elt Ideal)
          (finFrelu (V c main_v99) (V c main_v94_1) (V c main_v102) (V c main_v105) (V c main_v108) (V c main_v111)) := by
  show (cfg8.win 6).cut (grid8.coords t) ((dat8 (F := Ideal) V c).after 6 t) = _
  rw [after8_6]
  unfold out8_6
  rw [View.canon_unit_zero fin2_hz]
  simp only [View.ld_unit_zero (S := S1000x128) fin2_hz, View.ld_unit_zero (S := S1x128) fin2_hz]
  obtain ⟨e00, e01, e10, e11, e20, e21, e30, e31, e40, e41, e50, e51, e60, e61⟩ := fin8_idx t
  funext j
  obtain ⟨p, q, rfl⟩ : ∃ (p : Fin 1000) (q : Fin 128), j = ix2 p q := ⟨j 0, j 1, eq_ix2 j⟩

  have hr : win8_6.index t (0 : Fin 2) * 1000 + p.val < 100000 := by have := p.isLt; omega
  have h6 : ((cfg8.win 6).blk t).view.emb (ix2 p q) = ix2 (⟨win8_6.index t (0 : Fin 2) * 1000 + p.val, hr⟩ : Fin 100000) q := by
    funext a; apply Fin.ext
    match a with
    | ⟨0, _⟩ => show win8_6.index t (0 : Fin 2) * 1000 + 1 * p.val = win8_6.index t (0 : Fin 2) * 1000 + p.val; omega
    | ⟨1, _⟩ => show win8_6.index t (1 : Fin 2) * 128 + 1 * q.val = q.val; omega

  have a0 : iblk8 V c 0 t (ix2 p q) = V c main_v99 (ix2 (⟨win8_6.index t (0 : Fin 2) * 1000 + p.val, hr⟩ : Fin 100000) q) := by
    show V c main_v99 (((cfg8.win 0).blk t).view.emb (ix2 p q)) = _
    refine congrArg (V c main_v99) (funext fun a => Fin.ext ?_)
    match a with
    | ⟨0, _⟩ => show win8_0.index t (0 : Fin 2) * 1000 + 1 * p.val = win8_6.index t (0 : Fin 2) * 1000 + p.val; omega
    | ⟨1, _⟩ => show win8_0.index t (1 : Fin 2) * 128 + 1 * q.val = q.val; omega
  have a1 : iblk8 V c 1 t (ix2 p q) = V c main_v94_1 (ix2 (⟨win8_6.index t (0 : Fin 2) * 1000 + p.val, hr⟩ : Fin 100000) q) := by
    show V c main_v94_1 (((cfg8.win 1).blk t).view.emb (ix2 p q)) = _
    refine congrArg (V c main_v94_1) (funext fun a => Fin.ext ?_)
    match a with
    | ⟨0, _⟩ => show win8_1.index t (0 : Fin 2) * 1000 + 1 * p.val = win8_6.index t (0 : Fin 2) * 1000 + p.val; omega
    | ⟨1, _⟩ => show win8_1.index t (1 : Fin 2) * 128 + 1 * q.val = q.val; omega
  have a2 : iblk8 V c 2 t (ix2 (0 : Fin 1) q) = V c main_v102 (ix2 (0 : Fin 1) q) := by
    show V c main_v102 (((cfg8.win 2).blk t).view.emb (ix2 (0 : Fin 1) q)) = _
    refine congrArg (V c main_v102) (funext fun a => Fin.ext ?_)
    match a with
    | ⟨0, _⟩ => show win8_2.index t (0 : Fin 2) * 1 + 1 * 0 = 0; omega
    | ⟨1, _⟩ => show win8_2.index t (1 : Fin 2) * 128 + 1 * q.val = q.val; omega
  have a3 : iblk8 V c 3 t (ix2 (0 : Fin 1) q) = V c main_v105 (ix2 (0 : Fin 1) q) := by
    show V c main_v105 (((cfg8.win 3).blk t).view.emb (ix2 (0 : Fin 1) q)) = _
    refine congrArg (V c main_v105) (funext fun a => Fin.ext ?_)
    match a with
    | ⟨0, _⟩ => show win8_3.index t (0 : Fin 2) * 1 + 1 * 0 = 0; omega
    | ⟨1, _⟩ => show win8_3.index t (1 : Fin 2) * 128 + 1 * q.val = q.val; omega
  have a4 : iblk8 V c 4 t (ix2 (0 : Fin 1) q) = V c main_v108 (ix2 (0 : Fin 1) q) := by
    show V c main_v108 (((cfg8.win 4).blk t).view.emb (ix2 (0 : Fin 1) q)) = _
    refine congrArg (V c main_v108) (funext fun a => Fin.ext ?_)
    match a with
    | ⟨0, _⟩ => show win8_4.index t (0 : Fin 2) * 1 + 1 * 0 = 0; omega
    | ⟨1, _⟩ => show win8_4.index t (1 : Fin 2) * 128 + 1 * q.val = q.val; omega
  have a5 : iblk8 V c 5 t (ix2 (0 : Fin 1) q) = V c main_v111 (ix2 (0 : Fin 1) q) := by
    show V c main_v111 (((cfg8.win 5).blk t).view.emb (ix2 (0 : Fin 1) q)) = _
    refine congrArg (V c main_v111) (funext fun a => Fin.ext ?_)
    match a with
    | ⟨0, _⟩ => show win8_5.index t (0 : Fin 2) * 1 + 1 * 0 = 0; omega
    | ⟨1, _⟩ => show win8_5.index t (1 : Fin 2) * 128 + 1 * q.val = q.val; omega
  show k8_pay1 (F := Ideal) (iblk8 V c 0 t) (iblk8 V c 1 t) (iblk8 V c 2 t) (iblk8 V c 4 t) (iblk8 V c 5 t) (iblk8 V c 3 t) (ix2 p q)
      = finFrelu (V c main_v99) (V c main_v94_1) (V c main_v102) (V c main_v105) (V c main_v108) (V c main_v111)
          (((cfg8.win 6).blk t).view.emb (ix2 p q))
  rw [h6]
  exact fin2_point (V c main_v99) (V c main_v94_1) (V c main_v102) (V c main_v105) (V c main_v108) (V c main_v111)
    (iblk8 V c 0 t) (iblk8 V c 1 t) (iblk8 V c 2 t) (iblk8 V c 3 t) (iblk8 V c 4 t) (iblk8 V c 5 t) p q
    (⟨win8_6.index t (0 : Fin 2) * 1000 + p.val, hr⟩ : Fin 100000) a0 a1 a2 a3 a4 a5

theorem fin8_mem_blk (t : Fin cfg8.N) (i : S100000x128.Idx) :
    i ∈ ((cfg8.win 6).blk t).view.set ↔ ∀ a : Fin 2, win8_6.index t a * S1000x128.size a ≤ (i a).val ∧ (i a).val < win8_6.index t a * S1000x128.size a + S1000x128.size a := by
  show i ∈ ((View.whole main_v112).slice (win8_6.rect t)).set ↔ _
  rw [View.set_slice_whole, Rect.mem_set_unit]
  exact Iff.rfl

theorem fin8_cover (i : S100000x128.Idx) :
    ∃ t : Fin cfg8.N, (cfg8.win 6).flush t = true ∧ i ∈ ((cfg8.win 6).blk t).view.set := by
  have hi0 : (i 0).val < 100000 := (i 0).isLt
  have hi1 : (i 1).val < 128 := (i 1).isLt
  obtain ⟨t, ht⟩ := fin8_onto ⟨(i 0).val / 1000, by omega⟩
  have q0 : win8_6.index t (0 : Fin 2) = (i 0).val / 1000 := ht
  obtain ⟨-, -, -, -, -, -, -, -, -, -, -, -, -, e61⟩ := fin8_idx t
  refine ⟨t, flush8_6 t, ?_⟩
  rw [fin8_mem_blk]
  intro a
  match a with
  | ⟨0, _⟩ => show win8_6.index t (0 : Fin 2) * 1000 ≤ (i 0).val ∧ (i 0).val < win8_6.index t (0 : Fin 2) * 1000 + 1000; omega
  | ⟨1, _⟩ => show win8_6.index t (1 : Fin 2) * 128 ≤ (i 1).val ∧ (i 1).val < win8_6.index t (1 : Fin 2) * 128 + 128; omega

theorem fin8_out (c : Dev nD) : (dat8 (F := Ideal) V c).arrAt 6 cfg8.N = finFrelu (V c main_v99) (V c main_v94_1) (V c main_v102) (V c main_v105) (V c main_v108) (V c main_v111) :=
  (dat8 (F := Ideal) V c).arrAt_eq_of_cover 6
    (finFrelu (V c main_v99) (V c main_v94_1) (V c main_v102) (V c main_v105) (V c main_v108) (V c main_v111))
    (fun t _ => fin8_flushed V c t) fin8_cover

end Cert.KernelIdeal.GnnK

end
-- ==== Proof.KStep2.lean ====
import proofs.«408040_j36369783063008_1_alg».proof.Proof.Gen.KernelIdeal.Frame
import proofs.«408040_j36369783063008_1_alg».proof.Proof.Spec
import proofs.«408040_j36369783063008_1_alg».proof.Proof.Laws
import proofs.«408040_j36369783063008_1_alg».proof.Proof.LayerCore
import proofs.«408040_j36369783063008_1_alg».proof.Proof.KDefs
import proofs.«408040_j36369783063008_1_alg».proof.Proof.KTake
import proofs.«408040_j36369783063008_1_alg».proof.Proof.KHost0
import proofs.«408040_j36369783063008_1_alg».proof.Proof.KHost2
import proofs.«408040_j36369783063008_1_alg».proof.Proof.KLin6
import proofs.«408040_j36369783063008_1_alg».proof.Proof.KMsg7
import proofs.«408040_j36369783063008_1_alg».proof.Proof.KFin8

set_option maxRecDepth 16384

noncomputable section

namespace Cert.KernelIdeal.GnnK

open Cert.KernelIdeal Cert.KernelIdeal.Gen Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 2 of the tiled program: the contents of its result buffer at the layer's last boundary are the layer of
    the specification applied to the contents of its input buffer at the layer's first boundary. The three kernels'
    arrays are read off the pipelines' write-backs, the host stretches between them off their operations, and the
    composition is joined to the specification index by index. -/
theorem kstep2 (c : Dev nD)
    (hrow : ∀ e : S600000.Idx, 0 ≤ (rowK m ρ c e).toInt ∧ (rowK m ρ c e).toInt < 100000)
    (hvar : ∀ i : S5x128.Idx, ∃ r : ℝ, 0 ≤ r ∧ m ((c : Thread nD τ).loc main_arg9) i = ((r : ℝ) : EReal)) :
    W18 (F := Ideal) m ρ c (Proc.devRef .tc main_v112) =
      layerR 2 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg2))
        (degK m ρ c) (normK m ρ c) (kGath (rowK m ρ c)) (kScat (colK m ρ c)) (W12 (F := Ideal) m ρ c (Proc.devRef .tc main_v85)) := by
  have hHl : W14 (F := Ideal) m ρ c (Proc.devRef .tc main_v94_0) = linHl (W13 (F := Ideal) m ρ c (Proc.devRef .tc main_v85)) (W13 (F := Ideal) m ρ c (Proc.devRef .tc main_v87)) (W13 (F := Ideal) m ρ c (Proc.devRef .tc main_v90)) :=
    (W14_arr m ρ c 5).trans (lin6_hl (V13 m ρ) c)
  have hSelf : W14 (F := Ideal) m ρ c (Proc.devRef .tc main_v94_1) = linSelf (W13 (F := Ideal) m ρ c (Proc.devRef .tc main_v85)) (W13 (F := Ideal) m ρ c (Proc.devRef .tc main_v87)) (W13 (F := Ideal) m ρ c (Proc.devRef .tc main_v90)) (W13 (F := Ideal) m ρ c (Proc.devRef .tc main_v93)) (W13 (F := Ideal) m ρ c (Proc.devRef .tc main_v14)) :=
    (W14_arr m ρ c 6).trans (lin6_self (V13 m ρ) c)
  have hMsg : W16 (F := Ideal) m ρ c (Proc.devRef .tc main_v96) = msgF (W15 (F := Ideal) m ρ c (Proc.devRef .tc main_v95)) (W15 (F := Ideal) m ρ c (Proc.devRef .tc main_arg2)) (W15 (F := Ideal) m ρ c (Proc.devRef .tc main_v30)) :=
    (W16_arr m ρ c 3).trans (msg7_out (V15 m ρ) c)
  have hFin : W18 (F := Ideal) m ρ c (Proc.devRef .tc main_v112) = finFrelu (W17 (F := Ideal) m ρ c (Proc.devRef .tc main_v99)) (W17 (F := Ideal) m ρ c (Proc.devRef .tc main_v94_1)) (W17 (F := Ideal) m ρ c (Proc.devRef .tc main_v102)) (W17 (F := Ideal) m ρ c (Proc.devRef .tc main_v105)) (W17 (F := Ideal) m ρ c (Proc.devRef .tc main_v108)) (W17 (F := Ideal) m ρ c (Proc.devRef .tc main_v111)) :=
    (W18_arr m ρ c 6).trans (fin8_out (V17 m ρ) c)
  rw [hFin, kh2_agg m ρ c, hMsg, kh2_take m ρ c, kTake_eq_kGath _ _ hrow, hHl, kh2_self m ρ c, hSelf, kh2_ea m ρ c,
    kh2_hin m ρ c]
  exact layer_core_relu 2 _ _ _ _ _ _ _ _ _ _ _ _ _ _ _ _ _ _ _ _ _ _
    (fun k j => kh2_wt m ρ c k j) (fun j => kh2_b m ρ c j) (fun j => kh2_root m ρ c j)
    (fun j => kh2_gamma m ρ c j) (fun j => kh2_beta m ρ c j) (fun j => kh2_mean m ρ c j) (fun j => kh2_var m ρ c j)
    (fun n => kh2_dinv2 m ρ c n) (fun n => degK_real m ρ c n) (fun e => kh2_norm m ρ c e)
    (fun j => hvar (ix2 (2 : Fin 5) j))

end Cert.KernelIdeal.GnnK

end
-- ==== Proof.KHost3.lean ====
import proofs.«408040_j36369783063008_1_alg».proof.Proof.Gen.KernelIdeal.Frame
import proofs.«408040_j36369783063008_1_alg».proof.Proof.Spec
import proofs.«408040_j36369783063008_1_alg».proof.Proof.KDefs
import proofs.«408040_j36369783063008_1_alg».proof.Proof.KCarry
import proofs.«408040_j36369783063008_1_alg».proof.Proof.KHost0
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable (m : (ℓ : Loc nD τ sig) → Buf (Elt Ideal) ℓ) (ρ : Dev nD → PrngReg)

theorem ofBuf_main_v121_0 {Val : EltTy → Type} (h1 h2 h3) (u : (main_v121_0 : Ref sig .tc).ty.Contents Val) :
    (StableHlo.TRef.of (T := ⟨S100000x128, .f32⟩) main_v121_0 h1 h2 h3).ofBuf u = u := rfl
theorem toBuf_main_v122 {Val : EltTy → Type} (h1 h2 h3) (u : (⟨S600000x128, .f32⟩ : BufTy).Contents Val) :
    (StableHlo.TRef.of (T := ⟨S600000x128, .f32⟩) main_v122 h1 h2 h3).toBuf u = u := rfl

theorem kh3_row (X : S5x128.Idx → EReal) (j : Fin 128) :
    shapeCast S1x128 (shapeCast S128 (extractStridedSlice S1x128 ![3, 0] X slices_S5x128_S1x128_3_0)
      shapeCasts_S1x128_S128) shapeCasts_S128_S1x128 (ix2 (0 : Fin 1) j) = X (ix2 (3 : Fin 5) j) := by
  rw [shapeCast_a_1a_apply, shapeCast_1a_a_apply]
  exact slice2_axis0_apply _ X _ (0 : Fin 1) j (3 : Fin 5) (by rfl)

theorem kh3_slab (X : S5x128x128.Idx → EReal) (k j : Fin 128) :
    shapeCast S128x128 (extractStridedSlice S1x128x128 ![3, 0, 0] X slices_S5x128x128_S1x128x128_3_0_0)
      shapeCasts_S1x128x128_S128x128 (ix2 k j) = X (ix3 (3 : Fin 5) k j) := by
  rw [shapeCast_1ab_ab_apply]
  exact extractStridedSlice_apply _ _ _ _ (ix3 (3 : Fin 5) k j) (fun ax => by
    match ax with
    | ⟨0, _⟩ => rfl
    | ⟨1, _⟩ => exact (Nat.zero_add _).symm
    | ⟨2, _⟩ => exact (Nat.zero_add _).symm)

theorem kh3_wt_val (V : Valuation τ sig (Elt Ideal)) :
    (StableHlo.after hostOps9 V (Proc.devRef .tc main_v114) : S128x128.Idx → EReal)
      = shapeCast S128x128 (extractStridedSlice S1x128x128 ![3, 0, 0]
          (V (Proc.devRef .tc main_v31) : S5x128x128.Idx → EReal)
          slices_S5x128x128_S1x128x128_3_0_0) shapeCasts_S1x128x128_S128x128 := by
  after_results
  rfl

theorem kh3_wt (c : Dev nD) (k j : Fin 128) :
    (W19 (F := Ideal) m ρ c (Proc.devRef .tc main_v114) : S128x128.Idx → EReal) (ix2 k j)
      = (m ((c : Thread nD τ).loc main_arg3) : S5x128x128.Idx → EReal) (ix3 (3 : Fin 5) j k) := by
  refine (congrFun (kh3_wt_val (W18 (F := Ideal) m ρ c)) (ix2 k j)).trans ?_
  rw [show W18 (F := Ideal) m ρ c (Proc.devRef .tc main_v31) = W1 (F := Ideal) m ρ c (Proc.devRef .tc main_v31) from keep m ρ c 18 main_v31]
  exact (kh3_slab _ k j).trans (kh_v31 m ρ c (3 : Fin 5) k j)

theorem kh3_b_val (V : Valuation τ sig (Elt Ideal)) (j : Fin 128) :
    (StableHlo.after hostOps9 V (Proc.devRef .tc main_v117) : S1x128.Idx → EReal) (ix2 (0 : Fin 1) j)
      = (V (Proc.devRef .tc main_arg4) : S5x128.Idx → EReal) (ix2 (3 : Fin 5) j) := by
  have e : (StableHlo.after hostOps9 V (Proc.devRef .tc main_v117) : S1x128.Idx → EReal)
      = shapeCast S1x128 (shapeCast S128 (extractStridedSlice S1x128 ![3, 0]
          (V (Proc.devRef .tc main_arg4) : S5x128.Idx → EReal) slices_S5x128_S1x128_3_0)
          shapeCasts_S1x128_S128) shapeCasts_S128_S1x128 := by
    after_results
    rfl
  rw [e]
  exact kh3_row _ j
theorem kh3_b (c : Dev nD) (j : Fin 128) :
    (W19 (F := Ideal) m ρ c (Proc.devRef .tc main_v117) : S1x128.Idx → EReal) (ix2 (0 : Fin 1) j)
      = (m ((c : Thread nD τ).loc main_arg4) : S5x128.Idx → EReal) (ix2 (3 : Fin 5) j) :=
  (kh3_b_val (W18 (F := Ideal) m ρ c) j).trans (congrFun (keep_arg m ρ c 18 main_arg4) _)

theorem kh3_root_val (V : Valuation τ sig (Elt Ideal)) (j : Fin 128) :
    (StableHlo.after hostOps9 V (Proc.devRef .tc main_v120) : S1x128.Idx → EReal) (ix2 (0 : Fin 1) j)
      = (V (Proc.devRef .tc main_arg5) : S5x128.Idx → EReal) (ix2 (3 : Fin 5) j) := by
  have e : (StableHlo.after hostOps9 V (Proc.devRef .tc main_v120) : S1x128.Idx → EReal)
      = shapeCast S1x128 (shapeCast S128 (extractStridedSlice S1x128 ![3, 0]
          (V (Proc.devRef .tc main_arg5) : S5x128.Idx → EReal) slices_S5x128_S1x128_3_0)
          shapeCasts_S1x128_S128) shapeCasts_S128_S1x128 := by
    after_results
    rfl
  rw [e]
  exact kh3_row _ j
theorem kh3_root (c : Dev nD) (j : Fin 128) :
    (W19 (F := Ideal) m ρ c (Proc.devRef .tc main_v120) : S1x128.Idx → EReal) (ix2 (0 : Fin 1) j)
      = (m ((c : Thread nD τ).loc main_arg5) : S5x128.Idx → EReal) (ix2 (3 : Fin 5) j) :=
  (kh3_root_val (W18 (F := Ideal) m ρ c) j).trans (congrFun (keep_arg m ρ c 18 main_arg5) _)

theorem kh3_dinv2 (c : Dev nD) (n : Fin 100000) :
    (W19 (F := Ideal) m ρ c (Proc.devRef .tc main_v14) : S100000x1.Idx → EReal) (ix2 n (0 : Fin 1))
      = Ideal.div 1 (degK m ρ c (ix1 n)) :=
  (congrFun (keep m ρ c 19 main_v14) (ix2 n (0 : Fin 1))).trans (kh0_dinv2 m ρ c n)

theorem kh3_hin (c : Dev nD) :
    W19 (F := Ideal) m ρ c (Proc.devRef .tc main_v112) = W18 (F := Ideal) m ρ c (Proc.devRef .tc main_v112) :=
  StableHlo.after_of_forall_not_mem (b := Proc.devRef .tc main_v112) _ _ (List.forall_iff_forall_mem.mp (by
      simp only [hostOps9, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh3_take_val (V : Valuation τ sig (Elt Ideal)) :
    (StableHlo.after hostOps10 V (Proc.devRef .tc main_v122) : S600000x128.Idx → EReal)
      = kTake (V (Proc.devRef .tc main_v121_0)) (V (Proc.devRef .tc main_v1)) := by
  unfold kTake takeMask wrapIdx
  after_results_simp
  simp only [ofBuf_toBuf, ofBuf_main_v1, ofBuf_main_v121_0, toBuf_main_v122]
  all_goals rfl

theorem kh3_take (c : Dev nD) :
    (W21 (F := Ideal) m ρ c (Proc.devRef .tc main_v122) : S600000x128.Idx → EReal)
      = kTake (W20 (F := Ideal) m ρ c (Proc.devRef .tc main_v121_0)) (rowK m ρ c) :=
  (kh3_take_val (W20 (F := Ideal) m ρ c)).trans
    (congrArg (kTake (W20 (F := Ideal) m ρ c (Proc.devRef .tc main_v121_0))) (keep m ρ c 20 main_v1))

theorem kh3_ea (c : Dev nD) :
    W21 (F := Ideal) m ρ c (Proc.devRef .tc main_arg2) = m ((c : Thread nD τ).loc main_arg2) :=
  keep_arg m ρ c 21 main_arg2

theorem kh3_norm (c : Dev nD) (e : Fin 600000) :
    (W21 (F := Ideal) m ρ c (Proc.devRef .tc main_v30) : S600000x1.Idx → EReal) (ix2 e (0 : Fin 1))
      = normK m ρ c (ix1 e) :=
  (congrFun ((keep m ρ c 21 main_v30).trans (h0_v30 (W0 (F := Ideal) m ρ c))) (ix2 e (0 : Fin 1))).trans
    (ecol_read (normK m ρ c) e)

theorem kh3_agg_val (V : Valuation τ sig (Elt Ideal)) :
    (StableHlo.after hostOps11 V (Proc.devRef .tc main_v126) : S100000x128.Idx → EReal)
      = kScat (V (Proc.devRef .tc main_v3)) (V (Proc.devRef .tc main_v123)) := by
  after_results
  rfl

theorem kh3_agg (c : Dev nD) :
    (W23 (F := Ideal) m ρ c (Proc.devRef .tc main_v126) : S100000x128.Idx → EReal)
      = kScat (colK m ρ c) (W22 (F := Ideal) m ρ c (Proc.devRef .tc main_v123)) :=
  (kh3_agg_val (W22 (F := Ideal) m ρ c)).trans
    (congrArg (fun r => kScat r (W22 (F := Ideal) m ρ c (Proc.devRef .tc main_v123))) (keep m ρ c 22 main_v3))

theorem kh3_self (c : Dev nD) :
    W23 (F := Ideal) m ρ c (Proc.devRef .tc main_v121_1) = W20 (F := Ideal) m ρ c (Proc.devRef .tc main_v121_1) :=
  calc W23 (F := Ideal) m ρ c (Proc.devRef .tc main_v121_1)
    _ = W22 (F := Ideal) m ρ c (Proc.devRef .tc main_v121_1) :=
        StableHlo.after_of_forall_not_mem (b := Proc.devRef .tc main_v121_1) _ _ (List.forall_iff_forall_mem.mp (by
      simp only [hostOps11, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W21 (F := Ideal) m ρ c (Proc.devRef .tc main_v121_1) := W22_of_ne m ρ c main_v121_1 (by decide)
    _ = W20 (F := Ideal) m ρ c (Proc.devRef .tc main_v121_1) :=
        StableHlo.after_of_forall_not_mem (b := Proc.devRef .tc main_v121_1) _ _ (List.forall_iff_forall_mem.mp (by
      simp only [hostOps10, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh3_gamma_val (V : Valuation τ sig (Elt Ideal)) (j : Fin 128) :
    (StableHlo.after hostOps11 V (Proc.devRef .tc main_v129) : S1x128.Idx → EReal) (ix2 (0 : Fin 1) j)
      = (V (Proc.devRef .tc main_arg6) : S5x128.Idx → EReal) (ix2 (3 : Fin 5) j) := by
  have e : (StableHlo.after hostOps11 V (Proc.devRef .tc main_v129) : S1x128.Idx → EReal)
      = shapeCast S1x128 (shapeCast S128 (extractStridedSlice S1x128 ![3, 0]
          (V (Proc.devRef .tc main_arg6) : S5x128.Idx → EReal) slices_S5x128_S1x128_3_0)
          shapeCasts_S1x128_S128) shapeCasts_S128_S1x128 := by
    after_results
    rfl
  rw [e]
  exact kh3_row _ j
theorem kh3_gamma (c : Dev nD) (j : Fin 128) :
    (W23 (F := Ideal) m ρ c (Proc.devRef .tc main_v129) : S1x128.Idx → EReal) (ix2 (0 : Fin 1) j)
      = (m ((c : Thread nD τ).loc main_arg6) : S5x128.Idx → EReal) (ix2 (3 : Fin 5) j) :=
  (kh3_gamma_val (W22 (F := Ideal) m ρ c) j).trans (congrFun (keep_arg m ρ c 22 main_arg6) _)

theorem kh3_beta_val (V : Valuation τ sig (Elt Ideal)) (j : Fin 128) :
    (StableHlo.after hostOps11 V (Proc.devRef .tc main_v132) : S1x128.Idx → EReal) (ix2 (0 : Fin 1) j)
      = (V (Proc.devRef .tc main_arg7) : S5x128.Idx → EReal) (ix2 (3 : Fin 5) j) := by
  have e : (StableHlo.after hostOps11 V (Proc.devRef .tc main_v132) : S1x128.Idx → EReal)
      = shapeCast S1x128 (shapeCast S128 (extractStridedSlice S1x128 ![3, 0]
          (V (Proc.devRef .tc main_arg7) : S5x128.Idx → EReal) slices_S5x128_S1x128_3_0)
          shapeCasts_S1x128_S128) shapeCasts_S128_S1x128 := by
    after_results
    rfl
  rw [e]
  exact kh3_row _ j
theorem kh3_beta (c : Dev nD) (j : Fin 128) :
    (W23 (F := Ideal) m ρ c (Proc.devRef .tc main_v132) : S1x128.Idx → EReal) (ix2 (0 : Fin 1) j)
      = (m ((c : Thread nD τ).loc main_arg7) : S5x128.Idx → EReal) (ix2 (3 : Fin 5) j) :=
  (kh3_beta_val (W22 (F := Ideal) m ρ c) j).trans (congrFun (keep_arg m ρ c 22 main_arg7) _)

theorem kh3_mean_val (V : Valuation τ sig (Elt Ideal)) (j : Fin 128) :
    (StableHlo.after hostOps11 V (Proc.devRef .tc main_v135) : S1x128.Idx → EReal) (ix2 (0 : Fin 1) j)
      = (V (Proc.devRef .tc main_arg8) : S5x128.Idx → EReal) (ix2 (3 : Fin 5) j) := by
  have e : (StableHlo.after hostOps11 V (Proc.devRef .tc main_v135) : S1x128.Idx → EReal)
      = shapeCast S1x128 (shapeCast S128 (extractStridedSlice S1x128 ![3, 0]
          (V (Proc.devRef .tc main_arg8) : S5x128.Idx → EReal) slices_S5x128_S1x128_3_0)
          shapeCasts_S1x128_S128) shapeCasts_S128_S1x128 := by
    after_results
    rfl
  rw [e]
  exact kh3_row _ j
theorem kh3_mean (c : Dev nD) (j : Fin 128) :
    (W23 (F := Ideal) m ρ c (Proc.devRef .tc main_v135) : S1x128.Idx → EReal) (ix2 (0 : Fin 1) j)
      = (m ((c : Thread nD τ).loc main_arg8) : S5x128.Idx → EReal) (ix2 (3 : Fin 5) j) :=
  (kh3_mean_val (W22 (F := Ideal) m ρ c) j).trans (congrFun (keep_arg m ρ c 22 main_arg8) _)

theorem kh3_var_val (V : Valuation τ sig (Elt Ideal)) (j : Fin 128) :
    (StableHlo.after hostOps11 V (Proc.devRef .tc main_v138) : S1x128.Idx → EReal) (ix2 (0 : Fin 1) j)
      = (V (Proc.devRef .tc main_arg9) : S5x128.Idx → EReal) (ix2 (3 : Fin 5) j) := by
  have e : (StableHlo.after hostOps11 V (Proc.devRef .tc main_v138) : S1x128.Idx → EReal)
      = shapeCast S1x128 (shapeCast S128 (extractStridedSlice S1x128 ![3, 0]
          (V (Proc.devRef .tc main_arg9) : S5x128.Idx → EReal) slices_S5x128_S1x128_3_0)
          shapeCasts_S1x128_S128) shapeCasts_S128_S1x128 := by
    after_results
    rfl
  rw [e]
  exact kh3_row _ j
theorem kh3_var (c : Dev nD) (j : Fin 128) :
    (W23 (F := Ideal) m ρ c (Proc.devRef .tc main_v138) : S1x128.Idx → EReal) (ix2 (0 : Fin 1) j)
      = (m ((c : Thread nD τ).loc main_arg9) : S5x128.Idx → EReal) (ix2 (3 : Fin 5) j) :=
  (kh3_var_val (W22 (F := Ideal) m ρ c) j).trans (congrFun (keep_arg m ρ c 22 main_arg9) _)

end Cert.KernelIdeal.GnnK

end
-- ==== Proof.KLin9.lean ====
import proofs.«408040_j36369783063008_1_alg».proof.Proof.Gen.KernelIdeal.Frame
import proofs.«408040_j36369783063008_1_alg».proof.Proof.KLin0
import Idealize.ShloMosaic.Lib.Pipeline.Value
import Idealize.ShloMosaic.Lib.ValueIdx
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem lin9_pay1_eq (x0 : Vec Ideal S1000x128 .f32) (x1 : Vec Ideal S128x128 .f32) (x2 : Vec Ideal S1x128 .f32) :
    k9_pay1 (F := Ideal) x0 x1 x2 = k0_pay1 x0 x1 x2 := by
  unfold k9_pay1 k0_pay1
  simp only [shapeCast_self]

theorem lin9_pay2_eq (x0 : Vec Ideal S1000x128 .f32) (x1 : Vec Ideal S128x128 .f32) (x2 x3 : Vec Ideal S1x128 .f32)
    (x4 : Vec Ideal S1000x1 .f32) : k9_pay2 (F := Ideal) x0 x1 x2 x3 x4 = k0_pay2 x0 x1 x2 x3 x4 := by
  unfold k9_pay2 k0_pay2
  simp only [shapeCast_self, lin9_pay1_eq]

theorem lin9_idx_facts : ∀ t : Fin cfg9.N,
      win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

theorem lin9_flushed5 (c : Dev nD) (t : Fin cfg9.N) :
    (dat9 (F := Ideal) V c).flushed 5 t
      = ((cfg9.win 5).blk t).view.read (Elt Ideal) (linHl (V c main_v112) (V c main_v114) (V c main_v117)) := by
  show (cfg9.win 5).cut (grid9.coords t) ((dat9 (F := Ideal) V c).after 5 t) = _
  rw [after9_5]
  unfold out9_5
  rw [View.canon_unit_zero lin0_hz]
  simp only [View.ld_unit_zero (S := S1000x128) lin0_hz, View.ld_unit_zero (S := S128x128) lin0_hz,
    View.ld_unit_zero (S := S1x128) lin0_hz]
  obtain ⟨e00, e01, e10, e11, e20, e21, e30, e31, e40, e41, e50, e51, e60, e61⟩ := lin9_idx_facts t
  funext j
  obtain ⟨p, q, rfl⟩ : ∃ (p : Fin 1000) (q : Fin 128), j = ix2 p q := ⟨j 0, j 1, eq_ix2 j⟩
  show k9_pay1 (F := Ideal) (iblk9 V c 0 t) (iblk9 V c 1 t) (iblk9 V c 2 t) (ix2 p q)
    = linHl (V c main_v112) (V c main_v114) (V c main_v117) (((cfg9.win 5).blk t).view.emb (ix2 p q))
  rw [lin9_pay1_eq]
  refine lin0_hl_block (V c main_v112) (V c main_v114) (V c main_v117) (iblk9 V c 0 t) (iblk9 V c 1 t) (iblk9 V c 2 t)
    (((cfg9.win 5).blk t).view.emb (ix2 p q)) p q ?_ ?_ ?_
  · intro k
    show V c main_v112 (((cfg9.win 0).blk t).view.emb (ix2 p k)) = _
    refine congrArg (V c main_v112) (funext fun a => Fin.ext ?_)
    match a with
    | ⟨0, _⟩ => show win9_0.index t (0 : Fin 2) * 1000 + 1 * p.val = win9_5.index t (0 : Fin 2) * 1000 + 1 * p.val; omega
    | ⟨1, _⟩ => show win9_0.index t (1 : Fin 2) * 128 + 1 * k.val = k.val; omega
  · intro k
    show V c main_v114 (((cfg9.win 1).blk t).view.emb (ix2 k q)) = _
    refine congrArg (V c main_v114) (funext fun a => Fin.ext ?_)
    match a with
    | ⟨0, _⟩ => show win9_1.index t (0 : Fin 2) * 128 + 1 * k.val = k.val; omega
    | ⟨1, _⟩ => show win9_1.index t (1 : Fin 2) * 128 + 1 * q.val = win9_5.index t (1 : Fin 2) * 128 + 1 * q.val; omega
  · show V c main_v117 (((cfg9.win 2).blk t).view.emb (ix2 (0 : Fin 1) q)) = _
    refine congrArg (V c main_v117) (funext fun a => Fin.ext ?_)
    match a with
    | ⟨0, _⟩ => show win9_2.index t (0 : Fin 2) * 1 + 1 * 0 = 0; omega
    | ⟨1, _⟩ => show win9_2.index t (1 : Fin 2) * 128 + 1 * q.val = win9_5.index t (1 : Fin 2) * 128 + 1 * q.val; omega

theorem lin9_flushed6 (c : Dev nD) (t : Fin cfg9.N) :
    (dat9 (F := Ideal) V c).flushed 6 t
      = ((cfg9.win 6).blk t).view.read (Elt Ideal)
          (linSelf (V c main_v112) (V c main_v114) (V c main_v117) (V c main_v120) (V c main_v14)) := by
  show (cfg9.win 6).cut (grid9.coords t) ((dat9 (F := Ideal) V c).after 6 t) = _
  rw [after9_6]
  unfold out9_6
  rw [View.canon_unit_zero lin0_hz]
  simp only [View.ld_unit_zero (S := S1000x128) lin0_hz, View.ld_unit_zero (S := S128x128) lin0_hz,
    View.ld_unit_zero (S := S1x128) lin0_hz, View.ld_unit_zero (S := S1000x1) lin0_hz]
  obtain ⟨e00, e01, e10, e11, e20, e21, e30, e31, e40, e41, e50, e51, e60, e61⟩ := lin9_idx_facts t
  funext j
  obtain ⟨p, q, rfl⟩ : ∃ (p : Fin 1000) (q : Fin 128), j = ix2 p q := ⟨j 0, j 1, eq_ix2 j⟩
  show k9_pay2 (F := Ideal) (iblk9 V c 0 t) (iblk9 V c 1 t) (iblk9 V c 2 t) (iblk9 V c 3 t) (iblk9 V c 4 t) (ix2 p q)
    = linSelf (V c main_v112) (V c main_v114) (V c main_v117) (V c main_v120) (V c main_v14)
        (((cfg9.win 6).blk t).view.emb (ix2 p q))
  rw [lin9_pay2_eq]
  refine lin0_self_block (V c main_v112) (V c main_v114) (V c main_v117) (V c main_v120) (V c main_v14)
    (iblk9 V c 0 t) (iblk9 V c 1 t) (iblk9 V c 2 t) (iblk9 V c 3 t) (iblk9 V c 4 t)
    (((cfg9.win 6).blk t).view.emb (ix2 p q)) p q ?_ ?_ ?_ ?_ ?_
  · intro k
    show V c main_v112 (((cfg9.win 0).blk t).view.emb (ix2 p k)) = _
    refine congrArg (V c main_v112) (funext fun a => Fin.ext ?_)
    match a with
    | ⟨0, _⟩ => show win9_0.index t (0 : Fin 2) * 1000 + 1 * p.val = win9_6.index t (0 : Fin 2) * 1000 + 1 * p.val; omega
    | ⟨1, _⟩ => show win9_0.index t (1 : Fin 2) * 128 + 1 * k.val = k.val; omega
  · intro k
    show V c main_v114 (((cfg9.win 1).blk t).view.emb (ix2 k q)) = _
    refine congrArg (V c main_v114) (funext fun a => Fin.ext ?_)
    match a with
    | ⟨0, _⟩ => show win9_1.index t (0 : Fin 2) * 128 + 1 * k.val = k.val; omega
    | ⟨1, _⟩ => show win9_1.index t (1 : Fin 2) * 128 + 1 * q.val = win9_6.index t (1 : Fin 2) * 128 + 1 * q.val; omega
  · show V c main_v117 (((cfg9.win 2).blk t).view.emb (ix2 (0 : Fin 1) q)) = _
    refine congrArg (V c main_v117) (funext fun a => Fin.ext ?_)
    match a with
    | ⟨0, _⟩ => show win9_2.index t (0 : Fin 2) * 1 + 1 * 0 = 0; omega
    | ⟨1, _⟩ => show win9_2.index t (1 : Fin 2) * 128 + 1 * q.val = win9_6.index t (1 : Fin 2) * 128 + 1 * q.val; omega
  · show V c main_v120 (((cfg9.win 3).blk t).view.emb (ix2 (0 : Fin 1) q)) = _
    refine congrArg (V c main_v120) (funext fun a => Fin.ext ?_)
    match a with
    | ⟨0, _⟩ => show win9_3.index t (0 : Fin 2) * 1 + 1 * 0 = 0; omega
    | ⟨1, _⟩ => show win9_3.index t (1 : Fin 2) * 128 + 1 * q.val = win9_6.index t (1 : Fin 2) * 128 + 1 * q.val; omega
  · show V c main_v14 (((cfg9.win 4).blk t).view.emb (ix2 p (0 : Fin 1))) = _
    refine congrArg (V c main_v14) (funext fun a => Fin.ext ?_)
    match a with
    | ⟨0, _⟩ => show win9_4.index t (0 : Fin 2) * 1000 + 1 * p.val = win9_6.index t (0 : Fin 2) * 1000 + 1 * p.val; omega
    | ⟨1, _⟩ => show win9_4.index t (1 : Fin 2) * 1 + 1 * 0 = 0; omega

theorem lin9_mem_blk5 (t : Fin cfg9.N) (i : S100000x128.Idx) :
    i ∈ ((cfg9.win 5).blk t).view.set ↔ ∀ a : Fin 2, win9_5.index t a * S1000x128.size a ≤ (i a).val ∧ (i a).val < win9_5.index t a * S1000x128.size a + S1000x128.size a := by
  show i ∈ ((View.whole main_v121_0).slice (win9_5.rect t)).set ↔ _
  rw [View.set_slice_whole, Rect.mem_set_unit]
  exact Iff.rfl

theorem lin9_mem_blk6 (t : Fin cfg9.N) (i : S100000x128.Idx) :
    i ∈ ((cfg9.win 6).blk t).view.set ↔ ∀ a : Fin 2, win9_6.index t a * S1000x128.size a ≤ (i a).val ∧ (i a).val < win9_6.index t a * S1000x128.size a + S1000x128.size a := by
  show i ∈ ((View.whole main_v121_1).slice (win9_6.rect t)).set ↔ _
  rw [View.set_slice_whole, Rect.mem_set_unit]
  exact Iff.rfl

theorem lin9_cover5 (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  have hN : grid9.N = 100 := N_9
  have ht : (i 0).val / 1000 < grid9.N := by rw [hN]; omega
  obtain ⟨e00, e01, e10, e11, e20, e21, e30, e31, e40, e41, e50, e51, e60, e61⟩ := lin9_idx_facts ⟨(i 0).val / 1000, ht⟩
  refine ⟨⟨(i 0).val / 1000, ht⟩, flush9_5 _, ?_⟩
  rw [lin9_mem_blk5]
  intro a
  match a with
  | ⟨0, _⟩ =>
    show win9_5.index ⟨(i 0).val / 1000, ht⟩ (0 : Fin 2) * 1000 ≤ (i 0).val ∧ (i 0).val < win9_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win9_5.index ⟨(i 0).val / 1000, ht⟩ (1 : Fin 2) * 128 ≤ (i 1).val ∧ (i 1).val < win9_5.index ⟨(i 0).val / 1000, ht⟩ (1 : Fin 2) * 128 + 128
    rw [e51]
    omega

theorem lin9_cover6 (i : S100000x128.Idx) :
    ∃ t : Fin cfg9.N, (cfg9.win 6).flush t = true ∧ i ∈ ((cfg9.win 6).blk t).view.set := by
  have hi0 : (i 0).val < 100000 := (i 0).isLt
  have hi1 : (i 1).val < 128 := (i 1).isLt
  have hN : grid9.N = 100 := N_9
  have ht : (i 0).val / 1000 < grid9.N := by rw [hN]; omega
  obtain ⟨e00, e01, e10, e11, e20, e21, e30, e31, e40, e41, e50, e51, e60, e61⟩ := lin9_idx_facts ⟨(i 0).val / 1000, ht⟩
  refine ⟨⟨(i 0).val / 1000, ht⟩, flush9_6 _, ?_⟩
  rw [lin9_mem_blk6]
  intro a
  match a with
  | ⟨0, _⟩ =>
    show win9_6.index ⟨(i 0).val / 1000, ht⟩ (0 : Fin 2) * 1000 ≤ (i 0).val ∧ (i 0).val < win9_6.index ⟨(i 0).val / 1000, ht⟩ (0 : Fin 2) * 1000 + 1000
    rw [e60]
    show (i 0).val / 1000 * 1000 ≤ (i 0).val ∧ (i 0).val < (i 0).val / 1000 * 1000 + 1000
    omega
  | ⟨1, _⟩ =>
    show win9_6.index ⟨(i 0).val / 1000, ht⟩ (1 : Fin 2) * 128 ≤ (i 1).val ∧ (i 1).val < win9_6.index ⟨(i 0).val / 1000, ht⟩ (1 : Fin 2) * 128 + 128
    rw [e61]
    omega

theorem lin9_hl (c : Dev nD) :
    (dat9 (F := Ideal) V c).arrAt 5 cfg9.N = linHl (V c main_v112) (V c main_v114) (V c main_v117) :=
  (dat9 (F := Ideal) V c).arrAt_eq_of_cover 5 (linHl (V c main_v112) (V c main_v114) (V c main_v117))
    (fun t _ => lin9_flushed5 V c t) lin9_cover5

theorem lin9_self (c : Dev nD) :
    (dat9 (F := Ideal) V c).arrAt 6 cfg9.N
      = linSelf (V c main_v112) (V c main_v114) (V c main_v117) (V c main_v120) (V c main_v14) :=
  (dat9 (F := Ideal) V c).arrAt_eq_of_cover 6
    (linSelf (V c main_v112) (V c main_v114) (V c main_v117) (V c main_v120) (V c main_v14))
    (fun t _ => lin9_flushed6 V c t) lin9_cover6

end Cert.KernelIdeal.GnnK

end
-- ==== Proof.KMsg10.lean ====
import proofs.«408040_j36369783063008_1_alg».proof.Proof.Gen.KernelIdeal.Frame
import proofs.«408040_j36369783063008_1_alg».proof.Proof.KMsg1
import Idealize.ShloMosaic.Lib.Pipeline.Value
import Idealize.ShloMosaic.Lib.ValueIdx
import Idealize.ShloMosaic.PureOps.Ideal.Laws

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem msg10_idx : ∀ t : Fin cfg10.N, win10_0.index t (0 : Fin 2) = win10_3.index t (0 : Fin 2)
    ∧ win10_0.index t (1 : Fin 2) = 0
    ∧ win10_1.index t (0 : Fin 2) = win10_3.index t (0 : Fin 2)
    ∧ win10_1.index t (1 : Fin 2) = 0
    ∧ win10_2.index t (0 : Fin 2) = win10_3.index t (0 : Fin 2)
    ∧ win10_2.index t (1 : Fin 2) = 0
    ∧ win10_3.index t (0 : Fin 2) = t.val
    ∧ win10_3.index t (1 : Fin 2) = 0 :=
  (by decide +kernel : ∀ t : Fin grid10.N, _)

theorem msg10_flushed (c : Dev nD) (t : Fin cfg10.N) :
    (dat10 (F := Ideal) V c).flushed 3 t
      = ((cfg10.win 3).blk t).view.read (Elt Ideal) (msgF (V c main_v122) (V c main_arg2) (V c main_v30)) := by
  show (cfg10.win 3).cut (grid10.coords t) ((dat10 (F := Ideal) V c).after 3 t) = _
  rw [after10_3]
  unfold out10_3
  rw [View.canon_unit_zero msg1_hz]
  simp only [View.ld_unit_zero (S := S2000x128) msg1_hz, View.ld_unit_zero (S := S2000x1) msg1_hz]
  obtain ⟨e00, e01, e10, e11, e20, e21, e30, e31⟩ := msg10_idx t
  funext j
  show k10_pay1 (F := Ideal) (iblk10 V c 0 t) (iblk10 V c 1 t) (iblk10 V c 2 t) j
      = msgF (V c main_v122) (V c main_arg2) (V c main_v30) (((cfg10.win 3).blk t).view.emb j)
  refine msg1_block (V c main_v122) (V c main_arg2) (V c main_v30) (iblk10 V c 0 t) (iblk10 V c 1 t) (iblk10 V c 2 t)
    (((cfg10.win 3).blk t).view.emb j) j ?_ ?_ ?_
  ·
    show V c main_v122 (((cfg10.win 0).blk t).view.emb j) = V c main_v122 (((cfg10.win 3).blk t).view.emb j)
    have h : ((cfg10.win 0).blk t).view.emb j = ((cfg10.win 3).blk t).view.emb j := by
      funext a; apply Fin.ext
      match a with
      | ⟨0, _⟩ => show win10_0.index t (0 : Fin 2) * 2000 + 1 * (j 0).val = win10_3.index t (0 : Fin 2) * 2000 + 1 * (j 0).val; omega
      | ⟨1, _⟩ => show win10_0.index t (1 : Fin 2) * 128 + 1 * (j 1).val = win10_3.index t (1 : Fin 2) * 128 + 1 * (j 1).val; omega
    rw [h]
  ·
    show V c main_arg2 (((cfg10.win 1).blk t).view.emb j) = V c main_arg2 (((cfg10.win 3).blk t).view.emb j)
    have h : ((cfg10.win 1).blk t).view.emb j = ((cfg10.win 3).blk t).view.emb j := by
      funext a; apply Fin.ext
      match a with
      | ⟨0, _⟩ => show win10_1.index t (0 : Fin 2) * 2000 + 1 * (j 0).val = win10_3.index t (0 : Fin 2) * 2000 + 1 * (j 0).val; omega
      | ⟨1, _⟩ => show win10_1.index t (1 : Fin 2) * 128 + 1 * (j 1).val = win10_3.index t (1 : Fin 2) * 128 + 1 * (j 1).val; omega
    rw [h]
  ·
    show V c main_v30 (((cfg10.win 2).blk t).view.emb (ix2 (j 0 : Fin 2000) (0 : Fin 1)))
        = V c main_v30 (ix2 ((((cfg10.win 3).blk t).view.emb j) 0 : Fin 600000) (0 : Fin 1))
    have h : ((cfg10.win 2).blk t).view.emb (ix2 (j 0 : Fin 2000) (0 : Fin 1))
        = ix2 ((((cfg10.win 3).blk t).view.emb j) 0 : Fin 600000) (0 : Fin 1) := by
      funext a; apply Fin.ext
      match a with
      | ⟨0, _⟩ => show win10_2.index t (0 : Fin 2) * 2000 + 1 * (j 0).val = win10_3.index t (0 : Fin 2) * 2000 + 1 * (j 0).val; omega
      | ⟨1, _⟩ => show win10_2.index t (1 : Fin 2) * 1 + 1 * 0 = 0; omega
    exact congrArg (V c main_v30) h

theorem msg10_mem_blk (t : Fin cfg10.N) (i : S600000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v123).slice (win10_3.rect t)).set ↔ _
  rw [View.set_slice_whole, Rect.mem_set_unit]
  exact Iff.rfl

theorem msg10_cover (i : S600000x128.Idx) :
    ∃ t : Fin cfg10.N, (cfg10.win 3).flush t = true ∧ i ∈ ((cfg10.win 3).blk t).view.set := by
  have hi0 : (i 0).val < 600000 := (i 0).isLt
  have hi1 : (i 1).val < 128 := (i 1).isLt
  have hN : cfg10.N = 300 := N_10
  have hlt : (i 0).val / 2000 < cfg10.N := by omega
  obtain ⟨-, -, -, -, -, -, e30, e31⟩ := msg10_idx ⟨(i 0).val / 2000, hlt⟩
  have e30' : win10_3.index ⟨(i 0).val / 2000, hlt⟩ (0 : Fin 2) = (i 0).val / 2000 := e30
  refine ⟨⟨(i 0).val / 2000, hlt⟩, flush10_3 _, ?_⟩
  rw [msg10_mem_blk]
  intro a
  match a with
  | ⟨0, _⟩ =>
    show win10_3.index ⟨(i 0).val / 2000, hlt⟩ (0 : Fin 2) * 2000 ≤ (i 0).val
      ∧ (i 0).val < win10_3.index ⟨(i 0).val / 2000, hlt⟩ (0 : Fin 2) * 2000 + 2000
    omega
  | ⟨1, _⟩ =>
    show win10_3.index ⟨(i 0).val / 2000, hlt⟩ (1 : Fin 2) * 128 ≤ (i 1).val
      ∧ (i 1).val < win10_3.index ⟨(i 0).val / 2000, hlt⟩ (1 : Fin 2) * 128 + 128
    omega

theorem msg10_out (c : Dev nD) : (dat10 (F := Ideal) V c).arrAt 3 cfg10.N = msgF (V c main_v122) (V c main_arg2) (V c main_v30) :=
  (dat10 (F := Ideal) V c).arrAt_eq_of_cover 3 (msgF (V c main_v122) (V c main_arg2) (V c main_v30))
    (fun t _ => msg10_flushed V c t) msg10_cover

end Cert.KernelIdeal.GnnK

end
-- ==== Proof.KFin11.lean ====
import proofs.«408040_j36369783063008_1_alg».proof.Proof.Gen.KernelIdeal.Frame
import proofs.«408040_j36369783063008_1_alg».proof.Proof.KFin2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem fin11_idx : ∀ t : Fin cfg11.N,
    win11_0.index t (0 : Fin 2) = win11_6.index t (0 : Fin 2) ∧ win11_0.index t (1 : Fin 2) = 0
    ∧ win11_1.index t (0 : Fin 2) = win11_6.index t (0 : Fin 2) ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) ≤ 99 ∧ win11_6.index t (1 : Fin 2) = 0 :=
  (by decide +kernel : ∀ t : Fin grid11.N, _)

theorem fin11_onto : ∀ r : Fin 100, ∃ t : Fin cfg11.N, win11_6.index t (0 : Fin 2) = r.val :=
  (by decide +kernel : ∀ r : Fin 100, ∃ t : Fin grid11.N, win11_6.index t (0 : Fin 2) = r.val)

theorem fin11_flushed (c : Dev nD) (t : Fin cfg11.N) :
    (dat11 (F := Ideal) V c).flushed 6 t
      = ((cfg11.win 6).blk t).view.read (Elt Ideal)
          (finFrelu (V c main_v126) (V c main_v121_1) (V c main_v129) (V c main_v132) (V c main_v135) (V c main_v138)) := by
  show (cfg11.win 6).cut (grid11.coords t) ((dat11 (F := Ideal) V c).after 6 t) = _
  rw [after11_6]
  unfold out11_6
  rw [View.canon_unit_zero fin2_hz]
  simp only [View.ld_unit_zero (S := S1000x128) fin2_hz, View.ld_unit_zero (S := S1x128) fin2_hz]
  obtain ⟨e00, e01, e10, e11, e20, e21, e30, e31, e40, e41, e50, e51, e60, e61⟩ := fin11_idx t
  funext j
  obtain ⟨p, q, rfl⟩ : ∃ (p : Fin 1000) (q : Fin 128), j = ix2 p q := ⟨j 0, j 1, eq_ix2 j⟩

  have hr : win11_6.index t (0 : Fin 2) * 1000 + p.val < 100000 := by have := p.isLt; omega
  have h6 : ((cfg11.win 6).blk t).view.emb (ix2 p q) = ix2 (⟨win11_6.index t (0 : Fin 2) * 1000 + p.val, hr⟩ : Fin 100000) q := by
    funext a; apply Fin.ext
    match a with
    | ⟨0, _⟩ => show win11_6.index t (0 : Fin 2) * 1000 + 1 * p.val = win11_6.index t (0 : Fin 2) * 1000 + p.val; omega
    | ⟨1, _⟩ => show win11_6.index t (1 : Fin 2) * 128 + 1 * q.val = q.val; omega

  have a0 : iblk11 V c 0 t (ix2 p q) = V c main_v126 (ix2 (⟨win11_6.index t (0 : Fin 2) * 1000 + p.val, hr⟩ : Fin 100000) q) := by
    show V c main_v126 (((cfg11.win 0).blk t).view.emb (ix2 p q)) = _
    refine congrArg (V c main_v126) (funext fun a => Fin.ext ?_)
    match a with
    | ⟨0, _⟩ => show win11_0.index t (0 : Fin 2) * 1000 + 1 * p.val = win11_6.index t (0 : Fin 2) * 1000 + p.val; omega
    | ⟨1, _⟩ => show win11_0.index t (1 : Fin 2) * 128 + 1 * q.val = q.val; omega
  have a1 : iblk11 V c 1 t (ix2 p q) = V c main_v121_1 (ix2 (⟨win11_6.index t (0 : Fin 2) * 1000 + p.val, hr⟩ : Fin 100000) q) := by
    show V c main_v121_1 (((cfg11.win 1).blk t).view.emb (ix2 p q)) = _
    refine congrArg (V c main_v121_1) (funext fun a => Fin.ext ?_)
    match a with
    | ⟨0, _⟩ => show win11_1.index t (0 : Fin 2) * 1000 + 1 * p.val = win11_6.index t (0 : Fin 2) * 1000 + p.val; omega
    | ⟨1, _⟩ => show win11_1.index t (1 : Fin 2) * 128 + 1 * q.val = q.val; omega
  have a2 : iblk11 V c 2 t (ix2 (0 : Fin 1) q) = V c main_v129 (ix2 (0 : Fin 1) q) := by
    show V c main_v129 (((cfg11.win 2).blk t).view.emb (ix2 (0 : Fin 1) q)) = _
    refine congrArg (V c main_v129) (funext fun a => Fin.ext ?_)
    match a with
    | ⟨0, _⟩ => show win11_2.index t (0 : Fin 2) * 1 + 1 * 0 = 0; omega
    | ⟨1, _⟩ => show win11_2.index t (1 : Fin 2) * 128 + 1 * q.val = q.val; omega
  have a3 : iblk11 V c 3 t (ix2 (0 : Fin 1) q) = V c main_v132 (ix2 (0 : Fin 1) q) := by
    show V c main_v132 (((cfg11.win 3).blk t).view.emb (ix2 (0 : Fin 1) q)) = _
    refine congrArg (V c main_v132) (funext fun a => Fin.ext ?_)
    match a with
    | ⟨0, _⟩ => show win11_3.index t (0 : Fin 2) * 1 + 1 * 0 = 0; omega
    | ⟨1, _⟩ => show win11_3.index t (1 : Fin 2) * 128 + 1 * q.val = q.val; omega
  have a4 : iblk11 V c 4 t (ix2 (0 : Fin 1) q) = V c main_v135 (ix2 (0 : Fin 1) q) := by
    show V c main_v135 (((cfg11.win 4).blk t).view.emb (ix2 (0 : Fin 1) q)) = _
    refine congrArg (V c main_v135) (funext fun a => Fin.ext ?_)
    match a with
    | ⟨0, _⟩ => show win11_4.index t (0 : Fin 2) * 1 + 1 * 0 = 0; omega
    | ⟨1, _⟩ => show win11_4.index t (1 : Fin 2) * 128 + 1 * q.val = q.val; omega
  have a5 : iblk11 V c 5 t (ix2 (0 : Fin 1) q) = V c main_v138 (ix2 (0 : Fin 1) q) := by
    show V c main_v138 (((cfg11.win 5).blk t).view.emb (ix2 (0 : Fin 1) q)) = _
    refine congrArg (V c main_v138) (funext fun a => Fin.ext ?_)
    match a with
    | ⟨0, _⟩ => show win11_5.index t (0 : Fin 2) * 1 + 1 * 0 = 0; omega
    | ⟨1, _⟩ => show win11_5.index t (1 : Fin 2) * 128 + 1 * q.val = q.val; omega
  show k11_pay1 (F := Ideal) (iblk11 V c 0 t) (iblk11 V c 1 t) (iblk11 V c 2 t) (iblk11 V c 4 t) (iblk11 V c 5 t) (iblk11 V c 3 t) (ix2 p q)
      = finFrelu (V c main_v126) (V c main_v121_1) (V c main_v129) (V c main_v132) (V c main_v135) (V c main_v138)
          (((cfg11.win 6).blk t).view.emb (ix2 p q))
  rw [h6]
  exact fin2_point (V c main_v126) (V c main_v121_1) (V c main_v129) (V c main_v132) (V c main_v135) (V c main_v138)
    (iblk11 V c 0 t) (iblk11 V c 1 t) (iblk11 V c 2 t) (iblk11 V c 3 t) (iblk11 V c 4 t) (iblk11 V c 5 t) p q
    (⟨win11_6.index t (0 : Fin 2) * 1000 + p.val, hr⟩ : Fin 100000) a0 a1 a2 a3 a4 a5

theorem fin11_mem_blk (t : Fin cfg11.N) (i : S100000x128.Idx) :
    i ∈ ((cfg11.win 6).blk t).view.set ↔ ∀ a : Fin 2, win11_6.index t a * S1000x128.size a ≤ (i a).val ∧ (i a).val < win11_6.index t a * S1000x128.size a + S1000x128.size a := by
  show i ∈ ((View.whole main_v139).slice (win11_6.rect t)).set ↔ _
  rw [View.set_slice_whole, Rect.mem_set_unit]
  exact Iff.rfl

theorem fin11_cover (i : S100000x128.Idx) :
    ∃ t : Fin cfg11.N, (cfg11.win 6).flush t = true ∧ i ∈ ((cfg11.win 6).blk t).view.set := by
  have hi0 : (i 0).val < 100000 := (i 0).isLt
  have hi1 : (i 1).val < 128 := (i 1).isLt
  obtain ⟨t, ht⟩ := fin11_onto ⟨(i 0).val / 1000, by omega⟩
  have q0 : win11_6.index t (0 : Fin 2) = (i 0).val / 1000 := ht
  obtain ⟨-, -, -, -, -, -, -, -, -, -, -, -, -, e61⟩ := fin11_idx t
  refine ⟨t, flush11_6 t, ?_⟩
  rw [fin11_mem_blk]
  intro a
  match a with
  | ⟨0, _⟩ => show win11_6.index t (0 : Fin 2) * 1000 ≤ (i 0).val ∧ (i 0).val < win11_6.index t (0 : Fin 2) * 1000 + 1000; omega
  | ⟨1, _⟩ => show win11_6.index t (1 : Fin 2) * 128 ≤ (i 1).val ∧ (i 1).val < win11_6.index t (1 : Fin 2) * 128 + 128; omega

theorem fin11_out (c : Dev nD) : (dat11 (F := Ideal) V c).arrAt 6 cfg11.N = finFrelu (V c main_v126) (V c main_v121_1) (V c main_v129) (V c main_v132) (V c main_v135) (V c main_v138) :=
  (dat11 (F := Ideal) V c).arrAt_eq_of_cover 6
    (finFrelu (V c main_v126) (V c main_v121_1) (V c main_v129) (V c main_v132) (V c main_v135) (V c main_v138))
    (fun t _ => fin11_flushed V c t) fin11_cover

end Cert.KernelIdeal.GnnK

end
-- ==== Proof.KStep3.lean ====
import proofs.«408040_j36369783063008_1_alg».proof.Proof.Gen.KernelIdeal.Frame
import proofs.«408040_j36369783063008_1_alg».proof.Proof.Spec
import proofs.«408040_j36369783063008_1_alg».proof.Proof.Laws
import proofs.«408040_j36369783063008_1_alg».proof.Proof.LayerCore
import proofs.«408040_j36369783063008_1_alg».proof.Proof.KDefs
import proofs.«408040_j36369783063008_1_alg».proof.Proof.KTake
import proofs.«408040_j36369783063008_1_alg».proof.Proof.KHost0
import proofs.«408040_j36369783063008_1_alg».proof.Proof.KHost3
import proofs.«408040_j36369783063008_1_alg».proof.Proof.KLin9
import proofs.«408040_j36369783063008_1_alg».proof.Proof.KMsg10
import proofs.«408040_j36369783063008_1_alg».proof.Proof.KFin11

set_option maxRecDepth 16384

noncomputable section

namespace Cert.KernelIdeal.GnnK

open Cert.KernelIdeal Cert.KernelIdeal.Gen Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 3 of the tiled program: the contents of its result buffer at the layer's last boundary are the layer of
    the specification applied to the contents of its input buffer at the layer's first boundary. The three kernels'
    arrays are read off the pipelines' write-backs, the host stretches between them off their operations, and the
    composition is joined to the specification index by index. -/
theorem kstep3 (c : Dev nD)
    (hrow : ∀ e : S600000.Idx, 0 ≤ (rowK m ρ c e).toInt ∧ (rowK m ρ c e).toInt < 100000)
    (hvar : ∀ i : S5x128.Idx, ∃ r : ℝ, 0 ≤ r ∧ m ((c : Thread nD τ).loc main_arg9) i = ((r : ℝ) : EReal)) :
    W24 (F := Ideal) m ρ c (Proc.devRef .tc main_v139) =
      layerR 3 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg2))
        (degK m ρ c) (normK m ρ c) (kGath (rowK m ρ c)) (kScat (colK m ρ c)) (W18 (F := Ideal) m ρ c (Proc.devRef .tc main_v112)) := by
  have hHl : W20 (F := Ideal) m ρ c (Proc.devRef .tc main_v121_0) = linHl (W19 (F := Ideal) m ρ c (Proc.devRef .tc main_v112)) (W19 (F := Ideal) m ρ c (Proc.devRef .tc main_v114)) (W19 (F := Ideal) m ρ c (Proc.devRef .tc main_v117)) :=
    (W20_arr m ρ c 5).trans (lin9_hl (V19 m ρ) c)
  have hSelf : W20 (F := Ideal) m ρ c (Proc.devRef .tc main_v121_1) = linSelf (W19 (F := Ideal) m ρ c (Proc.devRef .tc main_v112)) (W19 (F := Ideal) m ρ c (Proc.devRef .tc main_v114)) (W19 (F := Ideal) m ρ c (Proc.devRef .tc main_v117)) (W19 (F := Ideal) m ρ c (Proc.devRef .tc main_v120)) (W19 (F := Ideal) m ρ c (Proc.devRef .tc main_v14)) :=
    (W20_arr m ρ c 6).trans (lin9_self (V19 m ρ) c)
  have hMsg : W22 (F := Ideal) m ρ c (Proc.devRef .tc main_v123) = msgF (W21 (F := Ideal) m ρ c (Proc.devRef .tc main_v122)) (W21 (F := Ideal) m ρ c (Proc.devRef .tc main_arg2)) (W21 (F := Ideal) m ρ c (Proc.devRef .tc main_v30)) :=
    (W22_arr m ρ c 3).trans (msg10_out (V21 m ρ) c)
  have hFin : W24 (F := Ideal) m ρ c (Proc.devRef .tc main_v139) = finFrelu (W23 (F := Ideal) m ρ c (Proc.devRef .tc main_v126)) (W23 (F := Ideal) m ρ c (Proc.devRef .tc main_v121_1)) (W23 (F := Ideal) m ρ c (Proc.devRef .tc main_v129)) (W23 (F := Ideal) m ρ c (Proc.devRef .tc main_v132)) (W23 (F := Ideal) m ρ c (Proc.devRef .tc main_v135)) (W23 (F := Ideal) m ρ c (Proc.devRef .tc main_v138)) :=
    (W24_arr m ρ c 6).trans (fin11_out (V23 m ρ) c)
  rw [hFin, kh3_agg m ρ c, hMsg, kh3_take m ρ c, kTake_eq_kGath _ _ hrow, hHl, kh3_self m ρ c, hSelf, kh3_ea m ρ c,
    kh3_hin m ρ c]
  exact layer_core_relu 3 _ _ _ _ _ _ _ _ _ _ _ _ _ _ _ _ _ _ _ _ _ _
    (fun k j => kh3_wt m ρ c k j) (fun j => kh3_b m ρ c j) (fun j => kh3_root m ρ c j)
    (fun j => kh3_gamma m ρ c j) (fun j => kh3_beta m ρ c j) (fun j => kh3_mean m ρ c j) (fun j => kh3_var m ρ c j)
    (fun n => kh3_dinv2 m ρ c n) (fun n => degK_real m ρ c n) (fun e => kh3_norm m ρ c e)
    (fun j => hvar (ix2 (3 : Fin 5) j))

end Cert.KernelIdeal.GnnK

end
-- ==== Proof.KHost4.lean ====
import proofs.«408040_j36369783063008_1_alg».proof.Proof.Gen.KernelIdeal.Frame
import proofs.«408040_j36369783063008_1_alg».proof.Proof.Spec
import proofs.«408040_j36369783063008_1_alg».proof.Proof.KDefs
import proofs.«408040_j36369783063008_1_alg».proof.Proof.KCarry
import proofs.«408040_j36369783063008_1_alg».proof.Proof.KHost0
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable (m : (ℓ : Loc nD τ sig) → Buf (Elt Ideal) ℓ) (ρ : Dev nD → PrngReg)

theorem ofBuf_main_v148_0 {Val : EltTy → Type} (h1 h2 h3) (u : (main_v148_0 : Ref sig .tc).ty.Contents Val) :
    (StableHlo.TRef.of (T := ⟨S100000x128, .f32⟩) main_v148_0 h1 h2 h3).ofBuf u = u := rfl
theorem toBuf_main_v149 {Val : EltTy → Type} (h1 h2 h3) (u : (⟨S600000x128, .f32⟩ : BufTy).Contents Val) :
    (StableHlo.TRef.of (T := ⟨S600000x128, .f32⟩) main_v149 h1 h2 h3).toBuf u = u := rfl

theorem kh4_row (X : S5x128.Idx → EReal) (j : Fin 128) :
    shapeCast S1x128 (shapeCast S128 (extractStridedSlice S1x128 ![4, 0] X slices_S5x128_S1x128_4_0)
      shapeCasts_S1x128_S128) shapeCasts_S128_S1x128 (ix2 (0 : Fin 1) j) = X (ix2 (4 : Fin 5) j) := by
  rw [shapeCast_a_1a_apply, shapeCast_1a_a_apply]
  exact slice2_axis0_apply _ X _ (0 : Fin 1) j (4 : Fin 5) (by rfl)

theorem kh4_slab (X : S5x128x128.Idx → EReal) (k j : Fin 128) :
    shapeCast S128x128 (extractStridedSlice S1x128x128 ![4, 0, 0] X slices_S5x128x128_S1x128x128_4_0_0)
      shapeCasts_S1x128x128_S128x128 (ix2 k j) = X (ix3 (4 : Fin 5) k j) := by
  rw [shapeCast_1ab_ab_apply]
  exact extractStridedSlice_apply _ _ _ _ (ix3 (4 : Fin 5) k j) (fun ax => by
    match ax with
    | ⟨0, _⟩ => rfl
    | ⟨1, _⟩ => exact (Nat.zero_add _).symm
    | ⟨2, _⟩ => exact (Nat.zero_add _).symm)

theorem kh4_wt_val (V : Valuation τ sig (Elt Ideal)) :
    (StableHlo.after hostOps12 V (Proc.devRef .tc main_v141) : S128x128.Idx → EReal)
      = shapeCast S128x128 (extractStridedSlice S1x128x128 ![4, 0, 0]
          (V (Proc.devRef .tc main_v31) : S5x128x128.Idx → EReal)
          slices_S5x128x128_S1x128x128_4_0_0) shapeCasts_S1x128x128_S128x128 := by
  after_results
  rfl

theorem kh4_wt (c : Dev nD) (k j : Fin 128) :
    (W25 (F := Ideal) m ρ c (Proc.devRef .tc main_v141) : S128x128.Idx → EReal) (ix2 k j)
      = (m ((c : Thread nD τ).loc main_arg3) : S5x128x128.Idx → EReal) (ix3 (4 : Fin 5) j k) := by
  refine (congrFun (kh4_wt_val (W24 (F := Ideal) m ρ c)) (ix2 k j)).trans ?_
  rw [show W24 (F := Ideal) m ρ c (Proc.devRef .tc main_v31) = W1 (F := Ideal) m ρ c (Proc.devRef .tc main_v31) from keep m ρ c 24 main_v31]
  exact (kh4_slab _ k j).trans (kh_v31 m ρ c (4 : Fin 5) k j)

theorem kh4_b_val (V : Valuation τ sig (Elt Ideal)) (j : Fin 128) :
    (StableHlo.after hostOps12 V (Proc.devRef .tc main_v144) : S1x128.Idx → EReal) (ix2 (0 : Fin 1) j)
      = (V (Proc.devRef .tc main_arg4) : S5x128.Idx → EReal) (ix2 (4 : Fin 5) j) := by
  have e : (StableHlo.after hostOps12 V (Proc.devRef .tc main_v144) : S1x128.Idx → EReal)
      = shapeCast S1x128 (shapeCast S128 (extractStridedSlice S1x128 ![4, 0]
          (V (Proc.devRef .tc main_arg4) : S5x128.Idx → EReal) slices_S5x128_S1x128_4_0)
          shapeCasts_S1x128_S128) shapeCasts_S128_S1x128 := by
    after_results
    rfl
  rw [e]
  exact kh4_row _ j
theorem kh4_b (c : Dev nD) (j : Fin 128) :
    (W25 (F := Ideal) m ρ c (Proc.devRef .tc main_v144) : S1x128.Idx → EReal) (ix2 (0 : Fin 1) j)
      = (m ((c : Thread nD τ).loc main_arg4) : S5x128.Idx → EReal) (ix2 (4 : Fin 5) j) :=
  (kh4_b_val (W24 (F := Ideal) m ρ c) j).trans (congrFun (keep_arg m ρ c 24 main_arg4) _)

theorem kh4_root_val (V : Valuation τ sig (Elt Ideal)) (j : Fin 128) :
    (StableHlo.after hostOps12 V (Proc.devRef .tc main_v147) : S1x128.Idx → EReal) (ix2 (0 : Fin 1) j)
      = (V (Proc.devRef .tc main_arg5) : S5x128.Idx → EReal) (ix2 (4 : Fin 5) j) := by
  have e : (StableHlo.after hostOps12 V (Proc.devRef .tc main_v147) : S1x128.Idx → EReal)
      = shapeCast S1x128 (shapeCast S128 (extractStridedSlice S1x128 ![4, 0]
          (V (Proc.devRef .tc main_arg5) : S5x128.Idx → EReal) slices_S5x128_S1x128_4_0)
          shapeCasts_S1x128_S128) shapeCasts_S128_S1x128 := by
    after_results
    rfl
  rw [e]
  exact kh4_row _ j
theorem kh4_root (c : Dev nD) (j : Fin 128) :
    (W25 (F := Ideal) m ρ c (Proc.devRef .tc main_v147) : S1x128.Idx → EReal) (ix2 (0 : Fin 1) j)
      = (m ((c : Thread nD τ).loc main_arg5) : S5x128.Idx → EReal) (ix2 (4 : Fin 5) j) :=
  (kh4_root_val (W24 (F := Ideal) m ρ c) j).trans (congrFun (keep_arg m ρ c 24 main_arg5) _)

theorem kh4_dinv2 (c : Dev nD) (n : Fin 100000) :
    (W25 (F := Ideal) m ρ c (Proc.devRef .tc main_v14) : S100000x1.Idx → EReal) (ix2 n (0 : Fin 1))
      = Ideal.div 1 (degK m ρ c (ix1 n)) :=
  (congrFun (keep m ρ c 25 main_v14) (ix2 n (0 : Fin 1))).trans (kh0_dinv2 m ρ c n)

theorem kh4_hin (c : Dev nD) :
    W25 (F := Ideal) m ρ c (Proc.devRef .tc main_v139) = W24 (F := Ideal) m ρ c (Proc.devRef .tc main_v139) :=
  StableHlo.after_of_forall_not_mem (b := Proc.devRef .tc main_v139) _ _ (List.forall_iff_forall_mem.mp (by
      simp only [hostOps12, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh4_take_val (V : Valuation τ sig (Elt Ideal)) :
    (StableHlo.after hostOps13 V (Proc.devRef .tc main_v149) : S600000x128.Idx → EReal)
      = kTake (V (Proc.devRef .tc main_v148_0)) (V (Proc.devRef .tc main_v1)) := by
  unfold kTake takeMask wrapIdx
  after_results_simp
  simp only [ofBuf_toBuf, ofBuf_main_v1, ofBuf_main_v148_0, toBuf_main_v149]
  all_goals rfl

theorem kh4_take (c : Dev nD) :
    (W27 (F := Ideal) m ρ c (Proc.devRef .tc main_v149) : S600000x128.Idx → EReal)
      = kTake (W26 (F := Ideal) m ρ c (Proc.devRef .tc main_v148_0)) (rowK m ρ c) :=
  (kh4_take_val (W26 (F := Ideal) m ρ c)).trans
    (congrArg (kTake (W26 (F := Ideal) m ρ c (Proc.devRef .tc main_v148_0))) (keep m ρ c 26 main_v1))

theorem kh4_ea (c : Dev nD) :
    W27 (F := Ideal) m ρ c (Proc.devRef .tc main_arg2) = m ((c : Thread nD τ).loc main_arg2) :=
  keep_arg m ρ c 27 main_arg2

theorem kh4_norm (c : Dev nD) (e : Fin 600000) :
    (W27 (F := Ideal) m ρ c (Proc.devRef .tc main_v30) : S600000x1.Idx → EReal) (ix2 e (0 : Fin 1))
      = normK m ρ c (ix1 e) :=
  (congrFun ((keep m ρ c 27 main_v30).trans (h0_v30 (W0 (F := Ideal) m ρ c))) (ix2 e (0 : Fin 1))).trans
    (ecol_read (normK m ρ c) e)

theorem kh4_agg_val (V : Valuation τ sig (Elt Ideal)) :
    (StableHlo.after hostOps14 V (Proc.devRef .tc main_v153) : S100000x128.Idx → EReal)
      = kScat (V (Proc.devRef .tc main_v3)) (V (Proc.devRef .tc main_v150)) := by
  after_results
  rfl

theorem kh4_agg (c : Dev nD) :
    (W29 (F := Ideal) m ρ c (Proc.devRef .tc main_v153) : S100000x128.Idx → EReal)
      = kScat (colK m ρ c) (W28 (F := Ideal) m ρ c (Proc.devRef .tc main_v150)) :=
  (kh4_agg_val (W28 (F := Ideal) m ρ c)).trans
    (congrArg (fun r => kScat r (W28 (F := Ideal) m ρ c (Proc.devRef .tc main_v150))) (keep m ρ c 28 main_v3))

theorem kh4_self (c : Dev nD) :
    W29 (F := Ideal) m ρ c (Proc.devRef .tc main_v148_1) = W26 (F := Ideal) m ρ c (Proc.devRef .tc main_v148_1) :=
  calc W29 (F := Ideal) m ρ c (Proc.devRef .tc main_v148_1)
    _ = W28 (F := Ideal) m ρ c (Proc.devRef .tc main_v148_1) :=
        StableHlo.after_of_forall_not_mem (b := Proc.devRef .tc main_v148_1) _ _ (List.forall_iff_forall_mem.mp (by
      simp only [hostOps14, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W27 (F := Ideal) m ρ c (Proc.devRef .tc main_v148_1) := W28_of_ne m ρ c main_v148_1 (by decide)
    _ = W26 (F := Ideal) m ρ c (Proc.devRef .tc main_v148_1) :=
        StableHlo.after_of_forall_not_mem (b := Proc.devRef .tc main_v148_1) _ _ (List.forall_iff_forall_mem.mp (by
      simp only [hostOps13, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

theorem kh4_gamma_val (V : Valuation τ sig (Elt Ideal)) (j : Fin 128) :
    (StableHlo.after hostOps14 V (Proc.devRef .tc main_v156) : S1x128.Idx → EReal) (ix2 (0 : Fin 1) j)
      = (V (Proc.devRef .tc main_arg6) : S5x128.Idx → EReal) (ix2 (4 : Fin 5) j) := by
  have e : (StableHlo.after hostOps14 V (Proc.devRef .tc main_v156) : S1x128.Idx → EReal)
      = shapeCast S1x128 (shapeCast S128 (extractStridedSlice S1x128 ![4, 0]
          (V (Proc.devRef .tc main_arg6) : S5x128.Idx → EReal) slices_S5x128_S1x128_4_0)
          shapeCasts_S1x128_S128) shapeCasts_S128_S1x128 := by
    after_results
    rfl
  rw [e]
  exact kh4_row _ j
theorem kh4_gamma (c : Dev nD) (j : Fin 128) :
    (W29 (F := Ideal) m ρ c (Proc.devRef .tc main_v156) : S1x128.Idx → EReal) (ix2 (0 : Fin 1) j)
      = (m ((c : Thread nD τ).loc main_arg6) : S5x128.Idx → EReal) (ix2 (4 : Fin 5) j) :=
  (kh4_gamma_val (W28 (F := Ideal) m ρ c) j).trans (congrFun (keep_arg m ρ c 28 main_arg6) _)

theorem kh4_beta_val (V : Valuation τ sig (Elt Ideal)) (j : Fin 128) :
    (StableHlo.after hostOps14 V (Proc.devRef .tc main_v159) : S1x128.Idx → EReal) (ix2 (0 : Fin 1) j)
      = (V (Proc.devRef .tc main_arg7) : S5x128.Idx → EReal) (ix2 (4 : Fin 5) j) := by
  have e : (StableHlo.after hostOps14 V (Proc.devRef .tc main_v159) : S1x128.Idx → EReal)
      = shapeCast S1x128 (shapeCast S128 (extractStridedSlice S1x128 ![4, 0]
          (V (Proc.devRef .tc main_arg7) : S5x128.Idx → EReal) slices_S5x128_S1x128_4_0)
          shapeCasts_S1x128_S128) shapeCasts_S128_S1x128 := by
    after_results
    rfl
  rw [e]
  exact kh4_row _ j
theorem kh4_beta (c : Dev nD) (j : Fin 128) :
    (W29 (F := Ideal) m ρ c (Proc.devRef .tc main_v159) : S1x128.Idx → EReal) (ix2 (0 : Fin 1) j)
      = (m ((c : Thread nD τ).loc main_arg7) : S5x128.Idx → EReal) (ix2 (4 : Fin 5) j) :=
  (kh4_beta_val (W28 (F := Ideal) m ρ c) j).trans (congrFun (keep_arg m ρ c 28 main_arg7) _)

theorem kh4_mean_val (V : Valuation τ sig (Elt Ideal)) (j : Fin 128) :
    (StableHlo.after hostOps14 V (Proc.devRef .tc main_v162) : S1x128.Idx → EReal) (ix2 (0 : Fin 1) j)
      = (V (Proc.devRef .tc main_arg8) : S5x128.Idx → EReal) (ix2 (4 : Fin 5) j) := by
  have e : (StableHlo.after hostOps14 V (Proc.devRef .tc main_v162) : S1x128.Idx → EReal)
      = shapeCast S1x128 (shapeCast S128 (extractStridedSlice S1x128 ![4, 0]
          (V (Proc.devRef .tc main_arg8) : S5x128.Idx → EReal) slices_S5x128_S1x128_4_0)
          shapeCasts_S1x128_S128) shapeCasts_S128_S1x128 := by
    after_results
    rfl
  rw [e]
  exact kh4_row _ j
theorem kh4_mean (c : Dev nD) (j : Fin 128) :
    (W29 (F := Ideal) m ρ c (Proc.devRef .tc main_v162) : S1x128.Idx → EReal) (ix2 (0 : Fin 1) j)
      = (m ((c : Thread nD τ).loc main_arg8) : S5x128.Idx → EReal) (ix2 (4 : Fin 5) j) :=
  (kh4_mean_val (W28 (F := Ideal) m ρ c) j).trans (congrFun (keep_arg m ρ c 28 main_arg8) _)

theorem kh4_var_val (V : Valuation τ sig (Elt Ideal)) (j : Fin 128) :
    (StableHlo.after hostOps14 V (Proc.devRef .tc main_v165) : S1x128.Idx → EReal) (ix2 (0 : Fin 1) j)
      = (V (Proc.devRef .tc main_arg9) : S5x128.Idx → EReal) (ix2 (4 : Fin 5) j) := by
  have e : (StableHlo.after hostOps14 V (Proc.devRef .tc main_v165) : S1x128.Idx → EReal)
      = shapeCast S1x128 (shapeCast S128 (extractStridedSlice S1x128 ![4, 0]
          (V (Proc.devRef .tc main_arg9) : S5x128.Idx → EReal) slices_S5x128_S1x128_4_0)
          shapeCasts_S1x128_S128) shapeCasts_S128_S1x128 := by
    after_results
    rfl
  rw [e]
  exact kh4_row _ j
theorem kh4_var (c : Dev nD) (j : Fin 128) :
    (W29 (F := Ideal) m ρ c (Proc.devRef .tc main_v165) : S1x128.Idx → EReal) (ix2 (0 : Fin 1) j)
      = (m ((c : Thread nD τ).loc main_arg9) : S5x128.Idx → EReal) (ix2 (4 : Fin 5) j) :=
  (kh4_var_val (W28 (F := Ideal) m ρ c) j).trans (congrFun (keep_arg m ρ c 28 main_arg9) _)

end Cert.KernelIdeal.GnnK

end
-- ==== Proof.KLin12.lean ====
import proofs.«408040_j36369783063008_1_alg».proof.Proof.Gen.KernelIdeal.Frame
import proofs.«408040_j36369783063008_1_alg».proof.Proof.KLin0
import Idealize.ShloMosaic.Lib.Pipeline.Value
import Idealize.ShloMosaic.Lib.ValueIdx
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem lin12_pay1_eq (x0 : Vec Ideal S1000x128 .f32) (x1 : Vec Ideal S128x128 .f32) (x2 : Vec Ideal S1x128 .f32) :
    k12_pay1 (F := Ideal) x0 x1 x2 = k0_pay1 x0 x1 x2 := by
  unfold k12_pay1 k0_pay1
  simp only [shapeCast_self]

theorem lin12_pay2_eq (x0 : Vec Ideal S1000x128 .f32) (x1 : Vec Ideal S128x128 .f32) (x2 x3 : Vec Ideal S1x128 .f32)
    (x4 : Vec Ideal S1000x1 .f32) : k12_pay2 (F := Ideal) x0 x1 x2 x3 x4 = k0_pay2 x0 x1 x2 x3 x4 := by
  unfold k12_pay2 k0_pay2
  simp only [shapeCast_self, lin12_pay1_eq]

theorem lin12_idx_facts : ∀ t : Fin cfg12.N,
      win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0 :=
  (by decide +kernel : ∀ t : Fin grid12.N, _)

theorem lin12_flushed5 (c : Dev nD) (t : Fin cfg12.N) :
    (dat12 (F := Ideal) V c).flushed 5 t
      = ((cfg12.win 5).blk t).view.read (Elt Ideal) (linHl (V c main_v139) (V c main_v141) (V c main_v144)) := by
  show (cfg12.win 5).cut (grid12.coords t) ((dat12 (F := Ideal) V c).after 5 t) = _
  rw [after12_5]
  unfold out12_5
  rw [View.canon_unit_zero lin0_hz]
  simp only [View.ld_unit_zero (S := S1000x128) lin0_hz, View.ld_unit_zero (S := S128x128) lin0_hz,
    View.ld_unit_zero (S := S1x128) lin0_hz]
  obtain ⟨e00, e01, e10, e11, e20, e21, e30, e31, e40, e41, e50, e51, e60, e61⟩ := lin12_idx_facts t
  funext j
  obtain ⟨p, q, rfl⟩ : ∃ (p : Fin 1000) (q : Fin 128), j = ix2 p q := ⟨j 0, j 1, eq_ix2 j⟩
  show k12_pay1 (F := Ideal) (iblk12 V c 0 t) (iblk12 V c 1 t) (iblk12 V c 2 t) (ix2 p q)
    = linHl (V c main_v139) (V c main_v141) (V c main_v144) (((cfg12.win 5).blk t).view.emb (ix2 p q))
  rw [lin12_pay1_eq]
  refine lin0_hl_block (V c main_v139) (V c main_v141) (V c main_v144) (iblk12 V c 0 t) (iblk12 V c 1 t) (iblk12 V c 2 t)
    (((cfg12.win 5).blk t).view.emb (ix2 p q)) p q ?_ ?_ ?_
  · intro k
    show V c main_v139 (((cfg12.win 0).blk t).view.emb (ix2 p k)) = _
    refine congrArg (V c main_v139) (funext fun a => Fin.ext ?_)
    match a with
    | ⟨0, _⟩ => show win12_0.index t (0 : Fin 2) * 1000 + 1 * p.val = win12_5.index t (0 : Fin 2) * 1000 + 1 * p.val; omega
    | ⟨1, _⟩ => show win12_0.index t (1 : Fin 2) * 128 + 1 * k.val = k.val; omega
  · intro k
    show V c main_v141 (((cfg12.win 1).blk t).view.emb (ix2 k q)) = _
    refine congrArg (V c main_v141) (funext fun a => Fin.ext ?_)
    match a with
    | ⟨0, _⟩ => show win12_1.index t (0 : Fin 2) * 128 + 1 * k.val = k.val; omega
    | ⟨1, _⟩ => show win12_1.index t (1 : Fin 2) * 128 + 1 * q.val = win12_5.index t (1 : Fin 2) * 128 + 1 * q.val; omega
  · show V c main_v144 (((cfg12.win 2).blk t).view.emb (ix2 (0 : Fin 1) q)) = _
    refine congrArg (V c main_v144) (funext fun a => Fin.ext ?_)
    match a with
    | ⟨0, _⟩ => show win12_2.index t (0 : Fin 2) * 1 + 1 * 0 = 0; omega
    | ⟨1, _⟩ => show win12_2.index t (1 : Fin 2) * 128 + 1 * q.val = win12_5.index t (1 : Fin 2) * 128 + 1 * q.val; omega

theorem lin12_flushed6 (c : Dev nD) (t : Fin cfg12.N) :
    (dat12 (F := Ideal) V c).flushed 6 t
      = ((cfg12.win 6).blk t).view.read (Elt Ideal)
          (linSelf (V c main_v139) (V c main_v141) (V c main_v144) (V c main_v147) (V c main_v14)) := by
  show (cfg12.win 6).cut (grid12.coords t) ((dat12 (F := Ideal) V c).after 6 t) = _
  rw [after12_6]
  unfold out12_6
  rw [View.canon_unit_zero lin0_hz]
  simp only [View.ld_unit_zero (S := S1000x128) lin0_hz, View.ld_unit_zero (S := S128x128) lin0_hz,
    View.ld_unit_zero (S := S1x128) lin0_hz, View.ld_unit_zero (S := S1000x1) lin0_hz]
  obtain ⟨e00, e01, e10, e11, e20, e21, e30, e31, e40, e41, e50, e51, e60, e61⟩ := lin12_idx_facts t
  funext j
  obtain ⟨p, q, rfl⟩ : ∃ (p : Fin 1000) (q : Fin 128), j = ix2 p q := ⟨j 0, j 1, eq_ix2 j⟩
  show k12_pay2 (F := Ideal) (iblk12 V c 0 t) (iblk12 V c 1 t) (iblk12 V c 2 t) (iblk12 V c 3 t) (iblk12 V c 4 t) (ix2 p q)
    = linSelf (V c main_v139) (V c main_v141) (V c main_v144) (V c main_v147) (V c main_v14)
        (((cfg12.win 6).blk t).view.emb (ix2 p q))
  rw [lin12_pay2_eq]
  refine lin0_self_block (V c main_v139) (V c main_v141) (V c main_v144) (V c main_v147) (V c main_v14)
    (iblk12 V c 0 t) (iblk12 V c 1 t) (iblk12 V c 2 t) (iblk12 V c 3 t) (iblk12 V c 4 t)
    (((cfg12.win 6).blk t).view.emb (ix2 p q)) p q ?_ ?_ ?_ ?_ ?_
  · intro k
    show V c main_v139 (((cfg12.win 0).blk t).view.emb (ix2 p k)) = _
    refine congrArg (V c main_v139) (funext fun a => Fin.ext ?_)
    match a with
    | ⟨0, _⟩ => show win12_0.index t (0 : Fin 2) * 1000 + 1 * p.val = win12_6.index t (0 : Fin 2) * 1000 + 1 * p.val; omega
    | ⟨1, _⟩ => show win12_0.index t (1 : Fin 2) * 128 + 1 * k.val = k.val; omega
  · intro k
    show V c main_v141 (((cfg12.win 1).blk t).view.emb (ix2 k q)) = _
    refine congrArg (V c main_v141) (funext fun a => Fin.ext ?_)
    match a with
    | ⟨0, _⟩ => show win12_1.index t (0 : Fin 2) * 128 + 1 * k.val = k.val; omega
    | ⟨1, _⟩ => show win12_1.index t (1 : Fin 2) * 128 + 1 * q.val = win12_6.index t (1 : Fin 2) * 128 + 1 * q.val; omega
  · show V c main_v144 (((cfg12.win 2).blk t).view.emb (ix2 (0 : Fin 1) q)) = _
    refine congrArg (V c main_v144) (funext fun a => Fin.ext ?_)
    match a with
    | ⟨0, _⟩ => show win12_2.index t (0 : Fin 2) * 1 + 1 * 0 = 0; omega
    | ⟨1, _⟩ => show win12_2.index t (1 : Fin 2) * 128 + 1 * q.val = win12_6.index t (1 : Fin 2) * 128 + 1 * q.val; omega
  · show V c main_v147 (((cfg12.win 3).blk t).view.emb (ix2 (0 : Fin 1) q)) = _
    refine congrArg (V c main_v147) (funext fun a => Fin.ext ?_)
    match a with
    | ⟨0, _⟩ => show win12_3.index t (0 : Fin 2) * 1 + 1 * 0 = 0; omega
    | ⟨1, _⟩ => show win12_3.index t (1 : Fin 2) * 128 + 1 * q.val = win12_6.index t (1 : Fin 2) * 128 + 1 * q.val; omega
  · show V c main_v14 (((cfg12.win 4).blk t).view.emb (ix2 p (0 : Fin 1))) = _
    refine congrArg (V c main_v14) (funext fun a => Fin.ext ?_)
    match a with
    | ⟨0, _⟩ => show win12_4.index t (0 : Fin 2) * 1000 + 1 * p.val = win12_6.index t (0 : Fin 2) * 1000 + 1 * p.val; omega
    | ⟨1, _⟩ => show win12_4.index t (1 : Fin 2) * 1 + 1 * 0 = 0; omega

theorem lin12_mem_blk5 (t : Fin cfg12.N) (i : S100000x128.Idx) :
    i ∈ ((cfg12.win 5).blk t).view.set ↔ ∀ a : Fin 2, win12_5.index t a * S1000x128.size a ≤ (i a).val ∧ (i a).val < win12_5.index t a * S1000x128.size a + S1000x128.size a := by
  show i ∈ ((View.whole main_v148_0).slice (win12_5.rect t)).set ↔ _
  rw [View.set_slice_whole, Rect.mem_set_unit]
  exact Iff.rfl

theorem lin12_mem_blk6 (t : Fin cfg12.N) (i : S100000x128.Idx) :
    i ∈ ((cfg12.win 6).blk t).view.set ↔ ∀ a : Fin 2, win12_6.index t a * S1000x128.size a ≤ (i a).val ∧ (i a).val < win12_6.index t a * S1000x128.size a + S1000x128.size a := by
  show i ∈ ((View.whole main_v148_1).slice (win12_6.rect t)).set ↔ _
  rw [View.set_slice_whole, Rect.mem_set_unit]
  exact Iff.rfl

theorem lin12_cover5 (i : S100000x128.Idx) :
    ∃ t : Fin cfg12.N, (cfg12.win 5).flush t = true ∧ i ∈ ((cfg12.win 5).blk t).view.set := by
  have hi0 : (i 0).val < 100000 := (i 0).isLt
  have hi1 : (i 1).val < 128 := (i 1).isLt
  have hN : grid12.N = 100 := N_12
  have ht : (i 0).val / 1000 < grid12.N := by rw [hN]; omega
  obtain ⟨e00, e01, e10, e11, e20, e21, e30, e31, e40, e41, e50, e51, e60, e61⟩ := lin12_idx_facts ⟨(i 0).val / 1000, ht⟩
  refine ⟨⟨(i 0).val / 1000, ht⟩, flush12_5 _, ?_⟩
  rw [lin12_mem_blk5]
  intro a
  match a with
  | ⟨0, _⟩ =>
    show win12_5.index ⟨(i 0).val / 1000, ht⟩ (0 : Fin 2) * 1000 ≤ (i 0).val ∧ (i 0).val < win12_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win12_5.index ⟨(i 0).val / 1000, ht⟩ (1 : Fin 2) * 128 ≤ (i 1).val ∧ (i 1).val < win12_5.index ⟨(i 0).val / 1000, ht⟩ (1 : Fin 2) * 128 + 128
    rw [e51]
    omega

theorem lin12_cover6 (i : S100000x128.Idx) :
    ∃ t : Fin cfg12.N, (cfg12.win 6).flush t = true ∧ i ∈ ((cfg12.win 6).blk t).view.set := by
  have hi0 : (i 0).val < 100000 := (i 0).isLt
  have hi1 : (i 1).val < 128 := (i 1).isLt
  have hN : grid12.N = 100 := N_12
  have ht : (i 0).val / 1000 < grid12.N := by rw [hN]; omega
  obtain ⟨e00, e01, e10, e11, e20, e21, e30, e31, e40, e41, e50, e51, e60, e61⟩ := lin12_idx_facts ⟨(i 0).val / 1000, ht⟩
  refine ⟨⟨(i 0).val / 1000, ht⟩, flush12_6 _, ?_⟩
  rw [lin12_mem_blk6]
  intro a
  match a with
  | ⟨0, _⟩ =>
    show win12_6.index ⟨(i 0).val / 1000, ht⟩ (0 : Fin 2) * 1000 ≤ (i 0).val ∧ (i 0).val < win12_6.index ⟨(i 0).val / 1000, ht⟩ (0 : Fin 2) * 1000 + 1000
    rw [e60]
    show (i 0).val / 1000 * 1000 ≤ (i 0).val ∧ (i 0).val < (i 0).val / 1000 * 1000 + 1000
    omega
  | ⟨1, _⟩ =>
    show win12_6.index ⟨(i 0).val / 1000, ht⟩ (1 : Fin 2) * 128 ≤ (i 1).val ∧ (i 1).val < win12_6.index ⟨(i 0).val / 1000, ht⟩ (1 : Fin 2) * 128 + 128
    rw [e61]
    omega

theorem lin12_hl (c : Dev nD) :
    (dat12 (F := Ideal) V c).arrAt 5 cfg12.N = linHl (V c main_v139) (V c main_v141) (V c main_v144) :=
  (dat12 (F := Ideal) V c).arrAt_eq_of_cover 5 (linHl (V c main_v139) (V c main_v141) (V c main_v144))
    (fun t _ => lin12_flushed5 V c t) lin12_cover5

theorem lin12_self (c : Dev nD) :
    (dat12 (F := Ideal) V c).arrAt 6 cfg12.N
      = linSelf (V c main_v139) (V c main_v141) (V c main_v144) (V c main_v147) (V c main_v14) :=
  (dat12 (F := Ideal) V c).arrAt_eq_of_cover 6
    (linSelf (V c main_v139) (V c main_v141) (V c main_v144) (V c main_v147) (V c main_v14))
    (fun t _ => lin12_flushed6 V c t) lin12_cover6

end Cert.KernelIdeal.GnnK

end
-- ==== Proof.KMsg13.lean ====
import proofs.«408040_j36369783063008_1_alg».proof.Proof.Gen.KernelIdeal.Frame
import proofs.«408040_j36369783063008_1_alg».proof.Proof.KMsg1
import Idealize.ShloMosaic.Lib.Pipeline.Value
import Idealize.ShloMosaic.Lib.ValueIdx
import Idealize.ShloMosaic.PureOps.Ideal.Laws

noncomputable section

namespace Cert.KernelIdeal.GnnK

open Cert.KernelIdeal Cert.KernelIdeal.Gen Cert.GnnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem msg13_idx : ∀ t : Fin cfg13.N, win13_0.index t (0 : Fin 2) = win13_3.index t (0 : Fin 2)
    ∧ win13_0.index t (1 : Fin 2) = 0
    ∧ win13_1.index t (0 : Fin 2) = win13_3.index t (0 : Fin 2)
    ∧ win13_1.index t (1 : Fin 2) = 0
    ∧ win13_2.index t (0 : Fin 2) = win13_3.index t (0 : Fin 2)
    ∧ win13_2.index t (1 : Fin 2) = 0
    ∧ win13_3.index t (0 : Fin 2) = t.val
    ∧ win13_3.index t (1 : Fin 2) = 0 :=
  (by decide +kernel : ∀ t : Fin grid13.N, _)

theorem msg13_flushed (c : Dev nD) (t : Fin cfg13.N) :
    (dat13 (F := Ideal) V c).flushed 3 t
      = ((cfg13.win 3).blk t).view.read (Elt Ideal) (msgF (V c main_v149) (V c main_arg2) (V c main_v30)) := by
  show (cfg13.win 3).cut (grid13.coords t) ((dat13 (F := Ideal) V c).after 3 t) = _
  rw [after13_3]
  unfold out13_3
  rw [View.canon_unit_zero msg1_hz]
  simp only [View.ld_unit_zero (S := S2000x128) msg1_hz, View.ld_unit_zero (S := S2000x1) msg1_hz]
  obtain ⟨e00, e01, e10, e11, e20, e21, e30, e31⟩ := msg13_idx t
  funext j
  show k13_pay1 (F := Ideal) (iblk13 V c 0 t) (iblk13 V c 1 t) (iblk13 V c 2 t) j
      = msgF (V c main_v149) (V c main_arg2) (V c main_v30) (((cfg13.win 3).blk t).view.emb j)
  refine msg1_block (V c main_v149) (V c main_arg2) (V c main_v30) (iblk13 V c 0 t) (iblk13 V c 1 t) (iblk13 V c 2 t)
    (((cfg13.win 3).blk t).view.emb j) j ?_ ?_ ?_
  ·
    show V c main_v149 (((cfg13.win 0).blk t).view.emb j) = V c main_v149 (((cfg13.win 3).blk t).view.emb j)
    have h : ((cfg13.win 0).blk t).view.emb j = ((cfg13.win 3).blk t).view.emb j := by
      funext a; apply Fin.ext
      match a with
      | ⟨0, _⟩ => show win13_0.index t (0 : Fin 2) * 2000 + 1 * (j 0).val = win13_3.index t (0 : Fin 2) * 2000 + 1 * (j 0).val; omega
      | ⟨1, _⟩ => show win13_0.index t (1 : Fin 2) * 128 + 1 * (j 1).val = win13_3.index t (1 : Fin 2) * 128 + 1 * (j 1).val; omega
    rw [h]
  ·
    show V c main_arg2 (((cfg13.win 1).blk t).view.emb j) = V c main_arg2 (((cfg13.win 3).blk t).view.emb j)
    have h : ((cfg13.win 1).blk t).view.emb j = ((cfg13.win 3).blk t).view.emb j := by
      funext a; apply Fin.ext
      match a with
      | ⟨0, _⟩ => show win13_1.index t (0 : Fin 2) * 2000 + 1 * (j 0).val = win13_3.index t (0 : Fin 2) * 2000 + 1 * (j 0).val; omega
      | ⟨1, _⟩ => show win13_1.index t (1 : Fin 2) * 128 + 1 * (j 1).val = win13_3.index t (1 : Fin 2) * 128 + 1 * (j 1).val; omega
    rw [h]
  ·
    show V c main_v30 (((cfg13.win 2).blk t).view.emb (ix2 (j 0 : Fin 2000) (0 : Fin 1)))
        = V c main_v30 (ix2 ((((cfg13.win 3).blk t).view.emb j) 0 : Fin 600000) (0 : Fin 1))
    have h : ((cfg13.win 2).blk t).view.emb (ix2 (j 0 : Fin 2000) (0 : Fin 1))
        = ix2 ((((cfg13.win 3).blk t).view.emb j) 0 : Fin 600000) (0 : Fin 1) := by
      funext a; apply Fin.ext
      match a with
      | ⟨0, _⟩ => show win13_2.index t (0 : Fin 2) * 2000 + 1 * (j 0).val = win13_3.index t (0 : Fin 2) * 2000 + 1 * (j 0).val; omega
      | ⟨1, _⟩ => show win13_2.index t (1 : Fin 2) * 1 + 1 * 0 = 0; omega
    exact congrArg (V c main_v30) h

theorem msg13_mem_blk (t : Fin cfg13.N) (i : S600000x128.Idx) :
    i ∈ ((cfg13.win 3).blk t).view.set ↔ ∀ a : Fin 2, win13_3.index t a * S2000x128.size a ≤ (i a).val ∧ (i a).val < win13_3.index t a * S2000x128.size a + S2000x128.size a := by
  show i ∈ ((View.whole main_v150).slice (win13_3.rect t)).set ↔ _
  rw [View.set_slice_whole, Rect.mem_set_unit]
  exact Iff.rfl

theorem msg13_cover (i : S600000x128.Idx) :
    ∃ t : Fin cfg13.N, (cfg13.win 3).flush t = true ∧ i ∈ ((cfg13.win 3).blk t).view.set := by
  have hi0 : (i 0).val < 600000 := (i 0).isLt
  have hi1 : (i 1).val < 128 := (i 1).isLt
  have hN : cfg13.N = 300 := N_13
  have hlt : (i 0).val / 2000 < cfg13.N := by omega
  obtain ⟨-, -, -, -, -, -, e30, e31⟩ := msg13_idx ⟨(i 0).val / 2000, hlt⟩
  have e30' : win13_3.index ⟨(i 0).val / 2000, hlt⟩ (0 : Fin 2) = (i 0).val / 2000 := e30
  refine ⟨⟨(i 0).val / 2000, hlt⟩, flush13_3 _, ?_⟩
  rw [msg13_mem_blk]
  intro a
  match a with
  | ⟨0, _⟩ =>
    show win13_3.index ⟨(i 0).val / 2000, hlt⟩ (0 : Fin 2) * 2000 ≤ (i 0).val
      ∧ (i 0).val < win13_3.index ⟨(i 0).val / 2000, hlt⟩ (0 : Fin 2) * 2000 + 2000
    omega
  | ⟨1, _⟩ =>
    show win13_3.index ⟨(i 0).val / 2000, hlt⟩ (1 : Fin 2) * 128 ≤ (i 1).val
      ∧ (i 1).val < win13_3.index ⟨(i 0).val / 2000, hlt⟩ (1 : Fin 2) * 128 + 128
    omega

theorem msg13_out (c : Dev nD) : (dat13 (F := Ideal) V c).arrAt 3 cfg13.N = msgF (V c main_v149) (V c main_arg2) (V c main_v30) :=
  (dat13 (F := Ideal) V c).arrAt_eq_of_cover 3 (msgF (V c main_v149) (V c main_arg2) (V c main_v30))
    (fun t _ => msg13_flushed V c t) msg13_cover

end Cert.KernelIdeal.GnnK

end
-- ==== Proof.KFin14.lean ====
import proofs.«408040_j36369783063008_1_alg».proof.Proof.Gen.KernelIdeal.Frame
import proofs.«408040_j36369783063008_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GnnK

open Cert.KernelIdeal Cert.KernelIdeal.Gen Cert.GnnSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem fin14_hz : (![0, 0] : Fin 2 → Nat) = fun _ => 0 := funext fun a => by fin_cases a <;> rfl

theorem fin14_pay (x0 x1 : Vec Ideal S1000x128 .f32) (g mu vr b : Vec Ideal S1x128 .f32) (p : Fin 1000) (q : Fin 128) :
    k14_pay1 (F := Ideal) x0 x1 g mu vr b (ix2 p q)
      = g (ix2 (0 : Fin 1) q) * ((x0 (ix2 p q) + x1 (ix2 p q)) - mu (ix2 (0 : Fin 1) q))
          * Ideal.rsqrt (vr (ix2 (0 : Fin 1) q) + Ideal.ofBits .f32 0x3727C5AC#32) + b (ix2 (0 : Fin 1) q) := by
  unfold k14_pay1
  simp only [shapeCast_self]
  show broadcastTo S1000x128 g broadcasts_S1x128_S1000x128 (ix2 p q)
        * ((x0 (ix2 p q) + x1 (ix2 p q)) - broadcastTo S1000x128 mu broadcasts_S1x128_S1000x128 (ix2 p q))
        * broadcastTo S1000x128 (rsqrt (addf vr (broadcast S1x128 (Scalar.ofBits (F := Ideal) .f32 0x3727C5AC#32)))) broadcasts_S1x128_S1000x128 (ix2 p q)
        + broadcastTo S1000x128 b broadcasts_S1x128_S1000x128 (ix2 p q) = _
  rw [broadcastTo_1b_ab_apply, broadcastTo_1b_ab_apply, broadcastTo_1b_ab_apply, broadcastTo_1b_ab_apply]
  rfl

theorem fin14_point (A S : SND.Idx → E) (γ β μ v : S1D.Idx → E)
    (x0 x1 : Vec Ideal S1000x128 .f32) (g bt mu vr : Vec Ideal S1x128 .f32) (p : Fin 1000) (q : Fin 128) (r : Fin 100000)
    (a0 : x0 (ix2 p q) = A (ix2 r q)) (a1 : x1 (ix2 p q) = S (ix2 r q))
    (a2 : g (ix2 (0 : Fin 1) q) = γ (ix2 (0 : Fin 1) q)) (a3 : bt (ix2 (0 : Fin 1) q) = β (ix2 (0 : Fin 1) q))
    (a4 : mu (ix2 (0 : Fin 1) q) = μ (ix2 (0 : Fin 1) q)) (a5 : vr (ix2 (0 : Fin 1) q) = v (ix2 (0 : Fin 1) q)) :
    k14_pay1 (F := Ideal) x0 x1 g mu vr bt (ix2 p q) = finF A S γ β μ v (ix2 r q) := by
  rw [fin14_pay, a0, a1, a2, a3, a4, a5]
  rfl

theorem fin14_idx : ∀ t : Fin cfg14.N,
    win14_0.index t (0 : Fin 2) = win14_6.index t (0 : Fin 2) ∧ win14_0.index t (1 : Fin 2) = 0
    ∧ win14_1.index t (0 : Fin 2) = win14_6.index t (0 : Fin 2) ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) ≤ 99 ∧ win14_6.index t (1 : Fin 2) = 0 :=
  (by decide +kernel : ∀ t : Fin grid14.N, _)

theorem fin14_onto : ∀ r : Fin 100, ∃ t : Fin cfg14.N, win14_6.index t (0 : Fin 2) = r.val :=
  (by decide +kernel : ∀ r : Fin 100, ∃ t : Fin grid14.N, win14_6.index t (0 : Fin 2) = r.val)

theorem fin14_flushed (c : Dev nD) (t : Fin cfg14.N) :
    (dat14 (F := Ideal) V c).flushed 6 t
      = ((cfg14.win 6).blk t).view.read (Elt Ideal)
          (finF (V c main_v153) (V c main_v148_1) (V c main_v156) (V c main_v159) (V c main_v162) (V c main_v165)) := by
  show (cfg14.win 6).cut (grid14.coords t) ((dat14 (F := Ideal) V c).after 6 t) = _
  rw [after14_6]
  unfold out14_6
  rw [View.canon_unit_zero fin14_hz]
  simp only [View.ld_unit_zero (S := S1000x128) fin14_hz, View.ld_unit_zero (S := S1x128) fin14_hz]
  obtain ⟨e00, e01, e10, e11, e20, e21, e30, e31, e40, e41, e50, e51, e60, e61⟩ := fin14_idx t
  funext j
  obtain ⟨p, q, rfl⟩ : ∃ (p : Fin 1000) (q : Fin 128), j = ix2 p q := ⟨j 0, j 1, eq_ix2 j⟩

  have hr : win14_6.index t (0 : Fin 2) * 1000 + p.val < 100000 := by have := p.isLt; omega
  have h6 : ((cfg14.win 6).blk t).view.emb (ix2 p q) = ix2 (⟨win14_6.index t (0 : Fin 2) * 1000 + p.val, hr⟩ : Fin 100000) q := by
    funext a; apply Fin.ext
    match a with
    | ⟨0, _⟩ => show win14_6.index t (0 : Fin 2) * 1000 + 1 * p.val = win14_6.index t (0 : Fin 2) * 1000 + p.val; omega
    | ⟨1, _⟩ => show win14_6.index t (1 : Fin 2) * 128 + 1 * q.val = q.val; omega

  have a0 : iblk14 V c 0 t (ix2 p q) = V c main_v153 (ix2 (⟨win14_6.index t (0 : Fin 2) * 1000 + p.val, hr⟩ : Fin 100000) q) := by
    show V c main_v153 (((cfg14.win 0).blk t).view.emb (ix2 p q)) = _
    refine congrArg (V c main_v153) (funext fun a => Fin.ext ?_)
    match a with
    | ⟨0, _⟩ => show win14_0.index t (0 : Fin 2) * 1000 + 1 * p.val = win14_6.index t (0 : Fin 2) * 1000 + p.val; omega
    | ⟨1, _⟩ => show win14_0.index t (1 : Fin 2) * 128 + 1 * q.val = q.val; omega
  have a1 : iblk14 V c 1 t (ix2 p q) = V c main_v148_1 (ix2 (⟨win14_6.index t (0 : Fin 2) * 1000 + p.val, hr⟩ : Fin 100000) q) := by
    show V c main_v148_1 (((cfg14.win 1).blk t).view.emb (ix2 p q)) = _
    refine congrArg (V c main_v148_1) (funext fun a => Fin.ext ?_)
    match a with
    | ⟨0, _⟩ => show win14_1.index t (0 : Fin 2) * 1000 + 1 * p.val = win14_6.index t (0 : Fin 2) * 1000 + p.val; omega
    | ⟨1, _⟩ => show win14_1.index t (1 : Fin 2) * 128 + 1 * q.val = q.val; omega
  have a2 : iblk14 V c 2 t (ix2 (0 : Fin 1) q) = V c main_v156 (ix2 (0 : Fin 1) q) := by
    show V c main_v156 (((cfg14.win 2).blk t).view.emb (ix2 (0 : Fin 1) q)) = _
    refine congrArg (V c main_v156) (funext fun a => Fin.ext ?_)
    match a with
    | ⟨0, _⟩ => show win14_2.index t (0 : Fin 2) * 1 + 1 * 0 = 0; omega
    | ⟨1, _⟩ => show win14_2.index t (1 : Fin 2) * 128 + 1 * q.val = q.val; omega
  have a3 : iblk14 V c 3 t (ix2 (0 : Fin 1) q) = V c main_v159 (ix2 (0 : Fin 1) q) := by
    show V c main_v159 (((cfg14.win 3).blk t).view.emb (ix2 (0 : Fin 1) q)) = _
    refine congrArg (V c main_v159) (funext fun a => Fin.ext ?_)
    match a with
    | ⟨0, _⟩ => show win14_3.index t (0 : Fin 2) * 1 + 1 * 0 = 0; omega
    | ⟨1, _⟩ => show win14_3.index t (1 : Fin 2) * 128 + 1 * q.val = q.val; omega
  have a4 : iblk14 V c 4 t (ix2 (0 : Fin 1) q) = V c main_v162 (ix2 (0 : Fin 1) q) := by
    show V c main_v162 (((cfg14.win 4).blk t).view.emb (ix2 (0 : Fin 1) q)) = _
    refine congrArg (V c main_v162) (funext fun a => Fin.ext ?_)
    match a with
    | ⟨0, _⟩ => show win14_4.index t (0 : Fin 2) * 1 + 1 * 0 = 0; omega
    | ⟨1, _⟩ => show win14_4.index t (1 : Fin 2) * 128 + 1 * q.val = q.val; omega
  have a5 : iblk14 V c 5 t (ix2 (0 : Fin 1) q) = V c main_v165 (ix2 (0 : Fin 1) q) := by
    show V c main_v165 (((cfg14.win 5).blk t).view.emb (ix2 (0 : Fin 1) q)) = _
    refine congrArg (V c main_v165) (funext fun a => Fin.ext ?_)
    match a with
    | ⟨0, _⟩ => show win14_5.index t (0 : Fin 2) * 1 + 1 * 0 = 0; omega
    | ⟨1, _⟩ => show win14_5.index t (1 : Fin 2) * 128 + 1 * q.val = q.val; omega
  show k14_pay1 (F := Ideal) (iblk14 V c 0 t) (iblk14 V c 1 t) (iblk14 V c 2 t) (iblk14 V c 4 t) (iblk14 V c 5 t) (iblk14 V c 3 t) (ix2 p q)
      = finF (V c main_v153) (V c main_v148_1) (V c main_v156) (V c main_v159) (V c main_v162) (V c main_v165)
          (((cfg14.win 6).blk t).view.emb (ix2 p q))
  rw [h6]
  exact fin14_point (V c main_v153) (V c main_v148_1) (V c main_v156) (V c main_v159) (V c main_v162) (V c main_v165)
    (iblk14 V c 0 t) (iblk14 V c 1 t) (iblk14 V c 2 t) (iblk14 V c 3 t) (iblk14 V c 4 t) (iblk14 V c 5 t) p q
    (⟨win14_6.index t (0 : Fin 2) * 1000 + p.val, hr⟩ : Fin 100000) a0 a1 a2 a3 a4 a5

theorem fin14_mem_blk (t : Fin cfg14.N) (i : S100000x128.Idx) :
    i ∈ ((cfg14.win 6).blk t).view.set ↔ ∀ a : Fin 2, win14_6.index t a * S1000x128.size a ≤ (i a).val ∧ (i a).val < win14_6.index t a * S1000x128.size a + S1000x128.size a := by
  show i ∈ ((View.whole main_v166).slice (win14_6.rect t)).set ↔ _
  rw [View.set_slice_whole, Rect.mem_set_unit]
  exact Iff.rfl

theorem fin14_cover (i : S100000x128.Idx) :
    ∃ t : Fin cfg14.N, (cfg14.win 6).flush t = true ∧ i ∈ ((cfg14.win 6).blk t).view.set := by
  have hi0 : (i 0).val < 100000 := (i 0).isLt
  have hi1 : (i 1).val < 128 := (i 1).isLt
  obtain ⟨t, ht⟩ := fin14_onto ⟨(i 0).val / 1000, by omega⟩
  have q0 : win14_6.index t (0 : Fin 2) = (i 0).val / 1000 := ht
  obtain ⟨-, -, -, -, -, -, -, -, -, -, -, -, -, e61⟩ := fin14_idx t
  refine ⟨t, flush14_6 t, ?_⟩
  rw [fin14_mem_blk]
  intro a
  match a with
  | ⟨0, _⟩ => show win14_6.index t (0 : Fin 2) * 1000 ≤ (i 0).val ∧ (i 0).val < win14_6.index t (0 : Fin 2) * 1000 + 1000; omega
  | ⟨1, _⟩ => show win14_6.index t (1 : Fin 2) * 128 ≤ (i 1).val ∧ (i 1).val < win14_6.index t (1 : Fin 2) * 128 + 128; omega

theorem fin14_out (c : Dev nD) : (dat14 (F := Ideal) V c).arrAt 6 cfg14.N = finF (V c main_v153) (V c main_v148_1) (V c main_v156) (V c main_v159) (V c main_v162) (V c main_v165) :=
  (dat14 (F := Ideal) V c).arrAt_eq_of_cover 6
    (finF (V c main_v153) (V c main_v148_1) (V c main_v156) (V c main_v159) (V c main_v162) (V c main_v165))
    (fun t _ => fin14_flushed V c t) fin14_cover

end Cert.KernelIdeal.GnnK

end
-- ==== Proof.KStep4.lean ====
import proofs.«408040_j36369783063008_1_alg».proof.Proof.Gen.KernelIdeal.Frame
import proofs.«408040_j36369783063008_1_alg».proof.Proof.Spec
import proofs.«408040_j36369783063008_1_alg».proof.Proof.Laws
import proofs.«408040_j36369783063008_1_alg».proof.Proof.LayerCore
import proofs.«408040_j36369783063008_1_alg».proof.Proof.KDefs
import proofs.«408040_j36369783063008_1_alg».proof.Proof.KTake
import proofs.«408040_j36369783063008_1_alg».proof.Proof.KHost0
import proofs.«408040_j36369783063008_1_alg».proof.Proof.KHost4
import proofs.«408040_j36369783063008_1_alg».proof.Proof.KLin12
import proofs.«408040_j36369783063008_1_alg».proof.Proof.KMsg13
import proofs.«408040_j36369783063008_1_alg».proof.Proof.KFin14

set_option maxRecDepth 16384

noncomputable section

namespace Cert.KernelIdeal.GnnK

open Cert.KernelIdeal Cert.KernelIdeal.Gen Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 4 of the tiled program: the contents of its result buffer at the layer's last boundary are the layer of
    the specification applied to the contents of its input buffer at the layer's first boundary. The three kernels'
    arrays are read off the pipelines' write-backs, the host stretches between them off their operations, and the
    composition is joined to the specification index by index. -/
theorem kstep4 (c : Dev nD)
    (hrow : ∀ e : S600000.Idx, 0 ≤ (rowK m ρ c e).toInt ∧ (rowK m ρ c e).toInt < 100000)
    (hvar : ∀ i : S5x128.Idx, ∃ r : ℝ, 0 ≤ r ∧ m ((c : Thread nD τ).loc main_arg9) i = ((r : ℝ) : EReal)) :
    W30 (F := Ideal) m ρ c (Proc.devRef .tc main_v166) =
      layerL 4 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg2))
        (degK m ρ c) (normK m ρ c) (kGath (rowK m ρ c)) (kScat (colK m ρ c)) (W24 (F := Ideal) m ρ c (Proc.devRef .tc main_v139)) := by
  have hHl : W26 (F := Ideal) m ρ c (Proc.devRef .tc main_v148_0) = linHl (W25 (F := Ideal) m ρ c (Proc.devRef .tc main_v139)) (W25 (F := Ideal) m ρ c (Proc.devRef .tc main_v141)) (W25 (F := Ideal) m ρ c (Proc.devRef .tc main_v144)) :=
    (W26_arr m ρ c 5).trans (lin12_hl (V25 m ρ) c)
  have hSelf : W26 (F := Ideal) m ρ c (Proc.devRef .tc main_v148_1) = linSelf (W25 (F := Ideal) m ρ c (Proc.devRef .tc main_v139)) (W25 (F := Ideal) m ρ c (Proc.devRef .tc main_v141)) (W25 (F := Ideal) m ρ c (Proc.devRef .tc main_v144)) (W25 (F := Ideal) m ρ c (Proc.devRef .tc main_v147)) (W25 (F := Ideal) m ρ c (Proc.devRef .tc main_v14)) :=
    (W26_arr m ρ c 6).trans (lin12_self (V25 m ρ) c)
  have hMsg : W28 (F := Ideal) m ρ c (Proc.devRef .tc main_v150) = msgF (W27 (F := Ideal) m ρ c (Proc.devRef .tc main_v149)) (W27 (F := Ideal) m ρ c (Proc.devRef .tc main_arg2)) (W27 (F := Ideal) m ρ c (Proc.devRef .tc main_v30)) :=
    (W28_arr m ρ c 3).trans (msg13_out (V27 m ρ) c)
  have hFin : W30 (F := Ideal) m ρ c (Proc.devRef .tc main_v166) = finF (W29 (F := Ideal) m ρ c (Proc.devRef .tc main_v153)) (W29 (F := Ideal) m ρ c (Proc.devRef .tc main_v148_1)) (W29 (F := Ideal) m ρ c (Proc.devRef .tc main_v156)) (W29 (F := Ideal) m ρ c (Proc.devRef .tc main_v159)) (W29 (F := Ideal) m ρ c (Proc.devRef .tc main_v162)) (W29 (F := Ideal) m ρ c (Proc.devRef .tc main_v165)) :=
    (W30_arr m ρ c 6).trans (fin14_out (V29 m ρ) c)
  rw [hFin, kh4_agg m ρ c, hMsg, kh4_take m ρ c, kTake_eq_kGath _ _ hrow, hHl, kh4_self m ρ c, hSelf, kh4_ea m ρ c,
    kh4_hin m ρ c]
  exact layer_core_last 4 _ _ _ _ _ _ _ _ _ _ _ _ _ _ _ _ _ _ _ _ _ _
    (fun k j => kh4_wt m ρ c k j) (fun j => kh4_b m ρ c j) (fun j => kh4_root m ρ c j)
    (fun j => kh4_gamma m ρ c j) (fun j => kh4_beta m ρ c j) (fun j => kh4_mean m ρ c j) (fun j => kh4_var m ρ c j)
    (fun n => kh4_dinv2 m ρ c n) (fun n => degK_real m ρ c n) (fun e => kh4_norm m ρ c e)
    (fun j => hvar (ix2 (4 : Fin 5) j))

end Cert.KernelIdeal.GnnK

end
-- ==== Proof.KNet.lean ====
import proofs.«408040_j36369783063008_1_alg».proof.Proof.KStep0
import proofs.«408040_j36369783063008_1_alg».proof.Proof.KStep1
import proofs.«408040_j36369783063008_1_alg».proof.Proof.KStep2
import proofs.«408040_j36369783063008_1_alg».proof.Proof.KStep3
import proofs.«408040_j36369783063008_1_alg».proof.Proof.KStep4

noncomputable section

namespace Cert.KernelIdeal.GnnK

open Cert.KernelIdeal Cert.KernelIdeal.Gen Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The tiled program's result buffer at the last boundary holds the specification's five layers of the launch arrays. -/
theorem knet (c : Dev nD)
    (hrow : ∀ e : S600000.Idx, 0 ≤ (rowK m ρ c e).toInt ∧ (rowK m ρ c e).toInt < 100000)
    (hvar : ∀ i : S5x128.Idx, ∃ r : ℝ, 0 ≤ r ∧ m ((c : Thread nD τ).loc main_arg9) i = ((r : ℝ) : EReal)) :
    W30 (F := Ideal) m ρ c (Proc.devRef .tc main_v166) =
      netS (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg2))
        (degK m ρ c) (normK m ρ c) (kGath (rowK m ρ c)) (kScat (colK m ρ c)) (m ((c : Thread nD τ).loc main_arg0)) := by
  rw [kstep4 m ρ c hrow hvar, kstep3 m ρ c hrow hvar, kstep2 m ρ c hrow hvar, kstep1 m ρ c hrow hvar,
    kstep0 m ρ c hrow hvar]
  rfl

end Cert.KernelIdeal.GnnK

end
-- ==== Proof.PreFacts.lean ====
import proofs.«408040_j36369783063008_1_alg».proof.Defs
import proofs.«408040_j36369783063008_1_alg».proof.Proof.Gen.Pre_finite_inputs
import proofs.«408040_j36369783063008_1_alg».proof.Proof.Gen.KernelIdeal
import Idealize.ShloMosaic.Lib.ReduceAll
import Idealize.ShloMosaic.Lib.StableHlo.Predicate

namespace Cert.KernelIdeal.GnnK

open Cert.KernelIdeal Cert.KernelIdeal.Gen
open Idealize.ShloMosaic Idealize.SL.Sem

local instance scalarIdx_subsingleton : Subsingleton Cert.Pre_finite_inputs.S_.Idx :=
  ⟨fun a b => funext fun d => d.elim0⟩

theorem real_nonneg_of_cmp (x : EReal)
    (h1 : Ideal.cmp .olt (max x (-x)) (Ideal.ofBits .f32 0x7F800000#32) = 1#1)
    (h2 : Ideal.cmp .oge x (Ideal.ofBits .f32 0x00000000#32) = 1#1) :
    ∃ r : ℝ, 0 ≤ r ∧ x = ((r : ℝ) : EReal) := by
  have htop : Ideal.ofBits .f32 0x7F800000#32 = (⊤ : EReal) := by simp [Ideal.ofBits, Ideal.ieee]
  have hzero : Ideal.ofBits .f32 0x00000000#32 = (0 : EReal) := by simp [Ideal.ofBits, Ideal.ieee]
  rw [htop] at h1; rw [hzero] at h2
  simp only [Ideal.cmp, StableHlo.Predicate.ofBool_eq_one_iff, decide_eq_true_eq] at h1 h2
  induction x using EReal.rec with
  | bot => simp at h1
  | top => simp at h1
  | coe r => exact ⟨r, by exact_mod_cast h2, rfl⟩

theorem toInt_bounds (w : BitVec 32) (h1 : IntOp.cmpi .sge w 0#32 = 1#1) (h2 : IntOp.cmpi .slt w 100000#32 = 1#1) :
    0 ≤ w.toInt ∧ w.toInt < 100000 := by
  have e0 : (0#32 : BitVec 32).toInt = 0 := by decide
  have e1 : (100000#32 : BitVec 32).toInt = 100000 := by decide
  have a := IntOp.cmpi_sge.1 h1
  have b := IntOp.cmpi_slt.1 h2
  rw [e0] at a; rw [e1] at b
  exact ⟨a, b⟩

variable (m : (ℓ : Loc Cert.KernelIdeal.nD Cert.KernelIdeal.τ Cert.KernelIdeal.sig) → Buf (Elt Ideal) ℓ)

/-- Under the precondition each running variance is a non-negative real. -/
theorem pre_var (hp : Cert.Pre_KernelIdeal m) (c : Dev Cert.KernelIdeal.nD) (i : Cert.KernelIdeal.S5x128.Idx) :
    ∃ r : ℝ, 0 ≤ r ∧ m ((c.tc : Thread Cert.KernelIdeal.nD Cert.KernelIdeal.τ).loc Cert.KernelIdeal.main_arg9) i = ((r : ℝ) : EReal) := by
  have h := congrFun (hp c) (fun a => a.elim0)
  dsimp only [Cert.Pre_finite_inputs.fn, Cert.Pre_finite_inputs.fn_part1, Cert.Pre_finite_inputs.fn_part2,
    Cert.Pre_finite_inputs.fn_part3, andi] at h
  obtain ⟨h49, h52⟩ := IntOp.andi_eq_one.1 h
  obtain ⟨h38, -⟩ := IntOp.andi_eq_one.1 h49
  obtain ⟨-, h37⟩ := IntOp.andi_eq_one.1 h38
  have a := Host.reduce_andi_all _ _ _ _ _ h37 i
  have b := Host.reduce_andi_all _ _ _ _ _ h52 i
  exact real_nonneg_of_cmp _ a b

/-- Under the precondition each edge's source index lies in 0 … 99999. -/
theorem pre_row (hp : Cert.Pre_KernelIdeal m) (c : Dev Cert.KernelIdeal.nD) (e : Cert.KernelIdeal.S600000.Idx) :
    0 ≤ ((shapeCast Cert.KernelIdeal.S600000 (extractStridedSlice Cert.KernelIdeal.S1x600000 ![0, 0]
        (m ((c.tc : Thread Cert.KernelIdeal.nD Cert.KernelIdeal.τ).loc Cert.KernelIdeal.main_arg1))
        slices_S2x600000_S1x600000_0_0) shapeCasts_S1x600000_S600000 : IVec Cert.KernelIdeal.S600000 32) e).toInt
    ∧ ((shapeCast Cert.KernelIdeal.S600000 (extractStridedSlice Cert.KernelIdeal.S1x600000 ![0, 0]
        (m ((c.tc : Thread Cert.KernelIdeal.nD Cert.KernelIdeal.τ).loc Cert.KernelIdeal.main_arg1))
        slices_S2x600000_S1x600000_0_0) shapeCasts_S1x600000_S600000 : IVec Cert.KernelIdeal.S600000 32) e).toInt < 100000 := by
  have h := congrFun (hp c) (fun a => a.elim0)
  dsimp only [Cert.Pre_finite_inputs.fn, Cert.Pre_finite_inputs.fn_part1, Cert.Pre_finite_inputs.fn_part2,
    Cert.Pre_finite_inputs.fn_part3, andi] at h
  obtain ⟨h49, -⟩ := IntOp.andi_eq_one.1 h
  obtain ⟨-, h48⟩ := IntOp.andi_eq_one.1 h49
  have a := Host.reduce_andi_all _ _ _ _ _ h48 e
  obtain ⟨a1, a2⟩ := IntOp.andi_eq_one.1 a
  exact toInt_bounds _ a1 a2

end Cert.KernelIdeal.GnnK
-- ==== Proof.RLayer0.lean ====
import proofs.«408040_j36369783063008_1_alg».proof.Proof.RImports
import proofs.«408040_j36369783063008_1_alg».proof.Proof.Spec

noncomputable section

open scoped BigOperators
open Idealize.ShloMosaic Idealize.ShloMosaic.ValueIdx
open Cert.ReferenceIdeal Cert.ReferenceIdeal.Read Cert.GnnSpec

namespace Cert.ReferenceIdeal.GnnR

abbrev degR (a1 : IVec S2x600000 32) : FVec Ideal S100000 .f32 := val_main_v10 (F := Ideal) a1

abbrev normR (a1 : IVec S2x600000 32) : FVec Ideal S600000 .f32 := val_main_v27 (F := Ideal) a1

def gathR (a1 : IVec S2x600000 32) (hl : FVec Ideal S100000x128 .f32) : FVec Ideal S600000x128 .f32 :=
  Host.gather gather_S100000x128_S600000x1_S600000x128_1_0_n_n_0_1_1128 hl (val_main_v43 (F := Ideal) a1)

def scatR (a1 : IVec S2x600000 32) (u : FVec Ideal S600000x128 .f32) : FVec Ideal S100000x128 .f32 :=
  Host.scatterAdd scatter_S100000x128_S600000x1_S600000x128_1_0_0_1 (val_main_v49 (F := Ideal))
    (val_main_v50 (F := Ideal) a1) u

theorem gathR_of (a1 : IVec S2x600000 32) (idx : IVec S600000x1 32) (hidx : idx = val_main_v43 (F := Ideal) a1)
    {hl hl' : FVec Ideal S100000x128 .f32} (e : hl = hl') :
    Host.gather gather_S100000x128_S600000x1_S600000x128_1_0_n_n_0_1_1128 hl idx = gathR a1 hl' := by
  subst hidx; subst e; rfl

theorem scatR_of (a1 : IVec S2x600000 32) (z : FVec Ideal S100000x128 .f32) (hz : z = val_main_v49 (F := Ideal))
    (idx : IVec S600000x1 32) (hidx : idx = val_main_v50 (F := Ideal) a1)
    {u u' : FVec Ideal S600000x128 .f32} (e : u = u') :
    Host.scatterAdd scatter_S100000x128_S600000x1_S600000x128_1_0_0_1 z idx u = scatR a1 u' := by
  subst hz; subst hidx; subst e; rfl

section Layer

variable {a0 : FVec Ideal S100000x128 .f32} {a1 : IVec S2x600000 32} {a2 : IVec S600000x128 32}
  {a3 : FVec Ideal S5x128x128 .f32} {a4 a5 a6 a7 a8 a9 : FVec Ideal S5x128 .f32}

local notation "hIn" => a0

theorem hl_L0 : val_main_v37 (F := Ideal) a0 a3 a4 = hlS (0 : Fin 5) a3 a4 hIn := by
  funext i
  have h1 : (i 1).val < 128 := (i 1).isLt
  have eL : ∀ k : Fin 128, lidx_main_v32 i k = ix2 (i 0 : Fin 100000) k := fun k =>
    funext fun a => Fin.ext (by match a with | ⟨0, _⟩ => rfl | ⟨1, _⟩ => rfl)
  have eW : ∀ k : Fin 128, idx_main_v29 (idx_main_v30 (idx_main_v31 (ridx_main_v32 i k)))
      = ix3 (0 : Fin 5) (i 1 : Fin 128) k := fun k =>
    funext fun a => Fin.ext (by
      have hk : k.val < 128 := k.isLt
      match a with
      | ⟨0, _⟩ => rfl
      | ⟨1, _⟩ => show ((i 1).val * 128 + k.val) / 128 % 128 = (i 1).val; omega
      | ⟨2, _⟩ => show ((i 1).val * 128 + k.val) % 128 = k.val; omega)
  have eB : idx_main_v33 (idx_main_v34 (idx_main_v35 (idx_main_v36 i))) = ix2 (0 : Fin 5) (i 1 : Fin 128) :=
    funext fun a => Fin.ext (by
      match a with
      | ⟨0, _⟩ => rfl
      | ⟨1, _⟩ => show (i 1).val % 128 = (i 1).val; omega)
  have hs : ∀ k : Fin 128, hIn (lidx_main_v32 i k) * (val_main_v31 (F := Ideal) a3) (ridx_main_v32 i k)
      = hIn (ix2 (i 0 : Fin 100000) k) * a3 (ix3 (0 : Fin 5) (i 1 : Fin 128) k) := fun k => by
    rw [val_main_v31_apply, val_main_v30_apply, val_main_v29_apply, eL k, eW k]
    rfl
  rw [val_main_v37_apply, val_main_v32_apply, Finset.sum_congr rfl fun k _ => hs k, val_main_v36_apply,
    val_main_v35_apply, val_main_v34_apply, val_main_v33_apply, eB, Ideal.addf_def]
  rfl

theorem gath_L0 : val_main_v44 (F := Ideal) a0 a1 a3 a4 = gathR a1 (hlS (0 : Fin 5) a3 a4 hIn) := by
  unfold val_main_v44
  exact gathR_of a1 (val_main_v43 (F := Ideal) a1) rfl hl_L0

theorem msg_L0 : val_main_v48 (F := Ideal) a0 a1 a2 a3 a4
    = msgS a2 (normR a1) (gathR a1 (hlS (0 : Fin 5) a3 a4 hIn)) := by
  funext e
  have eN : idx_main_v28 (idx_main_v47 e) = ix1 (e 0 : Fin 600000) :=
    funext fun a => Fin.ext (by match a with | ⟨0, _⟩ => rfl)
  rw [val_main_v48_apply, val_main_v47_apply, val_main_v28_apply, eN, val_main_v46_apply, val_main_v45_apply,
    val_main_v0_apply, val_main_call0_v0_apply, val_main_call0_cst_apply, gath_L0, Ideal.mulf_def,
    Ideal.maximumf_def, Ideal.addf_def, Ideal.ofBits_def, Ideal.ofBits_zero_f32]
  rfl

theorem agg_L0 : val_main_v51 (F := Ideal) a0 a1 a2 a3 a4
    = scatR a1 (msgS a2 (normR a1) (gathR a1 (hlS (0 : Fin 5) a3 a4 hIn))) := by
  unfold val_main_v51
  exact scatR_of a1 (val_main_v49 (F := Ideal)) rfl (val_main_v50 (F := Ideal) a1) rfl msg_L0

theorem pre_L0 : val_main_v61 (F := Ideal) a0 a1 a2 a3 a4 a5
    = preS (0 : Fin 5) a3 a4 a5 a2 (degR a1) (normR a1) (gathR a1) (scatR a1) hIn := by
  funext i
  have h1 : (i 1).val < 128 := (i 1).isLt
  have eR : idx_main_v52 (idx_main_v53 (idx_main_v54 (idx_main_v55 i))) = ix2 (0 : Fin 5) (i 1 : Fin 128) :=
    funext fun a => Fin.ext (by
      match a with
      | ⟨0, _⟩ => rfl
      | ⟨1, _⟩ => show (i 1).val % 128 = (i 1).val; omega)
  have eD : idx_main_v58 (idx_main_v59 i) = ix1 (i 0 : Fin 100000) :=
    funext fun a => Fin.ext (by match a with | ⟨0, _⟩ => rfl)
  rw [val_main_v61_apply, val_main_v60_apply, val_main_v57_apply, val_main_v56_apply, val_main_v55_apply,
    val_main_v54_apply, val_main_v53_apply, val_main_v52_apply, eR, val_main_v59_apply, val_main_v58_apply, eD,
    val_main_call1_v0_apply, val_main_call1_cst_apply, agg_L0, hl_L0, Ideal.addf_def, Ideal.addf_def,
    Ideal.maximumf_def, Ideal.hostDivf_def, Ideal.ofBits_def, Ideal.ofBits_zero_f32]
  rfl

theorem bn_L0 : val_main_v84 (F := Ideal) a0 a1 a2 a3 a4 a5 a6 a7 a8 a9
    = layerL (0 : Fin 5) a3 a4 a5 a6 a7 a8 a9 a2 (degR a1) (normR a1) (gathR a1) (scatR a1) hIn := by
  funext i
  have h1 : (i 1).val < 128 := (i 1).isLt
  have eG : idx_main_v62 (idx_main_v63 (idx_main_v69 (idx_main_v70 i))) = ix2 (0 : Fin 5) (i 1 : Fin 128) :=
    funext fun a => Fin.ext (by
      match a with
      | ⟨0, _⟩ => rfl
      | ⟨1, _⟩ => show (i 1).val % 128 = (i 1).val; omega)
  have eM : idx_main_v64 (idx_main_v65 (idx_main_v66 (idx_main_v67 i))) = ix2 (0 : Fin 5) (i 1 : Fin 128) :=
    funext fun a => Fin.ext (by
      match a with
      | ⟨0, _⟩ => rfl
      | ⟨1, _⟩ => show (i 1).val % 128 = (i 1).val; omega)
  have eV : idx_main_v72 (idx_main_v73 (idx_main_v77 (idx_main_v78 i))) = ix2 (0 : Fin 5) (i 1 : Fin 128) :=
    funext fun a => Fin.ext (by
      match a with
      | ⟨0, _⟩ => rfl
      | ⟨1, _⟩ => show (i 1).val % 128 = (i 1).val; omega)
  have eT : idx_main_v80 (idx_main_v81 (idx_main_v82 (idx_main_v83 i))) = ix2 (0 : Fin 5) (i 1 : Fin 128) :=
    funext fun a => Fin.ext (by
      match a with
      | ⟨0, _⟩ => rfl
      | ⟨1, _⟩ => show (i 1).val % 128 = (i 1).val; omega)
  rw [val_main_v84_apply, val_main_v79_apply, val_main_v71_apply, val_main_v68_apply,
    val_main_v70_apply, val_main_v69_apply, val_main_v63_apply, val_main_v62_apply, eG,
    val_main_v67_apply, val_main_v66_apply, val_main_v65_apply, val_main_v64_apply, eM,
    val_main_v78_apply, val_main_v77_apply, val_main_v76_apply, val_main_v75_apply, val_main_v73_apply,
    val_main_v72_apply, eV, val_main_v74_apply, val_main_cst_9_apply,
    val_main_v83_apply, val_main_v82_apply, val_main_v81_apply, val_main_v80_apply, eT,
    pre_L0, Ideal.addf_def, Ideal.addf_def, Ideal.hostDivf_def, Ideal.mulf_def, Ideal.subf_def,
    Ideal.hostUnary_sqrt_def, Ideal.ofBits_def]
  rfl

variable (a0 a1 a2 a3 a4 a5 a6 a7 a8 a9) in

theorem ref_layer0 : val_main_v85 (F := Ideal) a0 a1 a2 a3 a4 a5 a6 a7 a8 a9
    = layerR (0 : Fin 5) a3 a4 a5 a6 a7 a8 a9 a2 (degR a1) (normR a1) (gathR a1) (scatR a1) hIn := by
  funext i
  rw [val_main_v85_apply, val_main_call2_v0_apply, val_main_call2_cst_apply, bn_L0, Ideal.maximumf_def,
    Ideal.ofBits_def, Ideal.ofBits_zero_f32]
  rfl

end Layer

end Cert.ReferenceIdeal.GnnR

end
-- ==== Proof.RLayer1.lean ====
/-
  The reference's layer 1 is the specification's layer 1, on the previous layer's result: layer 0's text with
  the stages' numbers moved along.
-/
import proofs.«408040_j36369783063008_1_alg».proof.Proof.RImports
import proofs.«408040_j36369783063008_1_alg».proof.Proof.Spec
import proofs.«408040_j36369783063008_1_alg».proof.Proof.RLayer0

noncomputable section

open scoped BigOperators
open Idealize.ShloMosaic Idealize.ShloMosaic.ValueIdx
open Cert.ReferenceIdeal Cert.ReferenceIdeal.Read Cert.GnnSpec

namespace Cert.ReferenceIdeal.GnnR

/-! ## Layer 1 -/

section Layer

variable {a0 : FVec Ideal S100000x128 .f32} {a1 : IVec S2x600000 32} {a2 : IVec S600000x128 32}
  {a3 : FVec Ideal S5x128x128 .f32} {a4 a5 a6 a7 a8 a9 : FVec Ideal S5x128 .f32}

/-- The layer's input. -/
local notation "hIn" => val_main_v85 (F := Ideal) a0 a1 a2 a3 a4 a5 a6 a7 a8 a9

/-- The linear map: the contraction reads the input's row against the weight's row (the reference transposes the
    slice it cut, so the contracted axis is the weight's last), and the bias row is broadcast down the nodes. -/
theorem hl_L1 : val_main_v94 (F := Ideal) a0 a1 a2 a3 a4 a5 a6 a7 a8 a9 = hlS (1 : Fin 5) a3 a4 hIn := by
  funext i
  have h1 : (i 1).val < 128 := (i 1).isLt
  have eL : ∀ k : Fin 128, lidx_main_v89 i k = ix2 (i 0 : Fin 100000) k := fun k =>
    funext fun a => Fin.ext (by match a with | ⟨0, _⟩ => rfl | ⟨1, _⟩ => rfl)
  have eW : ∀ k : Fin 128, idx_main_v86 (idx_main_v87 (idx_main_v88 (ridx_main_v89 i k)))
      = ix3 (1 : Fin 5) (i 1 : Fin 128) k := fun k =>
    funext fun a => Fin.ext (by
      have hk : k.val < 128 := k.isLt
      match a with
      | ⟨0, _⟩ => rfl
      | ⟨1, _⟩ => show ((i 1).val * 128 + k.val) / 128 % 128 = (i 1).val; omega
      | ⟨2, _⟩ => show ((i 1).val * 128 + k.val) % 128 = k.val; omega)
  have eB : idx_main_v90 (idx_main_v91 (idx_main_v92 (idx_main_v93 i))) = ix2 (1 : Fin 5) (i 1 : Fin 128) :=
    funext fun a => Fin.ext (by
      match a with
      | ⟨0, _⟩ => rfl
      | ⟨1, _⟩ => show (i 1).val % 128 = (i 1).val; omega)
  have hs : ∀ k : Fin 128, hIn (lidx_main_v89 i k) * (val_main_v88 (F := Ideal) a3) (ridx_main_v89 i k)
      = hIn (ix2 (i 0 : Fin 100000) k) * a3 (ix3 (1 : Fin 5) (i 1 : Fin 128) k) := fun k => by
    rw [val_main_v88_apply, val_main_v87_apply, val_main_v86_apply, eL k, eW k]
    rfl
  rw [val_main_v94_apply, val_main_v89_apply, Finset.sum_congr rfl fun k _ => hs k, val_main_v93_apply,
    val_main_v92_apply, val_main_v91_apply, val_main_v90_apply, eB, Ideal.addf_def]
  rfl

/-- The gathered rows: the reference's gather is the gather along the sources, of the linear map. -/
theorem gath_L1 : val_main_v101 (F := Ideal) a0 a1 a2 a3 a4 a5 a6 a7 a8 a9 = gathR a1 (hlS (1 : Fin 5) a3 a4 hIn) := by
  unfold val_main_v101
  exact gathR_of a1 (val_main_v100 (F := Ideal) a1) rfl hl_L1

/-- The message: the per-edge normalisation, broadcast along the features, times the relu of the gathered row plus
    the edge attribute read as the real it denotes. -/
theorem msg_L1 : val_main_v105 (F := Ideal) a0 a1 a2 a3 a4 a5 a6 a7 a8 a9
    = msgS a2 (normR a1) (gathR a1 (hlS (1 : Fin 5) a3 a4 hIn)) := by
  funext e
  have eN : idx_main_v28 (idx_main_v104 e) = ix1 (e 0 : Fin 600000) :=
    funext fun a => Fin.ext (by match a with | ⟨0, _⟩ => rfl)
  rw [val_main_v105_apply, val_main_v104_apply, val_main_v28_apply, eN, val_main_v103_apply, val_main_v102_apply,
    val_main_v0_apply, val_main_call3_v0_apply, val_main_call3_cst_apply, gath_L1, Ideal.mulf_def,
    Ideal.maximumf_def, Ideal.addf_def, Ideal.ofBits_def, Ideal.ofBits_zero_f32]
  rfl

/-- The aggregate: the reference's scatter is the scatter onto the targets, of the messages. -/
theorem agg_L1 : val_main_v108 (F := Ideal) a0 a1 a2 a3 a4 a5 a6 a7 a8 a9
    = scatR a1 (msgS a2 (normR a1) (gathR a1 (hlS (1 : Fin 5) a3 a4 hIn))) := by
  unfold val_main_v108
  exact scatR_of a1 (val_main_v106 (F := Ideal)) rfl (val_main_v107 (F := Ideal) a1) rfl msg_L1

/-- The aggregate plus the self-loop term: the relu of the linear map plus the root row, divided by the degree
    broadcast along the features. -/
theorem pre_L1 : val_main_v118 (F := Ideal) a0 a1 a2 a3 a4 a5 a6 a7 a8 a9
    = preS (1 : Fin 5) a3 a4 a5 a2 (degR a1) (normR a1) (gathR a1) (scatR a1) hIn := by
  funext i
  have h1 : (i 1).val < 128 := (i 1).isLt
  have eR : idx_main_v109 (idx_main_v110 (idx_main_v111 (idx_main_v112 i))) = ix2 (1 : Fin 5) (i 1 : Fin 128) :=
    funext fun a => Fin.ext (by
      match a with
      | ⟨0, _⟩ => rfl
      | ⟨1, _⟩ => show (i 1).val % 128 = (i 1).val; omega)
  have eD : idx_main_v115 (idx_main_v116 i) = ix1 (i 0 : Fin 100000) :=
    funext fun a => Fin.ext (by match a with | ⟨0, _⟩ => rfl)
  rw [val_main_v118_apply, val_main_v117_apply, val_main_v114_apply, val_main_v113_apply, val_main_v112_apply,
    val_main_v111_apply, val_main_v110_apply, val_main_v109_apply, eR, val_main_v116_apply, val_main_v115_apply, eD,
    val_main_call4_v0_apply, val_main_call4_cst_apply, agg_L1, hl_L1, Ideal.addf_def, Ideal.addf_def,
    Ideal.maximumf_def, Ideal.hostDivf_def, Ideal.ofBits_def, Ideal.ofBits_zero_f32]
  rfl

/-- The batch norm before its relu: the scale row times the centred value, over the square root of the variance
    row plus the epsilon word, plus the shift row; each row is broadcast down the nodes. -/
theorem bn_L1 : val_main_v141 (F := Ideal) a0 a1 a2 a3 a4 a5 a6 a7 a8 a9
    = layerL (1 : Fin 5) a3 a4 a5 a6 a7 a8 a9 a2 (degR a1) (normR a1) (gathR a1) (scatR a1) hIn := by
  funext i
  have h1 : (i 1).val < 128 := (i 1).isLt
  have eG : idx_main_v119 (idx_main_v120 (idx_main_v126 (idx_main_v127 i))) = ix2 (1 : Fin 5) (i 1 : Fin 128) :=
    funext fun a => Fin.ext (by
      match a with
      | ⟨0, _⟩ => rfl
      | ⟨1, _⟩ => show (i 1).val % 128 = (i 1).val; omega)
  have eM : idx_main_v121 (idx_main_v122 (idx_main_v123 (idx_main_v124 i))) = ix2 (1 : Fin 5) (i 1 : Fin 128) :=
    funext fun a => Fin.ext (by
      match a with
      | ⟨0, _⟩ => rfl
      | ⟨1, _⟩ => show (i 1).val % 128 = (i 1).val; omega)
  have eV : idx_main_v129 (idx_main_v130 (idx_main_v134 (idx_main_v135 i))) = ix2 (1 : Fin 5) (i 1 : Fin 128) :=
    funext fun a => Fin.ext (by
      match a with
      | ⟨0, _⟩ => rfl
      | ⟨1, _⟩ => show (i 1).val % 128 = (i 1).val; omega)
  have eT : idx_main_v137 (idx_main_v138 (idx_main_v139 (idx_main_v140 i))) = ix2 (1 : Fin 5) (i 1 : Fin 128) :=
    funext fun a => Fin.ext (by
      match a with
      | ⟨0, _⟩ => rfl
      | ⟨1, _⟩ => show (i 1).val % 128 = (i 1).val; omega)
  rw [val_main_v141_apply, val_main_v136_apply, val_main_v128_apply, val_main_v125_apply,
    val_main_v127_apply, val_main_v126_apply, val_main_v120_apply, val_main_v119_apply, eG,
    val_main_v124_apply, val_main_v123_apply, val_main_v122_apply, val_main_v121_apply, eM,
    val_main_v135_apply, val_main_v134_apply, val_main_v133_apply, val_main_v132_apply, val_main_v130_apply,
    val_main_v129_apply, eV, val_main_v131_apply, val_main_cst_13_apply,
    val_main_v140_apply, val_main_v139_apply, val_main_v138_apply, val_main_v137_apply, eT,
    pre_L1, Ideal.addf_def, Ideal.addf_def, Ideal.hostDivf_def, Ideal.mulf_def, Ideal.subf_def,
    Ideal.hostUnary_sqrt_def, Ideal.ofBits_def]
  rfl

/-! ## The closing relu -/

variable (a0 a1 a2 a3 a4 a5 a6 a7 a8 a9) in
/-- The reference's layer 1 is the specification's. -/
theorem ref_layer1 : val_main_v142 (F := Ideal) a0 a1 a2 a3 a4 a5 a6 a7 a8 a9
    = layerR (1 : Fin 5) a3 a4 a5 a6 a7 a8 a9 a2 (degR a1) (normR a1) (gathR a1) (scatR a1) hIn := by
  funext i
  rw [val_main_v142_apply, val_main_call5_v0_apply, val_main_call5_cst_apply, bn_L1, Ideal.maximumf_def,
    Ideal.ofBits_def, Ideal.ofBits_zero_f32]
  rfl

end Layer

end Cert.ReferenceIdeal.GnnR

end
-- ==== Proof.RLayer2.lean ====
/-
  The reference's layer 2 is the specification's layer 2, on the previous layer's result: layer 0's text with
  the stages' numbers moved along.
-/
import proofs.«408040_j36369783063008_1_alg».proof.Proof.RImports
import proofs.«408040_j36369783063008_1_alg».proof.Proof.Spec
import proofs.«408040_j36369783063008_1_alg».proof.Proof.RLayer0

noncomputable section

open scoped BigOperators
open Idealize.ShloMosaic Idealize.ShloMosaic.ValueIdx
open Cert.ReferenceIdeal Cert.ReferenceIdeal.Read Cert.GnnSpec

namespace Cert.ReferenceIdeal.GnnR

/-! ## Layer 2 -/

section Layer

variable {a0 : FVec Ideal S100000x128 .f32} {a1 : IVec S2x600000 32} {a2 : IVec S600000x128 32}
  {a3 : FVec Ideal S5x128x128 .f32} {a4 a5 a6 a7 a8 a9 : FVec Ideal S5x128 .f32}

/-- The layer's input. -/
local notation "hIn" => val_main_v142 (F := Ideal) a0 a1 a2 a3 a4 a5 a6 a7 a8 a9

/-- The linear map: the contraction reads the input's row against the weight's row (the reference transposes the
    slice it cut, so the contracted axis is the weight's last), and the bias row is broadcast down the nodes. -/
theorem hl_L2 : val_main_v151 (F := Ideal) a0 a1 a2 a3 a4 a5 a6 a7 a8 a9 = hlS (2 : Fin 5) a3 a4 hIn := by
  funext i
  have h1 : (i 1).val < 128 := (i 1).isLt
  have eL : ∀ k : Fin 128, lidx_main_v146 i k = ix2 (i 0 : Fin 100000) k := fun k =>
    funext fun a => Fin.ext (by match a with | ⟨0, _⟩ => rfl | ⟨1, _⟩ => rfl)
  have eW : ∀ k : Fin 128, idx_main_v143 (idx_main_v144 (idx_main_v145 (ridx_main_v146 i k)))
      = ix3 (2 : Fin 5) (i 1 : Fin 128) k := fun k =>
    funext fun a => Fin.ext (by
      have hk : k.val < 128 := k.isLt
      match a with
      | ⟨0, _⟩ => rfl
      | ⟨1, _⟩ => show ((i 1).val * 128 + k.val) / 128 % 128 = (i 1).val; omega
      | ⟨2, _⟩ => show ((i 1).val * 128 + k.val) % 128 = k.val; omega)
  have eB : idx_main_v147 (idx_main_v148 (idx_main_v149 (idx_main_v150 i))) = ix2 (2 : Fin 5) (i 1 : Fin 128) :=
    funext fun a => Fin.ext (by
      match a with
      | ⟨0, _⟩ => rfl
      | ⟨1, _⟩ => show (i 1).val % 128 = (i 1).val; omega)
  have hs : ∀ k : Fin 128, hIn (lidx_main_v146 i k) * (val_main_v145 (F := Ideal) a3) (ridx_main_v146 i k)
      = hIn (ix2 (i 0 : Fin 100000) k) * a3 (ix3 (2 : Fin 5) (i 1 : Fin 128) k) := fun k => by
    rw [val_main_v145_apply, val_main_v144_apply, val_main_v143_apply, eL k, eW k]
    rfl
  rw [val_main_v151_apply, val_main_v146_apply, Finset.sum_congr rfl fun k _ => hs k, val_main_v150_apply,
    val_main_v149_apply, val_main_v148_apply, val_main_v147_apply, eB, Ideal.addf_def]
  rfl

/-- The gathered rows: the reference's gather is the gather along the sources, of the linear map. -/
theorem gath_L2 : val_main_v158 (F := Ideal) a0 a1 a2 a3 a4 a5 a6 a7 a8 a9 = gathR a1 (hlS (2 : Fin 5) a3 a4 hIn) := by
  unfold val_main_v158
  exact gathR_of a1 (val_main_v157 (F := Ideal) a1) rfl hl_L2

/-- The message: the per-edge normalisation, broadcast along the features, times the relu of the gathered row plus
    the edge attribute read as the real it denotes. -/
theorem msg_L2 : val_main_v162 (F := Ideal) a0 a1 a2 a3 a4 a5 a6 a7 a8 a9
    = msgS a2 (normR a1) (gathR a1 (hlS (2 : Fin 5) a3 a4 hIn)) := by
  funext e
  have eN : idx_main_v28 (idx_main_v161 e) = ix1 (e 0 : Fin 600000) :=
    funext fun a => Fin.ext (by match a with | ⟨0, _⟩ => rfl)
  rw [val_main_v162_apply, val_main_v161_apply, val_main_v28_apply, eN, val_main_v160_apply, val_main_v159_apply,
    val_main_v0_apply, val_main_call6_v0_apply, val_main_call6_cst_apply, gath_L2, Ideal.mulf_def,
    Ideal.maximumf_def, Ideal.addf_def, Ideal.ofBits_def, Ideal.ofBits_zero_f32]
  rfl

/-- The aggregate: the reference's scatter is the scatter onto the targets, of the messages. -/
theorem agg_L2 : val_main_v165 (F := Ideal) a0 a1 a2 a3 a4 a5 a6 a7 a8 a9
    = scatR a1 (msgS a2 (normR a1) (gathR a1 (hlS (2 : Fin 5) a3 a4 hIn))) := by
  unfold val_main_v165
  exact scatR_of a1 (val_main_v163 (F := Ideal)) rfl (val_main_v164 (F := Ideal) a1) rfl msg_L2

/-- The aggregate plus the self-loop term: the relu of the linear map plus the root row, divided by the degree
    broadcast along the features. -/
theorem pre_L2 : val_main_v175 (F := Ideal) a0 a1 a2 a3 a4 a5 a6 a7 a8 a9
    = preS (2 : Fin 5) a3 a4 a5 a2 (degR a1) (normR a1) (gathR a1) (scatR a1) hIn := by
  funext i
  have h1 : (i 1).val < 128 := (i 1).isLt
  have eR : idx_main_v166 (idx_main_v167 (idx_main_v168 (idx_main_v169 i))) = ix2 (2 : Fin 5) (i 1 : Fin 128) :=
    funext fun a => Fin.ext (by
      match a with
      | ⟨0, _⟩ => rfl
      | ⟨1, _⟩ => show (i 1).val % 128 = (i 1).val; omega)
  have eD : idx_main_v172 (idx_main_v173 i) = ix1 (i 0 : Fin 100000) :=
    funext fun a => Fin.ext (by match a with | ⟨0, _⟩ => rfl)
  rw [val_main_v175_apply, val_main_v174_apply, val_main_v171_apply, val_main_v170_apply, val_main_v169_apply,
    val_main_v168_apply, val_main_v167_apply, val_main_v166_apply, eR, val_main_v173_apply, val_main_v172_apply, eD,
    val_main_call7_v0_apply, val_main_call7_cst_apply, agg_L2, hl_L2, Ideal.addf_def, Ideal.addf_def,
    Ideal.maximumf_def, Ideal.hostDivf_def, Ideal.ofBits_def, Ideal.ofBits_zero_f32]
  rfl

/-- The batch norm before its relu: the scale row times the centred value, over the square root of the variance
    row plus the epsilon word, plus the shift row; each row is broadcast down the nodes. -/
theorem bn_L2 : val_main_v198 (F := Ideal) a0 a1 a2 a3 a4 a5 a6 a7 a8 a9
    = layerL (2 : Fin 5) a3 a4 a5 a6 a7 a8 a9 a2 (degR a1) (normR a1) (gathR a1) (scatR a1) hIn := by
  funext i
  have h1 : (i 1).val < 128 := (i 1).isLt
  have eG : idx_main_v176 (idx_main_v177 (idx_main_v183 (idx_main_v184 i))) = ix2 (2 : Fin 5) (i 1 : Fin 128) :=
    funext fun a => Fin.ext (by
      match a with
      | ⟨0, _⟩ => rfl
      | ⟨1, _⟩ => show (i 1).val % 128 = (i 1).val; omega)
  have eM : idx_main_v178 (idx_main_v179 (idx_main_v180 (idx_main_v181 i))) = ix2 (2 : Fin 5) (i 1 : Fin 128) :=
    funext fun a => Fin.ext (by
      match a with
      | ⟨0, _⟩ => rfl
      | ⟨1, _⟩ => show (i 1).val % 128 = (i 1).val; omega)
  have eV : idx_main_v186 (idx_main_v187 (idx_main_v191 (idx_main_v192 i))) = ix2 (2 : Fin 5) (i 1 : Fin 128) :=
    funext fun a => Fin.ext (by
      match a with
      | ⟨0, _⟩ => rfl
      | ⟨1, _⟩ => show (i 1).val % 128 = (i 1).val; omega)
  have eT : idx_main_v194 (idx_main_v195 (idx_main_v196 (idx_main_v197 i))) = ix2 (2 : Fin 5) (i 1 : Fin 128) :=
    funext fun a => Fin.ext (by
      match a with
      | ⟨0, _⟩ => rfl
      | ⟨1, _⟩ => show (i 1).val % 128 = (i 1).val; omega)
  rw [val_main_v198_apply, val_main_v193_apply, val_main_v185_apply, val_main_v182_apply,
    val_main_v184_apply, val_main_v183_apply, val_main_v177_apply, val_main_v176_apply, eG,
    val_main_v181_apply, val_main_v180_apply, val_main_v179_apply, val_main_v178_apply, eM,
    val_main_v192_apply, val_main_v191_apply, val_main_v190_apply, val_main_v189_apply, val_main_v187_apply,
    val_main_v186_apply, eV, val_main_v188_apply, val_main_cst_17_apply,
    val_main_v197_apply, val_main_v196_apply, val_main_v195_apply, val_main_v194_apply, eT,
    pre_L2, Ideal.addf_def, Ideal.addf_def, Ideal.hostDivf_def, Ideal.mulf_def, Ideal.subf_def,
    Ideal.hostUnary_sqrt_def, Ideal.ofBits_def]
  rfl

/-! ## The closing relu -/

variable (a0 a1 a2 a3 a4 a5 a6 a7 a8 a9) in
/-- The reference's layer 2 is the specification's. -/
theorem ref_layer2 : val_main_v199 (F := Ideal) a0 a1 a2 a3 a4 a5 a6 a7 a8 a9
    = layerR (2 : Fin 5) a3 a4 a5 a6 a7 a8 a9 a2 (degR a1) (normR a1) (gathR a1) (scatR a1) hIn := by
  funext i
  rw [val_main_v199_apply, val_main_call8_v0_apply, val_main_call8_cst_apply, bn_L2, Ideal.maximumf_def,
    Ideal.ofBits_def, Ideal.ofBits_zero_f32]
  rfl

end Layer

end Cert.ReferenceIdeal.GnnR

end
-- ==== Proof.RLayer3.lean ====
/-
  The reference's layer 3 is the specification's layer 3, on the previous layer's result: layer 0's text with
  the stages' numbers moved along.
-/
import proofs.«408040_j36369783063008_1_alg».proof.Proof.RImports
import proofs.«408040_j36369783063008_1_alg».proof.Proof.Spec
import proofs.«408040_j36369783063008_1_alg».proof.Proof.RLayer0

noncomputable section

open scoped BigOperators
open Idealize.ShloMosaic Idealize.ShloMosaic.ValueIdx
open Cert.ReferenceIdeal Cert.ReferenceIdeal.Read Cert.GnnSpec

namespace Cert.ReferenceIdeal.GnnR

/-! ## Layer 3 -/

section Layer

variable {a0 : FVec Ideal S100000x128 .f32} {a1 : IVec S2x600000 32} {a2 : IVec S600000x128 32}
  {a3 : FVec Ideal S5x128x128 .f32} {a4 a5 a6 a7 a8 a9 : FVec Ideal S5x128 .f32}

/-- The layer's input. -/
local notation "hIn" => val_main_v199 (F := Ideal) a0 a1 a2 a3 a4 a5 a6 a7 a8 a9

/-- The linear map: the contraction reads the input's row against the weight's row (the reference transposes the
    slice it cut, so the contracted axis is the weight's last), and the bias row is broadcast down the nodes. -/
theorem hl_L3 : val_main_v208 (F := Ideal) a0 a1 a2 a3 a4 a5 a6 a7 a8 a9 = hlS (3 : Fin 5) a3 a4 hIn := by
  funext i
  have h1 : (i 1).val < 128 := (i 1).isLt
  have eL : ∀ k : Fin 128, lidx_main_v203 i k = ix2 (i 0 : Fin 100000) k := fun k =>
    funext fun a => Fin.ext (by match a with | ⟨0, _⟩ => rfl | ⟨1, _⟩ => rfl)
  have eW : ∀ k : Fin 128, idx_main_v200 (idx_main_v201 (idx_main_v202 (ridx_main_v203 i k)))
      = ix3 (3 : Fin 5) (i 1 : Fin 128) k := fun k =>
    funext fun a => Fin.ext (by
      have hk : k.val < 128 := k.isLt
      match a with
      | ⟨0, _⟩ => rfl
      | ⟨1, _⟩ => show ((i 1).val * 128 + k.val) / 128 % 128 = (i 1).val; omega
      | ⟨2, _⟩ => show ((i 1).val * 128 + k.val) % 128 = k.val; omega)
  have eB : idx_main_v204 (idx_main_v205 (idx_main_v206 (idx_main_v207 i))) = ix2 (3 : Fin 5) (i 1 : Fin 128) :=
    funext fun a => Fin.ext (by
      match a with
      | ⟨0, _⟩ => rfl
      | ⟨1, _⟩ => show (i 1).val % 128 = (i 1).val; omega)
  have hs : ∀ k : Fin 128, hIn (lidx_main_v203 i k) * (val_main_v202 (F := Ideal) a3) (ridx_main_v203 i k)
      = hIn (ix2 (i 0 : Fin 100000) k) * a3 (ix3 (3 : Fin 5) (i 1 : Fin 128) k) := fun k => by
    rw [val_main_v202_apply, val_main_v201_apply, val_main_v200_apply, eL k, eW k]
    rfl
  rw [val_main_v208_apply, val_main_v203_apply, Finset.sum_congr rfl fun k _ => hs k, val_main_v207_apply,
    val_main_v206_apply, val_main_v205_apply, val_main_v204_apply, eB, Ideal.addf_def]
  rfl

/-- The gathered rows: the reference's gather is the gather along the sources, of the linear map. -/
theorem gath_L3 : val_main_v215 (F := Ideal) a0 a1 a2 a3 a4 a5 a6 a7 a8 a9 = gathR a1 (hlS (3 : Fin 5) a3 a4 hIn) := by
  unfold val_main_v215
  exact gathR_of a1 (val_main_v214 (F := Ideal) a1) rfl hl_L3

/-- The message: the per-edge normalisation, broadcast along the features, times the relu of the gathered row plus
    the edge attribute read as the real it denotes. -/
theorem msg_L3 : val_main_v219 (F := Ideal) a0 a1 a2 a3 a4 a5 a6 a7 a8 a9
    = msgS a2 (normR a1) (gathR a1 (hlS (3 : Fin 5) a3 a4 hIn)) := by
  funext e
  have eN : idx_main_v28 (idx_main_v218 e) = ix1 (e 0 : Fin 600000) :=
    funext fun a => Fin.ext (by match a with | ⟨0, _⟩ => rfl)
  rw [val_main_v219_apply, val_main_v218_apply, val_main_v28_apply, eN, val_main_v217_apply, val_main_v216_apply,
    val_main_v0_apply, val_main_call9_v0_apply, val_main_call9_cst_apply, gath_L3, Ideal.mulf_def,
    Ideal.maximumf_def, Ideal.addf_def, Ideal.ofBits_def, Ideal.ofBits_zero_f32]
  rfl

/-- The aggregate: the reference's scatter is the scatter onto the targets, of the messages. -/
theorem agg_L3 : val_main_v222 (F := Ideal) a0 a1 a2 a3 a4 a5 a6 a7 a8 a9
    = scatR a1 (msgS a2 (normR a1) (gathR a1 (hlS (3 : Fin 5) a3 a4 hIn))) := by
  unfold val_main_v222
  exact scatR_of a1 (val_main_v220 (F := Ideal)) rfl (val_main_v221 (F := Ideal) a1) rfl msg_L3

/-- The aggregate plus the self-loop term: the relu of the linear map plus the root row, divided by the degree
    broadcast along the features. -/
theorem pre_L3 : val_main_v232 (F := Ideal) a0 a1 a2 a3 a4 a5 a6 a7 a8 a9
    = preS (3 : Fin 5) a3 a4 a5 a2 (degR a1) (normR a1) (gathR a1) (scatR a1) hIn := by
  funext i
  have h1 : (i 1).val < 128 := (i 1).isLt
  have eR : idx_main_v223 (idx_main_v224 (idx_main_v225 (idx_main_v226 i))) = ix2 (3 : Fin 5) (i 1 : Fin 128) :=
    funext fun a => Fin.ext (by
      match a with
      | ⟨0, _⟩ => rfl
      | ⟨1, _⟩ => show (i 1).val % 128 = (i 1).val; omega)
  have eD : idx_main_v229 (idx_main_v230 i) = ix1 (i 0 : Fin 100000) :=
    funext fun a => Fin.ext (by match a with | ⟨0, _⟩ => rfl)
  rw [val_main_v232_apply, val_main_v231_apply, val_main_v228_apply, val_main_v227_apply, val_main_v226_apply,
    val_main_v225_apply, val_main_v224_apply, val_main_v223_apply, eR, val_main_v230_apply, val_main_v229_apply, eD,
    val_main_call10_v0_apply, val_main_call10_cst_apply, agg_L3, hl_L3, Ideal.addf_def, Ideal.addf_def,
    Ideal.maximumf_def, Ideal.hostDivf_def, Ideal.ofBits_def, Ideal.ofBits_zero_f32]
  rfl

/-- The batch norm before its relu: the scale row times the centred value, over the square root of the variance
    row plus the epsilon word, plus the shift row; each row is broadcast down the nodes. -/
theorem bn_L3 : val_main_v255 (F := Ideal) a0 a1 a2 a3 a4 a5 a6 a7 a8 a9
    = layerL (3 : Fin 5) a3 a4 a5 a6 a7 a8 a9 a2 (degR a1) (normR a1) (gathR a1) (scatR a1) hIn := by
  funext i
  have h1 : (i 1).val < 128 := (i 1).isLt
  have eG : idx_main_v233 (idx_main_v234 (idx_main_v240 (idx_main_v241 i))) = ix2 (3 : Fin 5) (i 1 : Fin 128) :=
    funext fun a => Fin.ext (by
      match a with
      | ⟨0, _⟩ => rfl
      | ⟨1, _⟩ => show (i 1).val % 128 = (i 1).val; omega)
  have eM : idx_main_v235 (idx_main_v236 (idx_main_v237 (idx_main_v238 i))) = ix2 (3 : Fin 5) (i 1 : Fin 128) :=
    funext fun a => Fin.ext (by
      match a with
      | ⟨0, _⟩ => rfl
      | ⟨1, _⟩ => show (i 1).val % 128 = (i 1).val; omega)
  have eV : idx_main_v243 (idx_main_v244 (idx_main_v248 (idx_main_v249 i))) = ix2 (3 : Fin 5) (i 1 : Fin 128) :=
    funext fun a => Fin.ext (by
      match a with
      | ⟨0, _⟩ => rfl
      | ⟨1, _⟩ => show (i 1).val % 128 = (i 1).val; omega)
  have eT : idx_main_v251 (idx_main_v252 (idx_main_v253 (idx_main_v254 i))) = ix2 (3 : Fin 5) (i 1 : Fin 128) :=
    funext fun a => Fin.ext (by
      match a with
      | ⟨0, _⟩ => rfl
      | ⟨1, _⟩ => show (i 1).val % 128 = (i 1).val; omega)
  rw [val_main_v255_apply, val_main_v250_apply, val_main_v242_apply, val_main_v239_apply,
    val_main_v241_apply, val_main_v240_apply, val_main_v234_apply, val_main_v233_apply, eG,
    val_main_v238_apply, val_main_v237_apply, val_main_v236_apply, val_main_v235_apply, eM,
    val_main_v249_apply, val_main_v248_apply, val_main_v247_apply, val_main_v246_apply, val_main_v244_apply,
    val_main_v243_apply, eV, val_main_v245_apply, val_main_cst_21_apply,
    val_main_v254_apply, val_main_v253_apply, val_main_v252_apply, val_main_v251_apply, eT,
    pre_L3, Ideal.addf_def, Ideal.addf_def, Ideal.hostDivf_def, Ideal.mulf_def, Ideal.subf_def,
    Ideal.hostUnary_sqrt_def, Ideal.ofBits_def]
  rfl

/-! ## The closing relu -/

variable (a0 a1 a2 a3 a4 a5 a6 a7 a8 a9) in
/-- The reference's layer 3 is the specification's. -/
theorem ref_layer3 : val_main_v256 (F := Ideal) a0 a1 a2 a3 a4 a5 a6 a7 a8 a9
    = layerR (3 : Fin 5) a3 a4 a5 a6 a7 a8 a9 a2 (degR a1) (normR a1) (gathR a1) (scatR a1) hIn := by
  funext i
  rw [val_main_v256_apply, val_main_call11_v0_apply, val_main_call11_cst_apply, bn_L3, Ideal.maximumf_def,
    Ideal.ofBits_def, Ideal.ofBits_zero_f32]
  rfl

end Layer

end Cert.ReferenceIdeal.GnnR

end
-- ==== Proof.RLayer4.lean ====
/-
  The reference's layer 4 is the specification's layer 4, on the previous layer's result: layer 0's text with
  the stages' numbers moved along.
-/
import proofs.«408040_j36369783063008_1_alg».proof.Proof.RImports
import proofs.«408040_j36369783063008_1_alg».proof.Proof.Spec
import proofs.«408040_j36369783063008_1_alg».proof.Proof.RLayer0

noncomputable section

open scoped BigOperators
open Idealize.ShloMosaic Idealize.ShloMosaic.ValueIdx
open Cert.ReferenceIdeal Cert.ReferenceIdeal.Read Cert.GnnSpec

namespace Cert.ReferenceIdeal.GnnR

/-! ## Layer 4 -/

section Layer

variable {a0 : FVec Ideal S100000x128 .f32} {a1 : IVec S2x600000 32} {a2 : IVec S600000x128 32}
  {a3 : FVec Ideal S5x128x128 .f32} {a4 a5 a6 a7 a8 a9 : FVec Ideal S5x128 .f32}

/-- The layer's input. -/
local notation "hIn" => val_main_v256 (F := Ideal) a0 a1 a2 a3 a4 a5 a6 a7 a8 a9

/-- The linear map: the contraction reads the input's row against the weight's row (the reference transposes the
    slice it cut, so the contracted axis is the weight's last), and the bias row is broadcast down the nodes. -/
theorem hl_L4 : val_main_v265 (F := Ideal) a0 a1 a2 a3 a4 a5 a6 a7 a8 a9 = hlS (4 : Fin 5) a3 a4 hIn := by
  funext i
  have h1 : (i 1).val < 128 := (i 1).isLt
  have eL : ∀ k : Fin 128, lidx_main_v260 i k = ix2 (i 0 : Fin 100000) k := fun k =>
    funext fun a => Fin.ext (by match a with | ⟨0, _⟩ => rfl | ⟨1, _⟩ => rfl)
  have eW : ∀ k : Fin 128, idx_main_v257 (idx_main_v258 (idx_main_v259 (ridx_main_v260 i k)))
      = ix3 (4 : Fin 5) (i 1 : Fin 128) k := fun k =>
    funext fun a => Fin.ext (by
      have hk : k.val < 128 := k.isLt
      match a with
      | ⟨0, _⟩ => rfl
      | ⟨1, _⟩ => show ((i 1).val * 128 + k.val) / 128 % 128 = (i 1).val; omega
      | ⟨2, _⟩ => show ((i 1).val * 128 + k.val) % 128 = k.val; omega)
  have eB : idx_main_v261 (idx_main_v262 (idx_main_v263 (idx_main_v264 i))) = ix2 (4 : Fin 5) (i 1 : Fin 128) :=
    funext fun a => Fin.ext (by
      match a with
      | ⟨0, _⟩ => rfl
      | ⟨1, _⟩ => show (i 1).val % 128 = (i 1).val; omega)
  have hs : ∀ k : Fin 128, hIn (lidx_main_v260 i k) * (val_main_v259 (F := Ideal) a3) (ridx_main_v260 i k)
      = hIn (ix2 (i 0 : Fin 100000) k) * a3 (ix3 (4 : Fin 5) (i 1 : Fin 128) k) := fun k => by
    rw [val_main_v259_apply, val_main_v258_apply, val_main_v257_apply, eL k, eW k]
    rfl
  rw [val_main_v265_apply, val_main_v260_apply, Finset.sum_congr rfl fun k _ => hs k, val_main_v264_apply,
    val_main_v263_apply, val_main_v262_apply, val_main_v261_apply, eB, Ideal.addf_def]
  rfl

/-- The gathered rows: the reference's gather is the gather along the sources, of the linear map. -/
theorem gath_L4 : val_main_v272 (F := Ideal) a0 a1 a2 a3 a4 a5 a6 a7 a8 a9 = gathR a1 (hlS (4 : Fin 5) a3 a4 hIn) := by
  unfold val_main_v272
  exact gathR_of a1 (val_main_v271 (F := Ideal) a1) rfl hl_L4

/-- The message: the per-edge normalisation, broadcast along the features, times the relu of the gathered row plus
    the edge attribute read as the real it denotes. -/
theorem msg_L4 : val_main_v276 (F := Ideal) a0 a1 a2 a3 a4 a5 a6 a7 a8 a9
    = msgS a2 (normR a1) (gathR a1 (hlS (4 : Fin 5) a3 a4 hIn)) := by
  funext e
  have eN : idx_main_v28 (idx_main_v275 e) = ix1 (e 0 : Fin 600000) :=
    funext fun a => Fin.ext (by match a with | ⟨0, _⟩ => rfl)
  rw [val_main_v276_apply, val_main_v275_apply, val_main_v28_apply, eN, val_main_v274_apply, val_main_v273_apply,
    val_main_v0_apply, val_main_call12_v0_apply, val_main_call12_cst_apply, gath_L4, Ideal.mulf_def,
    Ideal.maximumf_def, Ideal.addf_def, Ideal.ofBits_def, Ideal.ofBits_zero_f32]
  rfl

/-- The aggregate: the reference's scatter is the scatter onto the targets, of the messages. -/
theorem agg_L4 : val_main_v279 (F := Ideal) a0 a1 a2 a3 a4 a5 a6 a7 a8 a9
    = scatR a1 (msgS a2 (normR a1) (gathR a1 (hlS (4 : Fin 5) a3 a4 hIn))) := by
  unfold val_main_v279
  exact scatR_of a1 (val_main_v277 (F := Ideal)) rfl (val_main_v278 (F := Ideal) a1) rfl msg_L4

/-- The aggregate plus the self-loop term: the relu of the linear map plus the root row, divided by the degree
    broadcast along the features. -/
theorem pre_L4 : val_main_v289 (F := Ideal) a0 a1 a2 a3 a4 a5 a6 a7 a8 a9
    = preS (4 : Fin 5) a3 a4 a5 a2 (degR a1) (normR a1) (gathR a1) (scatR a1) hIn := by
  funext i
  have h1 : (i 1).val < 128 := (i 1).isLt
  have eR : idx_main_v280 (idx_main_v281 (idx_main_v282 (idx_main_v283 i))) = ix2 (4 : Fin 5) (i 1 : Fin 128) :=
    funext fun a => Fin.ext (by
      match a with
      | ⟨0, _⟩ => rfl
      | ⟨1, _⟩ => show (i 1).val % 128 = (i 1).val; omega)
  have eD : idx_main_v286 (idx_main_v287 i) = ix1 (i 0 : Fin 100000) :=
    funext fun a => Fin.ext (by match a with | ⟨0, _⟩ => rfl)
  rw [val_main_v289_apply, val_main_v288_apply, val_main_v285_apply, val_main_v284_apply, val_main_v283_apply,
    val_main_v282_apply, val_main_v281_apply, val_main_v280_apply, eR, val_main_v287_apply, val_main_v286_apply, eD,
    val_main_call13_v0_apply, val_main_call13_cst_apply, agg_L4, hl_L4, Ideal.addf_def, Ideal.addf_def,
    Ideal.maximumf_def, Ideal.hostDivf_def, Ideal.ofBits_def, Ideal.ofBits_zero_f32]
  rfl

/-- The batch norm before its relu: the scale row times the centred value, over the square root of the variance
    row plus the epsilon word, plus the shift row; each row is broadcast down the nodes. -/
theorem bn_L4 : val_main_v312 (F := Ideal) a0 a1 a2 a3 a4 a5 a6 a7 a8 a9
    = layerL (4 : Fin 5) a3 a4 a5 a6 a7 a8 a9 a2 (degR a1) (normR a1) (gathR a1) (scatR a1) hIn := by
  funext i
  have h1 : (i 1).val < 128 := (i 1).isLt
  have eG : idx_main_v290 (idx_main_v291 (idx_main_v297 (idx_main_v298 i))) = ix2 (4 : Fin 5) (i 1 : Fin 128) :=
    funext fun a => Fin.ext (by
      match a with
      | ⟨0, _⟩ => rfl
      | ⟨1, _⟩ => show (i 1).val % 128 = (i 1).val; omega)
  have eM : idx_main_v292 (idx_main_v293 (idx_main_v294 (idx_main_v295 i))) = ix2 (4 : Fin 5) (i 1 : Fin 128) :=
    funext fun a => Fin.ext (by
      match a with
      | ⟨0, _⟩ => rfl
      | ⟨1, _⟩ => show (i 1).val % 128 = (i 1).val; omega)
  have eV : idx_main_v300 (idx_main_v301 (idx_main_v305 (idx_main_v306 i))) = ix2 (4 : Fin 5) (i 1 : Fin 128) :=
    funext fun a => Fin.ext (by
      match a with
      | ⟨0, _⟩ => rfl
      | ⟨1, _⟩ => show (i 1).val % 128 = (i 1).val; omega)
  have eT : idx_main_v308 (idx_main_v309 (idx_main_v310 (idx_main_v311 i))) = ix2 (4 : Fin 5) (i 1 : Fin 128) :=
    funext fun a => Fin.ext (by
      match a with
      | ⟨0, _⟩ => rfl
      | ⟨1, _⟩ => show (i 1).val % 128 = (i 1).val; omega)
  rw [val_main_v312_apply, val_main_v307_apply, val_main_v299_apply, val_main_v296_apply,
    val_main_v298_apply, val_main_v297_apply, val_main_v291_apply, val_main_v290_apply, eG,
    val_main_v295_apply, val_main_v294_apply, val_main_v293_apply, val_main_v292_apply, eM,
    val_main_v306_apply, val_main_v305_apply, val_main_v304_apply, val_main_v303_apply, val_main_v301_apply,
    val_main_v300_apply, eV, val_main_v302_apply, val_main_cst_25_apply,
    val_main_v311_apply, val_main_v310_apply, val_main_v309_apply, val_main_v308_apply, eT,
    pre_L4, Ideal.addf_def, Ideal.addf_def, Ideal.hostDivf_def, Ideal.mulf_def, Ideal.subf_def,
    Ideal.hostUnary_sqrt_def, Ideal.ofBits_def]
  rfl

/-! ## The last layer has no relu -/

variable (a0 a1 a2 a3 a4 a5 a6 a7 a8 a9) in
/-- The reference's layer 4 is the specification's. -/
theorem ref_layer4 : val_main_v312 (F := Ideal) a0 a1 a2 a3 a4 a5 a6 a7 a8 a9
    = layerL (4 : Fin 5) a3 a4 a5 a6 a7 a8 a9 a2 (degR a1) (normR a1) (gathR a1) (scatR a1) hIn := bn_L4

end Layer

end Cert.ReferenceIdeal.GnnR

end
-- ==== Proof.RNet.lean ====
import proofs.«408040_j36369783063008_1_alg».proof.Proof.RImports
import proofs.«408040_j36369783063008_1_alg».proof.Proof.Spec
import proofs.«408040_j36369783063008_1_alg».proof.Proof.RLayer0
import proofs.«408040_j36369783063008_1_alg».proof.Proof.RLayer1
import proofs.«408040_j36369783063008_1_alg».proof.Proof.RLayer2
import proofs.«408040_j36369783063008_1_alg».proof.Proof.RLayer3
import proofs.«408040_j36369783063008_1_alg».proof.Proof.RLayer4

noncomputable section

open Idealize.ShloMosaic Idealize.ShloMosaic.ValueIdx
open Cert.ReferenceIdeal Cert.ReferenceIdeal.Read Cert.GnnSpec

namespace Cert.ReferenceIdeal.GnnR

/-- The plain program's result is the specification's five layers, one after the other. -/
theorem ref_net (a0 : FVec Ideal S100000x128 .f32) (a1 : IVec S2x600000 32) (a2 : IVec S600000x128 32)
    (a3 : FVec Ideal S5x128x128 .f32) (a4 a5 a6 a7 a8 a9 : FVec Ideal S5x128 .f32) :
    val_main_v312 (F := Ideal) a0 a1 a2 a3 a4 a5 a6 a7 a8 a9
      = netS a3 a4 a5 a6 a7 a8 a9 a2 (degR a1) (normR a1) (gathR a1) (scatR a1) a0 := by
  rw [ref_layer4, ref_layer3, ref_layer2, ref_layer1, ref_layer0]
  rfl

end Cert.ReferenceIdeal.GnnR

end
-- ==== Proof.Bridge.lean ====
import proofs.«408040_j36369783063008_1_alg».proof.Proof.KDefs
import proofs.«408040_j36369783063008_1_alg».proof.Proof.RImports
import proofs.«408040_j36369783063008_1_alg».proof.Proof.Spec

noncomputable section

namespace Cert.GnnBridge

open Idealize.ShloMosaic Idealize.ShloMosaic.TcCoe Idealize.SL.Sem

def rowT (a1 : IVec Cert.KernelIdeal.S2x600000 32) : IVec Cert.KernelIdeal.S600000 32 :=
  shapeCast Cert.KernelIdeal.S600000
    (extractStridedSlice Cert.KernelIdeal.S1x600000 ![0, 0] a1 Cert.KernelIdeal.Gen.slices_S2x600000_S1x600000_0_0)
    Cert.KernelIdeal.Gen.shapeCasts_S1x600000_S600000

def colT (a1 : IVec Cert.KernelIdeal.S2x600000 32) : IVec Cert.KernelIdeal.S600000 32 :=
  shapeCast Cert.KernelIdeal.S600000
    (extractStridedSlice Cert.KernelIdeal.S1x600000 ![1, 0] a1 Cert.KernelIdeal.Gen.slices_S2x600000_S1x600000_1_0)
    Cert.KernelIdeal.Gen.shapeCasts_S1x600000_S600000

def degT (a1 : IVec Cert.KernelIdeal.S2x600000 32) : FVec Ideal Cert.KernelIdeal.S100000 .f32 :=
  addf
    (Host.scatterAdd Cert.KernelIdeal.scatter_S100000_S600000x1_S600000_n_0_0_1
      (broadcastInDim Cert.KernelIdeal.S100000 ![] Cert.KernelIdeal.Gen.bcast_S_S100000
        (constant (F := Ideal) Cert.KernelIdeal.S_ .f32 0x00000000#32))
      (broadcastInDim Cert.KernelIdeal.S600000x1 ![0] Cert.KernelIdeal.Gen.bcast_S600000_S600000x1_0 (rowT a1))
      (broadcastInDim Cert.KernelIdeal.S600000 ![] Cert.KernelIdeal.Gen.bcast_S_S600000
        (constant (F := Ideal) Cert.KernelIdeal.S_ .f32 0x3F800000#32)))
    (broadcastInDim Cert.KernelIdeal.S100000 ![] Cert.KernelIdeal.Gen.bcast_S_S100000
      (constant (F := Ideal) Cert.KernelIdeal.S_ .f32 0x3F800000#32))

def dinvT (a1 : IVec Cert.KernelIdeal.S2x600000 32) : FVec Ideal Cert.KernelIdeal.S100000 .f32 :=
  Host.powf (degT a1)
    (broadcastInDim Cert.KernelIdeal.S100000 ![] Cert.KernelIdeal.Gen.bcast_S_S100000
      (constant (F := Ideal) Cert.KernelIdeal.S_ .f32 0xBF000000#32))

def normT (a1 : IVec Cert.KernelIdeal.S2x600000 32) : FVec Ideal Cert.KernelIdeal.S600000 .f32 :=
  mulf
    (Host.gather Cert.KernelIdeal.gather_S100000_S600000x1_S600000_n_0_n_n_0_1_1
      (Host.powf (degT a1)
        (broadcastInDim Cert.KernelIdeal.S100000 ![] Cert.KernelIdeal.Gen.bcast_S_S100000
          (constant (F := Ideal) Cert.KernelIdeal.S_ .f32 0xBF000000#32)))
      (Cert.KernelIdeal.GnnK.wrapIdx (rowT a1)))
    (Host.gather Cert.KernelIdeal.gather_S100000_S600000x1_S600000_n_0_n_n_0_1_1
      (Host.powf (degT a1)
        (broadcastInDim Cert.KernelIdeal.S100000 ![] Cert.KernelIdeal.Gen.bcast_S_S100000
          (constant (F := Ideal) Cert.KernelIdeal.S_ .f32 0xBF000000#32)))
      (Cert.KernelIdeal.GnnK.wrapIdx (colT a1)))

theorem deg_eq (a1 : IVec Cert.KernelIdeal.S2x600000 32) :
    Cert.ReferenceIdeal.Read.val_main_v10 (F := Ideal) a1 = degT a1 := rfl

theorem norm_eq (a1 : IVec Cert.KernelIdeal.S2x600000 32) :
    Cert.ReferenceIdeal.Read.val_main_v27 (F := Ideal) a1 = normT a1 := rfl

theorem gath_eq (a1 : IVec Cert.KernelIdeal.S2x600000 32) (hl : FVec Ideal Cert.KernelIdeal.S100000x128 .f32) :
    Host.gather Cert.ReferenceIdeal.gather_S100000x128_S600000x1_S600000x128_1_0_n_n_0_1_1128 hl
        (Cert.ReferenceIdeal.Read.val_main_v43 (F := Ideal) a1)
      = Cert.KernelIdeal.GnnK.kGath (rowT a1) hl := rfl

theorem scat_eq (a1 : IVec Cert.KernelIdeal.S2x600000 32) (u : FVec Ideal Cert.KernelIdeal.S600000x128 .f32) :
    Host.scatterAdd Cert.ReferenceIdeal.scatter_S100000x128_S600000x1_S600000x128_1_0_0_1
        (Cert.ReferenceIdeal.Read.val_main_v49 (F := Ideal)) (Cert.ReferenceIdeal.Read.val_main_v50 (F := Ideal) a1) u
      = Cert.KernelIdeal.GnnK.kScat (colT a1) u := rfl

end Cert.GnnBridge

end
-- ==== Proof.Final.lean ====
import proofs.«408040_j36369783063008_1_alg».proof.Defs
import proofs.«408040_j36369783063008_1_alg».proof.Proof.Gen.Kernel.Frame
import proofs.«408040_j36369783063008_1_alg».proof.Proof.Gen.KernelIdeal.Frame
import proofs.«408040_j36369783063008_1_alg».proof.Proof.Gen.ReferenceIdeal
import proofs.«408040_j36369783063008_1_alg».proof.Proof.Gen.Pre_finite_inputs
import proofs.«408040_j36369783063008_1_alg».proof.Proof.RImports
import proofs.«408040_j36369783063008_1_alg».proof.Proof.RRun
import proofs.«408040_j36369783063008_1_alg».proof.Proof.KRun
import proofs.«408040_j36369783063008_1_alg».proof.Proof.KNet
import proofs.«408040_j36369783063008_1_alg».proof.Proof.KHost0
import proofs.«408040_j36369783063008_1_alg».proof.Proof.PreFacts
import proofs.«408040_j36369783063008_1_alg».proof.Proof.RNet
import proofs.«408040_j36369783063008_1_alg».proof.Proof.Bridge

noncomputable section

namespace Cert.Proof.GnnClaims

open Idealize.ShloMosaic Idealize.ShloMosaic.TcCoe Idealize.SL.Sem
open Cert.GnnSpec Cert.GnnBridge Cert.KernelIdeal.GnnK

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.GnnRun.run (F := Ideal) m ρ)

theorem preserves : Cert.preserves_Kernel_KernelIdeal := trivial

theorem shared (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    rowK m ρ c = rowT (m ((c.tc : Thread Cert.KernelIdeal.nD Cert.KernelIdeal.τ).loc Cert.KernelIdeal.main_arg1)) ∧ colK m ρ c = colT (m ((c.tc : Thread Cert.KernelIdeal.nD Cert.KernelIdeal.τ).loc Cert.KernelIdeal.main_arg1))
      ∧ degK m ρ c = degT (m ((c.tc : Thread Cert.KernelIdeal.nD Cert.KernelIdeal.τ).loc Cert.KernelIdeal.main_arg1)) ∧ normK m ρ c = normT (m ((c.tc : Thread Cert.KernelIdeal.nD Cert.KernelIdeal.τ).loc Cert.KernelIdeal.main_arg1)) := by
  have er : rowK m ρ c = rowT (m ((c.tc : Thread Cert.KernelIdeal.nD Cert.KernelIdeal.τ).loc Cert.KernelIdeal.main_arg1)) := kh_row m ρ c
  have ec : colK m ρ c = colT (m ((c.tc : Thread Cert.KernelIdeal.nD Cert.KernelIdeal.τ).loc Cert.KernelIdeal.main_arg1)) := kh_col m ρ c
  have ed : degK m ρ c = degT (m ((c.tc : Thread Cert.KernelIdeal.nD Cert.KernelIdeal.τ).loc Cert.KernelIdeal.main_arg1)) := by rw [kh_deg m ρ c, er]; rfl
  have en : normK m ρ c = normT (m ((c.tc : Thread Cert.KernelIdeal.nD Cert.KernelIdeal.τ).loc Cert.KernelIdeal.main_arg1)) := by rw [kh_normdef m ρ c, ed, er, ec]; rfl
  exact ⟨er, ec, ed, en⟩

/-- Both programs end with the same network of the same arguments, so their results agree entry by entry. -/
theorem algebraic : Cert.algebraic_KernelIdeal_ReferenceIdeal := by
  intro m ρ m' ρ' hpre hagree
  refine ⟨fun c => netS (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2))
      (degT (m ((c.tc : Thread Cert.KernelIdeal.nD Cert.KernelIdeal.τ).loc Cert.KernelIdeal.main_arg1))) (normT (m ((c.tc : Thread Cert.KernelIdeal.nD Cert.KernelIdeal.τ).loc Cert.KernelIdeal.main_arg1))) (kGath (rowT (m ((c.tc : Thread Cert.KernelIdeal.nD Cert.KernelIdeal.τ).loc Cert.KernelIdeal.main_arg1)))) (kScat (colT (m ((c.tc : Thread Cert.KernelIdeal.nD Cert.KernelIdeal.τ).loc Cert.KernelIdeal.main_arg1)))) (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.GnnRun.run_result (F := Ideal) m ρ)
    obtain ⟨er, ec, ed, en⟩ := shared m ρ c
    rw [knet m ρ c (fun e => by rw [er]; exact pre_row m hpre c e) (fun i => pre_var m hpre c i), er, ec, ed, en]
  · refine (θ_run Cert.ReferenceIdeal.defs _ _).mono (fun r h c => ⟨(h c).1.trans ?_, (h c).2⟩)
      (Cert.ReferenceIdeal.GnnRun.run (F := Ideal) m' ρ')
    obtain ⟨h0, h1, h2, h3, h4, h5, h6, h7, h8, h9⟩ := hagree c
    rw [Cert.ReferenceIdeal.GnnR.ref_net, h0, h1, h2, h3, h4, h5, h6, h7, h8, h9]
    rw [show Cert.ReferenceIdeal.GnnR.degR (m ((c.tc : Thread Cert.KernelIdeal.nD Cert.KernelIdeal.τ).loc Cert.KernelIdeal.main_arg1)) = degT (m ((c.tc : Thread Cert.KernelIdeal.nD Cert.KernelIdeal.τ).loc Cert.KernelIdeal.main_arg1)) from deg_eq _,
      show Cert.ReferenceIdeal.GnnR.normR (m ((c.tc : Thread Cert.KernelIdeal.nD Cert.KernelIdeal.τ).loc Cert.KernelIdeal.main_arg1)) = normT (m ((c.tc : Thread Cert.KernelIdeal.nD Cert.KernelIdeal.τ).loc Cert.KernelIdeal.main_arg1)) from norm_eq _,
      show Cert.ReferenceIdeal.GnnR.gathR (m ((c.tc : Thread Cert.KernelIdeal.nD Cert.KernelIdeal.τ).loc Cert.KernelIdeal.main_arg1)) = kGath (rowT (m ((c.tc : Thread Cert.KernelIdeal.nD Cert.KernelIdeal.τ).loc Cert.KernelIdeal.main_arg1))) from funext fun hl => gath_eq _ hl,
      show Cert.ReferenceIdeal.GnnR.scatR (m ((c.tc : Thread Cert.KernelIdeal.nD Cert.KernelIdeal.τ).loc Cert.KernelIdeal.main_arg1)) = kScat (colT (m ((c.tc : Thread Cert.KernelIdeal.nD Cert.KernelIdeal.τ).loc Cert.KernelIdeal.main_arg1))) from funext fun u => scat_eq _ u]

end Cert.Proof.GnnClaims

end
-- ==== Proof.lean ====
import proofs.«408040_j36369783063008_1_alg».proof.Proof.Final

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  GnnClaims.frame_k, GnnClaims.frame_ki, GnnClaims.frame_ri, GnnClaims.preserves, GnnClaims.algebraic⟩

end Cert.Proof

end
